-- ==== Defs.lean ====
def Pre_Kernel [hPre_finite_inputs_Kernel : Cert.Pre_finite_inputs_Kernel.Facts] (m : (ℓ : Loc Cert.Kernel.nD Cert.Kernel.τ Cert.Kernel.sig) → Buf (Elt Bits) ℓ) : Prop :=
  ∀ c : Dev Cert.Kernel.nD,
    (Cert.Pre_finite_inputs_Kernel.fn (F := Bits) (m ((c.tc : Thread Cert.Kernel.nD Cert.Kernel.τ).loc Cert.Kernel.main_arg0))) = (fun _ => 1#1)

def Pre_KernelIdeal [hPre_finite_inputs_Kernel : Cert.Pre_finite_inputs_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs_Kernel.fn (F := Ideal) (m ((c.tc : Thread Cert.KernelIdeal.nD Cert.KernelIdeal.τ).loc Cert.KernelIdeal.main_arg0))) = (fun _ => 1#1)

def Pre_ReferenceIdeal [hPre_finite_inputs_ReferenceIdeal : Cert.Pre_finite_inputs_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs_ReferenceIdeal.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs_Kernel : Cert.Pre_finite_inputs_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs_ReferenceIdeal : Cert.Pre_finite_inputs_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![32768, 1024]⟩ ⟨2, ![65536, 1024]⟩ (Layout.meshBlock [2, 2, 4] ![[1], []] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_arg0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_arg0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs_Kernel : Cert.Pre_finite_inputs_Kernel.Facts) (hPre_finite_inputs_ReferenceIdeal : Cert.Pre_finite_inputs_ReferenceIdeal.Facts),
    frame_Kernel (hKernel := hKernel) (hPre_finite_inputs_Kernel := hPre_finite_inputs_Kernel)
    ∧ frame_KernelIdeal (hKernelIdeal := hKernelIdeal) (hPre_finite_inputs_Kernel := hPre_finite_inputs_Kernel)
    ∧ frame_ReferenceIdeal (hReferenceIdeal := hReferenceIdeal) (hPre_finite_inputs_ReferenceIdeal := hPre_finite_inputs_ReferenceIdeal)
    ∧ preserves_Kernel_KernelIdeal
    ∧ algebraic_KernelIdeal_ReferenceIdeal (hKernelIdeal := hKernelIdeal) (hReferenceIdeal := hReferenceIdeal) (hPre_finite_inputs_Kernel := hPre_finite_inputs_Kernel)
-- ==== Pre_finite_inputs_Kernel.lean ====
abbrev S32768x1024 : Shape := ⟨2, ![32768, 1024]⟩
abbrev S_ : Shape := ⟨0, ![]⟩

class Facts : Prop where
  bcast_S_S32768x1024 : S_.BroadcastsInDim S32768x1024 (![] : Fin 0 → Fin S32768x1024.rank)
  reducesTo_S32768x1024_S_d0_1 : S32768x1024.ReducesTo [0, 1] S_
  h_S_ : 0 < S_.numel

variable [Facts]

def fn {F : FTy → Type} [FloatOps F] (main_arg0 : FVec F S32768x1024 .f32) : IVec S_ 1 :=
  let main_v0 : FVec F S32768x1024 .f32 := Host.absf main_arg0
  let main_cst : FVec F S_ .f32 := constant S_ .f32 0x7F800000#32
  let main_v1 : FVec F S32768x1024 .f32 := broadcastInDim S32768x1024 ![] bcast_S_S32768x1024 main_cst
  let main_v2 : IVec S32768x1024 1 := cmpf .olt main_v0 main_v1
  let main_c : IVec S_ 1 := constantI S_ 1 1#1
  let main_v3 : IVec S_ 1 := (fun x v => Host.reduce IntOp.andi x v reducesTo_S32768x1024_S_d0_1 h_S_) main_v2 main_c
  main_v3
-- ==== Pre_finite_inputs_ReferenceIdeal.lean ====
abbrev S65536x1024 : Shape := ⟨2, ![65536, 1024]⟩
abbrev S_ : Shape := ⟨0, ![]⟩

class Facts : Prop where
  bcast_S_S65536x1024 : S_.BroadcastsInDim S65536x1024 (![] : Fin 0 → Fin S65536x1024.rank)
  reducesTo_S65536x1024_S_d0_1 : S65536x1024.ReducesTo [0, 1] S_
  h_S_ : 0 < S_.numel

variable [Facts]

def fn {F : FTy → Type} [FloatOps F] (main_arg0 : FVec F S65536x1024 .f32) : IVec S_ 1 :=
  let main_v0 : FVec F S65536x1024 .f32 := Host.absf main_arg0
  let main_cst : FVec F S_ .f32 := constant S_ .f32 0x7F800000#32
  let main_v1 : FVec F S65536x1024 .f32 := broadcastInDim S65536x1024 ![] bcast_S_S65536x1024 main_cst
  let main_v2 : IVec S65536x1024 1 := cmpf .olt main_v0 main_v1
  let main_c : IVec S_ 1 := constantI S_ 1 1#1
  let main_v3 : IVec S_ 1 := (fun x v => Host.reduce IntOp.andi x v reducesTo_S65536x1024_S_d0_1 h_S_) main_v2 main_c
  main_v3
-- ==== Kernel.lean ====
abbrev S32768x1024 : Shape := ⟨2, ![32768, 1024]⟩
abbrev S65536x1024 : Shape := ⟨2, ![65536, 1024]⟩
abbrev S32 : Shape := ⟨1, ![32]⟩
abbrev S2x2048x1024 : Shape := ⟨3, ![2, 2048, 1024]⟩
abbrev S2 : Shape := ⟨1, ![2]⟩
abbrev S_ : Shape := ⟨0, ![]⟩
abbrev S1 : Shape := ⟨1, ![1]⟩
abbrev S512x1024 : Shape := ⟨2, ![512, 1024]⟩
abbrev S1x2048x1024 : Shape := ⟨3, ![1, 2048, 1024]⟩
abbrev S2048x1024 : Shape := ⟨2, ![2048, 1024]⟩

abbrev nBuf : Space → Nat
  | .hbm => 2
  | .vmem => 1
  | .smem => 0
  | _ => 0

abbrev bufTy : (tb : Table) → Fin (tcTables nBuf tb) → BufTy
  | .hbm, ⟨0, _⟩ => ⟨S32768x1024, .f32⟩
  | .hbm, ⟨1, _⟩ => ⟨S65536x1024, .f32⟩
  | .local _ .vmem, ⟨0, _⟩ => ⟨S2x2048x1024, .f32⟩
  | _, _ => ⟨S32768x1024, .f32⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | _ => false

abbrev dmaSemScopedAt (i : Nat) : Bool := match i / 128 with
  | 0 => dmaSemScopedAt0_0 i
  | 1 => dmaSemScopedAt0_1 i
  | _ => false

abbrev bufScoped : (cs : CoreSpace) → Fin (nBuf (.core cs)) → Bool
  | .vmem, ⟨0, _⟩ => true
  | _, _ => false

abbrev semScoped : Fin 2 → Bool
  | ⟨0, _⟩ => false
  | ⟨1, _⟩ => true
  | _ => false

abbrev dmaSemScoped : Fin 132 → Bool
  | ⟨i, _⟩ => dmaSemScopedAt i

abbrev sig : RefSig :=
  (ofTc nBuf bufTy 2 132 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_scratch4 : Ref sig .tc := ⟨.vmem, 0, rfl⟩
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_5 : BitVec 32 := 8#32
  let v12 : BitVec 32 := Scalar.muli v2 c8_i32_5
  let v13 : BitVec 32 := Scalar.addi c0_i32 v12
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_6 : BitVec 32 := 4#32
  let v14 : BitVec 32 := Scalar.muli v9 c4_i32_6
  let v15 : BitVec 32 := Scalar.addi v13 v14
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_7 : BitVec 32 := 1#32
  let v16 : BitVec 32 := Scalar.muli v8 c1_i32_7
  let v17 : BitVec 32 := Scalar.addi v15 v16
  v17.toNat
def k0_dev2 (d0 : Dev nD) : Nat :=
  let c0_i32_10 : BitVec 32 := 0#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v10 : BitVec 32 := Scalar.subi c1_i32_3 v2
  let c8_i32_9 : BitVec 32 := 8#32
  let v18 : BitVec 32 := Scalar.muli v10 c8_i32_9
  let v19 : BitVec 32 := Scalar.addi c0_i32_10 v18
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_11 : BitVec 32 := 4#32
  let v20 : BitVec 32 := Scalar.muli v5 c4_i32_11
  let v21 : BitVec 32 := Scalar.addi v19 v20
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_12 : BitVec 32 := 1#32
  let v22 : BitVec 32 := Scalar.muli v8 c1_i32_12
  let v23 : BitVec 32 := Scalar.addi v21 v22
  v23.toNat
def k0_off1 (d0 : Dev nD) (c0_i32_16 : BitVec 32) : Fin 2 → Nat :=
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c32768_i32 : BitVec 32 := 32768#32
  let v24 : BitVec 32 := Scalar.muli v5 c32768_i32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c16384_i32 : BitVec 32 := 16384#32
  let v27 : BitVec 32 := Scalar.muli v2 c16384_i32
  let v28 : BitVec 32 := Scalar.addi v27 c0_i32_16
  let v29 : BitVec 32 := Scalar.addi v24 v28
  let c0_i32_23 : BitVec 32 := 0#32
  ![v29.toNat, 0]
def k0_off2 (d0 : Dev nD) (c0_i32_16 : BitVec 32) : Fin 2 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c16384_i32 : BitVec 32 := 16384#32
  let v27 : BitVec 32 := Scalar.muli v2 c16384_i32
  let v28 : BitVec 32 := Scalar.addi v27 c0_i32_16
  let c0_i32_24 : BitVec 32 := 0#32
  ![v28.toNat, 0]
def k0_dev3 (d0 : Dev nD) : Nat :=
  let c0_i32_20 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_19 : BitVec 32 := 8#32
  let v30 : BitVec 32 := Scalar.muli v2 c8_i32_19
  let v31 : BitVec 32 := Scalar.addi c0_i32_20 v30
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_21 : BitVec 32 := 4#32
  let v32 : BitVec 32 := Scalar.muli v9 c4_i32_21
  let v33 : BitVec 32 := Scalar.addi v31 v32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_22 : BitVec 32 := 1#32
  let v34 : BitVec 32 := Scalar.muli v8 c1_i32_22
  let v35 : BitVec 32 := Scalar.addi v33 v34
  v35.toNat
def k0_dev4 (d0 : Dev nD) : Nat :=
  let c0_i32_28 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_27 : BitVec 32 := 8#32
  let v44 : BitVec 32 := Scalar.muli v2 c8_i32_27
  let v45 : BitVec 32 := Scalar.addi c0_i32_28 v44
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_29 : BitVec 32 := 4#32
  let v46 : BitVec 32 := Scalar.muli v9 c4_i32_29
  let v47 : BitVec 32 := Scalar.addi v45 v46
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_30 : BitVec 32 := 1#32
  let v48 : BitVec 32 := Scalar.muli v8 c1_i32_30
  let v49 : BitVec 32 := Scalar.addi v47 v48
  v49.toNat
def k0_dev5 (d0 : Dev nD) : Nat :=
  let c0_i32_36 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_35 : BitVec 32 := 8#32
  let v58 : BitVec 32 := Scalar.muli v2 c8_i32_35
  let v59 : BitVec 32 := Scalar.addi c0_i32_36 v58
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_37 : BitVec 32 := 4#32
  let v60 : BitVec 32 := Scalar.muli v9 c4_i32_37
  let v61 : BitVec 32 := Scalar.addi v59 v60
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_38 : BitVec 32 := 1#32
  let v62 : BitVec 32 := Scalar.muli v8 c1_i32_38
  let v63 : BitVec 32 := Scalar.addi v61 v62
  v63.toNat
def k0_dev6 (d0 : Dev nD) : Nat :=
  let c0_i32_43 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_42 : BitVec 32 := 8#32
  let v72 : BitVec 32 := Scalar.muli v2 c8_i32_42
  let v73 : BitVec 32 := Scalar.addi c0_i32_43 v72
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_44 : BitVec 32 := 4#32
  let v74 : BitVec 32 := Scalar.muli v9 c4_i32_44
  let v75 : BitVec 32 := Scalar.addi v73 v74
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_45 : BitVec 32 := 1#32
  let v76 : BitVec 32 := Scalar.muli v8 c1_i32_45
  let v77 : BitVec 32 := Scalar.addi v75 v76
  v77.toNat
def k0_dev7 (d0 : Dev nD) : Nat :=
  let c0_i32_51 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_50 : BitVec 32 := 8#32
  let v86 : BitVec 32 := Scalar.muli v2 c8_i32_50
  let v87 : BitVec 32 := Scalar.addi c0_i32_51 v86
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_52 : BitVec 32 := 4#32
  let v88 : BitVec 32 := Scalar.muli v9 c4_i32_52
  let v89 : BitVec 32 := Scalar.addi v87 v88
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_53 : BitVec 32 := 1#32
  let v90 : BitVec 32 := Scalar.muli v8 c1_i32_53
  let v91 : BitVec 32 := Scalar.addi v89 v90
  v91.toNat
def k0_dev8 (d0 : Dev nD) : Nat :=
  let c0_i32_58 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_57 : BitVec 32 := 8#32
  let v100 : BitVec 32 := Scalar.muli v2 c8_i32_57
  let v101 : BitVec 32 := Scalar.addi c0_i32_58 v100
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_59 : BitVec 32 := 4#32
  let v102 : BitVec 32 := Scalar.muli v9 c4_i32_59
  let v103 : BitVec 32 := Scalar.addi v101 v102
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_60 : BitVec 32 := 1#32
  let v104 : BitVec 32 := Scalar.muli v8 c1_i32_60
  let v105 : BitVec 32 := Scalar.addi v103 v104
  v105.toNat
def k0_dev9 (d0 : Dev nD) : Nat :=
  let c0_i32_65 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_64 : BitVec 32 := 8#32
  let v114 : BitVec 32 := Scalar.muli v2 c8_i32_64
  let v115 : BitVec 32 := Scalar.addi c0_i32_65 v114
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_66 : BitVec 32 := 4#32
  let v116 : BitVec 32 := Scalar.muli v9 c4_i32_66
  let v117 : BitVec 32 := Scalar.addi v115 v116
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_67 : BitVec 32 := 1#32
  let v118 : BitVec 32 := Scalar.muli v8 c1_i32_67
  let v119 : BitVec 32 := Scalar.addi v117 v118
  v119.toNat
def k0_dev10 (d0 : Dev nD) : Nat :=
  let c0_i32_72 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_71 : BitVec 32 := 8#32
  let v128 : BitVec 32 := Scalar.muli v2 c8_i32_71
  let v129 : BitVec 32 := Scalar.addi c0_i32_72 v128
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_73 : BitVec 32 := 4#32
  let v130 : BitVec 32 := Scalar.muli v9 c4_i32_73
  let v131 : BitVec 32 := Scalar.addi v129 v130
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_74 : BitVec 32 := 1#32
  let v132 : BitVec 32 := Scalar.muli v8 c1_i32_74
  let v133 : BitVec 32 := Scalar.addi v131 v132
  v133.toNat
def k0_dev11 (d0 : Dev nD) : Nat :=
  let c0_i32_80 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_79 : BitVec 32 := 8#32
  let v142 : BitVec 32 := Scalar.muli v2 c8_i32_79
  let v143 : BitVec 32 := Scalar.addi c0_i32_80 v142
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_81 : BitVec 32 := 4#32
  let v144 : BitVec 32 := Scalar.muli v9 c4_i32_81
  let v145 : BitVec 32 := Scalar.addi v143 v144
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_82 : BitVec 32 := 1#32
  let v146 : BitVec 32 := Scalar.muli v8 c1_i32_82
  let v147 : BitVec 32 := Scalar.addi v145 v146
  v147.toNat
def k0_dev12 (d0 : Dev nD) : Nat :=
  let c0_i32_87 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_86 : BitVec 32 := 8#32
  let v156 : BitVec 32 := Scalar.muli v2 c8_i32_86
  let v157 : BitVec 32 := Scalar.addi c0_i32_87 v156
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_88 : BitVec 32 := 4#32
  let v158 : BitVec 32 := Scalar.muli v9 c4_i32_88
  let v159 : BitVec 32 := Scalar.addi v157 v158
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_89 : BitVec 32 := 1#32
  let v160 : BitVec 32 := Scalar.muli v8 c1_i32_89
  let v161 : BitVec 32 := Scalar.addi v159 v160
  v161.toNat
def k0_dev13 (d0 : Dev nD) : Nat :=
  let c0_i32_94 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_93 : BitVec 32 := 8#32
  let v170 : BitVec 32 := Scalar.muli v2 c8_i32_93
  let v171 : BitVec 32 := Scalar.addi c0_i32_94 v170
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_95 : BitVec 32 := 4#32
  let v172 : BitVec 32 := Scalar.muli v9 c4_i32_95
  let v173 : BitVec 32 := Scalar.addi v171 v172
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_96 : BitVec 32 := 1#32
  let v174 : BitVec 32 := Scalar.muli v8 c1_i32_96
  let v175 : BitVec 32 := Scalar.addi v173 v174
  v175.toNat
def k0_dev14 (d0 : Dev nD) : Nat :=
  let c0_i32_101 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_100 : BitVec 32 := 8#32
  let v184 : BitVec 32 := Scalar.muli v2 c8_i32_100
  let v185 : BitVec 32 := Scalar.addi c0_i32_101 v184
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_102 : BitVec 32 := 4#32
  let v186 : BitVec 32 := Scalar.muli v9 c4_i32_102
  let v187 : BitVec 32 := Scalar.addi v185 v186
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_103 : BitVec 32 := 1#32
  let v188 : BitVec 32 := Scalar.muli v8 c1_i32_103
  let v189 : BitVec 32 := Scalar.addi v187 v188
  v189.toNat
def k0_dev15 (d0 : Dev nD) : Nat :=
  let c0_i32_108 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_107 : BitVec 32 := 8#32
  let v198 : BitVec 32 := Scalar.muli v2 c8_i32_107
  let v199 : BitVec 32 := Scalar.addi c0_i32_108 v198
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_109 : BitVec 32 := 4#32
  let v200 : BitVec 32 := Scalar.muli v9 c4_i32_109
  let v201 : BitVec 32 := Scalar.addi v199 v200
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_110 : BitVec 32 := 1#32
  let v202 : BitVec 32 := Scalar.muli v8 c1_i32_110
  let v203 : BitVec 32 := Scalar.addi v201 v202
  v203.toNat
def k0_dev16 (d0 : Dev nD) : Nat :=
  let c0_i32_115 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_114 : BitVec 32 := 8#32
  let v212 : BitVec 32 := Scalar.muli v2 c8_i32_114
  let v213 : BitVec 32 := Scalar.addi c0_i32_115 v212
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_116 : BitVec 32 := 4#32
  let v214 : BitVec 32 := Scalar.muli v9 c4_i32_116
  let v215 : BitVec 32 := Scalar.addi v213 v214
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_117 : BitVec 32 := 1#32
  let v216 : BitVec 32 := Scalar.muli v8 c1_i32_117
  let v217 : BitVec 32 := Scalar.addi v215 v216
  v217.toNat
def k0_dev17 (d0 : Dev nD) : Nat :=
  let c0_i32_122 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_121 : BitVec 32 := 8#32
  let v226 : BitVec 32 := Scalar.muli v2 c8_i32_121
  let v227 : BitVec 32 := Scalar.addi c0_i32_122 v226
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_123 : BitVec 32 := 4#32
  let v228 : BitVec 32 := Scalar.muli v9 c4_i32_123
  let v229 : BitVec 32 := Scalar.addi v227 v228
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_124 : BitVec 32 := 1#32
  let v230 : BitVec 32 := Scalar.muli v8 c1_i32_124
  let v231 : BitVec 32 := Scalar.addi v229 v230
  v231.toNat
def k0_dev18 (d0 : Dev nD) : Nat :=
  let c0_i32_129 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_128 : BitVec 32 := 8#32
  let v240 : BitVec 32 := Scalar.muli v2 c8_i32_128
  let v241 : BitVec 32 := Scalar.addi c0_i32_129 v240
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_130 : BitVec 32 := 4#32
  let v242 : BitVec 32 := Scalar.muli v9 c4_i32_130
  let v243 : BitVec 32 := Scalar.addi v241 v242
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_131 : BitVec 32 := 1#32
  let v244 : BitVec 32 := Scalar.muli v8 c1_i32_131
  let v245 : BitVec 32 := Scalar.addi v243 v244
  v245.toNat
def k0_dev19 (d0 : Dev nD) : Nat :=
  let c0_i32_136 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_135 : BitVec 32 := 8#32
  let v254 : BitVec 32 := Scalar.muli v2 c8_i32_135
  let v255 : BitVec 32 := Scalar.addi c0_i32_136 v254
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_137 : BitVec 32 := 4#32
  let v256 : BitVec 32 := Scalar.muli v9 c4_i32_137
  let v257 : BitVec 32 := Scalar.addi v255 v256
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_138 : BitVec 32 := 1#32
  let v258 : BitVec 32 := Scalar.muli v8 c1_i32_138
  let v259 : BitVec 32 := Scalar.addi v257 v258
  v259.toNat
def k0_dev20 (d0 : Dev nD) : Nat :=
  let c0_i32_143 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_142 : BitVec 32 := 8#32
  let v268 : BitVec 32 := Scalar.muli v2 c8_i32_142
  let v269 : BitVec 32 := Scalar.addi c0_i32_143 v268
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_144 : BitVec 32 := 4#32
  let v270 : BitVec 32 := Scalar.muli v9 c4_i32_144
  let v271 : BitVec 32 := Scalar.addi v269 v270
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_145 : BitVec 32 := 1#32
  let v272 : BitVec 32 := Scalar.muli v8 c1_i32_145
  let v273 : BitVec 32 := Scalar.addi v271 v272
  v273.toNat
def k0_dev21 (d0 : Dev nD) : Nat :=
  let c0_i32_150 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_149 : BitVec 32 := 8#32
  let v282 : BitVec 32 := Scalar.muli v2 c8_i32_149
  let v283 : BitVec 32 := Scalar.addi c0_i32_150 v282
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_151 : BitVec 32 := 4#32
  let v284 : BitVec 32 := Scalar.muli v9 c4_i32_151
  let v285 : BitVec 32 := Scalar.addi v283 v284
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_152 : BitVec 32 := 1#32
  let v286 : BitVec 32 := Scalar.muli v8 c1_i32_152
  let v287 : BitVec 32 := Scalar.addi v285 v286
  v287.toNat
def k0_dev22 (d0 : Dev nD) : Nat :=
  let c0_i32_157 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_156 : BitVec 32 := 8#32
  let v296 : BitVec 32 := Scalar.muli v2 c8_i32_156
  let v297 : BitVec 32 := Scalar.addi c0_i32_157 v296
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_158 : BitVec 32 := 4#32
  let v298 : BitVec 32 := Scalar.muli v9 c4_i32_158
  let v299 : BitVec 32 := Scalar.addi v297 v298
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_159 : BitVec 32 := 1#32
  let v300 : BitVec 32 := Scalar.muli v8 c1_i32_159
  let v301 : BitVec 32 := Scalar.addi v299 v300
  v301.toNat
def k0_dev23 (d0 : Dev nD) : Nat :=
  let c0_i32_164 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_163 : BitVec 32 := 8#32
  let v310 : BitVec 32 := Scalar.muli v2 c8_i32_163
  let v311 : BitVec 32 := Scalar.addi c0_i32_164 v310
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_165 : BitVec 32 := 4#32
  let v312 : BitVec 32 := Scalar.muli v9 c4_i32_165
  let v313 : BitVec 32 := Scalar.addi v311 v312
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_166 : BitVec 32 := 1#32
  let v314 : BitVec 32 := Scalar.muli v8 c1_i32_166
  let v315 : BitVec 32 := Scalar.addi v313 v314
  v315.toNat
def k0_dev24 (d0 : Dev nD) : Nat :=
  let c0_i32_171 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_170 : BitVec 32 := 8#32
  let v324 : BitVec 32 := Scalar.muli v2 c8_i32_170
  let v325 : BitVec 32 := Scalar.addi c0_i32_171 v324
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_172 : BitVec 32 := 4#32
  let v326 : BitVec 32 := Scalar.muli v9 c4_i32_172
  let v327 : BitVec 32 := Scalar.addi v325 v326
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_173 : BitVec 32 := 1#32
  let v328 : BitVec 32 := Scalar.muli v8 c1_i32_173
  let v329 : BitVec 32 := Scalar.addi v327 v328
  v329.toNat
def k0_dev25 (d0 : Dev nD) : Nat :=
  let c0_i32_178 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_177 : BitVec 32 := 8#32
  let v338 : BitVec 32 := Scalar.muli v2 c8_i32_177
  let v339 : BitVec 32 := Scalar.addi c0_i32_178 v338
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_179 : BitVec 32 := 4#32
  let v340 : BitVec 32 := Scalar.muli v9 c4_i32_179
  let v341 : BitVec 32 := Scalar.addi v339 v340
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_180 : BitVec 32 := 1#32
  let v342 : BitVec 32 := Scalar.muli v8 c1_i32_180
  let v343 : BitVec 32 := Scalar.addi v341 v342
  v343.toNat
def k0_dev26 (d0 : Dev nD) : Nat :=
  let c0_i32_185 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_184 : BitVec 32 := 8#32
  let v352 : BitVec 32 := Scalar.muli v2 c8_i32_184
  let v353 : BitVec 32 := Scalar.addi c0_i32_185 v352
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_186 : BitVec 32 := 4#32
  let v354 : BitVec 32 := Scalar.muli v9 c4_i32_186
  let v355 : BitVec 32 := Scalar.addi v353 v354
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_187 : BitVec 32 := 1#32
  let v356 : BitVec 32 := Scalar.muli v8 c1_i32_187
  let v357 : BitVec 32 := Scalar.addi v355 v356
  v357.toNat
def k0_dev27 (d0 : Dev nD) : Nat :=
  let c0_i32_192 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_191 : BitVec 32 := 8#32
  let v366 : BitVec 32 := Scalar.muli v2 c8_i32_191
  let v367 : BitVec 32 := Scalar.addi c0_i32_192 v366
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_193 : BitVec 32 := 4#32
  let v368 : BitVec 32 := Scalar.muli v9 c4_i32_193
  let v369 : BitVec 32 := Scalar.addi v367 v368
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_194 : BitVec 32 := 1#32
  let v370 : BitVec 32 := Scalar.muli v8 c1_i32_194
  let v371 : BitVec 32 := Scalar.addi v369 v370
  v371.toNat
def k0_dev28 (d0 : Dev nD) : Nat :=
  let c0_i32_199 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_198 : BitVec 32 := 8#32
  let v380 : BitVec 32 := Scalar.muli v2 c8_i32_198
  let v381 : BitVec 32 := Scalar.addi c0_i32_199 v380
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_200 : BitVec 32 := 4#32
  let v382 : BitVec 32 := Scalar.muli v9 c4_i32_200
  let v383 : BitVec 32 := Scalar.addi v381 v382
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_201 : BitVec 32 := 1#32
  let v384 : BitVec 32 := Scalar.muli v8 c1_i32_201
  let v385 : BitVec 32 := Scalar.addi v383 v384
  v385.toNat
def k0_dev29 (d0 : Dev nD) : Nat :=
  let c0_i32_206 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_205 : BitVec 32 := 8#32
  let v394 : BitVec 32 := Scalar.muli v2 c8_i32_205
  let v395 : BitVec 32 := Scalar.addi c0_i32_206 v394
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_207 : BitVec 32 := 4#32
  let v396 : BitVec 32 := Scalar.muli v9 c4_i32_207
  let v397 : BitVec 32 := Scalar.addi v395 v396
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_208 : BitVec 32 := 1#32
  let v398 : BitVec 32 := Scalar.muli v8 c1_i32_208
  let v399 : BitVec 32 := Scalar.addi v397 v398
  v399.toNat
def k0_dev30 (d0 : Dev nD) : Nat :=
  let c0_i32_213 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_212 : BitVec 32 := 8#32
  let v408 : BitVec 32 := Scalar.muli v2 c8_i32_212
  let v409 : BitVec 32 := Scalar.addi c0_i32_213 v408
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_214 : BitVec 32 := 4#32
  let v410 : BitVec 32 := Scalar.muli v9 c4_i32_214
  let v411 : BitVec 32 := Scalar.addi v409 v410
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_215 : BitVec 32 := 1#32
  let v412 : BitVec 32 := Scalar.muli v8 c1_i32_215
  let v413 : BitVec 32 := Scalar.addi v411 v412
  v413.toNat
def k0_dev31 (d0 : Dev nD) : Nat :=
  let c0_i32_220 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_219 : BitVec 32 := 8#32
  let v422 : BitVec 32 := Scalar.muli v2 c8_i32_219
  let v423 : BitVec 32 := Scalar.addi c0_i32_220 v422
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_221 : BitVec 32 := 4#32
  let v424 : BitVec 32 := Scalar.muli v9 c4_i32_221
  let v425 : BitVec 32 := Scalar.addi v423 v424
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_222 : BitVec 32 := 1#32
  let v426 : BitVec 32 := Scalar.muli v8 c1_i32_222
  let v427 : BitVec 32 := Scalar.addi v425 v426
  v427.toNat
def k0_dev32 (d0 : Dev nD) : Nat :=
  let c0_i32_227 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_226 : BitVec 32 := 8#32
  let v436 : BitVec 32 := Scalar.muli v2 c8_i32_226
  let v437 : BitVec 32 := Scalar.addi c0_i32_227 v436
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_228 : BitVec 32 := 4#32
  let v438 : BitVec 32 := Scalar.muli v9 c4_i32_228
  let v439 : BitVec 32 := Scalar.addi v437 v438
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_229 : BitVec 32 := 1#32
  let v440 : BitVec 32 := Scalar.muli v8 c1_i32_229
  let v441 : BitVec 32 := Scalar.addi v439 v440
  v441.toNat
def k0_dev33 (d0 : Dev nD) : Nat :=
  let c0_i32_234 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_233 : BitVec 32 := 8#32
  let v450 : BitVec 32 := Scalar.muli v2 c8_i32_233
  let v451 : BitVec 32 := Scalar.addi c0_i32_234 v450
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_235 : BitVec 32 := 4#32
  let v452 : BitVec 32 := Scalar.muli v9 c4_i32_235
  let v453 : BitVec 32 := Scalar.addi v451 v452
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_236 : BitVec 32 := 1#32
  let v454 : BitVec 32 := Scalar.muli v8 c1_i32_236
  let v455 : BitVec 32 := Scalar.addi v453 v454
  v455.toNat
def k0_dev34 (d0 : Dev nD) : Nat :=
  let c0_i32_241 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_240 : BitVec 32 := 8#32
  let v464 : BitVec 32 := Scalar.muli v2 c8_i32_240
  let v465 : BitVec 32 := Scalar.addi c0_i32_241 v464
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_242 : BitVec 32 := 4#32
  let v466 : BitVec 32 := Scalar.muli v9 c4_i32_242
  let v467 : BitVec 32 := Scalar.addi v465 v466
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_243 : BitVec 32 := 1#32
  let v468 : BitVec 32 := Scalar.muli v8 c1_i32_243
  let v469 : BitVec 32 := Scalar.addi v467 v468
  v469.toNat
def k0_off3 (d0 : Dev nD) (c0_i32_263 : BitVec 32) : Fin 2 → Nat :=
  let c1_i32_14 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v25 : BitVec 32 := Scalar.subi c1_i32_14 v5
  let c32768_i32_15 : BitVec 32 := 32768#32
  let v26 : BitVec 32 := Scalar.muli v25 c32768_i32_15
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c16384_i32 : BitVec 32 := 16384#32
  let v27 : BitVec 32 := Scalar.muli v2 c16384_i32
  let v502 : BitVec 32 := Scalar.addi v26 v27
  let v503 : BitVec 32 := Scalar.addi v502 c0_i32_263
  let c0_i32_270 : BitVec 32 := 0#32
  ![v503.toNat, 0]
def k0_dev35 (d0 : Dev nD) : Nat :=
  let c0_i32_267 : BitVec 32 := 0#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v10 : BitVec 32 := Scalar.subi c1_i32_3 v2
  let c8_i32_266 : BitVec 32 := 8#32
  let v504 : BitVec 32 := Scalar.muli v10 c8_i32_266
  let v505 : BitVec 32 := Scalar.addi c0_i32_267 v504
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_268 : BitVec 32 := 4#32
  let v506 : BitVec 32 := Scalar.muli v5 c4_i32_268
  let v507 : BitVec 32 := Scalar.addi v505 v506
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_269 : BitVec 32 := 1#32
  let v508 : BitVec 32 := Scalar.muli v8 c1_i32_269
  let v509 : BitVec 32 := Scalar.addi v507 v508
  v509.toNat
def k0_off4 (d0 : Dev nD) (c0_i32_246 : BitVec 32) : Fin 2 → Nat :=
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c32768_i32 : BitVec 32 := 32768#32
  let v24 : BitVec 32 := Scalar.muli v5 c32768_i32
  let v476 : BitVec 32 := Scalar.addi v24 c0_i32_246
  let c0_i32_286 : BitVec 32 := 0#32
  ![v476.toNat, 0]
def k0_dev36 (d0 : Dev nD) : Nat :=
  let c0_i32_307 : BitVec 32 := 0#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v10 : BitVec 32 := Scalar.subi c1_i32_3 v2
  let c8_i32_306 : BitVec 32 := 8#32
  let v548 : BitVec 32 := Scalar.muli v10 c8_i32_306
  let v549 : BitVec 32 := Scalar.addi c0_i32_307 v548
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_308 : BitVec 32 := 4#32
  let v550 : BitVec 32 := Scalar.muli v5 c4_i32_308
  let v551 : BitVec 32 := Scalar.addi v549 v550
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_309 : BitVec 32 := 1#32
  let v552 : BitVec 32 := Scalar.muli v8 c1_i32_309
  let v553 : BitVec 32 := Scalar.addi v551 v552
  v553.toNat
def k0_dev37 (d0 : Dev nD) : Nat :=
  let c0_i32_346 : BitVec 32 := 0#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v10 : BitVec 32 := Scalar.subi c1_i32_3 v2
  let c8_i32_345 : BitVec 32 := 8#32
  let v592 : BitVec 32 := Scalar.muli v10 c8_i32_345
  let v593 : BitVec 32 := Scalar.addi c0_i32_346 v592
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_347 : BitVec 32 := 4#32
  let v594 : BitVec 32 := Scalar.muli v5 c4_i32_347
  let v595 : BitVec 32 := Scalar.addi v593 v594
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_348 : BitVec 32 := 1#32
  let v596 : BitVec 32 := Scalar.muli v8 c1_i32_348
  let v597 : BitVec 32 := Scalar.addi v595 v596
  v597.toNat
def k0_dev38 (d0 : Dev nD) : Nat :=
  let c0_i32_385 : BitVec 32 := 0#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v10 : BitVec 32 := Scalar.subi c1_i32_3 v2
  let c8_i32_384 : BitVec 32 := 8#32
  let v636 : BitVec 32 := Scalar.muli v10 c8_i32_384
  let v637 : BitVec 32 := Scalar.addi c0_i32_385 v636
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_386 : BitVec 32 := 4#32
  let v638 : BitVec 32 := Scalar.muli v5 c4_i32_386
  let v639 : BitVec 32 := Scalar.addi v637 v638
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_387 : BitVec 32 := 1#32
  let v640 : BitVec 32 := Scalar.muli v8 c1_i32_387
  let v641 : BitVec 32 := Scalar.addi v639 v640
  v641.toNat
def k0_dev39 (d0 : Dev nD) : Nat :=
  let c0_i32_424 : BitVec 32 := 0#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v10 : BitVec 32 := Scalar.subi c1_i32_3 v2
  let c8_i32_423 : BitVec 32 := 8#32
  let v680 : BitVec 32 := Scalar.muli v10 c8_i32_423
  let v681 : BitVec 32 := Scalar.addi c0_i32_424 v680
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_425 : BitVec 32 := 4#32
  let v682 : BitVec 32 := Scalar.muli v5 c4_i32_425
  let v683 : BitVec 32 := Scalar.addi v681 v682
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_426 : BitVec 32 := 1#32
  let v684 : BitVec 32 := Scalar.muli v8 c1_i32_426
  let v685 : BitVec 32 := Scalar.addi v683 v684
  v685.toNat
def k0_dev40 (d0 : Dev nD) : Nat :=
  let c0_i32_463 : BitVec 32 := 0#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v10 : BitVec 32 := Scalar.subi c1_i32_3 v2
  let c8_i32_462 : BitVec 32 := 8#32
  let v724 : BitVec 32 := Scalar.muli v10 c8_i32_462
  let v725 : BitVec 32 := Scalar.addi c0_i32_463 v724
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_464 : BitVec 32 := 4#32
  let v726 : BitVec 32 := Scalar.muli v5 c4_i32_464
  let v727 : BitVec 32 := Scalar.addi v725 v726
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_465 : BitVec 32 := 1#32
  let v728 : BitVec 32 := Scalar.muli v8 c1_i32_465
  let v729 : BitVec 32 := Scalar.addi v727 v728
  v729.toNat
def k0_dev41 (d0 : Dev nD) : Nat :=
  let c0_i32_502 : BitVec 32 := 0#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v10 : BitVec 32 := Scalar.subi c1_i32_3 v2
  let c8_i32_501 : BitVec 32 := 8#32
  let v768 : BitVec 32 := Scalar.muli v10 c8_i32_501
  let v769 : BitVec 32 := Scalar.addi c0_i32_502 v768
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_503 : BitVec 32 := 4#32
  let v770 : BitVec 32 := Scalar.muli v5 c4_i32_503
  let v771 : BitVec 32 := Scalar.addi v769 v770
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_504 : BitVec 32 := 1#32
  let v772 : BitVec 32 := Scalar.muli v8 c1_i32_504
  let v773 : BitVec 32 := Scalar.addi v771 v772
  v773.toNat
def k0_dev42 (d0 : Dev nD) : Nat :=
  let c0_i32_541 : BitVec 32 := 0#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v10 : BitVec 32 := Scalar.subi c1_i32_3 v2
  let c8_i32_540 : BitVec 32 := 8#32
  let v812 : BitVec 32 := Scalar.muli v10 c8_i32_540
  let v813 : BitVec 32 := Scalar.addi c0_i32_541 v812
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_542 : BitVec 32 := 4#32
  let v814 : BitVec 32 := Scalar.muli v5 c4_i32_542
  let v815 : BitVec 32 := Scalar.addi v813 v814
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_543 : BitVec 32 := 1#32
  let v816 : BitVec 32 := Scalar.muli v8 c1_i32_543
  let v817 : BitVec 32 := Scalar.addi v815 v816
  v817.toNat
def k0_dev43 (d0 : Dev nD) : Nat :=
  let c0_i32_580 : BitVec 32 := 0#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v10 : BitVec 32 := Scalar.subi c1_i32_3 v2
  let c8_i32_579 : BitVec 32 := 8#32
  let v856 : BitVec 32 := Scalar.muli v10 c8_i32_579
  let v857 : BitVec 32 := Scalar.addi c0_i32_580 v856
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_581 : BitVec 32 := 4#32
  let v858 : BitVec 32 := Scalar.muli v5 c4_i32_581
  let v859 : BitVec 32 := Scalar.addi v857 v858
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_582 : BitVec 32 := 1#32
  let v860 : BitVec 32 := Scalar.muli v8 c1_i32_582
  let v861 : BitVec 32 := Scalar.addi v859 v860
  v861.toNat
def k0_dev44 (d0 : Dev nD) : Nat :=
  let c0_i32_619 : BitVec 32 := 0#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v10 : BitVec 32 := Scalar.subi c1_i32_3 v2
  let c8_i32_618 : BitVec 32 := 8#32
  let v900 : BitVec 32 := Scalar.muli v10 c8_i32_618
  let v901 : BitVec 32 := Scalar.addi c0_i32_619 v900
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_620 : BitVec 32 := 4#32
  let v902 : BitVec 32 := Scalar.muli v5 c4_i32_620
  let v903 : BitVec 32 := Scalar.addi v901 v902
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_621 : BitVec 32 := 1#32
  let v904 : BitVec 32 := Scalar.muli v8 c1_i32_621
  let v905 : BitVec 32 := Scalar.addi v903 v904
  v905.toNat
def k0_dev45 (d0 : Dev nD) : Nat :=
  let c0_i32_658 : BitVec 32 := 0#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v10 : BitVec 32 := Scalar.subi c1_i32_3 v2
  let c8_i32_657 : BitVec 32 := 8#32
  let v944 : BitVec 32 := Scalar.muli v10 c8_i32_657
  let v945 : BitVec 32 := Scalar.addi c0_i32_658 v944
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_659 : BitVec 32 := 4#32
  let v946 : BitVec 32 := Scalar.muli v5 c4_i32_659
  let v947 : BitVec 32 := Scalar.addi v945 v946
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_660 : BitVec 32 := 1#32
  let v948 : BitVec 32 := Scalar.muli v8 c1_i32_660
  let v949 : BitVec 32 := Scalar.addi v947 v948
  v949.toNat
def k0_dev46 (d0 : Dev nD) : Nat :=
  let c0_i32_697 : BitVec 32 := 0#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v10 : BitVec 32 := Scalar.subi c1_i32_3 v2
  let c8_i32_696 : BitVec 32 := 8#32
  let v988 : BitVec 32 := Scalar.muli v10 c8_i32_696
  let v989 : BitVec 32 := Scalar.addi c0_i32_697 v988
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_698 : BitVec 32 := 4#32
  let v990 : BitVec 32 := Scalar.muli v5 c4_i32_698
  let v991 : BitVec 32 := Scalar.addi v989 v990
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_699 : BitVec 32 := 1#32
  let v992 : BitVec 32 := Scalar.muli v8 c1_i32_699
  let v993 : BitVec 32 := Scalar.addi v991 v992
  v993.toNat
def k0_dev47 (d0 : Dev nD) : Nat :=
  let c0_i32_736 : BitVec 32 := 0#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v10 : BitVec 32 := Scalar.subi c1_i32_3 v2
  let c8_i32_735 : BitVec 32 := 8#32
  let v1032 : BitVec 32 := Scalar.muli v10 c8_i32_735
  let v1033 : BitVec 32 := Scalar.addi c0_i32_736 v1032
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_737 : BitVec 32 := 4#32
  let v1034 : BitVec 32 := Scalar.muli v5 c4_i32_737
  let v1035 : BitVec 32 := Scalar.addi v1033 v1034
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_738 : BitVec 32 := 1#32
  let v1036 : BitVec 32 := Scalar.muli v8 c1_i32_738
  let v1037 : BitVec 32 := Scalar.addi v1035 v1036
  v1037.toNat
def k0_dev48 (d0 : Dev nD) : Nat :=
  let c0_i32_775 : BitVec 32 := 0#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v10 : BitVec 32 := Scalar.subi c1_i32_3 v2
  let c8_i32_774 : BitVec 32 := 8#32
  let v1076 : BitVec 32 := Scalar.muli v10 c8_i32_774
  let v1077 : BitVec 32 := Scalar.addi c0_i32_775 v1076
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_776 : BitVec 32 := 4#32
  let v1078 : BitVec 32 := Scalar.muli v5 c4_i32_776
  let v1079 : BitVec 32 := Scalar.addi v1077 v1078
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_777 : BitVec 32 := 1#32
  let v1080 : BitVec 32 := Scalar.muli v8 c1_i32_777
  let v1081 : BitVec 32 := Scalar.addi v1079 v1080
  v1081.toNat
def k0_dev49 (d0 : Dev nD) : Nat :=
  let c0_i32_814 : BitVec 32 := 0#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v10 : BitVec 32 := Scalar.subi c1_i32_3 v2
  let c8_i32_813 : BitVec 32 := 8#32
  let v1120 : BitVec 32 := Scalar.muli v10 c8_i32_813
  let v1121 : BitVec 32 := Scalar.addi c0_i32_814 v1120
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_815 : BitVec 32 := 4#32
  let v1122 : BitVec 32 := Scalar.muli v5 c4_i32_815
  let v1123 : BitVec 32 := Scalar.addi v1121 v1122
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_816 : BitVec 32 := 1#32
  let v1124 : BitVec 32 := Scalar.muli v8 c1_i32_816
  let v1125 : BitVec 32 := Scalar.addi v1123 v1124
  v1125.toNat
def k0_dev50 (d0 : Dev nD) : Nat :=
  let c0_i32_853 : BitVec 32 := 0#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v10 : BitVec 32 := Scalar.subi c1_i32_3 v2
  let c8_i32_852 : BitVec 32 := 8#32
  let v1164 : BitVec 32 := Scalar.muli v10 c8_i32_852
  let v1165 : BitVec 32 := Scalar.addi c0_i32_853 v1164
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_854 : BitVec 32 := 4#32
  let v1166 : BitVec 32 := Scalar.muli v5 c4_i32_854
  let v1167 : BitVec 32 := Scalar.addi v1165 v1166
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_855 : BitVec 32 := 1#32
  let v1168 : BitVec 32 := Scalar.muli v8 c1_i32_855
  let v1169 : BitVec 32 := Scalar.addi v1167 v1168
  v1169.toNat
def k0_dev51 (d0 : Dev nD) : Nat :=
  let c0_i32_881 : BitVec 32 := 0#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v10 : BitVec 32 := Scalar.subi c1_i32_3 v2
  let c8_i32_880 : BitVec 32 := 8#32
  let v1198 : BitVec 32 := Scalar.muli v10 c8_i32_880
  let v1199 : BitVec 32 := Scalar.addi c0_i32_881 v1198
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_882 : BitVec 32 := 4#32
  let v1200 : BitVec 32 := Scalar.muli v5 c4_i32_882
  let v1201 : BitVec 32 := Scalar.addi v1199 v1200
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_883 : BitVec 32 := 1#32
  let v1202 : BitVec 32 := Scalar.muli v8 c1_i32_883
  let v1203 : BitVec 32 := Scalar.addi v1201 v1202
  v1203.toNat
def k0_dev52 (d0 : Dev nD) : Nat :=
  let c0_i32_898 : BitVec 32 := 0#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v10 : BitVec 32 := Scalar.subi c1_i32_3 v2
  let c8_i32_897 : BitVec 32 := 8#32
  let v1222 : BitVec 32 := Scalar.muli v10 c8_i32_897
  let v1223 : BitVec 32 := Scalar.addi c0_i32_898 v1222
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_899 : BitVec 32 := 4#32
  let v1224 : BitVec 32 := Scalar.muli v5 c4_i32_899
  let v1225 : BitVec 32 := Scalar.addi v1223 v1224
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_900 : BitVec 32 := 1#32
  let v1226 : BitVec 32 := Scalar.muli v8 c1_i32_900
  let v1227 : BitVec 32 := Scalar.addi v1225 v1226
  v1227.toNat
def k0_dev53 (d0 : Dev nD) : Nat :=
  let c0_i32_915 : BitVec 32 := 0#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v10 : BitVec 32 := Scalar.subi c1_i32_3 v2
  let c8_i32_914 : BitVec 32 := 8#32
  let v1246 : BitVec 32 := Scalar.muli v10 c8_i32_914
  let v1247 : BitVec 32 := Scalar.addi c0_i32_915 v1246
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_916 : BitVec 32 := 4#32
  let v1248 : BitVec 32 := Scalar.muli v5 c4_i32_916
  let v1249 : BitVec 32 := Scalar.addi v1247 v1248
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_917 : BitVec 32 := 1#32
  let v1250 : BitVec 32 := Scalar.muli v8 c1_i32_917
  let v1251 : BitVec 32 := Scalar.addi v1249 v1250
  v1251.toNat
def k0_dev54 (d0 : Dev nD) : Nat :=
  let c0_i32_932 : BitVec 32 := 0#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v10 : BitVec 32 := Scalar.subi c1_i32_3 v2
  let c8_i32_931 : BitVec 32 := 8#32
  let v1270 : BitVec 32 := Scalar.muli v10 c8_i32_931
  let v1271 : BitVec 32 := Scalar.addi c0_i32_932 v1270
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_933 : BitVec 32 := 4#32
  let v1272 : BitVec 32 := Scalar.muli v5 c4_i32_933
  let v1273 : BitVec 32 := Scalar.addi v1271 v1272
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_934 : BitVec 32 := 1#32
  let v1274 : BitVec 32 := Scalar.muli v8 c1_i32_934
  let v1275 : BitVec 32 := Scalar.addi v1273 v1274
  v1275.toNat
def k0_dev55 (d0 : Dev nD) : Nat :=
  let c0_i32_949 : BitVec 32 := 0#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v10 : BitVec 32 := Scalar.subi c1_i32_3 v2
  let c8_i32_948 : BitVec 32 := 8#32
  let v1294 : BitVec 32 := Scalar.muli v10 c8_i32_948
  let v1295 : BitVec 32 := Scalar.addi c0_i32_949 v1294
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_950 : BitVec 32 := 4#32
  let v1296 : BitVec 32 := Scalar.muli v5 c4_i32_950
  let v1297 : BitVec 32 := Scalar.addi v1295 v1296
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_951 : BitVec 32 := 1#32
  let v1298 : BitVec 32 := Scalar.muli v8 c1_i32_951
  let v1299 : BitVec 32 := Scalar.addi v1297 v1298
  v1299.toNat
def k0_dev56 (d0 : Dev nD) : Nat :=
  let c0_i32_966 : BitVec 32 := 0#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v10 : BitVec 32 := Scalar.subi c1_i32_3 v2
  let c8_i32_965 : BitVec 32 := 8#32
  let v1318 : BitVec 32 := Scalar.muli v10 c8_i32_965
  let v1319 : BitVec 32 := Scalar.addi c0_i32_966 v1318
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_967 : BitVec 32 := 4#32
  let v1320 : BitVec 32 := Scalar.muli v5 c4_i32_967
  let v1321 : BitVec 32 := Scalar.addi v1319 v1320
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_968 : BitVec 32 := 1#32
  let v1322 : BitVec 32 := Scalar.muli v8 c1_i32_968
  let v1323 : BitVec 32 := Scalar.addi v1321 v1322
  v1323.toNat
def k0_dev57 (d0 : Dev nD) : Nat :=
  let c0_i32_983 : BitVec 32 := 0#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v10 : BitVec 32 := Scalar.subi c1_i32_3 v2
  let c8_i32_982 : BitVec 32 := 8#32
  let v1342 : BitVec 32 := Scalar.muli v10 c8_i32_982
  let v1343 : BitVec 32 := Scalar.addi c0_i32_983 v1342
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_984 : BitVec 32 := 4#32
  let v1344 : BitVec 32 := Scalar.muli v5 c4_i32_984
  let v1345 : BitVec 32 := Scalar.addi v1343 v1344
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_985 : BitVec 32 := 1#32
  let v1346 : BitVec 32 := Scalar.muli v8 c1_i32_985
  let v1347 : BitVec 32 := Scalar.addi v1345 v1346
  v1347.toNat
def k0_dev58 (d0 : Dev nD) : Nat :=
  let c0_i32_1000 : BitVec 32 := 0#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v10 : BitVec 32 := Scalar.subi c1_i32_3 v2
  let c8_i32_999 : BitVec 32 := 8#32
  let v1366 : BitVec 32 := Scalar.muli v10 c8_i32_999
  let v1367 : BitVec 32 := Scalar.addi c0_i32_1000 v1366
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1001 : BitVec 32 := 4#32
  let v1368 : BitVec 32 := Scalar.muli v5 c4_i32_1001
  let v1369 : BitVec 32 := Scalar.addi v1367 v1368
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1002 : BitVec 32 := 1#32
  let v1370 : BitVec 32 := Scalar.muli v8 c1_i32_1002
  let v1371 : BitVec 32 := Scalar.addi v1369 v1370
  v1371.toNat
def k0_dev59 (d0 : Dev nD) : Nat :=
  let c0_i32_1017 : BitVec 32 := 0#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v10 : BitVec 32 := Scalar.subi c1_i32_3 v2
  let c8_i32_1016 : BitVec 32 := 8#32
  let v1390 : BitVec 32 := Scalar.muli v10 c8_i32_1016
  let v1391 : BitVec 32 := Scalar.addi c0_i32_1017 v1390
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1018 : BitVec 32 := 4#32
  let v1392 : BitVec 32 := Scalar.muli v5 c4_i32_1018
  let v1393 : BitVec 32 := Scalar.addi v1391 v1392
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1019 : BitVec 32 := 1#32
  let v1394 : BitVec 32 := Scalar.muli v8 c1_i32_1019
  let v1395 : BitVec 32 := Scalar.addi v1393 v1394
  v1395.toNat
def k0_dev60 (d0 : Dev nD) : Nat :=
  let c0_i32_1034 : BitVec 32 := 0#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v10 : BitVec 32 := Scalar.subi c1_i32_3 v2
  let c8_i32_1033 : BitVec 32 := 8#32
  let v1414 : BitVec 32 := Scalar.muli v10 c8_i32_1033
  let v1415 : BitVec 32 := Scalar.addi c0_i32_1034 v1414
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1035 : BitVec 32 := 4#32
  let v1416 : BitVec 32 := Scalar.muli v5 c4_i32_1035
  let v1417 : BitVec 32 := Scalar.addi v1415 v1416
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1036 : BitVec 32 := 1#32
  let v1418 : BitVec 32 := Scalar.muli v8 c1_i32_1036
  let v1419 : BitVec 32 := Scalar.addi v1417 v1418
  v1419.toNat
def k0_dev61 (d0 : Dev nD) : Nat :=
  let c0_i32_1051 : BitVec 32 := 0#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v10 : BitVec 32 := Scalar.subi c1_i32_3 v2
  let c8_i32_1050 : BitVec 32 := 8#32
  let v1438 : BitVec 32 := Scalar.muli v10 c8_i32_1050
  let v1439 : BitVec 32 := Scalar.addi c0_i32_1051 v1438
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1052 : BitVec 32 := 4#32
  let v1440 : BitVec 32 := Scalar.muli v5 c4_i32_1052
  let v1441 : BitVec 32 := Scalar.addi v1439 v1440
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1053 : BitVec 32 := 1#32
  let v1442 : BitVec 32 := Scalar.muli v8 c1_i32_1053
  let v1443 : BitVec 32 := Scalar.addi v1441 v1442
  v1443.toNat
def k0_dev62 (d0 : Dev nD) : Nat :=
  let c0_i32_1068 : BitVec 32 := 0#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v10 : BitVec 32 := Scalar.subi c1_i32_3 v2
  let c8_i32_1067 : BitVec 32 := 8#32
  let v1462 : BitVec 32 := Scalar.muli v10 c8_i32_1067
  let v1463 : BitVec 32 := Scalar.addi c0_i32_1068 v1462
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1069 : BitVec 32 := 4#32
  let v1464 : BitVec 32 := Scalar.muli v5 c4_i32_1069
  let v1465 : BitVec 32 := Scalar.addi v1463 v1464
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1070 : BitVec 32 := 1#32
  let v1466 : BitVec 32 := Scalar.muli v8 c1_i32_1070
  let v1467 : BitVec 32 := Scalar.addi v1465 v1466
  v1467.toNat
def k0_dev63 (d0 : Dev nD) : Nat :=
  let c0_i32_1085 : BitVec 32 := 0#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v10 : BitVec 32 := Scalar.subi c1_i32_3 v2
  let c8_i32_1084 : BitVec 32 := 8#32
  let v1486 : BitVec 32 := Scalar.muli v10 c8_i32_1084
  let v1487 : BitVec 32 := Scalar.addi c0_i32_1085 v1486
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1086 : BitVec 32 := 4#32
  let v1488 : BitVec 32 := Scalar.muli v5 c4_i32_1086
  let v1489 : BitVec 32 := Scalar.addi v1487 v1488
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1087 : BitVec 32 := 1#32
  let v1490 : BitVec 32 := Scalar.muli v8 c1_i32_1087
  let v1491 : BitVec 32 := Scalar.addi v1489 v1490
  v1491.toNat
def k0_dev64 (d0 : Dev nD) : Nat :=
  let c0_i32_1102 : BitVec 32 := 0#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v10 : BitVec 32 := Scalar.subi c1_i32_3 v2
  let c8_i32_1101 : BitVec 32 := 8#32
  let v1510 : BitVec 32 := Scalar.muli v10 c8_i32_1101
  let v1511 : BitVec 32 := Scalar.addi c0_i32_1102 v1510
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1103 : BitVec 32 := 4#32
  let v1512 : BitVec 32 := Scalar.muli v5 c4_i32_1103
  let v1513 : BitVec 32 := Scalar.addi v1511 v1512
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1104 : BitVec 32 := 1#32
  let v1514 : BitVec 32 := Scalar.muli v8 c1_i32_1104
  let v1515 : BitVec 32 := Scalar.addi v1513 v1514
  v1515.toNat
def k0_dev65 (d0 : Dev nD) : Nat :=
  let c0_i32_1119 : BitVec 32 := 0#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v10 : BitVec 32 := Scalar.subi c1_i32_3 v2
  let c8_i32_1118 : BitVec 32 := 8#32
  let v1534 : BitVec 32 := Scalar.muli v10 c8_i32_1118
  let v1535 : BitVec 32 := Scalar.addi c0_i32_1119 v1534
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1120 : BitVec 32 := 4#32
  let v1536 : BitVec 32 := Scalar.muli v5 c4_i32_1120
  let v1537 : BitVec 32 := Scalar.addi v1535 v1536
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1121 : BitVec 32 := 1#32
  let v1538 : BitVec 32 := Scalar.muli v8 c1_i32_1121
  let v1539 : BitVec 32 := Scalar.addi v1537 v1538
  v1539.toNat
def k0_dev66 (d0 : Dev nD) : Nat :=
  let c0_i32_1136 : BitVec 32 := 0#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v10 : BitVec 32 := Scalar.subi c1_i32_3 v2
  let c8_i32_1135 : BitVec 32 := 8#32
  let v1558 : BitVec 32 := Scalar.muli v10 c8_i32_1135
  let v1559 : BitVec 32 := Scalar.addi c0_i32_1136 v1558
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1137 : BitVec 32 := 4#32
  let v1560 : BitVec 32 := Scalar.muli v5 c4_i32_1137
  let v1561 : BitVec 32 := Scalar.addi v1559 v1560
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1138 : BitVec 32 := 1#32
  let v1562 : BitVec 32 := Scalar.muli v8 c1_i32_1138
  let v1563 : BitVec 32 := Scalar.addi v1561 v1562
  v1563.toNat
def k0_dev67 (d0 : Dev nD) : Nat :=
  let c0_i32_1729_r0 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1728_r0 : BitVec 32 := 8#32
  let v2157_r0 : BitVec 32 := Scalar.muli v2 c8_i32_1728_r0
  let v2158_r0 : BitVec 32 := Scalar.addi c0_i32_1729_r0 v2157_r0
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_1730_r0 : BitVec 32 := 4#32
  let v2159_r0 : BitVec 32 := Scalar.muli v9 c4_i32_1730_r0
  let v2160_r0 : BitVec 32 := Scalar.addi v2158_r0 v2159_r0
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1731_r0 : BitVec 32 := 1#32
  let v2161_r0 : BitVec 32 := Scalar.muli v8 c1_i32_1731_r0
  let v2162_r0 : BitVec 32 := Scalar.addi v2160_r0 v2161_r0
  v2162_r0.toNat
def k0_dev68 (d0 : Dev nD) : Nat :=
  let c0_i32_1734_r0 : BitVec 32 := 0#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v10 : BitVec 32 := Scalar.subi c1_i32_3 v2
  let c8_i32_1733_r0 : BitVec 32 := 8#32
  let v2163_r0 : BitVec 32 := Scalar.muli v10 c8_i32_1733_r0
  let v2164_r0 : BitVec 32 := Scalar.addi c0_i32_1734_r0 v2163_r0
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1735_r0 : BitVec 32 := 4#32
  let v2165_r0 : BitVec 32 := Scalar.muli v5 c4_i32_1735_r0
  let v2166_r0 : BitVec 32 := Scalar.addi v2164_r0 v2165_r0
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1736_r0 : BitVec 32 := 1#32
  let v2167_r0 : BitVec 32 := Scalar.muli v8 c1_i32_1736_r0
  let v2168_r0 : BitVec 32 := Scalar.addi v2166_r0 v2167_r0
  v2168_r0.toNat

class Facts₀ : Prop where
  hamt_1 : (1#32 : BitVec 32).msb = false
  hamt_2 : (2#32 : BitVec 32).msb = false
  inb_S32_S1_0 : ∀ a, (![0] : Fin 1 → Nat) a + S1.size a ≤ S32.size a
  squeezes_S1_S_ : S1.Squeezes S_
  inb_S32_S1_1 : ∀ a, (![1] : Fin 1 → Nat) a + S1.size a ≤ S32.size a
  inb_S32_S1_2 : ∀ a, (![2] : Fin 1 → Nat) a + S1.size a ≤ S32.size a
  inb_S32_S1_3 : ∀ a, (![3] : Fin 1 → Nat) a + S1.size a ≤ S32.size a
  inb_S32_S1_4 : ∀ a, (![4] : Fin 1 → Nat) a + S1.size a ≤ S32.size a
  inb_S32_S1_5 : ∀ a, (![5] : Fin 1 → Nat) a + S1.size a ≤ S32.size a
  inb_S32_S1_6 : ∀ a, (![6] : Fin 1 → Nat) a + S1.size a ≤ S32.size a
  inb_S32_S1_7 : ∀ a, (![7] : Fin 1 → Nat) a + S1.size a ≤ S32.size a
  inb_S32_S1_8 : ∀ a, (![8] : Fin 1 → Nat) a + S1.size a ≤ S32.size a
  inb_S32_S1_9 : ∀ a, (![9] : Fin 1 → Nat) a + S1.size a ≤ S32.size a
  inb_S32_S1_10 : ∀ a, (![10] : Fin 1 → Nat) a + S1.size a ≤ S32.size a
  inb_S32_S1_11 : ∀ a, (![11] : Fin 1 → Nat) a + S1.size a ≤ S32.size a
  inb_S32_S1_12 : ∀ a, (![12] : Fin 1 → Nat) a + S1.size a ≤ S32.size a
  inb_S32_S1_13 : ∀ a, (![13] : Fin 1 → Nat) a + S1.size a ≤ S32.size a
  inb_S32_S1_14 : ∀ a, (![14] : Fin 1 → Nat) a + S1.size a ≤ S32.size a
  inb_S32_S1_15 : ∀ a, (![15] : Fin 1 → Nat) a + S1.size a ≤ S32.size a
  inb_S32_S1_16 : ∀ a, (![16] : Fin 1 → Nat) a + S1.size a ≤ S32.size a
  inb_S32_S1_17 : ∀ a, (![17] : Fin 1 → Nat) a + S1.size a ≤ S32.size a
  inb_S32_S1_18 : ∀ a, (![18] : Fin 1 → Nat) a + S1.size a ≤ S32.size a
  inb_S32_S1_19 : ∀ a, (![19] : Fin 1 → Nat) a + S1.size a ≤ S32.size a
  inb_S32_S1_20 : ∀ a, (![20] : Fin 1 → Nat) a + S1.size a ≤ S32.size a
  inb_S32_S1_21 : ∀ a, (![21] : Fin 1 → Nat) a + S1.size a ≤ S32.size a
  inb_S32_S1_22 : ∀ a, (![22] : Fin 1 → Nat) a + S1.size a ≤ S32.size a
  inb_S32_S1_23 : ∀ a, (![23] : Fin 1 → Nat) a + S1.size a ≤ S32.size a
  inb_S32_S1_24 : ∀ a, (![24] : Fin 1 → Nat) a + S1.size a ≤ S32.size a
  inb_S32_S1_25 : ∀ a, (![25] : Fin 1 → Nat) a + S1.size a ≤ S32.size a
  inb_S32_S1_26 : ∀ a, (![26] : Fin 1 → Nat) a + S1.size a ≤ S32.size a
  inb_S32_S1_27 : ∀ a, (![27] : Fin 1 → Nat) a + S1.size a ≤ S32.size a
  inb_S32_S1_28 : ∀ a, (![28] : Fin 1 → Nat) a + S1.size a ≤ S32.size a
  inb_S32_S1_29 : ∀ a, (![29] : Fin 1 → Nat) a + S1.size a ≤ S32.size a
  inb_S32_S1_30 : ∀ a, (![30] : Fin 1 → Nat) a + S1.size a ≤ S32.size a
  inb_S32_S1_31 : ∀ a, (![31] : Fin 1 → Nat) a + S1.size a ≤ S32.size a
  inb_S2_S1_0 : ∀ a, (![0] : Fin 1 → Nat) a + S1.size a ≤ S2.size a
  inb_S2x2048x1024_S1x2048x1024_0_0_0 : ∀ a, (![0, 0, 0] : Fin 3 → Nat) a + S1x2048x1024.size a ≤ S2x2048x1024.size a
  squeezes_S1x2048x1024_S2048x1024 : S1x2048x1024.Squeezes S2048x1024
  inb_S32768x1024_S2048x1024_0_0 : ∀ a, (![0, 0] : Fin 2 → Nat) a + S2048x1024.size a ≤ S32768x1024.size a
  inb_S2_S1_1 : ∀ a, (![1] : Fin 1 → Nat) a + S1.size a ≤ S2.size a
  inb_S2x2048x1024_S1x2048x1024_1_0_0 : ∀ a, (![1, 0, 0] : Fin 3 → Nat) a + S1x2048x1024.size a ≤ S2x2048x1024.size a
  inb_S32768x1024_S2048x1024_2048_0 : ∀ a, (![2048, 0] : Fin 2 → Nat) a + S2048x1024.size a ≤ S32768x1024.size a
  inb_S32768x1024_S2048x1024_4096_0 : ∀ a, (![4096, 0] : Fin 2 → Nat) a + S2048x1024.size a ≤ S32768x1024.size a
  inb_S32768x1024_S2048x1024_6144_0 : ∀ a, (![6144, 0] : Fin 2 → Nat) a + S2048x1024.size a ≤ S32768x1024.size a
  inb_S32768x1024_S2048x1024_8192_0 : ∀ a, (![8192, 0] : Fin 2 → Nat) a + S2048x1024.size a ≤ S32768x1024.size a
  inb_S32768x1024_S2048x1024_10240_0 : ∀ a, (![10240, 0] : Fin 2 → Nat) a + S2048x1024.size a ≤ S32768x1024.size a
  inb_S32768x1024_S2048x1024_12288_0 : ∀ a, (![12288, 0] : Fin 2 → Nat) a + S2048x1024.size a ≤ S32768x1024.size a
  inb_S32768x1024_S2048x1024_14336_0 : ∀ a, (![14336, 0] : Fin 2 → Nat) a + S2048x1024.size a ≤ S32768x1024.size a
  inb_S32768x1024_S2048x1024_16384_0 : ∀ a, (![16384, 0] : Fin 2 → Nat) a + S2048x1024.size a ≤ S32768x1024.size a
  inb_S32768x1024_S2048x1024_18432_0 : ∀ a, (![18432, 0] : Fin 2 → Nat) a + S2048x1024.size a ≤ S32768x1024.size a
  inb_S32768x1024_S2048x1024_20480_0 : ∀ a, (![20480, 0] : Fin 2 → Nat) a + S2048x1024.size a ≤ S32768x1024.size a
  inb_S32768x1024_S2048x1024_22528_0 : ∀ a, (![22528, 0] : Fin 2 → Nat) a + S2048x1024.size a ≤ S32768x1024.size a
  inb_S32768x1024_S2048x1024_24576_0 : ∀ a, (![24576, 0] : Fin 2 → Nat) a + S2048x1024.size a ≤ S32768x1024.size a
  inb_S32768x1024_S2048x1024_26624_0 : ∀ a, (![26624, 0] : Fin 2 → Nat) a + S2048x1024.size a ≤ S32768x1024.size a
  inb_S32768x1024_S2048x1024_28672_0 : ∀ a, (![28672, 0] : Fin 2 → Nat) a + S2048x1024.size a ≤ S32768x1024.size a
  inb_S32768x1024_S2048x1024_30720_0 : ∀ a, (![30720, 0] : Fin 2 → Nat) a + S2048x1024.size a ≤ S32768x1024.size a
  hcc0_scoped0 : 1 + S_.numel ≤ 2
  hcc0_scratch0 : 0 + S32.numel ≤ 132
  hcc0_scratch1 : 32 + S32.numel ≤ 132
  hcc0_scratch2 : 64 + S32.numel ≤ 132
  hcc0_scratch3 : 96 + S32.numel ≤ 132
  hcc0_scratch5 : 128 + S2.numel ≤ 132
  hcc0_scratch6 : 130 + S2.numel ≤ 132
  k0_dev1_lt : ∀ d0 : Dev nD, (k0_dev1 d0) < nD
  k0_dev2_lt : ∀ d0 : Dev nD, (k0_dev2 d0) < nD
  k0_off1_inb : ∀ d0 : Dev nD, ∀ (r : Fin 32), ∀ a, (k0_off1 d0 (BitVec.ofNat 32 (512 * r.val))) a + S512x1024.size a ≤ S65536x1024.size a
  k0_off2_inb : ∀ d0 : Dev nD, ∀ (r : Fin 32), ∀ a, (k0_off2 d0 (BitVec.ofNat 32 (512 * r.val))) a + S512x1024.size a ≤ S32768x1024.size a
  k0_dev3_lt : ∀ d0 : Dev nD, (k0_dev3 d0) < nD
  k0_dev4_lt : ∀ d0 : Dev nD, (k0_dev4 d0) < nD
  k0_dev5_lt : ∀ d0 : Dev nD, (k0_dev5 d0) < nD
  k0_dev6_lt : ∀ d0 : Dev nD, (k0_dev6 d0) < nD
  k0_dev7_lt : ∀ d0 : Dev nD, (k0_dev7 d0) < nD
  k0_dev8_lt : ∀ d0 : Dev nD, (k0_dev8 d0) < nD
  k0_dev9_lt : ∀ d0 : Dev nD, (k0_dev9 d0) < nD
  k0_dev10_lt : ∀ d0 : Dev nD, (k0_dev10 d0) < nD
  k0_dev11_lt : ∀ d0 : Dev nD, (k0_dev11 d0) < nD
  k0_dev12_lt : ∀ d0 : Dev nD, (k0_dev12 d0) < nD
  k0_dev13_lt : ∀ d0 : Dev nD, (k0_dev13 d0) < nD
  k0_dev14_lt : ∀ d0 : Dev nD, (k0_dev14 d0) < nD
  k0_dev15_lt : ∀ d0 : Dev nD, (k0_dev15 d0) < nD
  k0_dev16_lt : ∀ d0 : Dev nD, (k0_dev16 d0) < nD
  k0_dev17_lt : ∀ d0 : Dev nD, (k0_dev17 d0) < nD
  k0_dev18_lt : ∀ d0 : Dev nD, (k0_dev18 d0) < nD
  k0_dev19_lt : ∀ d0 : Dev nD, (k0_dev19 d0) < nD
  k0_dev20_lt : ∀ d0 : Dev nD, (k0_dev20 d0) < nD
  k0_dev21_lt : ∀ d0 : Dev nD, (k0_dev21 d0) < nD
  k0_dev22_lt : ∀ d0 : Dev nD, (k0_dev22 d0) < nD
  k0_dev23_lt : ∀ d0 : Dev nD, (k0_dev23 d0) < nD
  k0_dev24_lt : ∀ d0 : Dev nD, (k0_dev24 d0) < nD
  k0_dev25_lt : ∀ d0 : Dev nD, (k0_dev25 d0) < nD
  k0_dev26_lt : ∀ d0 : Dev nD, (k0_dev26 d0) < nD
  k0_dev27_lt : ∀ d0 : Dev nD, (k0_dev27 d0) < nD
  k0_dev28_lt : ∀ d0 : Dev nD, (k0_dev28 d0) < nD
  k0_dev29_lt : ∀ d0 : Dev nD, (k0_dev29 d0) < nD
  k0_dev30_lt : ∀ d0 : Dev nD, (k0_dev30 d0) < nD
  k0_dev31_lt : ∀ d0 : Dev nD, (k0_dev31 d0) < nD
  k0_dev32_lt : ∀ d0 : Dev nD, (k0_dev32 d0) < nD
  k0_dev33_lt : ∀ d0 : Dev nD, (k0_dev33 d0) < nD
  k0_dev34_lt : ∀ d0 : Dev nD, (k0_dev34 d0) < nD
  k0_off3_inb : ∀ d0 : Dev nD, ∀ (r : Fin 32), ∀ a, (k0_off3 d0 (BitVec.ofNat 32 (512 * r.val))) a + S512x1024.size a ≤ S65536x1024.size a
  k0_dev35_lt : ∀ d0 : Dev nD, (k0_dev35 d0) < nD
  k0_off4_inb : ∀ d0 : Dev nD, ∀ (r : Fin 16), ∀ a, (k0_off4 d0 (BitVec.ofNat 32 (2048 * r.val))) a + S2048x1024.size a ≤ S65536x1024.size a
  k0_dev36_lt : ∀ d0 : Dev nD, (k0_dev36 d0) < nD
  k0_dev37_lt : ∀ d0 : Dev nD, (k0_dev37 d0) < nD
  k0_dev38_lt : ∀ d0 : Dev nD, (k0_dev38 d0) < nD
  k0_dev39_lt : ∀ d0 : Dev nD, (k0_dev39 d0) < nD
  k0_dev40_lt : ∀ d0 : Dev nD, (k0_dev40 d0) < nD
  k0_dev41_lt : ∀ d0 : Dev nD, (k0_dev41 d0) < nD
  k0_dev42_lt : ∀ d0 : Dev nD, (k0_dev42 d0) < nD
  k0_dev43_lt : ∀ d0 : Dev nD, (k0_dev43 d0) < nD
  k0_dev44_lt : ∀ d0 : Dev nD, (k0_dev44 d0) < nD
  k0_dev45_lt : ∀ d0 : Dev nD, (k0_dev45 d0) < nD
  k0_dev46_lt : ∀ d0 : Dev nD, (k0_dev46 d0) < nD
  k0_dev47_lt : ∀ d0 : Dev nD, (k0_dev47 d0) < nD
  k0_dev48_lt : ∀ d0 : Dev nD, (k0_dev48 d0) < nD
  k0_dev49_lt : ∀ d0 : Dev nD, (k0_dev49 d0) < nD
  k0_dev50_lt : ∀ d0 : Dev nD, (k0_dev50 d0) < nD
  k0_dev51_lt : ∀ d0 : Dev nD, (k0_dev51 d0) < nD
  k0_dev52_lt : ∀ d0 : Dev nD, (k0_dev52 d0) < nD
  k0_dev53_lt : ∀ d0 : Dev nD, (k0_dev53 d0) < nD
  k0_dev54_lt : ∀ d0 : Dev nD, (k0_dev54 d0) < nD
  k0_dev55_lt : ∀ d0 : Dev nD, (k0_dev55 d0) < nD
  k0_dev56_lt : ∀ d0 : Dev nD, (k0_dev56 d0) < nD
  k0_dev57_lt : ∀ d0 : Dev nD, (k0_dev57 d0) < nD
  k0_dev58_lt : ∀ d0 : Dev nD, (k0_dev58 d0) < nD
  k0_dev59_lt : ∀ d0 : Dev nD, (k0_dev59 d0) < nD
  k0_dev60_lt : ∀ d0 : Dev nD, (k0_dev60 d0) < nD
  k0_dev61_lt : ∀ d0 : Dev nD, (k0_dev61 d0) < nD
  k0_dev62_lt : ∀ d0 : Dev nD, (k0_dev62 d0) < nD
  k0_dev63_lt : ∀ d0 : Dev nD, (k0_dev63 d0) < nD
  k0_dev64_lt : ∀ d0 : Dev nD, (k0_dev64 d0) < nD
  k0_dev65_lt : ∀ d0 : Dev nD, (k0_dev65 d0) < nD
  k0_dev66_lt : ∀ d0 : Dev nD, (k0_dev66 d0) < nD
  k0_dev67_lt : ∀ d0 : Dev nD, (k0_dev67 d0) < nD
  k0_dev68_lt : ∀ d0 : Dev nD, (k0_dev68 d0) < nD

variable [Facts₀]

abbrev cc0_scoped0 : Sems sig S_ := SemArray.consecutive 1 S_ hcc0_scoped0
abbrev cc0_scratch0 : DmaSems sig S32 := SemArray.consecutive 0 S32 hcc0_scratch0
abbrev cc0_scratch1 : DmaSems sig S32 := SemArray.consecutive 32 S32 hcc0_scratch1
abbrev cc0_scratch2 : DmaSems sig S32 := SemArray.consecutive 64 S32 hcc0_scratch2
abbrev cc0_scratch3 : DmaSems sig S32 := SemArray.consecutive 96 S32 hcc0_scratch3
abbrev cc0_scratch5 : DmaSems sig S2 := SemArray.consecutive 128 S2 hcc0_scratch5
abbrev cc0_scratch6 : DmaSems sig S2 := SemArray.consecutive 130 S2 hcc0_scratch6

abbrev win0 : Fin 0 → Pipeline.Window sig grid0 := Fin.elim0
abbrev spec0 : Fin 0 → Pipeline.WinSpec sig grid0.rank := Fin.elim0

class Facts : Prop extends Facts₀ where

variable [Facts]
-- ==== ReferenceIdeal.lean ====
abbrev S65536x1024 : Shape := ⟨2, ![65536, 1024]⟩

abbrev nBuf : Space → Nat
  | .hbm => 1
  | .vmem => 0
  | .smem => 0
  | _ => 0

abbrev bufTy : (tb : Table) → Fin (tcTables nBuf tb) → BufTy
  | .hbm, ⟨0, _⟩ => ⟨S65536x1024, .f32⟩
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩

abbrev nD : Nat := 1
abbrev τ : Topo := Topo.v7x

variable {F : FTy → Type} [FloatOps F]

class Facts₀ : Prop where

variable [Facts₀]

class Facts : Prop extends Facts₀ where

variable [Facts]
-- ==== Proof.KI.Ref.lean ====
import proofs.«900683_g7700000000000684_dist_ag_v7x_xyz2x2x4_y_m32768_n1024_f32_1_alg».proof.Defs
import proofs.«900683_g7700000000000684_dist_ag_v7x_xyz2x2x4_y_m32768_n1024_f32_1_alg».proof.Proof.Gen.ReferenceIdeal
import proofs.«900683_g7700000000000684_dist_ag_v7x_xyz2x2x4_y_m32768_n1024_f32_1_alg».proof.Proof.Gen.Pre_finite_inputs_ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

theorem main_eq (c : Dev nD) : main (F := Ideal) c = seq ([] : List (HloOp τ sig (Elt Ideal))) := rfl

theorem scopedRefs_eq : (Finset.univ.filter fun b : Ref sig .tc => b.isScoped) = ∅ := by decide

theorem scopedSems_eq : (Finset.univ.filter fun sm : SemLoc sig => sm.isScoped .tc) = ∅ := by decide

theorem run_all (m' : (ℓ : Loc nD τ sig) → Buf (Elt Ideal) ℓ) (g' : Dev nD → PrngReg) :
    θ_run (defs (F := Ideal)) (onTc (τ := τ) (main (F := Ideal))) ⟨m', fun _ => 0, g'⟩
      (fun r => ∀ (d : Dev nD) (b : Ref sig .tc),
        r.2.mem ((d.tc : Thread nD τ).loc b) = m' ((d.tc : Thread nD τ).loc b)) :=
  (θ_run (defs (F := Ideal)) _ _).mono (fun _ h d b => (h d b).trans rfl)
    (run_seq scopedRefs_eq scopedSems_eq (defs (F := Ideal)) (main (F := Ideal)) (fun _ => []) main_eq
      (fun _ => trivial) m' g' (fun _ _ h => nomatch h))

theorem run (m' : (ℓ : Loc nD τ sig) → Buf (Elt Ideal) ℓ) (g' : Dev nD → PrngReg) :
    θ_run (defs (F := Ideal)) (onTc (τ := τ) (main (F := Ideal))) ⟨m', fun _ => 0, g'⟩
      (fun r => ∀ c : Dev nD,
        r.2.mem ((c.tc : Thread nD τ).loc main_arg0) = m' ((c.tc : Thread nD τ).loc main_arg0)) :=
  (θ_run (defs (F := Ideal)) _ _).mono (fun _ h c => h c main_arg0) (run_all m' g')

theorem frame_ri : Cert.frame_ReferenceIdeal := fun m g _ => run m g

end Cert.ReferenceIdeal.RefRun

end

/-- info: 'Cert.ReferenceIdeal.RefRun.frame_ri' depends on axioms: [propext, Classical.choice, Quot.sound] -/
#guard_msgs in
#print axioms Cert.ReferenceIdeal.RefRun.frame_ri
-- ==== Proof.KI.Mesh.lean ====
import proofs.«900683_g7700000000000684_dist_ag_v7x_xyz2x2x4_y_m32768_n1024_f32_1_alg».proof.Defs
import proofs.«900683_g7700000000000684_dist_ag_v7x_xyz2x2x4_y_m32768_n1024_f32_1_alg».proof.Proof.Gen.KernelIdeal

namespace Cert.KernelIdeal.AG

open Cert.KernelIdeal Cert.KernelIdeal.Gen
open Idealize.ShloMosaic

def py (c : Dev nD) : Dev nD :=
  ⟨(8 * (c.val / 8) + (c.val % 4) + 4) - 4 * ((c.val / 4) % 2), by have h : c.val < 16 := c.isLt; show _ < 16; omega⟩

def px (c : Dev nD) : Dev nD :=
  ⟨(4 * ((c.val / 4) % 2) + (c.val % 4) + 8) - 8 * (c.val / 8), by have h : c.val < 16 := c.isLt; show _ < 16; omega⟩

theorem py_py (c : Dev nD) : py (py c) = c := by revert c; decide
theorem px_px (c : Dev nD) : px (px c) = c := by revert c; decide

def mx (c : Dev nD) : ℕ := c.val / 8
def my (c : Dev nD) : ℕ := (c.val / 4) % 2
theorem mx_lt (c : Dev nD) : mx c < 2 := by have h : c.val < 16 := c.isLt; unfold mx; omega
theorem my_lt (c : Dev nD) : my c < 2 := by unfold my; omega
theorem mx_py (c : Dev nD) : mx (py c) = mx c := by revert c; decide
theorem my_py (c : Dev nD) : my (py c) = 1 - my c := by revert c; decide
theorem mx_px (c : Dev nD) : mx (px c) = 1 - mx c := by revert c; decide
theorem my_px (c : Dev nD) : my (px c) = my c := by revert c; decide

/-- A device number whose closed form is that of the `y` peer (of the `x` peer) names that peer. -/
theorem dev_y {v : ℕ} (c : Dev nD) (e : v = (8 * (c.val / 8) + (c.val % 4) + 4) - 4 * ((c.val / 4) % 2)) (h : v < nD) : (⟨v, h⟩ : Dev nD) = py c := Fin.ext e
theorem dev_x {v : ℕ} (c : Dev nD) (e : v = (4 * ((c.val / 4) % 2) + (c.val % 4) + 8) - 8 * (c.val / 8)) (h : v < nD) : (⟨v, h⟩ : Dev nD) = px c := Fin.ext e

end Cert.KernelIdeal.AG
-- ==== Proof.KI.Base.lean ====
import proofs.«900683_g7700000000000684_dist_ag_v7x_xyz2x2x4_y_m32768_n1024_f32_1_alg».proof.Defs
import proofs.«900683_g7700000000000684_dist_ag_v7x_xyz2x2x4_y_m32768_n1024_f32_1_alg».proof.Proof.Gen.KernelIdeal
import proofs.«900683_g7700000000000684_dist_ag_v7x_xyz2x2x4_y_m32768_n1024_f32_1_alg».proof.Proof.Gen.KernelIdeal.Skeleton
import proofs.«900683_g7700000000000684_dist_ag_v7x_xyz2x2x4_y_m32768_n1024_f32_1_alg».proof.Proof.Gen.KernelIdeal.Launch
import proofs.«900683_g7700000000000684_dist_ag_v7x_xyz2x2x4_y_m32768_n1024_f32_1_alg».proof.Proof.KI.Mesh
import Idealize.ShloMosaic.Lib.Pipeline.Launch
import Idealize.ShloMosaic.Lib.Pipeline.Kit
import Idealize.ShloMosaic.Lib.Tactic
import Idealize.ShloMosaic.Lib.ValueIdx

noncomputable section

namespace Cert.KernelIdeal.AG

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

abbrev UB : Type := URounds (GSem nD τ sig) Bool
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

abbrev 𝒱₀ : Variants := Variants.none

variable (m : (ℓ : Loc nD τ sig) → Buf (Elt F) ℓ) (ρ : Dev nD → PrngReg)

abbrev xM : Memref sig .tc .hbm S32768x1024 .f32 := Memref.whole main_arg0
abbrev oM : Memref sig .tc .hbm S65536x1024 .f32 := Memref.whole main_v1
abbrev vM : Memref sig .tc .vmem S2x2048x1024 .f32 := Memref.whole cc0_scratch4

theorem inb32 (k : Fin 32) : ∀ a, (![k.val] : Fin 1 → Nat) a + S1.size a ≤ S32.size a := by
  intro a; have := k.isLt; fin_cases a; show k.val + 1 ≤ 32; omega
theorem inb2 (j : Fin 2) : ∀ a, (![j.val] : Fin 1 → Nat) a + S1.size a ≤ S2.size a := by
  intro a; have := j.isLt; fin_cases a; show j.val + 1 ≤ 2; omega
theorem inbL (i : Fin 16) : ∀ a, (![2048 * i.val, 0] : Fin 2 → Nat) a + S2048x1024.size a ≤ S32768x1024.size a := by
  intro a; have := i.isLt; fin_cases a
  · show 2048 * i.val + 2048 ≤ 32768; omega
  · show 0 + 1024 ≤ 1024; omega
theorem inbV (j : Fin 2) : ∀ a, (![j.val, 0, 0] : Fin 3 → Nat) a + S1x2048x1024.size a ≤ S2x2048x1024.size a := by
  intro a; have := j.isLt; fin_cases a
  · show j.val + 1 ≤ 2; omega
  · show 0 + 2048 ≤ 2048; omega
  · show 0 + 1024 ≤ 1024; omega

abbrev sem32 (A : DmaSems sig S32) (k : Fin 32) : DmaSems sig S_ :=
  (A.slice (Rect.unit (s := S32) ![k.val] S1.size (inb32 k))).squeeze S_ Gen.squeezes_S1_S_
abbrev sem2 (A : DmaSems sig S2) (j : Fin 2) : DmaSems sig S_ :=
  (A.slice (Rect.unit (s := S2) ![j.val] S1.size (inb2 j))).squeeze S_ Gen.squeezes_S1_S_

abbrev barS : Sem sig := (SemArray.scalar (sig.barrier 0 rfl) : Sems sig S_).sem
abbrev bar2S : Sem sig := (cc0_scoped0 : Sems sig S_).sem

abbrev ySrc (c : Dev nD) (k : Fin 32) : Memref sig .tc .hbm S512x1024 .f32 :=
  xM.slice (Rect.unit (s := S32768x1024) (k0_off2 c (BitVec.ofNat 32 (512 * k.val))) S512x1024.size (Gen.k0_off2_inb c k)) (fun _ => rfl)
abbrev yDst (c : Dev nD) (k : Fin 32) : Memref sig .tc .hbm S512x1024 .f32 :=
  oM.slice (Rect.unit (s := S65536x1024) (k0_off1 c (BitVec.ofNat 32 (512 * k.val))) S512x1024.size (Gen.k0_off1_inb c k)) (fun _ => rfl)
abbrev xBuf (c : Dev nD) (k : Fin 32) : Memref sig .tc .hbm S512x1024 .f32 :=
  oM.slice (Rect.unit (s := S65536x1024) (k0_off3 c (BitVec.ofNat 32 (512 * k.val))) S512x1024.size (Gen.k0_off3_inb c k)) (fun _ => rfl)
abbrev lDst (c : Dev nD) (i : Fin 16) : Memref sig .tc .hbm S2048x1024 .f32 :=
  oM.slice (Rect.unit (s := S65536x1024) (k0_off4 c (BitVec.ofNat 32 (2048 * i.val))) S2048x1024.size (Gen.k0_off4_inb c i)) (fun _ => rfl)
abbrev lSrc (i : Fin 16) : Memref sig .tc .hbm S2048x1024 .f32 :=
  xM.slice (Rect.unit (s := S32768x1024) ![2048 * i.val, 0] S2048x1024.size (inbL i)) (fun _ => rfl)
abbrev vSl (j : Fin 2) : Memref sig .tc .vmem S2048x1024 .f32 :=
  (vM.slice (Rect.unit (s := S2x2048x1024) ![j.val, 0, 0] S1x2048x1024.size (inbV j)) (fun _ => rfl)).squeeze S2048x1024 Gen.squeezes_S1x2048x1024_S2048x1024

abbrev pts {sp : Space} {s : Shape} (M : Memref sig .tc sp s .f32) (t : Dev nD) (q : PosShare TreeShare)
    (f : Buf (Elt F) (M.view.loc (t : Thread nD τ))) : sProp 𝕄 :=
  M.view.loc (t : Thread nD τ) ↦[M.view.set]{q} f

inductive CK : Type
  | bar | bar2
  | ys (k : Fin 32) | yr (k : Fin 32) | xs (k : Fin 32) | xr (k : Fin 32)
  | li (j : Fin 2) | lo (j : Fin 2)
  deriving DecidableEq, Fintype

def csem : CK → SemLoc sig
  | .bar => .reg barS
  | .bar2 => .reg bar2S
  | .ys k => .dma (sem32 cc0_scratch0 k).sem
  | .yr k => .dma (sem32 cc0_scratch1 k).sem
  | .xs k => .dma (sem32 cc0_scratch2 k).sem
  | .xr k => .dma (sem32 cc0_scratch3 k).sem
  | .li j => .dma (sem2 cc0_scratch5 j).sem
  | .lo j => .dma (sem2 cc0_scratch6 j).sem

abbrev cell (c : Dev nD) (x : CK) : GSem nD τ sig := ((c : Thread nD τ), csem x)

theorem csem_injective : Function.Injective csem := by
  intro a b h
  revert a b
  decide

end Cert.KernelIdeal.AG
end
-- ==== Proof.KI.Sched.lean ====
import proofs.«900683_g7700000000000684_dist_ag_v7x_xyz2x2x4_y_m32768_n1024_f32_1_alg».proof.Defs
import proofs.«900683_g7700000000000684_dist_ag_v7x_xyz2x2x4_y_m32768_n1024_f32_1_alg».proof.Proof.Gen.KernelIdeal
import proofs.«900683_g7700000000000684_dist_ag_v7x_xyz2x2x4_y_m32768_n1024_f32_1_alg».proof.Proof.Gen.KernelIdeal.Skeleton
import proofs.«900683_g7700000000000684_dist_ag_v7x_xyz2x2x4_y_m32768_n1024_f32_1_alg».proof.Proof.Gen.KernelIdeal.Launch
import proofs.«900683_g7700000000000684_dist_ag_v7x_xyz2x2x4_y_m32768_n1024_f32_1_alg».proof.Proof.KI.Mesh
import proofs.«900683_g7700000000000684_dist_ag_v7x_xyz2x2x4_y_m32768_n1024_f32_1_alg».proof.Proof.KI.Base
import Idealize.ShloMosaic.Lib.Pipeline.Launch
import Idealize.ShloMosaic.Lib.Pipeline.Kit
import Idealize.ShloMosaic.Lib.Tactic
import Idealize.ShloMosaic.Lib.ValueIdx

noncomputable section

namespace Cert.KernelIdeal.AG

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

def srcDev (c : Dev nD) (row : ℕ) : Dev nD :=
  if row / 32768 = my c then c else if (row % 32768) / 16384 = mx c then py c else py (px c)

abbrev xArr (d : Dev nD) : Buf (Elt F) ((d : Thread nD τ).loc main_arg0) := m ((d : Thread nD τ).loc main_arg0)

def G (c : Dev nD) : Buf (Elt F) ((c : Thread nD τ).loc main_v1) := fun i =>
  xArr m (srcDev c (i 0).val) (ValueIdx.ix2 (⟨(i 0).val % 32768, Nat.mod_lt _ (by decide)⟩ : Fin 32768) (i 1))

def VB (c : Dev nD) (i : Fin 16) (j : Fin 2) : Buf (Elt F) ((c : Thread nD τ).loc cc0_scratch4) :=
  (vSl j).view.write (Elt F) (m ((c : Thread nD τ).loc cc0_scratch4)) ((lSrc i).view.read (Elt F) (xArr m c)) Finset.univ

abbrev qY : PosShare TreeShare := fullShare.left
abbrev qL : PosShare TreeShare := fullShare.right

def chunk (j : Fin 2) (r : ℕ) : Fin 16 := ⟨(2 * r + j.val) % 16, Nat.mod_lt _ (by decide)⟩

def barPayY (c : Dev nD) : sProp 𝕄 :=
  bigSep Finset.univ fun k : Fin 32 => iprop((∃ f, pts (yDst c k) (py c) fullShare f) ∗ reached ER (cell (py c) (.yr k)) 0)

def barPayX (c : Dev nD) : sProp 𝕄 :=
  bigSep Finset.univ fun k : Fin 32 => iprop((∃ f, pts (xBuf c k) (px c) fullShare f) ∗ reached ER (cell (px c) (.xr k)) 0)

def payloadK (c : Dev nD) : CK → ℕ → Bool → sProp 𝕄
  | .bar, _, false => barPayY c
  | .bar, _, true => barPayX c
  | .bar2, _, _ => iprop(emp)
  | .ys k, _, _ => pts (ySrc c k) c qY (xArr m c)
  | .yr k, _, _ => pts (yDst (py c) k) c fullShare (G m c)
  | .xs k, _, _ => pts (xBuf c k) c fullShare (G m c)
  | .xr k, _, _ => pts (xBuf (px c) k) c fullShare (G m c)
  | .li j, r, _ => iprop(pts (vSl j) c fullShare (VB m c (chunk j r) j) ∗ pts (lSrc (chunk j r)) c qL (xArr m c))
  | .lo j, r, _ => iprop(pts (lDst c (chunk j r)) c fullShare (G m c) ∗ pts (vSl j) c fullShare (VB m c (chunk j r) j))

def dutiesK : CK → ℕ → Finset Bool
  | .bar, 0 => Finset.univ
  | .bar2, 0 => Finset.univ
  | .ys _, 0 => {false}
  | .yr _, 0 => {false}
  | .xs _, 0 => {false}
  | .xr _, 0 => {false}
  | .li _, r => if r < 8 then {false} else ∅
  | .lo _, r => if r < 8 then {false} else ∅
  | _, _ => ∅

def N512 : ℕ := (yDst (0 : Dev nD) 0).view.dmaCredit
def NV : ℕ := (vSl 0).view.dmaCredit
def N2048 : ℕ := (lDst (0 : Dev nD) 0).view.dmaCredit

def amountK : CK → ℕ
  | .bar => 1
  | .bar2 => 1
  | .ys _ => N512
  | .yr _ => N512
  | .xs _ => N512
  | .xr _ => N512
  | .li _ => NV
  | .lo _ => N2048

theorem N512_pos : 0 < N512 := by unfold N512; exact View.dmaCredit_pos _ (by show 0 < 512 * 1024; omega)
theorem NV_pos : 0 < NV := by unfold NV; exact View.dmaCredit_pos _ (by show 0 < 2048 * 1024; omega)
theorem N2048_pos : 0 < N2048 := by unfold N2048; exact View.dmaCredit_pos _ (by show 0 < 2048 * 1024; omega)
theorem amountK_pos (x : CK) : 0 < amountK x := by
  cases x
  · exact Nat.one_pos
  · exact Nat.one_pos
  · exact N512_pos
  · exact N512_pos
  · exact N512_pos
  · exact N512_pos
  · exact NV_pos
  · exact N2048_pos

open Classical in

def ckOf (s : SemLoc sig) : Option CK := if h : ∃ x, csem x = s then some h.choose else none

theorem ckOf_csem (x : CK) : ckOf (csem x) = some x := by
  unfold ckOf
  have h : ∃ y, csem y = csem x := ⟨x, rfl⟩
  rw [dif_pos h]
  exact congrArg some (csem_injective h.choose_spec)

def Rd : Rounds.Schedule (GSem nD τ sig) Bool 𝕄 where
  duties g r := if g.1.2 = .tc then (match ckOf g.2 with | some x => dutiesK x r | none => ∅) else ∅
  unitless _ := False
  amount g _ _ := match ckOf g.2 with | some x => amountK x | none => 1
  payload g r d := match ckOf g.2 with | some x => payloadK m g.1.1 x r d | none => iprop(emp)
  amount_pos g _ _ _ := by
    cases h : ckOf g.2 with
    | none => simp only [h]; exact Nat.one_pos
    | some x => simp only [h]; exact amountK_pos x

instance payloadK_storable (c : Dev nD) (x : CK) (r : ℕ) (d : Bool) : BI.Storable (upEmb : UEmb _ 𝕄) (payloadK (F := F) m c x r d) := by
  cases x with
  | bar =>
    cases d
    · show BI.Storable upEmb (barPayY c); unfold barPayY; infer_instance
    · show BI.Storable upEmb (barPayX c); unfold barPayX; infer_instance
  | bar2 => show BI.Storable upEmb (iprop(emp) : sProp 𝕄); infer_instance
  | ys k => show BI.Storable upEmb (pts (ySrc c k) c qY (xArr m c)); infer_instance
  | yr k => show BI.Storable upEmb (pts (yDst (py c) k) c fullShare (G m c)); infer_instance
  | xs k => show BI.Storable upEmb (pts (xBuf c k) c fullShare (G m c)); infer_instance
  | xr k => show BI.Storable upEmb (pts (xBuf (px c) k) c fullShare (G m c)); infer_instance
  | li j => show BI.Storable upEmb (iprop(pts (vSl j) c fullShare (VB m c (chunk j r) j) ∗ pts (lSrc (chunk j r)) c qL (xArr m c))); infer_instance
  | lo j => show BI.Storable upEmb (iprop(pts (lDst c (chunk j r)) c fullShare (G m c) ∗ pts (vSl j) c fullShare (VB m c (chunk j r) j))); infer_instance

instance Rd_payload_storable (g : GSem nD τ sig) (r : ℕ) (d : Bool) :
    BI.Storable (upEmb : UEmb _ 𝕄) ((Rd (F := F) m).payload g r d) := by
  show BI.Storable upEmb (match ckOf g.2 with | some x => payloadK m g.1.1 x r d | none => iprop(emp))
  cases ckOf g.2 with
  | none => show BI.Storable upEmb (iprop(emp) : sProp 𝕄); infer_instance
  | some x => exact payloadK_storable m g.1.1 x r d

section Tables
variable (c : Dev nD)

omit [FloatOps F] in
theorem duties_cell (x : CK) (r : ℕ) : (Rd (F := F) m).duties (cell c x) r = dutiesK x r := by
  show (if ((c : Thread nD τ)).2 = .tc then (match ckOf (csem x) with | some x => dutiesK x r | none => ∅) else ∅) = _
  rw [if_pos rfl, ckOf_csem]
omit [FloatOps F] in
theorem amount_cell (x : CK) (r : ℕ) (d : Bool) : (Rd (F := F) m).amount (cell c x) r d = amountK x := by
  show (match ckOf (csem x) with | some x => amountK x | none => 1) = _
  rw [ckOf_csem]
omit [FloatOps F] in
theorem payload_cell (x : CK) (r : ℕ) (d : Bool) : (Rd (F := F) m).payload (cell c x) r d = payloadK m c x r d := by
  show (match ckOf (csem x) with | some x => payloadK m c x r d | none => iprop(emp)) = _
  rw [ckOf_csem]

omit [FloatOps F] in
theorem expect_cell (x : CK) (r : ℕ) : (Rd (F := F) m).expect (cell c x) r = (dutiesK x r).card * amountK x := by
  unfold Schedule.expect Schedule.amountOf
  rw [duties_cell, Finset.sum_congr rfl fun d _ => amount_cell m c x r d, Finset.sum_const, smul_eq_mul]

end Tables

end Cert.KernelIdeal.AG
end
-- ==== Proof.KI.Block.lean ====
import Idealize.ShloMosaic.Lib.Layout
import Idealize.ShloMosaic.Lib.ValueIdx

namespace Cert.KernelIdeal.AG

open Idealize.ShloMosaic

theorem meshLin_rows (d : Nat) : Layout.meshLin [2, 2, 4] d [1] = d / 4 % 2 := by
  simp [Layout.meshLin, Layout.meshCoord, Layout.cutSize]

theorem meshLin_cols (d : Nat) : Layout.meshLin [2, 2, 4] d [] = 0 := rfl

theorem blockN_apply {α : Type} (X : (⟨2, ![65536, 1024]⟩ : Shape).Idx → α) (d : Fin 16)
    (p : Fin 32768) (q : Fin 1024) :
    (Layout.blockN ⟨2, ![32768, 1024]⟩ ⟨2, ![65536, 1024]⟩ (Layout.meshBlock [2, 2, 4] ![[1], []] d) X)
        (ValueIdx.ix2 p q)
      = X (ValueIdx.ix2 ⟨32768 * (d.val / 4 % 2) + p.val, by have := p.isLt; omega⟩ q) := by
  rw [Layout.blockN_apply]
  congr 1
  funext b
  match b with
  | ⟨0, _⟩ =>
    apply Fin.ext
    rw [Layout.TilesN.idx_val]
    show Layout.meshLin [2, 2, 4] d.val [1] * 32768 + p.val = 32768 * (d.val / 4 % 2) + p.val
    rw [meshLin_rows]; omega
  | ⟨1, _⟩ =>
    apply Fin.ext
    rw [Layout.TilesN.idx_val]
    show Layout.meshLin [2, 2, 4] d.val [] * 1024 + q.val = q.val
    rw [meshLin_cols]; omega

end Cert.KernelIdeal.AG

/-- info: 'Cert.KernelIdeal.AG.blockN_apply' depends on axioms: [propext, Classical.choice, Quot.sound] -/
#guard_msgs in
#print axioms Cert.KernelIdeal.AG.blockN_apply
-- ==== Proof.KI.Whole.lean ====
import proofs.«900683_g7700000000000684_dist_ag_v7x_xyz2x2x4_y_m32768_n1024_f32_1_alg».proof.Proof.KI.Sched
import proofs.«900683_g7700000000000684_dist_ag_v7x_xyz2x2x4_y_m32768_n1024_f32_1_alg».proof.Proof.KI.Block

noncomputable section

namespace Cert.KernelIdeal.AG

open Cert.KernelIdeal Cert.KernelIdeal.Gen
open Idealize.ShloMosaic Idealize.ShloMosaic.TcCoe Idealize.SL.Sem

theorem my_srcDev (c : Dev nD) (r : ℕ) (hr : r < 65536) : my (srcDev c r) = r / 32768 := by
  have hc := my_lt c
  unfold srcDev
  split_ifs with h1 h2
  · exact h1.symm
  · rw [my_py]; omega
  · rw [my_py, my_px]; omega

theorem G_eq_whole {F : FTy → Type} [FloatOps F] (m : (ℓ : Loc nD τ sig) → Buf (Elt F) ℓ)
    (X : (⟨2, ![65536, 1024]⟩ : Shape).Idx → Elt F .f32)
    (h : ∀ d : Dev nD, m ((d : Thread nD τ).loc main_arg0)
      = Layout.blockN ⟨2, ![32768, 1024]⟩ ⟨2, ![65536, 1024]⟩ (Layout.meshBlock [2, 2, 4] ![[1], []] d) X)
    (c : Dev nD) : G m c = X := by
  funext i
  have hi : (i 0).val < 65536 := (i 0).isLt
  have hs := my_srcDev c (i 0).val hi
  unfold my at hs
  show m (((srcDev c (i 0).val : Dev nD) : Thread nD τ).loc main_arg0)
      (ValueIdx.ix2 (⟨(i 0).val % 32768, Nat.mod_lt _ (by decide)⟩ : Fin 32768) (i 1)) = X i
  rw [h (srcDev c (i 0).val)]
  rw [blockN_apply X (srcDev c (i 0).val) ⟨(i 0).val % 32768, Nat.mod_lt _ (by decide)⟩ (i 1)]
  conv_rhs => rw [ValueIdx.eq_ix2 i]
  congr 2
  apply Fin.ext
  show 32768 * ((srcDev c (i 0).val).val / 4 % 2) + (i 0).val % 32768 = (i 0).val
  rw [hs]; omega

end Cert.KernelIdeal.AG

end

/-- info: 'Cert.KernelIdeal.AG.G_eq_whole' depends on axioms: [propext, Classical.choice, Quot.sound] -/
#guard_msgs in
#print axioms Cert.KernelIdeal.AG.G_eq_whole
-- ==== Proof.KI.Proto.lean ====
import proofs.«900683_g7700000000000684_dist_ag_v7x_xyz2x2x4_y_m32768_n1024_f32_1_alg».proof.Defs
import proofs.«900683_g7700000000000684_dist_ag_v7x_xyz2x2x4_y_m32768_n1024_f32_1_alg».proof.Proof.Gen.KernelIdeal
import proofs.«900683_g7700000000000684_dist_ag_v7x_xyz2x2x4_y_m32768_n1024_f32_1_alg».proof.Proof.Gen.KernelIdeal.Skeleton
import proofs.«900683_g7700000000000684_dist_ag_v7x_xyz2x2x4_y_m32768_n1024_f32_1_alg».proof.Proof.Gen.KernelIdeal.Launch
import proofs.«900683_g7700000000000684_dist_ag_v7x_xyz2x2x4_y_m32768_n1024_f32_1_alg».proof.Proof.KI.Mesh
import proofs.«900683_g7700000000000684_dist_ag_v7x_xyz2x2x4_y_m32768_n1024_f32_1_alg».proof.Proof.KI.Sched
import Idealize.ShloMosaic.Lib.Pipeline.Launch
import Idealize.ShloMosaic.Lib.Pipeline.Kit
import Idealize.ShloMosaic.Lib.Tactic
import Idealize.ShloMosaic.Lib.ValueIdx

noncomputable section

namespace Cert.KernelIdeal.AG

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

inductive TK : Type
  | bar (d : Bool) | bar2 (d : Bool)
  | ys (k : Fin 32) | yr (k : Fin 32) | xs (k : Fin 32) | xr (k : Fin 32)
  | li (j : Fin 2) (r : Fin 8) | lo (j : Fin 2) (r : Fin 8)
  deriving DecidableEq, Fintype

def TK.ck : TK → CK
  | .bar _ => .bar | .bar2 _ => .bar2 | .ys k => .ys k | .yr k => .yr k | .xs k => .xs k | .xr k => .xr k
  | .li j _ => .li j | .lo j _ => .lo j
def TK.round : TK → ℕ
  | .li _ r => r.val | .lo _ r => r.val | _ => 0
def TK.duty : TK → Bool
  | .bar d => d | .bar2 d => d | _ => false

def payer (c : Dev nD) : TK → Dev nD
  | .bar false => py c | .bar true => px c | .bar2 false => py c | .bar2 true => px c
  | .yr _ => py c | .xr _ => px c
  | _ => c

theorem payer_payer (c : Dev nD) (t : TK) : payer (payer c t) t = c := by
  cases t with
  | bar d => cases d <;> simp only [payer, py_py, px_px]
  | bar2 d => cases d <;> simp only [payer, py_py, px_px]
  | yr k => simp only [payer, py_py]
  | xr k => simp only [payer, px_px]
  | _ => rfl

def tokP (c : Dev nD) (t : TK) : sProp 𝕄 := dutyTok ER (cell (payer c t) t.ck) t.round t.duty

def tokM (c : Dev nD) (t : TK) : sProp 𝕄 := dutyTok ER (cell c t.ck) t.round t.duty

def TK.owed : TK → Bool
  | .bar _ => true | .bar2 _ => true | .yr _ => true | .xr _ => true | _ => false

def owedSum (c : Dev nD) (S : Finset TK) : CellTallies nD τ sig Unit :=
  ∑ t ∈ S, tallyAt (cell (payer c t) t.ck) () (amountK t.ck)

def owedAll : Finset TK := Finset.univ.filter fun t => t.owed = true

def O₀ (c : Dev nD) : CellTallies nD τ sig Unit := owedSum c owedAll

theorem owedSum_erase (c : Dev nD) {S : Finset TK} {t : TK} (h : t ∈ S) :
    owedSum c S = owedSum c (S.erase t) + tallyAt (cell (payer c t) t.ck) () (amountK t.ck) := by
  unfold owedSum; rw [add_comm]; exact (Finset.add_sum_erase S _ h).symm

def L (g : GSem nD τ sig) : Finset Unit := if g.1.2 = .tc then {()} else ∅
def lvK : CK → ℕ
  | .bar => 1 | .yr _ => 2 | .xr _ => 3 | .bar2 => 4 | _ => 0
def lv (g : GSem nD τ sig) (_ : Unit) : ℕ := match ckOf g.2 with | some x => lvK x | none => 0

theorem L_of_ne (g : GSem nD τ sig) (h : g.1.2 ≠ .tc) : L g = ∅ := if_neg h
theorem L_tc (c : Dev nD) (sm : SemLoc sig) : L ((c : Thread nD τ), sm) = {()} := if_pos rfl
theorem lv_cell (c : Dev nD) (x : CK) (u : Unit) : lv (cell c x) u = lvK x := by
  show (match ckOf (csem x) with | some x => lvK x | none => 0) = _
  rw [ckOf_csem]

def records (K : Dev nD × CK → ℕ) : sProp 𝕄 :=
  iprop((bigSep Finset.univ fun cx : Dev nD × CK => cellInv ER (Rd m) (K cx) (cell cx.1 cx.2))
    ∗ bigSep Finset.univ fun cx : Dev nD × CK => reached ER (cell cx.1 cx.2) 0)

instance records_persistent (K : Dev nD × CK → ℕ) : BI.Persistent (records (F := F) m K) := by unfold records; infer_instance

def creds (c : Dev nD) : sProp 𝕄 :=
  iprop(cred (tallyAt (cell c .bar) () 2) ∗ cred (tallyAt (cell c .bar2) () 2)
    ∗ (bigSep Finset.univ fun k : Fin 32 => cred (tallyAt (cell c (.yr k)) () N512))
    ∗ (bigSep Finset.univ fun k : Fin 32 => cred (tallyAt (cell c (.xr k)) () N512)))

def ghost (K : Dev nD × CK → ℕ) (c : Dev nD) : sProp 𝕄 :=
  iprop(records m K ∗ (bigSep Finset.univ fun x : CK => atPos ER (cell c x) 0 ∅ 0) ∗ (bigSep Finset.univ fun t : TK => tokP c t))

def start (c : Dev nD) : sProp 𝕄 := iprop((∃ K, ghost m K c) ∗ creds c ∗ levAts L lv)

def Φ₀ (c : Dev nD) : sProp 𝕄 :=
  iprop(start m c ∗ pts xM c fullShare (xArr m c) ∗ pts oM c fullShare (m ((c : Thread nD τ).loc main_v1)) ∗ ∃ f, pts vM c fullShare f)

abbrev OK : Type := {x : CK // x ≠ CK.bar}
abbrev osem : OK → SemLoc sig := fun x => csem x.1

def Φ₁ (c : Dev nD) : sProp 𝕄 :=
  iprop(pts xM c fullShare (xArr m c) ∗ pts oM c fullShare (G m c) ∗ (∃ f, pts vM c fullShare f)
    ∗ bigSep Finset.univ fun x : OK => semVal (cell c x.1) 0)

def dats (_ : Fin 1) (c : Dev nD) : Dat τ (Elt F) Unit ℕ UU ℕ cfg0 c where
  A w := w.elim0
  after w _ := w.elim0
  Φ t := match t with
    | ⟨0, _⟩ => Φ₀ m c
    | ⟨_ + 1, _⟩ => Φ₁ m c
  q _ := fullShare
  owed t := match t with
    | ⟨0, _⟩ => O₀ c
    | ⟨_ + 1, _⟩ => 0

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

def bodyPre (K : Dev nD × CK → ℕ) (c : Dev nD) : sProp 𝕄 :=
  iprop(ghost m K c ∗ creds c ∗ levAts L lv
    ∗ pts xM c fullShare (xArr m c) ∗ pts oM c fullShare (m ((c : Thread nD τ).loc main_v1)) ∗ (∃ f, pts vM c fullShare f)
    ∗ (dats m 0 c).owesAt () t₀.castSucc)

def bodyPost (c : Dev nD) : sProp 𝕄 := iprop(Φ₁ m c ∗ (dats m 0 c).owesAt () t₀.succ)

abbrev bodyProg : Prog (TpuEff nD τ sig (Elt F) Λ₀ .tc) PUnit :=
  cc0_body (Memref.whole main_arg0) (Memref.isWhole_whole _) (Memref.whole main_v1) (Memref.isWhole_whole _) cc0_scratch0 cc0_scratch1 cc0_scratch2 cc0_scratch3
    (Memref.whole cc0_scratch4) (Memref.isWhole_whole _) cc0_scratch5 cc0_scratch6 cc0_scoped0

end Cert.KernelIdeal.AG
end
-- ==== Proof.KI.Bundles.lean ====
import proofs.«900683_g7700000000000684_dist_ag_v7x_xyz2x2x4_y_m32768_n1024_f32_1_alg».proof.Defs
import proofs.«900683_g7700000000000684_dist_ag_v7x_xyz2x2x4_y_m32768_n1024_f32_1_alg».proof.Proof.Gen.KernelIdeal
import proofs.«900683_g7700000000000684_dist_ag_v7x_xyz2x2x4_y_m32768_n1024_f32_1_alg».proof.Proof.Gen.KernelIdeal.Skeleton
import proofs.«900683_g7700000000000684_dist_ag_v7x_xyz2x2x4_y_m32768_n1024_f32_1_alg».proof.Proof.Gen.KernelIdeal.Launch
import proofs.«900683_g7700000000000684_dist_ag_v7x_xyz2x2x4_y_m32768_n1024_f32_1_alg».proof.Proof.KI.Mesh
import proofs.«900683_g7700000000000684_dist_ag_v7x_xyz2x2x4_y_m32768_n1024_f32_1_alg».proof.Proof.KI.Sched
import proofs.«900683_g7700000000000684_dist_ag_v7x_xyz2x2x4_y_m32768_n1024_f32_1_alg».proof.Proof.KI.Proto
import Idealize.ShloMosaic.Lib.Pipeline.Launch
import Idealize.ShloMosaic.Lib.Pipeline.Kit
import Idealize.ShloMosaic.Lib.Tactic
import Idealize.ShloMosaic.Lib.ValueIdx

noncomputable section

namespace Cert.KernelIdeal.AG

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

def ge (N n : ℕ) : Finset (Fin N) := Finset.univ.filter fun k => n ≤ k.val
def lt (N n : ℕ) : Finset (Fin N) := Finset.univ.filter fun k => k.val < n

theorem ge_zero (N : ℕ) : ge N 0 = Finset.univ := by ext k; simp [ge]
theorem lt_top (N : ℕ) : lt N N = Finset.univ := by ext k; simp [lt]
theorem lt_zero (N : ℕ) : lt N 0 = ∅ := by ext k; simp [lt]
theorem mem_ge {N n : ℕ} (hn : n < N) : (⟨n, hn⟩ : Fin N) ∈ ge N n := by simp [ge]
theorem ge_erase {N n : ℕ} (hn : n < N) : (ge N n).erase ⟨n, hn⟩ = ge N (n + 1) := by
  ext k; simp only [ge, Finset.mem_erase, Finset.mem_filter, Finset.mem_univ, true_and, ne_eq, Fin.ext_iff]; omega
theorem not_mem_lt {N n : ℕ} (hn : n < N) : (⟨n, hn⟩ : Fin N) ∉ lt N n := by simp [lt]
theorem lt_insert {N n : ℕ} (hn : n < N) : insert (⟨n, hn⟩ : Fin N) (lt N n) = lt N (n + 1) := by
  ext k; simp only [lt, Finset.mem_insert, Finset.mem_filter, Finset.mem_univ, true_and, Fin.ext_iff]; omega

omit [FloatOps F] in
theorem take_ge {N : ℕ} (Φ : Fin N → sProp 𝕄) (n : ℕ) (hn : n < N) :
    bigSep (ge N n) Φ = iprop(Φ ⟨n, hn⟩ ∗ bigSep (ge N (n + 1)) Φ) := by
  rw [bigSep_erase (mem_ge hn), ge_erase hn]; rfl
omit [FloatOps F] in
theorem put_lt {N : ℕ} (Φ : Fin N → sProp 𝕄) (n : ℕ) (hn : n < N) :
    iprop(Φ ⟨n, hn⟩ ∗ bigSep (lt N n) Φ) = bigSep (lt N (n + 1)) Φ := by
  rw [← lt_insert hn, bigSep_insert (not_mem_lt hn)]; rfl

def TK.ord : TK → ℕ
  | .bar false => 0 | .bar true => 1 | .yr k => 2 + k.val | .xr k => 34 + k.val | .bar2 false => 66 | .bar2 true => 67
  | _ => 0

def Sn (n : ℕ) : Finset TK := owedAll.filter fun t => n ≤ t.ord

theorem Sn_zero : Sn 0 = owedAll := by ext t; simp [Sn]

theorem owed_cases (a : TK) (ha : a.owed = true) :
    (a = .bar false ∧ a.ord = 0) ∨ (a = .bar true ∧ a.ord = 1) ∨ (∃ k, a = .yr k ∧ a.ord = 2 + k.val) ∨ (∃ k, a = .xr k ∧ a.ord = 34 + k.val)
      ∨ (a = .bar2 false ∧ a.ord = 66) ∨ (a = .bar2 true ∧ a.ord = 67) := by
  cases a with
  | bar d =>
    cases d
    · exact Or.inl ⟨rfl, rfl⟩
    · exact Or.inr (Or.inl ⟨rfl, rfl⟩)
  | bar2 d =>
    cases d
    · exact Or.inr (Or.inr (Or.inr (Or.inr (Or.inl ⟨rfl, rfl⟩))))
    · exact Or.inr (Or.inr (Or.inr (Or.inr (Or.inr ⟨rfl, rfl⟩))))
  | yr k => exact Or.inr (Or.inr (Or.inl ⟨k, rfl, rfl⟩))
  | xr k => exact Or.inr (Or.inr (Or.inr (Or.inl ⟨k, rfl, rfl⟩)))
  | ys k => exact absurd ha (by simp [TK.owed])
  | xs k => exact absurd ha (by simp [TK.owed])
  | li j r => exact absurd ha (by simp [TK.owed])
  | lo j r => exact absurd ha (by simp [TK.owed])

theorem ord_inj {t t' : TK} (h : t.owed = true) (h' : t'.owed = true) (e : t.ord = t'.ord) : t = t' := by
  rcases owed_cases t h with ⟨rfl, o⟩ | ⟨rfl, o⟩ | ⟨k, rfl, o⟩ | ⟨k, rfl, o⟩ | ⟨rfl, o⟩ | ⟨rfl, o⟩ <;>
  rcases owed_cases t' h' with ⟨rfl, o'⟩ | ⟨rfl, o'⟩ | ⟨k', rfl, o'⟩ | ⟨k', rfl, o'⟩ | ⟨rfl, o'⟩ | ⟨rfl, o'⟩ <;>
  first
    | rfl
    | (have hk : k = k' := Fin.ext (by omega); subst hk; rfl)
    | (exfalso; have := k.isLt; omega)
    | (exfalso; have := k'.isLt; omega)
    | (exfalso; omega)

theorem Sn_erase {n : ℕ} {t : TK} (ho : t.owed = true) (hn : t.ord = n) : (Sn n).erase t = Sn (n + 1) := by
  ext t'
  simp only [Sn, owedAll, Finset.mem_erase, Finset.mem_filter, Finset.mem_univ, true_and, ne_eq]
  constructor
  · rintro ⟨hne, ho', hle⟩
    refine ⟨ho', ?_⟩
    rcases Nat.lt_or_ge n t'.ord with h | h
    · exact h
    · exact absurd (ord_inj ho' ho (by omega)) hne
  · rintro ⟨ho', hle⟩
    exact ⟨fun e => by subst e; omega, ho', by omega⟩

theorem mem_Sn {n : ℕ} {t : TK} (ho : t.owed = true) (hn : t.ord = n) : t ∈ Sn n := by
  simp only [Sn, owedAll, Finset.mem_filter, Finset.mem_univ, true_and]; exact ⟨ho, by omega⟩

def minLv (n : ℕ) : ℕ := if n < 2 then 1 else if n < 34 then 2 else if n < 66 then 3 else 4

theorem lv_of_Sn {n : ℕ} {t : TK} (h : t ∈ Sn n) : minLv n ≤ lvK t.ck := by
  simp only [Sn, owedAll, Finset.mem_filter, Finset.mem_univ, true_and] at h
  obtain ⟨ho, hle⟩ := h
  unfold minLv
  cases t with
  | bar d => cases d <;> simp only [TK.ord, TK.ck, lvK] at hle ⊢ <;> (split_ifs <;> omega)
  | bar2 d => cases d <;> simp only [TK.ord, TK.ck, lvK] at hle ⊢ <;> (split_ifs <;> omega)
  | yr k => simp only [TK.ord, TK.ck, lvK] at hle ⊢; have := k.isLt; split_ifs <;> omega
  | xr k => simp only [TK.ord, TK.ck, lvK] at hle ⊢; have := k.isLt; split_ifs <;> omega
  | ys k => simp [TK.owed] at ho
  | xs k => simp [TK.owed] at ho
  | li j r => simp [TK.owed] at ho
  | lo j r => simp [TK.owed] at ho

theorem Sn_top : Sn 68 = ∅ := by
  ext t
  simp only [Sn, owedAll, Finset.mem_filter, Finset.mem_univ, true_and, Finset.notMem_empty, iff_false, not_and, not_le]
  intro ho
  cases t with
  | bar d => cases d <;> simp [TK.ord]
  | bar2 d => cases d <;> simp [TK.ord]
  | yr k => have := k.isLt; simp only [TK.ord]; omega
  | xr k => have := k.isLt; simp only [TK.ord]; omega
  | ys k => simp [TK.owed] at ho
  | xs k => simp [TK.owed] at ho
  | li j r => simp [TK.owed] at ho
  | lo j r => simp [TK.owed] at ho

variable (m : (ℓ : Loc nD τ sig) → Buf (Elt F) ℓ)

def toksK (c : Dev nD) : sProp 𝕄 :=
  iprop(tokP c (.bar false) ∗ tokP c (.bar true) ∗ tokP c (.bar2 false) ∗ tokP c (.bar2 true)
    ∗ (bigSep Finset.univ fun k : Fin 32 => tokP c (.ys k)) ∗ (bigSep Finset.univ fun k : Fin 32 => tokP c (.yr k))
    ∗ (bigSep Finset.univ fun k : Fin 32 => tokP c (.xs k)) ∗ (bigSep Finset.univ fun k : Fin 32 => tokP c (.xr k))
    ∗ (bigSep Finset.univ fun r : Fin 8 => tokP c (.li 0 r)) ∗ (bigSep Finset.univ fun r : Fin 8 => tokP c (.li 1 r))
    ∗ (bigSep Finset.univ fun r : Fin 8 => tokP c (.lo 0 r)) ∗ (bigSep Finset.univ fun r : Fin 8 => tokP c (.lo 1 r)))

def posK (c : Dev nD) : sProp 𝕄 :=
  iprop(atPos ER (cell c .bar) 0 ∅ 0 ∗ atPos ER (cell c .bar2) 0 ∅ 0
    ∗ (bigSep Finset.univ fun k : Fin 32 => atPos ER (cell c (.ys k)) 0 ∅ 0) ∗ (bigSep Finset.univ fun k : Fin 32 => atPos ER (cell c (.yr k)) 0 ∅ 0)
    ∗ (bigSep Finset.univ fun k : Fin 32 => atPos ER (cell c (.xs k)) 0 ∅ 0) ∗ (bigSep Finset.univ fun k : Fin 32 => atPos ER (cell c (.xr k)) 0 ∅ 0)
    ∗ atPos ER (cell c (.li 0)) 0 ∅ 0 ∗ atPos ER (cell c (.li 1)) 0 ∅ 0 ∗ atPos ER (cell c (.lo 0)) 0 ∅ 0 ∗ atPos ER (cell c (.lo 1)) 0 ∅ 0)

def semsK (c : Dev nD) : sProp 𝕄 :=
  iprop(semVal (cell c .bar2) 0
    ∗ (bigSep Finset.univ fun k : Fin 32 => semVal (cell c (.ys k)) 0) ∗ (bigSep Finset.univ fun k : Fin 32 => semVal (cell c (.yr k)) 0)
    ∗ (bigSep Finset.univ fun k : Fin 32 => semVal (cell c (.xs k)) 0) ∗ (bigSep Finset.univ fun k : Fin 32 => semVal (cell c (.xr k)) 0)
    ∗ semVal (cell c (.li 0)) 0 ∗ semVal (cell c (.li 1)) 0 ∗ semVal (cell c (.lo 0)) 0 ∗ semVal (cell c (.lo 1)) 0)

end Cert.KernelIdeal.AG
end
-- ==== Proof.KI.Regions.lean ====
import proofs.«900683_g7700000000000684_dist_ag_v7x_xyz2x2x4_y_m32768_n1024_f32_1_alg».proof.Proof.KI.Base
import Idealize.ShloMosaic.Rules.PointsTo
import Idealize.SL.BI.Region

noncomputable section

namespace Cert.KernelIdeal.AG

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

theorem yDst_py (c : Dev nD) (k : Fin 32) : yDst (py c) k = xBuf c k := by
  refine Memref.slice_unit_congr oM ?_ _ _ _ _
  rw [k0_off1_eq, k0_off3_eq]
  have h1 := mx_py c; have h2 := my_py c; have h3 := my_lt c
  unfold mx at h1; unfold my at h2 h3
  rw [h1, h2]
  congr 1
  omega

theorem pts_congr {sp : Space} {s : Shape} (M : Memref sig .tc sp s .f32) (t : Dev nD) (q : PosShare TreeShare)
    (f g : Buf (Elt F) (M.view.loc (t : Thread nD τ))) (h : ∀ i ∈ M.view.set, f i = g i) :
    (pts M t q f : sProp 𝕄) = pts M t q g :=
  pointsTo_congr h

theorem x_share (c : Dev nD) (f : Buf (Elt F) ((c : Thread nD τ).loc main_arg0)) :
    (pts xM c fullShare f : sProp 𝕄) ⊣⊢ iprop(pts xM c fullShare.left f ∗ pts xM c fullShare.right f) :=
  pointsTo_share (PosShare.mem_left_op_right fullShare)

theorem mem_o (off : Fin 2 → Nat) (sz : Fin 2 → Nat) (inb) (hs) (i : S65536x1024.Idx) :
    i ∈ (oM.slice (Rect.unit (s := S65536x1024) off sz inb) hs).view.set ↔ ∀ a, off a ≤ i a ∧ (i a : Nat) < off a + sz a := by
  show i ∈ ((View.whole main_v1).slice (Rect.unit (s := S65536x1024) off sz inb)).set ↔ _
  rw [View.set_slice_whole, Rect.mem_set_unit]
  exact Iff.rfl

theorem mem_x (off : Fin 2 → Nat) (sz : Fin 2 → Nat) (inb) (hs) (i : S32768x1024.Idx) :
    i ∈ (xM.slice (Rect.unit (s := S32768x1024) off sz inb) hs).view.set ↔ ∀ a, off a ≤ i a ∧ (i a : Nat) < off a + sz a := by
  show i ∈ ((View.whole main_arg0).slice (Rect.unit (s := S32768x1024) off sz inb)).set ↔ _
  rw [View.set_slice_whole, Rect.mem_set_unit]
  exact Iff.rfl

theorem band_iff {n : Nat} (r : Nat) (w : Nat) (i : (⟨2, ![n, 1024]⟩ : Shape).Idx) :
    (∀ a : Fin 2, (![r, 0] : Fin 2 → Nat) a ≤ i a ∧ (i a : Nat) < (![r, 0] : Fin 2 → Nat) a + (![w, 1024] : Fin 2 → Nat) a)
      ↔ r ≤ (i 0 : Nat) ∧ (i 0 : Nat) < r + w := by
  have h1 : ((i 1 : Fin 1024) : Nat) < 1024 := (i 1).isLt
  rw [Fin.forall_fin_two]
  simp only [Matrix.cons_val_zero, Matrix.cons_val_one, Nat.zero_le, Nat.zero_add, true_and]
  exact ⟨fun h => h.1, fun h => ⟨h, h1⟩⟩

theorem mem_lDst (c : Dev nD) (t : Fin 16) (i : S65536x1024.Idx) :
    i ∈ (lDst c t).view.set ↔ 32768 * my c + 2048 * t.val ≤ (i 0 : Nat) ∧ (i 0 : Nat) < 32768 * my c + 2048 * t.val + 2048 := by
  rw [mem_o, k0_off4_eq]; exact band_iff _ _ i
theorem mem_yDst (c : Dev nD) (k : Fin 32) (i : S65536x1024.Idx) :
    i ∈ (yDst c k).view.set ↔ 32768 * my c + 16384 * mx c + 512 * k.val ≤ (i 0 : Nat) ∧ (i 0 : Nat) < 32768 * my c + 16384 * mx c + 512 * k.val + 512 := by
  rw [mem_o, k0_off1_eq]; exact band_iff _ _ i
theorem mem_xBuf (c : Dev nD) (k : Fin 32) (i : S65536x1024.Idx) :
    i ∈ (xBuf c k).view.set ↔ (16384 * mx c + 512 * k.val + 32768) - 32768 * my c ≤ (i 0 : Nat) ∧ (i 0 : Nat) < (16384 * mx c + 512 * k.val + 32768) - 32768 * my c + 512 := by
  rw [mem_o, k0_off3_eq]; exact band_iff _ _ i
theorem mem_ySrc (c : Dev nD) (k : Fin 32) (i : S32768x1024.Idx) :
    i ∈ (ySrc c k).view.set ↔ 16384 * mx c + 512 * k.val ≤ (i 0 : Nat) ∧ (i 0 : Nat) < 16384 * mx c + 512 * k.val + 512 := by
  rw [mem_x, k0_off2_eq]; exact band_iff _ _ i
theorem mem_lSrc (t : Fin 16) (i : S32768x1024.Idx) :
    i ∈ (lSrc t).view.set ↔ 2048 * t.val ≤ (i 0 : Nat) ∧ (i 0 : Nat) < 2048 * t.val + 2048 := by
  rw [mem_x]; exact band_iff _ _ i

theorem mem_A (c : Dev nD) (i : S65536x1024.Idx) :
    i ∈ (Finset.univ.biUnion fun t : Fin 16 => (lDst c t).view.set)
      ↔ 32768 * my c ≤ (i 0 : Nat) ∧ (i 0 : Nat) < 32768 * my c + 32768 := by
  rw [Finset.mem_biUnion]
  constructor
  · rintro ⟨t, -, h⟩
    rw [mem_lDst] at h
    have := t.isLt
    omega
  · intro h
    refine ⟨⟨((i 0 : Nat) - 32768 * my c) / 2048, by omega⟩, Finset.mem_univ _, ?_⟩
    rw [mem_lDst]
    show 32768 * my c + 2048 * (((i 0 : Nat) - 32768 * my c) / 2048) ≤ _ ∧ _ < 32768 * my c + 2048 * (((i 0 : Nat) - 32768 * my c) / 2048) + 2048
    omega

theorem mem_B (c : Dev nD) (i : S65536x1024.Idx) :
    i ∈ (Finset.univ.biUnion fun k : Fin 32 => (yDst (py c) k).view.set)
      ↔ 32768 * (1 - my c) + 16384 * mx c ≤ (i 0 : Nat) ∧ (i 0 : Nat) < 32768 * (1 - my c) + 16384 * mx c + 16384 := by
  rw [Finset.mem_biUnion]
  constructor
  · rintro ⟨t, -, h⟩
    rw [mem_yDst, my_py, mx_py] at h
    have := t.isLt
    omega
  · intro h
    refine ⟨⟨((i 0 : Nat) - (32768 * (1 - my c) + 16384 * mx c)) / 512, by omega⟩, Finset.mem_univ _, ?_⟩
    rw [mem_yDst, my_py, mx_py]
    show 32768 * (1 - my c) + 16384 * mx c + 512 * (((i 0 : Nat) - (32768 * (1 - my c) + 16384 * mx c)) / 512) ≤ _ ∧ _ < 32768 * (1 - my c) + 16384 * mx c + 512 * (((i 0 : Nat) - (32768 * (1 - my c) + 16384 * mx c)) / 512) + 512
    omega

theorem mem_C (c : Dev nD) (i : S65536x1024.Idx) :
    i ∈ (Finset.univ.biUnion fun k : Fin 32 => (xBuf (px c) k).view.set)
      ↔ (16384 * (1 - mx c) + 32768) - 32768 * my c ≤ (i 0 : Nat) ∧ (i 0 : Nat) < (16384 * (1 - mx c) + 32768) - 32768 * my c + 16384 := by
  have hy := my_lt c
  rw [Finset.mem_biUnion]
  constructor
  · rintro ⟨t, -, h⟩
    rw [mem_xBuf, my_px, mx_px] at h
    have := t.isLt
    omega
  · intro h
    refine ⟨⟨((i 0 : Nat) - ((16384 * (1 - mx c) + 32768) - 32768 * my c)) / 512, by omega⟩, Finset.mem_univ _, ?_⟩
    rw [mem_xBuf, my_px, mx_px]
    show (16384 * (1 - mx c) + 512 * (((i 0 : Nat) - ((16384 * (1 - mx c) + 32768) - 32768 * my c)) / 512) + 32768) - 32768 * my c ≤ _ ∧ _ < (16384 * (1 - mx c) + 512 * (((i 0 : Nat) - ((16384 * (1 - mx c) + 32768) - 32768 * my c)) / 512) + 32768) - 32768 * my c + 512
    omega

theorem lDst_disjoint (c : Dev nD) (t t' : Fin 16) (h : t ≠ t') : Disjoint (lDst c t).view.set (lDst c t').view.set := by
  rw [Finset.disjoint_left]; intro i hi hi'
  rw [mem_lDst] at hi hi'
  exact h (Fin.ext (by omega))
theorem yDst_disjoint (c : Dev nD) (t t' : Fin 32) (h : t ≠ t') : Disjoint (yDst c t).view.set (yDst c t').view.set := by
  rw [Finset.disjoint_left]; intro i hi hi'
  rw [mem_yDst] at hi hi'
  exact h (Fin.ext (by omega))
theorem xBuf_disjoint (c : Dev nD) (t t' : Fin 32) (h : t ≠ t') : Disjoint (xBuf c t).view.set (xBuf c t').view.set := by
  have hy := my_lt c
  rw [Finset.disjoint_left]; intro i hi hi'
  rw [mem_xBuf] at hi hi'
  exact h (Fin.ext (by omega))
theorem ySrc_disjoint (c : Dev nD) (t t' : Fin 32) (h : t ≠ t') : Disjoint (ySrc c t).view.set (ySrc c t').view.set := by
  rw [Finset.disjoint_left]; intro i hi hi'
  rw [mem_ySrc] at hi hi'
  exact h (Fin.ext (by omega))
theorem lSrc_disjoint (t t' : Fin 16) (h : t ≠ t') : Disjoint (lSrc t).view.set (lSrc t').view.set := by
  rw [Finset.disjoint_left]; intro i hi hi'
  rw [mem_lSrc] at hi hi'
  exact h (Fin.ext (by omega))

theorem xM_set : xM.view.set = Finset.univ := View.set_whole main_arg0
theorem oM_set : oM.view.set = Finset.univ := View.set_whole main_v1
theorem vM_set : vM.view.set = Finset.univ := View.set_whole cc0_scratch4

theorem cover_L : xM.view.set = Finset.univ.biUnion fun t : Fin 16 => (lSrc t).view.set := by
  rw [xM_set]
  refine (Finset.eq_univ_iff_forall.mpr fun (i : S32768x1024.Idx) => ?_).symm
  have hi : (i 0 : Nat) < 32768 := (i 0).isLt
  rw [Finset.mem_biUnion]
  refine ⟨⟨(i 0 : Nat) / 2048, by omega⟩, Finset.mem_univ _, ?_⟩
  rw [mem_lSrc]
  show 2048 * ((i 0 : Nat) / 2048) ≤ _ ∧ _ < 2048 * ((i 0 : Nat) / 2048) + 2048
  omega

theorem cover_O (c : Dev nD) : oM.view.set
    = ((Finset.univ.biUnion fun t : Fin 16 => (lDst c t).view.set : Finset S65536x1024.Idx)
      ∪ ((Finset.univ.biUnion fun k : Fin 32 => (yDst (py c) k).view.set : Finset S65536x1024.Idx)
        ∪ (Finset.univ.biUnion fun k : Fin 32 => (xBuf (px c) k).view.set : Finset S65536x1024.Idx))) := by
  have hx := mx_lt c; have hy := my_lt c
  rw [oM_set]
  refine (Finset.eq_univ_iff_forall.mpr fun (i : S65536x1024.Idx) => ?_).symm
  have hi : (i 0 : Nat) < 65536 := (i 0).isLt
  rw [Finset.mem_union, Finset.mem_union, mem_A c i, mem_B c i, mem_C c i]
  omega

theorem disj_A_BC (c : Dev nD) : Disjoint (Finset.univ.biUnion fun t : Fin 16 => (lDst c t).view.set : Finset S65536x1024.Idx)
      ((Finset.univ.biUnion fun k : Fin 32 => (yDst (py c) k).view.set : Finset S65536x1024.Idx)
        ∪ (Finset.univ.biUnion fun k : Fin 32 => (xBuf (px c) k).view.set : Finset S65536x1024.Idx)) := by
  have hx := mx_lt c; have hy := my_lt c
  rw [Finset.disjoint_left]; intro i hi hi'
  rw [Finset.mem_union, mem_B c i, mem_C c i] at hi'
  rw [mem_A c i] at hi
  omega

theorem disj_B_C (c : Dev nD) : Disjoint (Finset.univ.biUnion fun k : Fin 32 => (yDst (py c) k).view.set : Finset S65536x1024.Idx)
      (Finset.univ.biUnion fun k : Fin 32 => (xBuf (px c) k).view.set : Finset S65536x1024.Idx) := by
  have hx := mx_lt c; have hy := my_lt c
  rw [Finset.disjoint_left]; intro i hi hi'
  rw [mem_B c i] at hi
  rw [mem_C c i] at hi'
  omega

theorem x_split_L (c : Dev nD) (q : PosShare TreeShare) (f : Buf (Elt F) ((c : Thread nD τ).loc main_arg0)) :
    (pts xM c q f : sProp 𝕄) ⊣⊢ bigSep Finset.univ fun i : Fin 16 => pts (lSrc i) c q f := by
  show (xM.view.loc (c : Thread nD τ) ↦[xM.view.set]{q} f : sProp 𝕄) ⊣⊢ _
  rw [cover_L]
  exact BiEntails.of_eq (pointsTo_biUnion _ _ fun t _ t' _ h => lSrc_disjoint t t' h)

theorem out_split (c : Dev nD) (f : Buf (Elt F) ((c : Thread nD τ).loc main_v1)) :
    (pts oM c fullShare f : sProp 𝕄) ⊣⊢ iprop((bigSep Finset.univ fun i : Fin 16 => pts (lDst c i) c fullShare f)
      ∗ (bigSep Finset.univ fun k : Fin 32 => pts (yDst (py c) k) c fullShare f)
      ∗ (bigSep Finset.univ fun k : Fin 32 => pts (xBuf (px c) k) c fullShare f)) := by
  show (oM.view.loc (c : Thread nD τ) ↦[oM.view.set]{fullShare} f : sProp 𝕄) ⊣⊢ _
  rw [cover_O c]
  refine (pointsTo_union (disj_A_BC c)).trans (sep_congr (BiEntails.of_eq ?_)
    ((pointsTo_union (disj_B_C c)).trans (sep_congr (BiEntails.of_eq ?_) (BiEntails.of_eq ?_))))
  · exact pointsTo_biUnion _ _ fun t _ t' _ h => lDst_disjoint c t t' h
  · exact pointsTo_biUnion _ _ fun t _ t' _ h => yDst_disjoint (py c) t t' h
  · exact pointsTo_biUnion _ _ fun t _ t' _ h => xBuf_disjoint (px c) t t' h

theorem x_split_Y (c : Dev nD) (q : PosShare TreeShare) (f : Buf (Elt F) ((c : Thread nD τ).loc main_arg0)) :
    (pts xM c q f : sProp 𝕄) ⊣⊢ iprop((bigSep Finset.univ fun k : Fin 32 => pts (ySrc c k) c q f)
      ∗ ((c : Thread nD τ).loc main_arg0 ↦[Finset.univ \ (Finset.univ.biUnion fun k : Fin 32 => (ySrc c k).view.set)]{q} f)) := by
  have e : (pts xM c q f : sProp 𝕄) = (xM.view.loc (c : Thread nD τ) ↦[Finset.univ]{q} f) := by
    show (xM.view.loc (c : Thread nD τ) ↦[xM.view.set]{q} f : sProp 𝕄) = _
    rw [xM_set]
  have k : (xM.view.loc (c : Thread nD τ) ↦[Finset.univ]{q} f : sProp 𝕄)
      ⊣⊢ iprop((xM.view.loc (c : Thread nD τ) ↦[Finset.univ.biUnion fun k : Fin 32 => (ySrc c k).view.set]{q} f)
        ∗ (xM.view.loc (c : Thread nD τ) ↦[Finset.univ \ (Finset.univ.biUnion fun k : Fin 32 => (ySrc c k).view.set)]{q} f)) :=
    pointsTo_split_subset (Finset.subset_univ _)
  have b : (xM.view.loc (c : Thread nD τ) ↦[Finset.univ.biUnion fun k : Fin 32 => (ySrc c k).view.set]{q} f : sProp 𝕄)
      = bigSep Finset.univ fun k : Fin 32 => pts (ySrc c k) c q f :=
    pointsTo_biUnion _ _ fun t _ t' _ h => ySrc_disjoint c t t' h
  rw [e]
  rw [b] at k
  exact k

theorem mem_vSl (j : Fin 2) (i : S2x2048x1024.Idx) : i ∈ (vSl j).view.set ↔ (i 0 : Nat) = j.val := by
  show i ∈ (((View.whole cc0_scratch4).slice (Rect.unit (s := S2x2048x1024) ![j.val, 0, 0] S1x2048x1024.size (inbV j))).reshape
    S2048x1024 Gen.squeezes_S1x2048x1024_S2048x1024.numel_eq).set ↔ _
  rw [View.set_reshape, View.set_slice_whole, Rect.mem_set_unit]
  have h1 : ((i 1 : Fin 2048) : Nat) < 2048 := (i 1).isLt
  have h2 : ((i 2 : Fin 1024) : Nat) < 1024 := (i 2).isLt
  constructor
  · intro h
    have h0 : j.val ≤ (i 0 : Nat) ∧ (i 0 : Nat) < j.val + 1 := h 0
    omega
  · intro h a
    fin_cases a
    · show j.val ≤ (i 0 : Nat) ∧ (i 0 : Nat) < j.val + 1
      omega
    · show 0 ≤ (i 1 : Nat) ∧ (i 1 : Nat) < 0 + 2048
      omega
    · show 0 ≤ (i 2 : Nat) ∧ (i 2 : Nat) < 0 + 1024
      omega

theorem cover_V : vM.view.set = ((vSl 0).view.set ∪ (vSl 1).view.set : Finset S2x2048x1024.Idx) := by
  rw [vM_set]
  refine (Finset.eq_univ_iff_forall.mpr fun (i : S2x2048x1024.Idx) => ?_).symm
  have hi : (i 0 : Nat) < 2 := (i 0).isLt
  rw [Finset.mem_union, mem_vSl 0 i, mem_vSl 1 i]
  show (i 0 : Nat) = 0 ∨ (i 0 : Nat) = 1
  omega

theorem vSl_disjoint : Disjoint ((vSl 0).view.set : Finset S2x2048x1024.Idx) (vSl 1).view.set := by
  rw [Finset.disjoint_left]; intro i hi hi'
  rw [mem_vSl] at hi hi'
  have h : ((0 : Fin 2) : Nat) = ((1 : Fin 2) : Nat) := hi.symm.trans hi'
  exact absurd h (by decide)

theorem v_split (c : Dev nD) (f : Buf (Elt F) ((c : Thread nD τ).loc cc0_scratch4)) :
    (pts vM c fullShare f : sProp 𝕄) ⊣⊢ iprop(pts (vSl 0) c fullShare f ∗ pts (vSl 1) c fullShare f) := by
  have e : (pts vM c fullShare f : sProp 𝕄)
      = (vM.view.loc (c : Thread nD τ) ↦[((vSl 0).view.set ∪ (vSl 1).view.set : Finset S2x2048x1024.Idx)]{fullShare} f) := by
    show (vM.view.loc (c : Thread nD τ) ↦[vM.view.set]{fullShare} f : sProp 𝕄) = _
    rw [cover_V]
  rw [e]
  exact pointsTo_union vSl_disjoint

theorem v_join (c : Dev nD) (f0 f1 : Buf (Elt F) ((c : Thread nD τ).loc cc0_scratch4)) :
    iprop(pts (vSl 0) c fullShare f0 ∗ pts (vSl 1) c fullShare f1) ⊢ (∃ f, pts vM c fullShare f : sProp 𝕄) := by
  have h : iprop((vM.view.loc (c : Thread nD τ) ↦[((vSl 0).view.set : Finset S2x2048x1024.Idx)]{fullShare} f0)
        ∗ (vM.view.loc (c : Thread nD τ) ↦[((vSl 1).view.set : Finset S2x2048x1024.Idx)]{fullShare} f1))
      ⊢ (vM.view.loc (c : Thread nD τ) ↦[((vSl 0).view.set ∪ (vSl 1).view.set : Finset S2x2048x1024.Idx)]{fullShare}
          (((vSl 1).view.set : Finset S2x2048x1024.Idx).piecewise f1 f0) : sProp 𝕄) :=
    pointsTo_join vSl_disjoint
  rw [← cover_V] at h
  exact exists_intro_trans (((vSl 1).view.set : Finset S2x2048x1024.Idx).piecewise f1 f0) h

/-- info: 'Cert.KernelIdeal.AG.out_split' depends on axioms: [propext, Classical.choice, Quot.sound] -/
#guard_msgs in #print axioms out_split
/-- info: 'Cert.KernelIdeal.AG.x_split_L' depends on axioms: [propext, Classical.choice, Quot.sound] -/
#guard_msgs in #print axioms x_split_L
/-- info: 'Cert.KernelIdeal.AG.x_split_Y' depends on axioms: [propext, Classical.choice, Quot.sound] -/
#guard_msgs in #print axioms x_split_Y
/-- info: 'Cert.KernelIdeal.AG.v_split' depends on axioms: [propext, Classical.choice, Quot.sound] -/
#guard_msgs in #print axioms v_split
/-- info: 'Cert.KernelIdeal.AG.yDst_py' depends on axioms: [propext, Classical.choice, Quot.sound] -/
#guard_msgs in #print axioms yDst_py
/-- info: 'Cert.KernelIdeal.AG.x_share' depends on axioms: [propext, Classical.choice, Quot.sound] -/
#guard_msgs in #print axioms x_share
/-- info: 'Cert.KernelIdeal.AG.pts_congr' depends on axioms: [propext, Classical.choice, Quot.sound] -/
#guard_msgs in #print axioms pts_congr
/-- info: 'Cert.KernelIdeal.AG.v_join' depends on axioms: [propext, Classical.choice, Quot.sound] -/
#guard_msgs in #print axioms v_join

end Cert.KernelIdeal.AG
end
-- ==== Proof.KI.Values.lean ====
import proofs.«900683_g7700000000000684_dist_ag_v7x_xyz2x2x4_y_m32768_n1024_f32_1_alg».proof.Proof.KI.Sched
import proofs.«900683_g7700000000000684_dist_ag_v7x_xyz2x2x4_y_m32768_n1024_f32_1_alg».proof.Proof.KI.Regions
import Idealize.ShloMosaic.Lib.Pipeline.Value

noncomputable section

namespace Cert.KernelIdeal.AG

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

theorem srcDev_own (c : Dev nD) (row : ℕ) (h : row / 32768 = my c) : srcDev c row = c := by
  unfold srcDev; rw [if_pos h]
theorem srcDev_y (c : Dev nD) (row : ℕ) (h1 : row / 32768 ≠ my c) (h2 : row % 32768 / 16384 = mx c) : srcDev c row = py c := by
  unfold srcDev; rw [if_neg h1, if_pos h2]
theorem srcDev_x (c : Dev nD) (row : ℕ) (h1 : row / 32768 ≠ my c) (h2 : row % 32768 / 16384 ≠ mx c) : srcDev c row = py (px c) := by
  unfold srcDev; rw [if_neg h1, if_neg h2]

theorem G_eq (m : (ℓ : Loc nD τ sig) → Buf (Elt F) ℓ) (c d : Dev nD) (i : S65536x1024.Idx) (r : Fin 32768)
    (hd : srcDev c (i 0).val = d) (hr : (i 0).val % 32768 = r.val) :
    G m c i = xArr m d (ValueIdx.ix2 r (i 1)) := by
  subst hd
  have e : (⟨(i 0).val % 32768, Nat.mod_lt _ (by decide)⟩ : Fin 32768) = r := Fin.ext hr
  rw [← e]
  rfl

theorem yDst_emb (c : Dev nD) (k : Fin 32) (x : S512x1024.Idx) :
    ((((yDst c k).view.emb x : S65536x1024.Idx) 0 : Nat) = 32768 * my c + 16384 * mx c + 512 * k.val + (x 0 : Nat))
      ∧ ((((yDst c k).view.emb x : S65536x1024.Idx) 1 : Nat) = (x 1 : Nat)) := by
  constructor
  · show k0_off1 c (BitVec.ofNat 32 (512 * k.val)) 0 + 1 * (x 0 : Nat) = _
    rw [k0_off1_eq]
    show 32768 * my c + 16384 * mx c + 512 * k.val + 1 * (x 0 : Nat) = _
    omega
  · show k0_off1 c (BitVec.ofNat 32 (512 * k.val)) 1 + 1 * (x 1 : Nat) = _
    rw [k0_off1_eq]
    show 0 + 1 * (x 1 : Nat) = _
    omega

theorem xBuf_emb (c : Dev nD) (k : Fin 32) (x : S512x1024.Idx) :
    ((((xBuf c k).view.emb x : S65536x1024.Idx) 0 : Nat) = (16384 * mx c + 512 * k.val + 32768) - 32768 * my c + (x 0 : Nat))
      ∧ ((((xBuf c k).view.emb x : S65536x1024.Idx) 1 : Nat) = (x 1 : Nat)) := by
  constructor
  · show k0_off3 c (BitVec.ofNat 32 (512 * k.val)) 0 + 1 * (x 0 : Nat) = _
    rw [k0_off3_eq]
    show (16384 * mx c + 512 * k.val + 32768) - 32768 * my c + 1 * (x 0 : Nat) = _
    omega
  · show k0_off3 c (BitVec.ofNat 32 (512 * k.val)) 1 + 1 * (x 1 : Nat) = _
    rw [k0_off3_eq]
    show 0 + 1 * (x 1 : Nat) = _
    omega

theorem lDst_emb (c : Dev nD) (t : Fin 16) (x : S2048x1024.Idx) :
    ((((lDst c t).view.emb x : S65536x1024.Idx) 0 : Nat) = 32768 * my c + 2048 * t.val + (x 0 : Nat))
      ∧ ((((lDst c t).view.emb x : S65536x1024.Idx) 1 : Nat) = (x 1 : Nat)) := by
  constructor
  · show k0_off4 c (BitVec.ofNat 32 (2048 * t.val)) 0 + 1 * (x 0 : Nat) = _
    rw [k0_off4_eq]
    show 32768 * my c + 2048 * t.val + 1 * (x 0 : Nat) = _
    omega
  · show k0_off4 c (BitVec.ofNat 32 (2048 * t.val)) 1 + 1 * (x 1 : Nat) = _
    rw [k0_off4_eq]
    show 0 + 1 * (x 1 : Nat) = _
    omega

theorem ySrc_emb (c : Dev nD) (k : Fin 32) (x : S512x1024.Idx) :
    ((((ySrc c k).view.emb x : S32768x1024.Idx) 0 : Nat) = 16384 * mx c + 512 * k.val + (x 0 : Nat))
      ∧ ((((ySrc c k).view.emb x : S32768x1024.Idx) 1 : Nat) = (x 1 : Nat)) := by
  constructor
  · show k0_off2 c (BitVec.ofNat 32 (512 * k.val)) 0 + 1 * (x 0 : Nat) = _
    rw [k0_off2_eq]
    show 16384 * mx c + 512 * k.val + 1 * (x 0 : Nat) = _
    omega
  · show k0_off2 c (BitVec.ofNat 32 (512 * k.val)) 1 + 1 * (x 1 : Nat) = _
    rw [k0_off2_eq]
    show 0 + 1 * (x 1 : Nat) = _
    omega

theorem lSrc_emb (t : Fin 16) (x : S2048x1024.Idx) :
    ((((lSrc t).view.emb x : S32768x1024.Idx) 0 : Nat) = 2048 * t.val + (x 0 : Nat))
      ∧ ((((lSrc t).view.emb x : S32768x1024.Idx) 1 : Nat) = (x 1 : Nat)) := by
  constructor
  · show 2048 * t.val + 1 * (x 0 : Nat) = _
    omega
  · show 0 + 1 * (x 1 : Nat) = _
    omega

theorem write_read_emb {Val : EltTy → Type} {κ : Kind} {sp sp' : Space} {s : Shape} {e : EltTy}
    (v : View sig κ sp s e) (v' : View sig κ sp' s e) (fd : v.ty.Contents Val) (g : v'.ty.Contents Val) (x : s.Idx) :
    HEq (v.write Val fd (v'.read Val g) Finset.univ (v.emb x)) (g (v'.emb x)) := by
  rw [View.write_emb_of_mem _ _ (Finset.mem_univ x), View.read_apply, cast_cast]
  exact cast_heq _ _

theorem land_Y (m : (ℓ : Loc nD τ sig) → Buf (Elt F) ℓ) (c : Dev nD) (k : Fin 32)
    (fd : Buf (Elt F) ((yDst c k).view.loc ((py c : Dev nD) : Thread nD τ))) :
    (pts (yDst c k) (py c) fullShare ((yDst c k).view.write (Elt F) fd ((ySrc c k).view.read (Elt F) (xArr m c)) Finset.univ) : sProp 𝕄)
      = pts (yDst c k) (py c) fullShare (G m (py c)) := by
  refine pts_congr (yDst c k) (py c) fullShare _ _ fun i hi => ?_
  obtain ⟨x, rfl⟩ := View.exists_emb_of_mem_set (yDst c k).view hi
  refine (eq_of_heq (write_read_emb (yDst c k).view (ySrc c k).view fd (xArr m c) x)).trans ?_
  obtain ⟨hy0, hy1⟩ := yDst_emb c k x
  obtain ⟨hs0, hs1⟩ := ySrc_emb c k x
  have hx := mx_lt c; have hy := my_lt c
  have hx0 : (x 0 : Nat) < 512 := (x 0).isLt
  have hk := k.isLt
  have hd : srcDev (py c) (((yDst c k).view.emb x : S65536x1024.Idx) 0).val = c := by
    rw [hy0]
    have e1 : (32768 * my c + 16384 * mx c + 512 * k.val + (x 0 : Nat)) / 32768 ≠ my (py c) := by rw [my_py]; omega
    have e2 : (32768 * my c + 16384 * mx c + 512 * k.val + (x 0 : Nat)) % 32768 / 16384 = mx (py c) := by rw [mx_py]; omega
    rw [srcDev_y _ _ e1 e2, py_py]
  have hr : (((yDst c k).view.emb x : S65536x1024.Idx) 0).val % 32768
      = (⟨16384 * mx c + 512 * k.val + (x 0 : Nat), by omega⟩ : Fin 32768).val := by
    rw [hy0]; show _ = 16384 * mx c + 512 * k.val + (x 0 : Nat); omega
  rw [G_eq m (py c) c _ _ hd hr]
  exact congrArg (xArr m c) (Shape.idx_ext₂ hs0 (hs1.trans hy1.symm))

theorem land_X (m : (ℓ : Loc nD τ sig) → Buf (Elt F) ℓ) (c : Dev nD) (k : Fin 32)
    (fd : Buf (Elt F) ((xBuf c k).view.loc ((px c : Dev nD) : Thread nD τ))) :
    (pts (xBuf c k) (px c) fullShare ((xBuf c k).view.write (Elt F) fd ((xBuf c k).view.read (Elt F) (G m c)) Finset.univ) : sProp 𝕄)
      = pts (xBuf c k) (px c) fullShare (G m (px c)) := by
  refine pts_congr (xBuf c k) (px c) fullShare _ _ fun i hi => ?_
  obtain ⟨x, rfl⟩ := View.exists_emb_of_mem_set (xBuf c k).view hi
  refine (eq_of_heq (write_read_emb (xBuf c k).view (xBuf c k).view fd (G m c) x)).trans ?_
  obtain ⟨h0, h1⟩ := xBuf_emb c k x
  have hx := mx_lt c; have hy := my_lt c
  have hx0 : (x 0 : Nat) < 512 := (x 0).isLt
  have hk := k.isLt
  have hd1 : srcDev c (((xBuf c k).view.emb x : S65536x1024.Idx) 0).val = py c := by
    rw [h0]
    have e1 : ((16384 * mx c + 512 * k.val + 32768) - 32768 * my c + (x 0 : Nat)) / 32768 ≠ my c := by omega
    have e2 : ((16384 * mx c + 512 * k.val + 32768) - 32768 * my c + (x 0 : Nat)) % 32768 / 16384 = mx c := by omega
    rw [srcDev_y _ _ e1 e2]
  have hd2 : srcDev (px c) (((xBuf c k).view.emb x : S65536x1024.Idx) 0).val = py c := by
    rw [h0]
    have e1 : ((16384 * mx c + 512 * k.val + 32768) - 32768 * my c + (x 0 : Nat)) / 32768 ≠ my (px c) := by rw [my_px]; omega
    have e2 : ((16384 * mx c + 512 * k.val + 32768) - 32768 * my c + (x 0 : Nat)) % 32768 / 16384 ≠ mx (px c) := by rw [mx_px]; omega
    rw [srcDev_x _ _ e1 e2, px_px]
  have hr : (((xBuf c k).view.emb x : S65536x1024.Idx) 0).val % 32768
      = (⟨16384 * mx c + 512 * k.val + (x 0 : Nat), by omega⟩ : Fin 32768).val := by
    rw [h0]; show _ = 16384 * mx c + 512 * k.val + (x 0 : Nat); omega
  exact (G_eq m c (py c) _ _ hd1 hr).trans (G_eq m (px c) (py c) _ _ hd2 hr).symm

theorem land_in (m : (ℓ : Loc nD τ sig) → Buf (Elt F) ℓ) (c : Dev nD) (i : Fin 16) (j : Fin 2)
    (fd : Buf (Elt F) ((c : Thread nD τ).loc cc0_scratch4)) :
    (pts (vSl j) c fullShare ((vSl j).view.write (Elt F) fd ((lSrc i).view.read (Elt F) (xArr m c)) Finset.univ) : sProp 𝕄)
      = pts (vSl j) c fullShare (VB m c i j) := by
  refine pts_congr (vSl j) c fullShare _ _ fun i' hi => ?_
  obtain ⟨x, rfl⟩ := View.exists_emb_of_mem_set (vSl j).view hi
  exact (View.write_emb_of_mem _ _ (Finset.mem_univ x)).trans
    (View.write_emb_of_mem (v := (vSl j).view) (m ((c : Thread nD τ).loc cc0_scratch4)) ((lSrc i).view.read (Elt F) (xArr m c))
      (Finset.mem_univ x)).symm

theorem land_out (m : (ℓ : Loc nD τ sig) → Buf (Elt F) ℓ) (c : Dev nD) (i : Fin 16) (j : Fin 2)
    (fd : Buf (Elt F) ((c : Thread nD τ).loc main_v1)) :
    (pts (lDst c i) c fullShare ((lDst c i).view.write (Elt F) fd ((vSl j).view.read (Elt F) (VB m c i j)) Finset.univ) : sProp 𝕄)
      = pts (lDst c i) c fullShare (G m c) := by
  have hrd : (vSl j).view.read (Elt F) (VB m c i j) = (lSrc i).view.read (Elt F) (xArr m c) := View.read_write_univ _ _
  rw [hrd]
  refine pts_congr (lDst c i) c fullShare _ _ fun i' hi' => ?_
  obtain ⟨x, rfl⟩ := View.exists_emb_of_mem_set (lDst c i).view hi'
  refine (eq_of_heq (write_read_emb (lDst c i).view (lSrc i).view fd (xArr m c) x)).trans ?_
  obtain ⟨hd0, hd1⟩ := lDst_emb c i x
  obtain ⟨hs0, hs1⟩ := lSrc_emb i x
  have hy := my_lt c
  have hx0 : (x 0 : Nat) < 2048 := (x 0).isLt
  have hil := i.isLt
  have hd : srcDev c (((lDst c i).view.emb x : S65536x1024.Idx) 0).val = c := by
    rw [hd0]; exact srcDev_own c _ (by omega)
  have hr : (((lDst c i).view.emb x : S65536x1024.Idx) 0).val % 32768
      = (⟨2048 * i.val + (x 0 : Nat), by omega⟩ : Fin 32768).val := by
    rw [hd0]; show _ = 2048 * i.val + (x 0 : Nat); omega
  rw [G_eq m c c _ _ hd hr]
  exact congrArg (xArr m c) (Shape.idx_ext₂ hs0 (hs1.trans hd1.symm))

theorem yr_as_xBuf (m : (ℓ : Loc nD τ sig) → Buf (Elt F) ℓ) (c : Dev nD) (k : Fin 32) :
    (pts (yDst (py c) k) c fullShare (G m c) : sProp 𝕄) = pts (xBuf c k) c fullShare (G m c) := by
  have hs : ((yDst (py c) k).view.set : Finset S65536x1024.Idx) = (xBuf c k).view.set := by
    have hy := my_lt c
    ext i
    rw [mem_yDst, mem_xBuf, my_py, mx_py]
    omega
  show (oM.view.loc (c : Thread nD τ) ↦[(yDst (py c) k).view.set]{fullShare} (G m c) : sProp 𝕄)
    = (oM.view.loc (c : Thread nD τ) ↦[(xBuf c k).view.set]{fullShare} (G m c))
  rw [hs]

/-- info: 'Cert.KernelIdeal.AG.land_Y' depends on axioms: [propext, Classical.choice, Quot.sound] -/
#guard_msgs in #print axioms land_Y
/-- info: 'Cert.KernelIdeal.AG.land_X' depends on axioms: [propext, Classical.choice, Quot.sound] -/
#guard_msgs in #print axioms land_X
/-- info: 'Cert.KernelIdeal.AG.land_in' depends on axioms: [propext, Classical.choice, Quot.sound] -/
#guard_msgs in #print axioms land_in
/-- info: 'Cert.KernelIdeal.AG.land_out' depends on axioms: [propext, Classical.choice, Quot.sound] -/
#guard_msgs in #print axioms land_out
/-- info: 'Cert.KernelIdeal.AG.yr_as_xBuf' depends on axioms: [propext, Classical.choice, Quot.sound] -/
#guard_msgs in #print axioms yr_as_xBuf

end Cert.KernelIdeal.AG
end
-- ==== Proof.KI.Split.lean ====
import proofs.«900683_g7700000000000684_dist_ag_v7x_xyz2x2x4_y_m32768_n1024_f32_1_alg».proof.Proof.KI.Bundles
import Idealize.SL.BI.BigOp
import Mathlib.Logic.Equiv.Defs
import Mathlib.Tactic.FinCases

noncomputable section

namespace Cert.KernelIdeal.AG

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

section Sums

universe u
variable {M : Type u} [URA M]

def tkE : (Unit ⊕ Unit ⊕ Unit ⊕ Unit ⊕ Fin 32 ⊕ Fin 32 ⊕ Fin 32 ⊕ Fin 32 ⊕ Fin 8 ⊕ Fin 8 ⊕ Fin 8 ⊕ Fin 8) ≃ TK where
  toFun
    | .inl _ => .bar false
    | .inr (.inl _) => .bar true
    | .inr (.inr (.inl _)) => .bar2 false
    | .inr (.inr (.inr (.inl _))) => .bar2 true
    | .inr (.inr (.inr (.inr (.inl k)))) => .ys k
    | .inr (.inr (.inr (.inr (.inr (.inl k))))) => .yr k
    | .inr (.inr (.inr (.inr (.inr (.inr (.inl k)))))) => .xs k
    | .inr (.inr (.inr (.inr (.inr (.inr (.inr (.inl k))))))) => .xr k
    | .inr (.inr (.inr (.inr (.inr (.inr (.inr (.inr (.inl r)))))))) => .li 0 r
    | .inr (.inr (.inr (.inr (.inr (.inr (.inr (.inr (.inr (.inl r))))))))) => .li 1 r
    | .inr (.inr (.inr (.inr (.inr (.inr (.inr (.inr (.inr (.inr (.inl r)))))))))) => .lo 0 r
    | .inr (.inr (.inr (.inr (.inr (.inr (.inr (.inr (.inr (.inr (.inr (r))))))))))) => .lo 1 r
  invFun
    | .bar false => .inl ()
    | .bar true => .inr (.inl ())
    | .bar2 false => .inr (.inr (.inl ()))
    | .bar2 true => .inr (.inr (.inr (.inl ())))
    | .ys k => .inr (.inr (.inr (.inr (.inl k))))
    | .yr k => .inr (.inr (.inr (.inr (.inr (.inl k)))))
    | .xs k => .inr (.inr (.inr (.inr (.inr (.inr (.inl k))))))
    | .xr k => .inr (.inr (.inr (.inr (.inr (.inr (.inr (.inl k)))))))
    | .li ⟨0, _⟩ r => .inr (.inr (.inr (.inr (.inr (.inr (.inr (.inr (.inl r))))))))
    | .li ⟨1, _⟩ r => .inr (.inr (.inr (.inr (.inr (.inr (.inr (.inr (.inr (.inl r)))))))))
    | .lo ⟨0, _⟩ r => .inr (.inr (.inr (.inr (.inr (.inr (.inr (.inr (.inr (.inr (.inl r))))))))))
    | .lo ⟨1, _⟩ r => .inr (.inr (.inr (.inr (.inr (.inr (.inr (.inr (.inr (.inr (.inr (r)))))))))))
  left_inv := by
    rintro (_ | _ | _ | _ | k | k | k | k | r | r | r | r) <;> rfl
  right_inv := by
    intro t
    cases t with
    | bar d => cases d <;> rfl
    | bar2 d => cases d <;> rfl
    | li j r => fin_cases j <;> rfl
    | lo j r => fin_cases j <;> rfl
    | _ => rfl

def ckE : (Unit ⊕ Unit ⊕ Fin 32 ⊕ Fin 32 ⊕ Fin 32 ⊕ Fin 32 ⊕ Unit ⊕ Unit ⊕ Unit ⊕ Unit) ≃ CK where
  toFun
    | .inl _ => .bar
    | .inr (.inl _) => .bar2
    | .inr (.inr (.inl k)) => .ys k
    | .inr (.inr (.inr (.inl k))) => .yr k
    | .inr (.inr (.inr (.inr (.inl k)))) => .xs k
    | .inr (.inr (.inr (.inr (.inr (.inl k))))) => .xr k
    | .inr (.inr (.inr (.inr (.inr (.inr (.inl _)))))) => .li 0
    | .inr (.inr (.inr (.inr (.inr (.inr (.inr (.inl _))))))) => .li 1
    | .inr (.inr (.inr (.inr (.inr (.inr (.inr (.inr (.inl _)))))))) => .lo 0
    | .inr (.inr (.inr (.inr (.inr (.inr (.inr (.inr (.inr (_))))))))) => .lo 1
  invFun
    | .bar => .inl ()
    | .bar2 => .inr (.inl ())
    | .ys k => .inr (.inr (.inl k))
    | .yr k => .inr (.inr (.inr (.inl k)))
    | .xs k => .inr (.inr (.inr (.inr (.inl k))))
    | .xr k => .inr (.inr (.inr (.inr (.inr (.inl k)))))
    | .li ⟨0, _⟩ => .inr (.inr (.inr (.inr (.inr (.inr (.inl ()))))))
    | .li ⟨1, _⟩ => .inr (.inr (.inr (.inr (.inr (.inr (.inr (.inl ())))))))
    | .lo ⟨0, _⟩ => .inr (.inr (.inr (.inr (.inr (.inr (.inr (.inr (.inl ()))))))))
    | .lo ⟨1, _⟩ => .inr (.inr (.inr (.inr (.inr (.inr (.inr (.inr (.inr (())))))))))
  left_inv := by
    rintro (_ | _ | k | k | k | k | _ | _ | _ | _) <;> rfl
  right_inv := by
    intro x
    cases x with
    | li j => fin_cases j <;> rfl
    | lo j => fin_cases j <;> rfl
    | _ => rfl

def okE : (Unit ⊕ Fin 32 ⊕ Fin 32 ⊕ Fin 32 ⊕ Fin 32 ⊕ Unit ⊕ Unit ⊕ Unit ⊕ Unit) ≃ OK where
  toFun
    | .inl _ => ⟨.bar2, by intro h; cases h⟩
    | .inr (.inl k) => ⟨.ys k, by intro h; cases h⟩
    | .inr (.inr (.inl k)) => ⟨.yr k, by intro h; cases h⟩
    | .inr (.inr (.inr (.inl k))) => ⟨.xs k, by intro h; cases h⟩
    | .inr (.inr (.inr (.inr (.inl k)))) => ⟨.xr k, by intro h; cases h⟩
    | .inr (.inr (.inr (.inr (.inr (.inl _))))) => ⟨.li 0, by intro h; cases h⟩
    | .inr (.inr (.inr (.inr (.inr (.inr (.inl _)))))) => ⟨.li 1, by intro h; cases h⟩
    | .inr (.inr (.inr (.inr (.inr (.inr (.inr (.inl _))))))) => ⟨.lo 0, by intro h; cases h⟩
    | .inr (.inr (.inr (.inr (.inr (.inr (.inr (.inr (_)))))))) => ⟨.lo 1, by intro h; cases h⟩
  invFun
    | ⟨.bar, h⟩ => absurd rfl h
    | ⟨.bar2, _⟩ => .inl ()
    | ⟨.ys k, _⟩ => .inr (.inl k)
    | ⟨.yr k, _⟩ => .inr (.inr (.inl k))
    | ⟨.xs k, _⟩ => .inr (.inr (.inr (.inl k)))
    | ⟨.xr k, _⟩ => .inr (.inr (.inr (.inr (.inl k))))
    | ⟨.li ⟨0, _⟩, _⟩ => .inr (.inr (.inr (.inr (.inr (.inl ())))))
    | ⟨.li ⟨1, _⟩, _⟩ => .inr (.inr (.inr (.inr (.inr (.inr (.inl ()))))))
    | ⟨.lo ⟨0, _⟩, _⟩ => .inr (.inr (.inr (.inr (.inr (.inr (.inr (.inl ())))))))
    | ⟨.lo ⟨1, _⟩, _⟩ => .inr (.inr (.inr (.inr (.inr (.inr (.inr (.inr (()))))))))
  left_inv := by
    rintro (_ | k | k | k | k | _ | _ | _ | _) <;> rfl
  right_inv := by
    rintro ⟨x, hx⟩
    cases x with
    | bar => exact absurd rfl hx
    | li j => fin_cases j <;> rfl
    | lo j => fin_cases j <;> rfl
    | _ => rfl

theorem bigSep_TK (Φ : TK → sProp M) :
    bigSep Finset.univ Φ
      = iprop(Φ (.bar false) ∗ Φ (.bar true) ∗ Φ (.bar2 false) ∗ Φ (.bar2 true)
        ∗ (bigSep Finset.univ fun k : Fin 32 => Φ (.ys k)) ∗ (bigSep Finset.univ fun k : Fin 32 => Φ (.yr k))
        ∗ (bigSep Finset.univ fun k : Fin 32 => Φ (.xs k)) ∗ (bigSep Finset.univ fun k : Fin 32 => Φ (.xr k))
        ∗ (bigSep Finset.univ fun r : Fin 8 => Φ (.li 0 r)) ∗ (bigSep Finset.univ fun r : Fin 8 => Φ (.li 1 r))
        ∗ (bigSep Finset.univ fun r : Fin 8 => Φ (.lo 0 r)) ∗ (bigSep Finset.univ fun r : Fin 8 => Φ (.lo 1 r))) := by
  rw [bigSep_univ_equiv tkE Φ]
  simp only [bigSep_univ_sum, bigSep_univ_of_subsingleton ()]
  rfl

theorem bigSep_CK (Φ : CK → sProp M) :
    bigSep Finset.univ Φ
      = iprop(Φ .bar ∗ Φ .bar2
        ∗ (bigSep Finset.univ fun k : Fin 32 => Φ (.ys k)) ∗ (bigSep Finset.univ fun k : Fin 32 => Φ (.yr k))
        ∗ (bigSep Finset.univ fun k : Fin 32 => Φ (.xs k)) ∗ (bigSep Finset.univ fun k : Fin 32 => Φ (.xr k))
        ∗ Φ (.li 0) ∗ Φ (.li 1) ∗ Φ (.lo 0) ∗ Φ (.lo 1)) := by
  rw [bigSep_univ_equiv ckE Φ]
  simp only [bigSep_univ_sum, bigSep_univ_of_subsingleton ()]
  rfl

theorem bigSep_OK (Φ : CK → sProp M) :
    (bigSep Finset.univ fun x : OK => Φ x.1)
      = iprop(Φ .bar2
        ∗ (bigSep Finset.univ fun k : Fin 32 => Φ (.ys k)) ∗ (bigSep Finset.univ fun k : Fin 32 => Φ (.yr k))
        ∗ (bigSep Finset.univ fun k : Fin 32 => Φ (.xs k)) ∗ (bigSep Finset.univ fun k : Fin 32 => Φ (.xr k))
        ∗ Φ (.li 0) ∗ Φ (.li 1) ∗ Φ (.lo 0) ∗ Φ (.lo 1)) := by
  rw [bigSep_univ_equiv okE fun x : OK => Φ x.1]
  simp only [bigSep_univ_sum, bigSep_univ_of_subsingleton ()]
  rfl

end Sums

variable {F : FTy → Type} [FloatOps F]

local notation "𝕄" => MT nD τ sig Unit (Elt F) ℕ UU ℕ

theorem toks_split (c : Dev nD) : (bigSep Finset.univ fun t : TK => tokP c t : sProp 𝕄) ⊢ toksK c := by
  rw [bigSep_TK]; exact .refl

theorem pos_split (c : Dev nD) : (bigSep Finset.univ fun x : CK => atPos ER (cell c x) 0 ∅ 0 : sProp 𝕄) ⊢ posK c := by
  rw [bigSep_CK]; exact .refl

theorem sems_join (c : Dev nD) : (semsK c : sProp 𝕄) ⊢ bigSep Finset.univ fun x : OK => semVal (cell c x.1) 0 := by
  rw [bigSep_OK fun x : CK => (semVal (cell c x) 0 : sProp 𝕄)]; exact .refl

end Cert.KernelIdeal.AG

end

/-- info: 'Cert.KernelIdeal.AG.toks_split' depends on axioms: [propext, Classical.choice, Quot.sound] -/
#guard_msgs in #print axioms Cert.KernelIdeal.AG.toks_split
/-- info: 'Cert.KernelIdeal.AG.pos_split' depends on axioms: [propext, Classical.choice, Quot.sound] -/
#guard_msgs in #print axioms Cert.KernelIdeal.AG.pos_split
/-- info: 'Cert.KernelIdeal.AG.sems_join' depends on axioms: [propext, Classical.choice, Quot.sound] -/
#guard_msgs in #print axioms Cert.KernelIdeal.AG.sems_join
-- ==== Proof.KI.Steps.lean ====
import proofs.«900683_g7700000000000684_dist_ag_v7x_xyz2x2x4_y_m32768_n1024_f32_1_alg».proof.Defs
import proofs.«900683_g7700000000000684_dist_ag_v7x_xyz2x2x4_y_m32768_n1024_f32_1_alg».proof.Proof.Gen.KernelIdeal
import proofs.«900683_g7700000000000684_dist_ag_v7x_xyz2x2x4_y_m32768_n1024_f32_1_alg».proof.Proof.Gen.KernelIdeal.Skeleton
import proofs.«900683_g7700000000000684_dist_ag_v7x_xyz2x2x4_y_m32768_n1024_f32_1_alg».proof.Proof.Gen.KernelIdeal.Launch
import proofs.«900683_g7700000000000684_dist_ag_v7x_xyz2x2x4_y_m32768_n1024_f32_1_alg».proof.Proof.KI.Mesh
import proofs.«900683_g7700000000000684_dist_ag_v7x_xyz2x2x4_y_m32768_n1024_f32_1_alg».proof.Proof.KI.Sched
import proofs.«900683_g7700000000000684_dist_ag_v7x_xyz2x2x4_y_m32768_n1024_f32_1_alg».proof.Proof.KI.Proto
import proofs.«900683_g7700000000000684_dist_ag_v7x_xyz2x2x4_y_m32768_n1024_f32_1_alg».proof.Proof.KI.Regions
import proofs.«900683_g7700000000000684_dist_ag_v7x_xyz2x2x4_y_m32768_n1024_f32_1_alg».proof.Proof.KI.Values
import Idealize.ShloMosaic.Lib.Pipeline.Launch
import Idealize.ShloMosaic.Lib.Pipeline.Kit
import Idealize.ShloMosaic.Lib.Tactic
import Idealize.ShloMosaic.Lib.ValueIdx

noncomputable section

namespace Cert.KernelIdeal.AG

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

section Records
variable (K : Dev nD × CK → ℕ)

omit [FloatOps F] in
theorem rec_inv (cx : Dev nD × CK) : (records (F := F) m K) ⊢ cellInv ER (Rd m) (K cx) (cell cx.1 cx.2) := by
  have h : (bigSep Finset.univ fun cx : Dev nD × CK => cellInv ER (Rd (F := F) m) (K cx) (cell cx.1 cx.2) : sProp 𝕄)
      ⊢ cellInv ER (Rd m) (K cx) (cell cx.1 cx.2) := bigSep_elim (Finset.mem_univ cx)
  unfold records; iintro ⟨HI, -⟩; iapply h; iexact HI
omit [FloatOps F] in
theorem rec_reached (cx : Dev nD × CK) : (records (F := F) m K) ⊢ reached ER (cell cx.1 cx.2) 0 := by
  have h : (bigSep Finset.univ fun cx : Dev nD × CK => reached ER (cell cx.1 cx.2) 0 : sProp 𝕄)
      ⊢ reached ER (cell cx.1 cx.2) 0 := bigSep_elim (Finset.mem_univ cx)
  unfold records; iintro ⟨-, HR⟩; iapply h; iexact HR

end Records

omit [FloatOps F] in
theorem owedSum_apply (c : Dev nD) (S : Finset TK) (g : GSem nD τ sig) (u : Unit) :
    owedSum c S g u = ∑ t ∈ S, (tallyAt (cell (payer c t) t.ck) () (amountK t.ck) : CellTallies nD τ sig Unit) g u := by
  unfold owedSum; rw [Finset.sum_apply, Finsupp.finset_sum_apply]

omit [FloatOps F] in
theorem owedSum_pos {c : Dev nD} {S : Finset TK} {g : GSem nD τ sig} {u : Unit} (h : 0 < owedSum c S g u) :
    ∃ t ∈ S, g = cell (payer c t) t.ck := by
  rw [owedSum_apply] at h
  obtain ⟨t, ht, hpos⟩ := Finset.exists_lt_of_sum_lt (s := S) (f := fun _ => 0) (by simpa using h)
  refine ⟨t, ht, ?_⟩
  rw [tallyAt_apply] at hpos
  by_contra hn
  rw [if_neg (fun h' => hn h'.1)] at hpos
  exact Nat.lt_irrefl 0 hpos

omit [FloatOps F] in
theorem mayWait_of (c : Dev nD) (x : CK) (S : Finset TK) (hlv : ∀ t ∈ S, lvK x < lvK t.ck) :
    (levAts L lv : sProp 𝕄) ⊢ MayWait (c : Thread nD τ) (csem x) () (owedSum c S) :=
  MayOwe.of_cut (L := L) (lev := lv) (lvK x)
    (fun p hp => by rw [Finset.mem_singleton.mp hp, L_tc]; exact Finset.mem_singleton_self _)
    (fun g u hg => by obtain ⟨t, _, rfl⟩ := owedSum_pos hg; rw [L_tc]; exact Finset.mem_singleton_self _)
    (fun p hp => by rw [Finset.mem_singleton.mp hp]; exact le_of_eq (lv_cell c x ()))
    (fun g u hg => by obtain ⟨t, ht, rfl⟩ := owedSum_pos hg; rw [lv_cell]; exact hlv t ht)

section Rules
variable (K : Dev nD × CK → ℕ)

theorem wp_sig (c n : Dev nD) (x : CK) (sm : Sem sig) (hx : csem x = .reg sm) (d : Bool) (hd : d ∈ dutiesK x 0) (hk : amountK x = 1)
    {α : Type} {Q : α → sProp 𝕄} {k : PUnit → Prog (TpuEff nD τ sig (Elt F) Λ₀ .tc) α}
    (O₀ O : CellTallies nD τ sig Unit) (hO : O₀ = O + tallyAt (cell n x) () 1) (W : Waits sig Unit) :
    iprop(records m K ∗ owes (c : Thread nD τ) O₀ W ∗ dutyTok ER (cell n x) 0 d ∗ payloadK m n x 0 d)
      ⊢ iprop((owes (c : Thread nD τ) O W -∗ wp frame (wpE (defs₀ (F := F)) 𝒱₀ (c : Thread nD τ) none) Set.univ (k ⟨⟩) Q)
          -∗ wp frame (wpE (defs₀ (F := F)) 𝒱₀ (c : Thread nD τ) none) Set.univ (.op (.semSignal (n : Thread nD τ) sm 1) k) Q) := by
  have hc : cell n x = ((n : Thread nD τ), SemLoc.reg sm) := by unfold cell; rw [hx]
  have hd' : d ∈ (Rd (F := F) m).duties ((n : Thread nD τ), SemLoc.reg sm) 0 := by rw [← hc, duties_cell]; exact hd
  have hk' : (Rd (F := F) m).amount ((n : Thread nD τ), SemLoc.reg sm) 0 d = 1 := by rw [← hc, amount_cell]; exact hk
  have hO' : O₀ = O + tallyAt ((n : Thread nD τ), SemLoc.reg sm) () 1 := by rw [← hc]; exact hO
  iintro ⟨#HR, HO, Ht, Hp⟩
  iapply (Rounds.wp_signal 𝒱₀ ER (Rd m) (c : Thread nD τ) none (dst := (n : Thread nD τ)) (sem := sm) (κ := K (n, x)) (r := 0) (d := d) (k' := 1)
    hd' hk' () (O₀ := O₀) O hO') $$ [HO Ht Hp]
  rw [← hc]
  isplitr; · iapply (rec_inv m K (n, x)); iexact HR
  isplitl [HO]; · iexact HO
  isplitl [Ht]; · iexact Ht
  isplitl [Hp]; · rw [payload_cell]; iexact Hp
  iapply (rec_reached m K (n, x)); iexact HR

end Rules

omit [FloatOps F] in

theorem rest_hs (c : Dev nD) (x : CK) (hdu : dutiesK x 0 = Finset.univ) :
    bigSep ((Rd (F := F) m).duties (cell c x) 0 \ ∅) (fun d => (Rd (F := F) m).payload (cell c x) 0 d)
      = iprop(payloadK m c x 0 false ∗ payloadK m c x 0 true) := by
  rw [Finset.sdiff_empty, duties_cell, hdu, bigSep_univ_eq_bigSepL [false, true] (by decide) (by decide), bigSepL_cons_cons, bigSepL_singleton,
    payload_cell, payload_cell]
  rfl

omit [FloatOps F] in

theorem rest_one (c : Dev nD) (x : CK) (R : ℕ) (hdu : dutiesK x R = {false}) :
    bigSep ((Rd (F := F) m).duties (cell c x) R \ ∅) (fun d => (Rd (F := F) m).payload (cell c x) R d) = payloadK m c x R false := by
  rw [Finset.sdiff_empty, duties_cell, hdu, bigSep_singleton, payload_cell]

section Rules2
variable (K : Dev nD × CK → ℕ)

theorem wp_wait_hs (c : Dev nD) (x : CK) (sm : Sem sig) (hx : csem x = .reg sm) (hdu : dutiesK x 0 = Finset.univ) (hk : amountK x = 1)
    (S : Finset TK) (hlv : ∀ t ∈ S, lvK x < lvK t.ck) (W : Waits sig Unit)
    {α : Type} {Q : α → sProp 𝕄} {k : PUnit → Prog (TpuEff nD τ sig (Elt F) Λ₀ .tc) α} :
    iprop(records m K ∗ levAts L lv ∗ cred (tallyAt (cell c x) () 2) ∗ owes (c : Thread nD τ) (owedSum c S) W ∗ atPos ER (cell c x) 0 ∅ 0)
      ⊢ iprop(((owes (c : Thread nD τ) (owedSum c S) (insert (csem x, ()) W) ∗ atPos ER (cell c x) 1 ∅ 0
              ∗ payloadK m c x 0 false ∗ payloadK m c x 0 true)
            -∗ wp frame (wpE (defs₀ (F := F)) 𝒱₀ (c : Thread nD τ) none) Set.univ (k ⟨⟩) Q)
          -∗ wp frame (wpE (defs₀ (F := F)) 𝒱₀ (c : Thread nD τ) none) Set.univ (.op (.semWait sm 2) k) Q) := by
  have hc : cell c x = ((c : Thread nD τ), SemLoc.reg sm) := by unfold cell; rw [hx]
  have hrest := rest_hs m c x hdu
  have hexp : 0 + 2 = (Rd (F := F) m).expect (cell c x) 0 := by rw [expect_cell, hdu, hk]; decide
  have hmw := mayWait_of (F := F) c x S hlv
  rw [hx] at hmw ⊢
  rw [hc] at hrest hexp ⊢
  iintro ⟨#HR, #Hlev, Hc, HO, Hat⟩ Hk
  iapply (Rounds.wp_wait_rest_token 𝒱₀ ER (Rd m) (c : Thread nD τ) none (κ := K (c, x))
      (wpE_semWait_eq 𝒱₀ (c : Thread nD τ) none Set.univ) (Set.mem_univ _) () (O := owedSum c S) (W := W) (R := 0) (m := 0) (T := ∅) hexp) $$ [Hc HO Hat]
  · isplitr; · rw [← hc]; iapply (rec_inv m K (c, x)); iexact HR
    isplitl [Hc]; · iexact Hc
    isplitl [HO]; · iexact HO
    isplitr; · iapply hmw; iexact Hlev
    iexact Hat
  iintro ⟨HO, Hat, -, Hpay⟩
  ihave Hp := (Entails.of_eq hrest) $$ Hpay
  icases Hp with ⟨Hp1, Hp2⟩
  iapply Hk $$ [$HO $Hat $Hp1 $Hp2]

theorem wp_wait_dma (c : Dev nD) (x : CK) (sm : DmaSem sig) (hx : csem x = .dma sm) (R : ℕ) (hdu : dutiesK x R = {false})
    (S : Finset TK) (hlv : ∀ t ∈ S, lvK x < lvK t.ck) (W : Waits sig Unit)
    {sp sp' : Space} {s s' : Shape} {e e' : EltTy} {src : Memref sig .tc sp' s' e'} {κ' : Kind} {dst : Memref sig κ' sp s e}
    {hsrc : src.view.WordExact} {hdst : dst.view.WordExact} (hN : dst.view.dmaCredit = amountK x)
    {α : Type} {Q : α → sProp 𝕄} {k : PUnit → Prog (TpuEff nD τ sig (Elt F) Λ₀ .tc) α} :
    iprop(records m K ∗ levAts L lv ∗ cred (tallyAt (cell c x) () (amountK x)) ∗ owes (c : Thread nD τ) (owedSum c S) W ∗ atPos ER (cell c x) R ∅ 0)
      ⊢ iprop(((owes (c : Thread nD τ) (owedSum c S) (insert (csem x, ()) W) ∗ atPos ER (cell c x) (R + 1) ∅ 0 ∗ reached ER (cell c x) (R + 1) ∗ payloadK m c x R false)
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 sm src dst hsrc hdst) k) Q) := by
  have hc : cell c x = ((c : Thread nD τ), SemLoc.dma sm) := by unfold cell; rw [hx]
  have hrest := rest_one m c x R hdu
  have hexp : 0 + dst.view.dmaCredit = (Rd (F := F) m).expect (cell c x) R := by rw [expect_cell, hdu, hN]; simp
  have hmw := mayWait_of (F := F) c x S hlv
  rw [hx] at hmw ⊢
  rw [hc] at hrest hexp ⊢
  rw [← hN]
  iintro ⟨#HR, #Hlev, Hc, HO, Hat⟩ Hk
  iapply (Rounds.wp_wait_rest_token 𝒱₀ ER (Rd m) (c : Thread nD τ) none (κ := K (c, x))
      (wpE_waitDma2_eq 𝒱₀ (c : Thread nD τ) none Set.univ) (Set.mem_univ _) () (O := owedSum c S) (W := W) (R := R) (m := 0) (T := ∅) hexp) $$ [Hc HO Hat]
  · isplitr; · rw [← hc]; iapply (rec_inv m K (c, x)); iexact HR
    isplitl [Hc]; · iexact Hc
    isplitl [HO]; · iexact HO
    isplitr; · iapply hmw; iexact Hlev
    iexact Hat
  iintro ⟨HO, Hat, #Hr, Hpay⟩
  ihave Hp := (Entails.of_eq hrest) $$ Hpay
  iapply Hk $$ [$HO $Hat $Hr $Hp]

end Rules2

section Rules3
variable (K : Dev nD × CK → ℕ)

omit [FloatOps F] in
theorem credit_yDst (c : Dev nD) (k : Fin 32) : (yDst c k).view.dmaCredit = N512 := by unfold N512; rfl
omit [FloatOps F] in
theorem credit_xBuf (c : Dev nD) (k : Fin 32) : (xBuf c k).view.dmaCredit = N512 := by unfold N512; rfl
omit [FloatOps F] in
theorem credit_vSl (j : Fin 2) : (vSl j).view.dmaCredit = NV := by unfold NV; rfl
omit [FloatOps F] in
theorem credit_lDst (c : Dev nD) (i : Fin 16) : (lDst c i).view.dmaCredit = N2048 := by unfold N2048; rfl

theorem wp_ysend (c : Dev nD) (k : Fin 32) (S : Finset TK) (hS : TK.yr k ∈ S) {W : Waits sig Unit}
    {hsc : ((yDst c k : Memref sig .tc .hbm S512x1024 .f32) : Memref sig (Dev.tc (py c) : Thread nD τ).2.kind .hbm S512x1024 .f32).view.ref.isScScratch = false}
    {hsrc : (ySrc c k).view.WordExact} {hdst : (yDst c k).view.WordExact}
    {hsem : DmaTarget.Typed .hbm (.dma (sem32 cc0_scratch1 k).sem) (.remote (Dev.tc (py c) : Thread nD τ) (yDst c k) (.dma (sem32 cc0_scratch0 k).sem) hsc)}
    {α : Type} {Q : α → sProp 𝕄} {kk : PUnit → Prog (TpuEff nD τ sig (Elt F) Λ₀ .tc) α}
    (fd : Buf (Elt F) ((yDst c k).view.loc ((py c : Dev nD) : Thread nD τ))) :
    iprop(records m K ∗ pts (ySrc c k) c qY (xArr m c) ∗ pts (yDst c k) (py c) fullShare fd
        ∗ owes (c : Thread nD τ) (owedSum c S) W ∗ tokP c (.ys k) ∗ tokP c (.yr k))
      ⊢ iprop(((cred (tallyAt (cell c (.ys k)) () N512) ∗ owes (c : Thread nD τ) (owedSum c (S.erase (.yr k))) W)
            -∗ wp frame (wpE (defs₀ (F := F)) 𝒱₀ (c : Thread nD τ) none) Set.univ (kk ⟨⟩) Q)
          -∗ wp frame (wpE (defs₀ (F := F)) 𝒱₀ (c : Thread nD τ) none) Set.univ
              (.op (.enqueueDma (ySrc c k) (.remote (Dev.tc (py c) : Thread nD τ) (yDst c k) (.dma (sem32 cc0_scratch0 k).sem) hsc)
                (.dma (sem32 cc0_scratch1 k).sem) hsrc hdst hsem) kk) Q) := by
  have e1 : (tokP (F := F) c (.ys k) : sProp 𝕄) = dutyTok ER (cell c (.ys k)) 0 false := rfl
  have e2 : (tokP (F := F) c (.yr k) : sProp 𝕄) = dutyTok ER (cell (py c) (.yr k)) 0 false := rfl
  rw [e1, e2]
  iintro ⟨#HR, Hsrc, Hdst, HO, Hts, Htr⟩
  iapply (Rounds.wp_send_pointsTo 𝒱₀ ER (Rd m) (c : Thread nD τ) none (c' := (py c : Thread nD τ)) (src := ySrc c k) (dst := yDst c k)
    (sS := csem (.ys k)) (sem := csem (.yr k)) (q := qY) (fs := xArr m c) (κ₁ := K (c, .ys k)) (κ₂ := K (py c, .yr k))
    (r₁ := 0) (r₂ := 0) (d₁ := false) (d₂ := false) (fd := fd)
    (by show false ∈ (Rd (F := F) m).duties (cell c (.ys k)) 0; rw [duties_cell]; exact Finset.mem_singleton_self _)
    (by show false ∈ (Rd (F := F) m).duties (cell (py c) (.yr k)) 0; rw [duties_cell]; exact Finset.mem_singleton_self _)
    () () N512 (credit_yDst c k)
    (by show (Rd (F := F) m).amount (cell c (.ys k)) 0 false = N512; rw [amount_cell]; rfl)
    (by show (Rd (F := F) m).amount (cell (py c) (.yr k)) 0 false = N512; rw [amount_cell]; rfl)
    (owedSum c (S.erase (.yr k))) (owedSum_erase c hS) (W := W)
    (by show _ ⊢ (Rd (F := F) m).payload (cell c (.ys k)) 0 false; rw [payload_cell]; exact BI.Entails.refl _)
    (by show _ ⊢ (Rd (F := F) m).payload (cell (py c) (.yr k)) 0 false
        rw [payload_cell]
        show _ ⊢ pts (yDst (py (py c)) k) (py c) fullShare (G m (py c))
        rw [py_py]; exact Entails.of_eq (land_Y m c k fd))) $$ [Hsrc Hdst HO Hts Htr]
  isplitr; · iapply (rec_inv m K (c, .ys k)); iexact HR
  isplitr; · iapply (rec_inv m K (py c, .yr k)); iexact HR
  isplitl [Hsrc]; · iexact Hsrc
  isplitl [Hdst]; · iexact Hdst
  isplitl [HO]; · iexact HO
  isplitl [Hts]; · iexact Hts
  isplitr; · iapply (rec_reached m K (c, .ys k)); iexact HR
  isplitl [Htr]; · iexact Htr
  iapply (rec_reached m K (py c, .yr k)); iexact HR

theorem wp_xsend (c : Dev nD) (k : Fin 32) (S : Finset TK) (hS : TK.xr k ∈ S) {W : Waits sig Unit}
    {hsc : ((xBuf c k : Memref sig .tc .hbm S512x1024 .f32) : Memref sig (Dev.tc (px c) : Thread nD τ).2.kind .hbm S512x1024 .f32).view.ref.isScScratch = false}
    {hsrc : (xBuf c k).view.WordExact} {hdst : (xBuf c k).view.WordExact}
    {hsem : DmaTarget.Typed .hbm (.dma (sem32 cc0_scratch3 k).sem) (.remote (Dev.tc (px c) : Thread nD τ) (xBuf c k) (.dma (sem32 cc0_scratch2 k).sem) hsc)}
    {α : Type} {Q : α → sProp 𝕄} {kk : PUnit → Prog (TpuEff nD τ sig (Elt F) Λ₀ .tc) α}
    (fd : Buf (Elt F) ((xBuf c k).view.loc ((px c : Dev nD) : Thread nD τ))) :
    iprop(records m K ∗ pts (xBuf c k) c fullShare (G m c) ∗ pts (xBuf c k) (px c) fullShare fd
        ∗ owes (c : Thread nD τ) (owedSum c S) W ∗ tokP c (.xs k) ∗ tokP c (.xr k))
      ⊢ iprop(((cred (tallyAt (cell c (.xs k)) () N512) ∗ owes (c : Thread nD τ) (owedSum c (S.erase (.xr k))) W)
            -∗ wp frame (wpE (defs₀ (F := F)) 𝒱₀ (c : Thread nD τ) none) Set.univ (kk ⟨⟩) Q)
          -∗ wp frame (wpE (defs₀ (F := F)) 𝒱₀ (c : Thread nD τ) none) Set.univ
              (.op (.enqueueDma (xBuf c k) (.remote (Dev.tc (px c) : Thread nD τ) (xBuf c k) (.dma (sem32 cc0_scratch2 k).sem) hsc)
                (.dma (sem32 cc0_scratch3 k).sem) hsrc hdst hsem) kk) Q) := by
  have e1 : (tokP (F := F) c (.xs k) : sProp 𝕄) = dutyTok ER (cell c (.xs k)) 0 false := rfl
  have e2 : (tokP (F := F) c (.xr k) : sProp 𝕄) = dutyTok ER (cell (px c) (.xr k)) 0 false := rfl
  rw [e1, e2]
  iintro ⟨#HR, Hsrc, Hdst, HO, Hts, Htr⟩
  iapply (Rounds.wp_send_pointsTo 𝒱₀ ER (Rd m) (c : Thread nD τ) none (c' := (px c : Thread nD τ)) (src := xBuf c k) (dst := xBuf c k)
    (sS := csem (.xs k)) (sem := csem (.xr k)) (q := fullShare) (fs := G m c) (κ₁ := K (c, .xs k)) (κ₂ := K (px c, .xr k))
    (r₁ := 0) (r₂ := 0) (d₁ := false) (d₂ := false) (fd := fd)
    (by show false ∈ (Rd (F := F) m).duties (cell c (.xs k)) 0; rw [duties_cell]; exact Finset.mem_singleton_self _)
    (by show false ∈ (Rd (F := F) m).duties (cell (px c) (.xr k)) 0; rw [duties_cell]; exact Finset.mem_singleton_self _)
    () () N512 (credit_xBuf c k)
    (by show (Rd (F := F) m).amount (cell c (.xs k)) 0 false = N512; rw [amount_cell]; rfl)
    (by show (Rd (F := F) m).amount (cell (px c) (.xr k)) 0 false = N512; rw [amount_cell]; rfl)
    (owedSum c (S.erase (.xr k))) (owedSum_erase c hS) (W := W)
    (by show _ ⊢ (Rd (F := F) m).payload (cell c (.xs k)) 0 false; rw [payload_cell]; exact BI.Entails.refl _)
    (by show _ ⊢ (Rd (F := F) m).payload (cell (px c) (.xr k)) 0 false
        rw [payload_cell]
        show _ ⊢ pts (xBuf (px (px c)) k) (px c) fullShare (G m (px c))
        rw [px_px]; exact Entails.of_eq (land_X m c k fd))) $$ [Hsrc Hdst HO Hts Htr]
  isplitr; · iapply (rec_inv m K (c, .xs k)); iexact HR
  isplitr; · iapply (rec_inv m K (px c, .xr k)); iexact HR
  isplitl [Hsrc]; · iexact Hsrc
  isplitl [Hdst]; · iexact Hdst
  isplitl [HO]; · iexact HO
  isplitl [Hts]; · iexact Hts
  isplitr; · iapply (rec_reached m K (c, .xs k)); iexact HR
  isplitl [Htr]; · iexact Htr
  iapply (rec_reached m K (px c, .xr k)); iexact HR

end Rules3

theorem dutiesK_li (j : Fin 2) (r : ℕ) (hr : r < 8) : dutiesK (.li j) r = {false} := by
  show (if r < 8 then ({false} : Finset Bool) else ∅) = _
  rw [if_pos hr]
theorem dutiesK_lo (j : Fin 2) (r : ℕ) (hr : r < 8) : dutiesK (.lo j) r = {false} := by
  show (if r < 8 then ({false} : Finset Bool) else ∅) = _
  rw [if_pos hr]

section Rules4
variable (K : Dev nD × CK → ℕ)

theorem wp_copy_in (c : Dev nD) (i : Fin 16) (j : Fin 2) (r : ℕ) (hr : r < 8) (hi : chunk j r = i)
    {hsrc : (lSrc i).view.WordExact} {hdst : (vSl j).view.WordExact}
    {hsem : DmaTarget.Typed .hbm (.dma (sem2 cc0_scratch5 j).sem) (.here (vSl j) : DmaTarget nD τ sig .tc .vmem S2048x1024 .f32)}
    {α : Type} {Q : α → sProp 𝕄} {kk : PUnit → Prog (TpuEff nD τ sig (Elt F) Λ₀ .tc) α}
    (fd : Buf (Elt F) ((vSl j).view.loc (c : Thread nD τ))) :
    iprop(records m K ∗ pts (lSrc i) c qL (xArr m c) ∗ pts (vSl j) c fullShare fd
        ∗ dutyTok ER (cell c (.li j)) r false ∗ reached ER (cell c (.li j)) r)
      ⊢ iprop((cred (tallyAt (cell c (.li j)) () NV) -∗ wp frame (wpE (defs₀ (F := F)) 𝒱₀ (c : Thread nD τ) none) Set.univ (kk ⟨⟩) Q)
          -∗ wp frame (wpE (defs₀ (F := F)) 𝒱₀ (c : Thread nD τ) none) Set.univ
              (.op (.enqueueDma (lSrc i) (.here (vSl j)) (.dma (sem2 cc0_scratch5 j).sem) hsrc hdst hsem) kk) Q) := by
  iintro ⟨#HR, Hsrc, Hdst, Ht, #Hr⟩
  iapply (Rounds.wp_copy_pointsTo 𝒱₀ ER (Rd m) (c : Thread nD τ) none (src := lSrc i) (dst := vSl j) (sem := csem (.li j))
    (κ := K (c, .li j)) (r := r) (d := false) (q := qL)
    (fs := xArr m c) (fd := fd)
    (by show false ∈ (Rd (F := F) m).duties (cell c (.li j)) r; rw [duties_cell, dutiesK_li j r hr]; exact Finset.mem_singleton_self _)
    () NV (credit_vSl j)
    (by show (Rd (F := F) m).amount (cell c (.li j)) r false = NV; rw [amount_cell]; rfl)
    (by show _ ⊢ (Rd (F := F) m).payload (cell c (.li j)) r false
        rw [payload_cell]
        show _ ⊢ iprop(pts (vSl j) c fullShare (VB m c (chunk j r) j) ∗ pts (lSrc (chunk j r)) c qL (xArr m c))
        rw [hi]; exact sep_mono_left (Entails.of_eq (land_in m c i j fd)))) $$ [Hsrc Hdst Ht]
  isplitr; · iapply (rec_inv m K (c, .li j)); iexact HR
  isplitl [Hsrc]; · iexact Hsrc
  isplitl [Hdst]; · iexact Hdst
  isplitl [Ht]; · iexact Ht
  iexact Hr

theorem wp_copy_out (c : Dev nD) (i : Fin 16) (j : Fin 2) (r : ℕ) (hr : r < 8) (hi : chunk j r = i)
    {hsrc : (vSl j).view.WordExact} {hdst : (lDst c i).view.WordExact}
    {hsem : DmaTarget.Typed .vmem (.dma (sem2 cc0_scratch6 j).sem) (.here (lDst c i) : DmaTarget nD τ sig .tc .hbm S2048x1024 .f32)}
    {α : Type} {Q : α → sProp 𝕄} {kk : PUnit → Prog (TpuEff nD τ sig (Elt F) Λ₀ .tc) α}
    (fd : Buf (Elt F) ((lDst c i).view.loc (c : Thread nD τ))) :
    iprop(records m K ∗ pts (vSl j) c fullShare (VB m c i j) ∗ pts (lDst c i) c fullShare fd
        ∗ dutyTok ER (cell c (.lo j)) r false ∗ reached ER (cell c (.lo j)) r)
      ⊢ iprop((cred (tallyAt (cell c (.lo j)) () N2048) -∗ wp frame (wpE (defs₀ (F := F)) 𝒱₀ (c : Thread nD τ) none) Set.univ (kk ⟨⟩) Q)
          -∗ wp frame (wpE (defs₀ (F := F)) 𝒱₀ (c : Thread nD τ) none) Set.univ
              (.op (.enqueueDma (vSl j) (.here (lDst c i)) (.dma (sem2 cc0_scratch6 j).sem) hsrc hdst hsem) kk) Q) := by
  iintro ⟨#HR, Hsrc, Hdst, Ht, #Hr⟩
  iapply (Rounds.wp_copy_pointsTo 𝒱₀ ER (Rd m) (c : Thread nD τ) none (src := vSl j) (dst := lDst c i) (sem := csem (.lo j))
    (κ := K (c, .lo j)) (r := r) (d := false) (q := fullShare)
    (fs := VB m c i j) (fd := fd)
    (by show false ∈ (Rd (F := F) m).duties (cell c (.lo j)) r; rw [duties_cell, dutiesK_lo j r hr]; exact Finset.mem_singleton_self _)
    () N2048 (credit_lDst c i)
    (by show (Rd (F := F) m).amount (cell c (.lo j)) r false = N2048; rw [amount_cell]; rfl)
    (by show _ ⊢ (Rd (F := F) m).payload (cell c (.lo j)) r false
        rw [payload_cell]
        show _ ⊢ iprop(pts (lDst c (chunk j r)) c fullShare (G m c) ∗ pts (vSl j) c fullShare (VB m c (chunk j r) j))
        rw [hi]; exact sep_mono_left (Entails.of_eq (land_out m c i j fd)))) $$ [Hsrc Hdst Ht]
  isplitr; · iapply (rec_inv m K (c, .lo j)); iexact HR
  isplitl [Hsrc]; · iexact Hsrc
  isplitl [Hdst]; · iexact Hdst
  isplitl [Ht]; · iexact Ht
  iexact Hr

theorem close_cell (c : Dev nD) (x : CK) (R : ℕ) (hfin : ∀ r, R ≤ r → dutiesK x r = ∅) :
    iprop(records m K ∗ atPos ER (cell c x) R ∅ 0) ⊢ (|={Set.univ}=> semVal (cell c x) 0 : sProp 𝕄) := by
  iintro ⟨#HR, Hat⟩
  iapply (Rounds.cell_close ER (Rd m) (Set.mem_univ (K (c, x))) (fun h => h) (R := R) (fun r hr => by rw [duties_cell]; exact hfin r hr))
  isplitr; · iapply (rec_inv m K (c, x)); iexact HR
  iexact Hat

end Rules4

end Cert.KernelIdeal.AG
end
-- ==== Proof.KI.BodySteps.lean ====
import proofs.«900683_g7700000000000684_dist_ag_v7x_xyz2x2x4_y_m32768_n1024_f32_1_alg».proof.Defs
import proofs.«900683_g7700000000000684_dist_ag_v7x_xyz2x2x4_y_m32768_n1024_f32_1_alg».proof.Proof.Gen.KernelIdeal
import proofs.«900683_g7700000000000684_dist_ag_v7x_xyz2x2x4_y_m32768_n1024_f32_1_alg».proof.Proof.Gen.KernelIdeal.Skeleton
import proofs.«900683_g7700000000000684_dist_ag_v7x_xyz2x2x4_y_m32768_n1024_f32_1_alg».proof.Proof.Gen.KernelIdeal.Launch
import proofs.«900683_g7700000000000684_dist_ag_v7x_xyz2x2x4_y_m32768_n1024_f32_1_alg».proof.Proof.KI.Mesh
import proofs.«900683_g7700000000000684_dist_ag_v7x_xyz2x2x4_y_m32768_n1024_f32_1_alg».proof.Proof.KI.Sched
import proofs.«900683_g7700000000000684_dist_ag_v7x_xyz2x2x4_y_m32768_n1024_f32_1_alg».proof.Proof.KI.Proto
import proofs.«900683_g7700000000000684_dist_ag_v7x_xyz2x2x4_y_m32768_n1024_f32_1_alg».proof.Proof.KI.Bundles
import proofs.«900683_g7700000000000684_dist_ag_v7x_xyz2x2x4_y_m32768_n1024_f32_1_alg».proof.Proof.KI.Steps
import Idealize.ShloMosaic.Lib.Pipeline.Launch
import Idealize.ShloMosaic.Lib.Pipeline.Kit
import Idealize.ShloMosaic.Lib.Tactic
import Idealize.ShloMosaic.Lib.ValueIdx

noncomputable section

namespace Cert.KernelIdeal.AG

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : Dev nD × CK → ℕ)

omit [FloatOps F] in
theorem barPayY_of (c n : Dev nD) (h : py n = c) :
    (barPayY (F := F) n) = bigSep Finset.univ fun k : Fin 32 => iprop((∃ f, pts (yDst n k) c fullShare f) ∗ reached ER (cell c (.yr k)) 0) := by
  subst h; rfl
omit [FloatOps F] in
theorem barPayX_of (c n : Dev nD) (h : px n = c) :
    (barPayX (F := F) n) = bigSep Finset.univ fun k : Fin 32 => iprop((∃ f, pts (xBuf n k) c fullShare f) ∗ reached ER (cell c (.xr k)) 0) := by
  subst h; rfl

omit [FloatOps F] in
theorem owed_step (c : Dev nD) (n : ℕ) (t : TK) (ho : t.owed = true) (hn : t.ord = n) :
    owedSum c (Sn n) = owedSum c (Sn (n + 1)) + tallyAt (cell (payer c t) t.ck) () (amountK t.ck) := by
  rw [owedSum_erase c (mem_Sn ho hn), Sn_erase ho hn]

omit [FloatOps F] in
theorem lv_ok (x : CK) (n : ℕ) (h : lvK x < minLv n) : ∀ t ∈ Sn n, lvK x < lvK t.ck :=
  fun t ht => lt_of_lt_of_le h (lv_of_Sn ht)

theorem step_sig_bar_y (c : Dev nD) (f0 : Buf (Elt F) ((c : Thread nD τ).loc main_v1)) {W : Waits sig Unit} {α : Type} {Q : α → sProp 𝕄} {kk : PUnit → Prog (TpuEff nD τ sig (Elt F) Λ₀ .tc) α} :
    iprop(records m K ∗ owes (c : Thread nD τ) (owedSum c (Sn 0)) W ∗ tokP c (.bar false)
        ∗ bigSep Finset.univ (fun k : Fin 32 => pts (yDst (py c) k) c fullShare f0))
      ⊢ iprop((owes (c : Thread nD τ) (owedSum c (Sn 1)) W -∗ wp frame (wpE (defs₀ (F := F)) 𝒱₀ (c : Thread nD τ) none) Set.univ (kk ⟨⟩) Q)
          -∗ wp frame (wpE (defs₀ (F := F)) 𝒱₀ (c : Thread nD τ) none) Set.univ (.op (.semSignal ((py c : Dev nD) : Thread nD τ) barS 1) kk) Q) := by
  have hp : iprop(records m K ∗ bigSep Finset.univ (fun k : Fin 32 => pts (yDst (py c) k) c fullShare f0)) ⊢ payloadK m (py c) .bar 0 false := by
    show _ ⊢ barPayY (py c)
    rw [barPayY_of c (py c) (py_py c)]
    refine (sep_mono_left (BI.bigSep_of_persistent (Finset.univ : Finset (Fin 32)) (records m K))).trans ?_
    rw [← bigSep_sep']
    refine bigSep_mono fun k _ => show iprop(records m K ∗ pts (yDst (py c) k) c fullShare f0)
      ⊢ iprop((∃ f, pts (yDst (py c) k) c fullShare f) ∗ reached ER (cell c (.yr k)) 0) from ?_
    iintro ⟨#HR, H⟩
    isplitl [H]; · iexists f0; iexact H
    iapply (rec_reached m K (c, .yr k)); iexact HR
  have htok : tokP c (.bar false) ⊢ (dutyTok ER (cell (py c) .bar) 0 false : sProp 𝕄) := Entails.of_eq rfl
  iintro ⟨#HR, HO, Ht, Ho⟩
  ihave Hp := hp $$ [$HR $Ho]
  ihave Ht' := htok $$ Ht
  iapply (wp_sig m K c (py c) .bar barS rfl false (by decide) rfl (owedSum c (Sn 0)) (owedSum c (Sn 1))
    (owed_step c 0 (.bar false) rfl rfl)) $$ [$HR $HO $Ht' $Hp]

theorem step_sig_bar_x (c : Dev nD) (f0 : Buf (Elt F) ((c : Thread nD τ).loc main_v1)) {W : Waits sig Unit} {α : Type} {Q : α → sProp 𝕄} {kk : PUnit → Prog (TpuEff nD τ sig (Elt F) Λ₀ .tc) α} :
    iprop(records m K ∗ owes (c : Thread nD τ) (owedSum c (Sn 1)) W ∗ tokP c (.bar true)
        ∗ bigSep Finset.univ (fun k : Fin 32 => pts (xBuf (px c) k) c fullShare f0))
      ⊢ iprop((owes (c : Thread nD τ) (owedSum c (Sn 2)) W -∗ wp frame (wpE (defs₀ (F := F)) 𝒱₀ (c : Thread nD τ) none) Set.univ (kk ⟨⟩) Q)
          -∗ wp frame (wpE (defs₀ (F := F)) 𝒱₀ (c : Thread nD τ) none) Set.univ (.op (.semSignal ((px c : Dev nD) : Thread nD τ) barS 1) kk) Q) := by
  have hp : iprop(records m K ∗ bigSep Finset.univ (fun k : Fin 32 => pts (xBuf (px c) k) c fullShare f0)) ⊢ payloadK m (px c) .bar 0 true := by
    show _ ⊢ barPayX (px c)
    rw [barPayX_of c (px c) (px_px c)]
    refine (sep_mono_left (BI.bigSep_of_persistent (Finset.univ : Finset (Fin 32)) (records m K))).trans ?_
    rw [← bigSep_sep']
    refine bigSep_mono fun k _ => show iprop(records m K ∗ pts (xBuf (px c) k) c fullShare f0)
      ⊢ iprop((∃ f, pts (xBuf (px c) k) c fullShare f) ∗ reached ER (cell c (.xr k)) 0) from ?_
    iintro ⟨#HR, H⟩
    isplitl [H]; · iexists f0; iexact H
    iapply (rec_reached m K (c, .xr k)); iexact HR
  have htok : tokP c (.bar true) ⊢ (dutyTok ER (cell (px c) .bar) 0 true : sProp 𝕄) := Entails.of_eq rfl
  iintro ⟨#HR, HO, Ht, Ho⟩
  ihave Hp := hp $$ [$HR $Ho]
  ihave Ht' := htok $$ Ht
  iapply (wp_sig m K c (px c) .bar barS rfl true (by decide) rfl (owedSum c (Sn 1)) (owedSum c (Sn 2))
    (owed_step c 1 (.bar true) rfl rfl)) $$ [$HR $HO $Ht' $Hp]

theorem step_wait_bar (c : Dev nD) {W : Waits sig Unit} {α : Type} {Q : α → sProp 𝕄} {kk : PUnit → Prog (TpuEff nD τ sig (Elt F) Λ₀ .tc) α} :
    iprop(records m K ∗ levAts L lv ∗ cred (tallyAt (cell c .bar) () 2) ∗ owes (c : Thread nD τ) (owedSum c (Sn 2)) W ∗ atPos ER (cell c .bar) 0 ∅ 0)
      ⊢ iprop(((owes (c : Thread nD τ) (owedSum c (Sn 2)) (insert (csem .bar, ()) W)
              ∗ (bigSep (ge 32 0) fun k : Fin 32 => iprop((∃ f, pts (yDst c k) (py c) fullShare f) ∗ reached ER (cell (py c) (.yr k)) 0))
              ∗ (bigSep (ge 32 0) fun k : Fin 32 => iprop((∃ f, pts (xBuf c k) (px c) fullShare f) ∗ reached ER (cell (px c) (.xr k)) 0)))
            -∗ wp frame (wpE (defs₀ (F := F)) 𝒱₀ (c : Thread nD τ) none) Set.univ (kk ⟨⟩) Q)
          -∗ wp frame (wpE (defs₀ (F := F)) 𝒱₀ (c : Thread nD τ) none) Set.univ (.op (.semWait barS 2) kk) Q) := by
  rw [ge_zero]
  have hp1 : payloadK m c .bar 0 false
      ⊢ bigSep Finset.univ fun k : Fin 32 => iprop((∃ f, pts (yDst c k) (py c) fullShare f) ∗ reached ER (cell (py c) (.yr k)) 0) := Entails.of_eq rfl
  have hp2 : payloadK m c .bar 0 true
      ⊢ bigSep Finset.univ fun k : Fin 32 => iprop((∃ f, pts (xBuf c k) (px c) fullShare f) ∗ reached ER (cell (px c) (.xr k)) 0) := Entails.of_eq rfl
  iintro ⟨#HR, #Hlev, Hc, HO, Hat⟩ Hk
  iapply (wp_wait_hs m K c .bar barS rfl rfl rfl (Sn 2) (lv_ok .bar 2 (by decide)) W) $$ [$HR $Hlev $Hc $HO $Hat]
  iintro ⟨HO, -, Hp1, Hp2⟩
  ihave Hp1 := hp1 $$ Hp1
  ihave Hp2 := hp2 $$ Hp2
  iapply Hk $$ [$HO $Hp1 $Hp2]

theorem step_ysend (c : Dev nD) (n : ℕ) {d : Dev nD} (hd : d = py c) (hn : n < 32 := by decide) {W : Waits sig Unit}
    {hsc : ((yDst c ⟨n, hn⟩ : Memref sig .tc .hbm S512x1024 .f32) : Memref sig (Dev.tc d : Thread nD τ).2.kind .hbm S512x1024 .f32).view.ref.isScScratch = false}
    {hsrc : (ySrc c ⟨n, hn⟩).view.WordExact} {hdst : (yDst c ⟨n, hn⟩).view.WordExact}
    {hsem : DmaTarget.Typed .hbm (.dma (sem32 cc0_scratch1 ⟨n, hn⟩).sem) (.remote (Dev.tc d : Thread nD τ) (yDst c ⟨n, hn⟩) (.dma (sem32 cc0_scratch0 ⟨n, hn⟩).sem) hsc)}
    {α : Type} {Q : α → sProp 𝕄} {kk : PUnit → Prog (TpuEff nD τ sig (Elt F) Λ₀ .tc) α} :
    iprop(records m K
        ∗ (bigSep (ge 32 n) fun k : Fin 32 => pts (ySrc c k) c qY (xArr m c))
        ∗ (bigSep (ge 32 n) fun k : Fin 32 => iprop((∃ f, pts (yDst c k) (py c) fullShare f) ∗ reached ER (cell (py c) (.yr k)) 0))
        ∗ owes (c : Thread nD τ) (owedSum c (Sn (2 + n))) W
        ∗ (bigSep (ge 32 n) fun k : Fin 32 => tokP c (.ys k)) ∗ (bigSep (ge 32 n) fun k : Fin 32 => tokP c (.yr k))
        ∗ (bigSep (lt 32 n) fun k : Fin 32 => cred (tallyAt (cell c (.ys k)) () N512)))
      ⊢ iprop((((bigSep (ge 32 (n + 1)) fun k : Fin 32 => pts (ySrc c k) c qY (xArr m c))
              ∗ (bigSep (ge 32 (n + 1)) fun k : Fin 32 => iprop((∃ f, pts (yDst c k) (py c) fullShare f) ∗ reached ER (cell (py c) (.yr k)) 0))
              ∗ owes (c : Thread nD τ) (owedSum c (Sn (2 + n + 1))) W
              ∗ (bigSep (ge 32 (n + 1)) fun k : Fin 32 => tokP c (.ys k)) ∗ (bigSep (ge 32 (n + 1)) fun k : Fin 32 => tokP c (.yr k))
              ∗ (bigSep (lt 32 (n + 1)) fun k : Fin 32 => cred (tallyAt (cell c (.ys k)) () N512)))
            -∗ wp frame (wpE (defs₀ (F := F)) 𝒱₀ (c : Thread nD τ) none) Set.univ (kk ⟨⟩) Q)
          -∗ wp frame (wpE (defs₀ (F := F)) 𝒱₀ (c : Thread nD τ) none) Set.univ (.op (.enqueueDma (ySrc c ⟨n, hn⟩) (.remote (Dev.tc d : Thread nD τ) (yDst c ⟨n, hn⟩) (.dma (sem32 cc0_scratch0 ⟨n, hn⟩).sem) hsc) (.dma (sem32 cc0_scratch1 ⟨n, hn⟩).sem) hsrc hdst hsem) kk) Q) := by
  subst hd
  rw [take_ge (fun k : Fin 32 => pts (ySrc c k) c qY (xArr m c)) n hn,
    take_ge (fun k : Fin 32 => iprop((∃ f, pts (yDst c k) (py c) fullShare f) ∗ reached ER (cell (py c) (.yr k)) 0)) n hn,
    take_ge (fun k : Fin 32 => tokP c (.ys k)) n hn, take_ge (fun k : Fin 32 => tokP c (.yr k)) n hn,
    ← put_lt (fun k : Fin 32 => cred (tallyAt (cell c (.ys k)) () N512)) n hn, ← Sn_erase (t := .yr ⟨n, hn⟩) (n := 2 + n) rfl rfl]
  iintro ⟨#HR, ⟨Hx0, Hx⟩, ⟨⟨⟨%fd, Hd0⟩, -⟩, Hp⟩, HO, ⟨Hts0, Hts⟩, ⟨Htr0, Htr⟩, Hcr⟩ Hk
  iapply (wp_ysend m K c ⟨n, hn⟩ (Sn (2 + n)) (mem_Sn (t := .yr ⟨n, hn⟩) rfl rfl) fd) $$ [$HR $Hx0 $Hd0 $HO $Hts0 $Htr0]
  iintro ⟨Hc0, HO⟩
  iapply Hk $$ [$Hx $Hp $HO $Hts $Htr $Hc0 $Hcr]

omit [FloatOps F] in
theorem minLv_pos (n : ℕ) : 0 < minLv n := by unfold minLv; split_ifs <;> omega
omit [FloatOps F] in
theorem minLv_mid (n : ℕ) (h : 34 ≤ n) : 2 < minLv n := by unfold minLv; split_ifs <;> omega
omit [FloatOps F] in
theorem minLv_top (n : ℕ) (h : 66 ≤ n) : 3 < minLv n := by unfold minLv; split_ifs <;> omega
omit [FloatOps F] in
/-- A cell whose duties all lie in round 0 has none from round 1 on. -/
theorem one_round (x : CK) (h : ∀ r, dutiesK x (r + 1) = ∅) : ∀ r, 1 ≤ r → dutiesK x r = ∅ :=
  fun r hr => by cases r with | zero => omega | succ r => exact h r

/-- One wait on a family of 32 one-round transfer cells: cell `n` is consumed and closed, and its payload comes out. -/
theorem step_wait_fam (c : Dev nD) (ck : Fin 32 → CK) (sm : Fin 32 → DmaSem sig) (P : Fin 32 → sProp 𝕄) (q : ℕ)
    (hx : ∀ k, csem (ck k) = .dma (sm k)) (hdu : ∀ k, dutiesK (ck k) 0 = {false}) (hfin : ∀ k r, 1 ≤ r → dutiesK (ck k) r = ∅)
    (ham : ∀ k, amountK (ck k) = N512) (hpay : ∀ k, payloadK m c (ck k) 0 false = P k) (hq : ∀ k p, q ≤ p → lvK (ck k) < minLv p)
    (n p : ℕ) (hn : n < 32) (hp : q ≤ p) {W : Waits sig Unit}
    {sp sp' : Space} {s s' : Shape} {e e' : EltTy} {src : Memref sig .tc sp' s' e'} {κ' : Kind} {dst : Memref sig κ' sp s e}
    {hsrc : src.view.WordExact} {hdst : dst.view.WordExact} (hN : dst.view.dmaCredit = N512 := by unfold N512; rfl)
    {α : Type} {Q : α → sProp 𝕄} {kk : PUnit → Prog (TpuEff nD τ sig (Elt F) Λ₀ .tc) α} :
    iprop(records m K ∗ levAts L lv
        ∗ (bigSep (ge 32 n) fun k : Fin 32 => cred (tallyAt (cell c (ck k)) () N512))
        ∗ owes (c : Thread nD τ) (owedSum c (Sn p)) W
        ∗ (bigSep (ge 32 n) fun k : Fin 32 => atPos ER (cell c (ck k)) 0 ∅ 0)
        ∗ (bigSep (lt 32 n) fun k : Fin 32 => semVal (cell c (ck k)) 0))
      ⊢ iprop((((bigSep (ge 32 (n + 1)) fun k : Fin 32 => cred (tallyAt (cell c (ck k)) () N512))
              ∗ owes (c : Thread nD τ) (owedSum c (Sn p)) (insert (csem (ck ⟨n, hn⟩), ()) W)
              ∗ (bigSep (ge 32 (n + 1)) fun k : Fin 32 => atPos ER (cell c (ck k)) 0 ∅ 0)
              ∗ (bigSep (lt 32 (n + 1)) fun k : Fin 32 => semVal (cell c (ck k)) 0)
              ∗ P ⟨n, hn⟩)
            -∗ wp frame (wpE (defs₀ (F := F)) 𝒱₀ (c : Thread nD τ) none) Set.univ (kk ⟨⟩) Q)
          -∗ wp frame (wpE (defs₀ (F := F)) 𝒱₀ (c : Thread nD τ) none) Set.univ (.op (.waitDma2 (sm ⟨n, hn⟩) src dst hsrc hdst) kk) Q) := by
  rw [take_ge (fun k : Fin 32 => cred (tallyAt (cell c (ck k)) () N512)) n hn, take_ge (fun k : Fin 32 => atPos ER (cell c (ck k)) 0 ∅ 0) n hn,
    ← put_lt (fun k : Fin 32 => semVal (cell c (ck k)) 0) n hn]
  have hcr : (cred (tallyAt (cell c (ck ⟨n, hn⟩)) () N512) : sProp 𝕄) ⊢ cred (tallyAt (cell c (ck ⟨n, hn⟩)) () (amountK (ck ⟨n, hn⟩))) := by rw [ham]
  iintro ⟨#HR, #Hlev, ⟨Hc0, Hcr⟩, HO, ⟨Ha0, Hat⟩, Hz⟩ Hk
  ihave Hc0 := hcr $$ Hc0
  iapply (wp_wait_dma m K c (ck ⟨n, hn⟩) (sm ⟨n, hn⟩) (hx _) 0 (hdu _) (Sn p) (lv_ok _ p (hq _ p hp)) W (hN.trans (ham _).symm)) $$ [$HR $Hlev $Hc0 $HO $Ha0]
  iintro ⟨HO, Ha1, -, Hpay⟩
  imod (close_cell m K c (ck ⟨n, hn⟩) (0 + 1) (hfin _)) $$ [$HR $Ha1] with Hz0
  ihave Hpay := (Entails.of_eq (hpay ⟨n, hn⟩)) $$ Hpay
  iapply Hk $$ [$Hcr $HO $Hat $Hz0 $Hz $Hpay]

/-- The same, the payload joining the family of those already back. -/
theorem step_wait_acc (c : Dev nD) (ck : Fin 32 → CK) (sm : Fin 32 → DmaSem sig) (P : Fin 32 → sProp 𝕄) (q : ℕ)
    (hx : ∀ k, csem (ck k) = .dma (sm k)) (hdu : ∀ k, dutiesK (ck k) 0 = {false}) (hfin : ∀ k r, 1 ≤ r → dutiesK (ck k) r = ∅)
    (ham : ∀ k, amountK (ck k) = N512) (hpay : ∀ k, payloadK m c (ck k) 0 false = P k) (hq : ∀ k p, q ≤ p → lvK (ck k) < minLv p)
    (n p : ℕ) (hn : n < 32) (hp : q ≤ p) {W : Waits sig Unit}
    {sp sp' : Space} {s s' : Shape} {e e' : EltTy} {src : Memref sig .tc sp' s' e'} {κ' : Kind} {dst : Memref sig κ' sp s e}
    {hsrc : src.view.WordExact} {hdst : dst.view.WordExact} (hN : dst.view.dmaCredit = N512 := by unfold N512; rfl)
    {α : Type} {Q : α → sProp 𝕄} {kk : PUnit → Prog (TpuEff nD τ sig (Elt F) Λ₀ .tc) α} :
    iprop(records m K ∗ levAts L lv
        ∗ (bigSep (ge 32 n) fun k : Fin 32 => cred (tallyAt (cell c (ck k)) () N512))
        ∗ owes (c : Thread nD τ) (owedSum c (Sn p)) W
        ∗ (bigSep (ge 32 n) fun k : Fin 32 => atPos ER (cell c (ck k)) 0 ∅ 0)
        ∗ (bigSep (lt 32 n) fun k : Fin 32 => semVal (cell c (ck k)) 0)
        ∗ bigSep (lt 32 n) P)
      ⊢ iprop((((bigSep (ge 32 (n + 1)) fun k : Fin 32 => cred (tallyAt (cell c (ck k)) () N512))
              ∗ owes (c : Thread nD τ) (owedSum c (Sn p)) (insert (csem (ck ⟨n, hn⟩), ()) W)
              ∗ (bigSep (ge 32 (n + 1)) fun k : Fin 32 => atPos ER (cell c (ck k)) 0 ∅ 0)
              ∗ (bigSep (lt 32 (n + 1)) fun k : Fin 32 => semVal (cell c (ck k)) 0)
              ∗ bigSep (lt 32 (n + 1)) P)
            -∗ wp frame (wpE (defs₀ (F := F)) 𝒱₀ (c : Thread nD τ) none) Set.univ (kk ⟨⟩) Q)
          -∗ wp frame (wpE (defs₀ (F := F)) 𝒱₀ (c : Thread nD τ) none) Set.univ (.op (.waitDma2 (sm ⟨n, hn⟩) src dst hsrc hdst) kk) Q) := by
  rw [← put_lt P n hn]
  iintro ⟨#HR, #Hlev, Hc, HO, Ha, Hz, Hret⟩ Hk
  iapply (step_wait_fam m K c ck sm P q hx hdu hfin ham hpay hq n p hn hp hN) $$ [$HR $Hlev $Hc $HO $Ha $Hz]
  iintro ⟨Hc, HO, Ha, Hz, Hp⟩
  iapply Hk $$ [$Hc $HO $Ha $Hz $Hp $Hret]

def step_wait_yr (c : Dev nD) (n p : ℕ) (hn : n < 32 := by decide) (hp : 34 ≤ p := by decide) :=
  @step_wait_fam F _ m K c CK.yr (fun k => (sem32 cc0_scratch1 k).sem) (fun k => pts (xBuf c k) c fullShare (G m c)) 34
    (fun _ => rfl) (fun _ => rfl) (fun _ => one_round _ fun _ => rfl) (fun _ => rfl) (yr_as_xBuf m c) (fun _ => minLv_mid) n p hn hp
def step_wait_ys (c : Dev nD) (n p : ℕ) (hn : n < 32 := by decide) (hp : 34 ≤ p := by decide) :=
  @step_wait_acc F _ m K c CK.ys (fun k => (sem32 cc0_scratch0 k).sem) (fun k => pts (ySrc c k) c qY (xArr m c)) 34
    (fun _ => rfl) (fun _ => rfl) (fun _ => one_round _ fun _ => rfl) (fun _ => rfl) (fun _ => rfl) (fun _ p _ => minLv_pos p) n p hn hp
def step_wait_xs (c : Dev nD) (n p : ℕ) (hn : n < 32 := by decide) (hp : 34 ≤ p := by decide) :=
  @step_wait_acc F _ m K c CK.xs (fun k => (sem32 cc0_scratch2 k).sem) (fun k => pts (xBuf c k) c fullShare (G m c)) 34
    (fun _ => rfl) (fun _ => rfl) (fun _ => one_round _ fun _ => rfl) (fun _ => rfl) (fun _ => rfl) (fun _ p _ => minLv_pos p) n p hn hp
def step_wait_xr (c : Dev nD) (n p : ℕ) (hn : n < 32 := by decide) (hp : 66 ≤ p := by decide) :=
  @step_wait_acc F _ m K c CK.xr (fun k => (sem32 cc0_scratch3 k).sem) (fun k => pts (xBuf (px c) k) c fullShare (G m c)) 66
    (fun _ => rfl) (fun _ => rfl) (fun _ => one_round _ fun _ => rfl) (fun _ => rfl) (fun _ => rfl) (fun _ => minLv_top) n p hn hp

theorem step_xsend (c : Dev nD) (n : ℕ) {d : Dev nD} (hd : d = px c) (hn : n < 32 := by decide) {W : Waits sig Unit}
    {hsc : ((xBuf c ⟨n, hn⟩ : Memref sig .tc .hbm S512x1024 .f32) : Memref sig (Dev.tc d : Thread nD τ).2.kind .hbm S512x1024 .f32).view.ref.isScScratch = false}
    {hsrc : (xBuf c ⟨n, hn⟩).view.WordExact} {hdst : (xBuf c ⟨n, hn⟩).view.WordExact}
    {hsem : DmaTarget.Typed .hbm (.dma (sem32 cc0_scratch3 ⟨n, hn⟩).sem) (.remote (Dev.tc d : Thread nD τ) (xBuf c ⟨n, hn⟩) (.dma (sem32 cc0_scratch2 ⟨n, hn⟩).sem) hsc)}
    {α : Type} {Q : α → sProp 𝕄} {kk : PUnit → Prog (TpuEff nD τ sig (Elt F) Λ₀ .tc) α} :
    iprop(records m K
        ∗ pts (xBuf c ⟨n, hn⟩) c fullShare (G m c)
        ∗ (bigSep (ge 32 n) fun k : Fin 32 => iprop((∃ f, pts (xBuf c k) (px c) fullShare f) ∗ reached ER (cell (px c) (.xr k)) 0))
        ∗ owes (c : Thread nD τ) (owedSum c (Sn (34 + n))) W
        ∗ (bigSep (ge 32 n) fun k : Fin 32 => tokP c (.xs k)) ∗ (bigSep (ge 32 n) fun k : Fin 32 => tokP c (.xr k))
        ∗ (bigSep (lt 32 n) fun k : Fin 32 => cred (tallyAt (cell c (.xs k)) () N512)))
      ⊢ iprop((((bigSep (ge 32 (n + 1)) fun k : Fin 32 => iprop((∃ f, pts (xBuf c k) (px c) fullShare f) ∗ reached ER (cell (px c) (.xr k)) 0))
              ∗ owes (c : Thread nD τ) (owedSum c (Sn (34 + n + 1))) W
              ∗ (bigSep (ge 32 (n + 1)) fun k : Fin 32 => tokP c (.xs k)) ∗ (bigSep (ge 32 (n + 1)) fun k : Fin 32 => tokP c (.xr k))
              ∗ (bigSep (lt 32 (n + 1)) fun k : Fin 32 => cred (tallyAt (cell c (.xs k)) () N512)))
            -∗ wp frame (wpE (defs₀ (F := F)) 𝒱₀ (c : Thread nD τ) none) Set.univ (kk ⟨⟩) Q)
          -∗ wp frame (wpE (defs₀ (F := F)) 𝒱₀ (c : Thread nD τ) none) Set.univ (.op (.enqueueDma (xBuf c ⟨n, hn⟩) (.remote (Dev.tc d : Thread nD τ) (xBuf c ⟨n, hn⟩) (.dma (sem32 cc0_scratch2 ⟨n, hn⟩).sem) hsc) (.dma (sem32 cc0_scratch3 ⟨n, hn⟩).sem) hsrc hdst hsem) kk) Q) := by
  subst hd
  rw [take_ge (fun k : Fin 32 => iprop((∃ f, pts (xBuf c k) (px c) fullShare f) ∗ reached ER (cell (px c) (.xr k)) 0)) n hn,
    take_ge (fun k : Fin 32 => tokP c (.xs k)) n hn, take_ge (fun k : Fin 32 => tokP c (.xr k)) n hn,
    ← put_lt (fun k : Fin 32 => cred (tallyAt (cell c (.xs k)) () N512)) n hn, ← Sn_erase (t := .xr ⟨n, hn⟩) (n := 34 + n) rfl rfl]
  iintro ⟨#HR, Hx0, ⟨⟨⟨%fd, Hd0⟩, -⟩, Hp⟩, HO, ⟨Hts0, Hts⟩, ⟨Htr0, Htr⟩, Hcr⟩ Hk
  iapply (wp_xsend m K c ⟨n, hn⟩ (Sn (34 + n)) (mem_Sn (t := .xr ⟨n, hn⟩) rfl rfl) fd) $$ [$HR $Hx0 $Hd0 $HO $Hts0 $Htr0]
  iintro ⟨Hc0, HO⟩
  iapply Hk $$ [$Hp $HO $Hts $Htr $Hc0 $Hcr]

end Cert.KernelIdeal.AG
end
-- ==== Proof.KI.BodyStepsB.lean ====
import proofs.«900683_g7700000000000684_dist_ag_v7x_xyz2x2x4_y_m32768_n1024_f32_1_alg».proof.Defs
import proofs.«900683_g7700000000000684_dist_ag_v7x_xyz2x2x4_y_m32768_n1024_f32_1_alg».proof.Proof.Gen.KernelIdeal
import proofs.«900683_g7700000000000684_dist_ag_v7x_xyz2x2x4_y_m32768_n1024_f32_1_alg».proof.Proof.Gen.KernelIdeal.Skeleton
import proofs.«900683_g7700000000000684_dist_ag_v7x_xyz2x2x4_y_m32768_n1024_f32_1_alg».proof.Proof.Gen.KernelIdeal.Launch
import proofs.«900683_g7700000000000684_dist_ag_v7x_xyz2x2x4_y_m32768_n1024_f32_1_alg».proof.Proof.KI.Mesh
import proofs.«900683_g7700000000000684_dist_ag_v7x_xyz2x2x4_y_m32768_n1024_f32_1_alg».proof.Proof.KI.Sched
import proofs.«900683_g7700000000000684_dist_ag_v7x_xyz2x2x4_y_m32768_n1024_f32_1_alg».proof.Proof.KI.Proto
import proofs.«900683_g7700000000000684_dist_ag_v7x_xyz2x2x4_y_m32768_n1024_f32_1_alg».proof.Proof.KI.Bundles
import proofs.«900683_g7700000000000684_dist_ag_v7x_xyz2x2x4_y_m32768_n1024_f32_1_alg».proof.Proof.KI.Steps
import proofs.«900683_g7700000000000684_dist_ag_v7x_xyz2x2x4_y_m32768_n1024_f32_1_alg».proof.Proof.KI.BodySteps
import Idealize.ShloMosaic.Lib.Pipeline.Launch
import Idealize.ShloMosaic.Lib.Pipeline.Kit
import Idealize.ShloMosaic.Lib.Tactic
import Idealize.ShloMosaic.Lib.ValueIdx

noncomputable section

namespace Cert.KernelIdeal.AG

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : Dev nD × CK → ℕ)

omit [FloatOps F] in
private theorem payloadK_li (c : Dev nD) (j : Fin 2) (r : ℕ) (d : Bool) :
    payloadK (F := F) m c (.li j) r d = iprop(pts (vSl j) c fullShare (VB m c (chunk j r) j) ∗ pts (lSrc (chunk j r)) c qL (xArr m c)) := rfl
omit [FloatOps F] in
private theorem payloadK_lo (c : Dev nD) (j : Fin 2) (r : ℕ) (d : Bool) :
    payloadK (F := F) m c (.lo j) r d = iprop(pts (lDst c (chunk j r)) c fullShare (G m c) ∗ pts (vSl j) c fullShare (VB m c (chunk j r) j)) := rfl
omit [FloatOps F] in
private theorem payloadK_bar2 (c : Dev nD) (r : ℕ) (d : Bool) : payloadK (F := F) m c .bar2 r d = iprop(emp) := rfl

theorem step_in_start (c : Dev nD) (i : ℕ) (j : Fin 2) (r : ℕ) (hi16 : i < 16 := by decide) (hr : r < 8 := by decide) (hi : chunk j r = ⟨i, hi16⟩ := by rfl)
    {hsrc : (lSrc ⟨i, hi16⟩).view.WordExact} {hdst : (vSl j).view.WordExact}
    {hsem : DmaTarget.Typed .hbm (.dma (sem2 cc0_scratch5 j).sem) (.here (vSl j) : DmaTarget nD τ sig .tc .vmem S2048x1024 .f32)}
    {fd : Buf (Elt F) ((vSl j).view.loc (c : Thread nD τ))} {α : Type} {Q : α → sProp 𝕄} {kk : PUnit → Prog (TpuEff nD τ sig (Elt F) Λ₀ .tc) α} :
    iprop(records m K
        ∗ (bigSep (ge 16 i) fun i : Fin 16 => pts (lSrc i) c qL (xArr m c))
        ∗ pts (vSl j) c fullShare fd
        ∗ (bigSep (ge 8 r) fun r : Fin 8 => tokP c (.li j r))
        ∗ reached ER (cell c (.li j)) r)
      ⊢ iprop((((bigSep (ge 16 (i + 1)) fun i : Fin 16 => pts (lSrc i) c qL (xArr m c))
              ∗ (bigSep (ge 8 (r + 1)) fun r : Fin 8 => tokP c (.li j r))
              ∗ cred (tallyAt (cell c (.li j)) () NV))
            -∗ wp frame (wpE (defs₀ (F := F)) 𝒱₀ (c : Thread nD τ) none) Set.univ (kk ⟨⟩) Q)
          -∗ wp frame (wpE (defs₀ (F := F)) 𝒱₀ (c : Thread nD τ) none) Set.univ (.op (.enqueueDma (lSrc ⟨i, hi16⟩) (.here (vSl j)) (.dma (sem2 cc0_scratch5 j).sem) hsrc hdst hsem) kk) Q) := by
  have e : (tokP (F := F) c (.li j ⟨r, hr⟩) : sProp 𝕄) = dutyTok ER (cell c (.li j)) r false := rfl
  rw [take_ge (fun i : Fin 16 => pts (lSrc i) c qL (xArr m c)) i hi16, take_ge (fun r : Fin 8 => tokP c (.li j r)) r hr, e]
  iintro ⟨#HR, ⟨Hx0, Hx⟩, Hv, ⟨Ht0, Ht⟩, #Hr⟩ Hk
  iapply (wp_copy_in m K c ⟨i, hi16⟩ j r hr hi fd) $$ [$HR $Hx0 $Hv $Ht0 $Hr]
  iintro Hc
  iapply Hk $$ [$Hx $Ht $Hc]

theorem step_in_wait (c : Dev nD) (i : ℕ) (j : Fin 2) (r p : ℕ) (hi16 : i < 16 := by decide) (hr : r < 8 := by decide) (hi : chunk j r = ⟨i, hi16⟩ := by rfl)
    {W : Waits sig Unit}
    {sp sp' : Space} {s s' : Shape} {e e' : EltTy} {src : Memref sig .tc sp' s' e'} {κ' : Kind} {dst : Memref sig κ' sp s e}
    {hsrc : src.view.WordExact} {hdst : dst.view.WordExact} (hN : dst.view.dmaCredit = NV := by unfold NV; rfl) {α : Type} {Q : α → sProp 𝕄} {kk : PUnit → Prog (TpuEff nD τ sig (Elt F) Λ₀ .tc) α} :
    iprop(records m K ∗ levAts L lv ∗ cred (tallyAt (cell c (.li j)) () NV) ∗ owes (c : Thread nD τ) (owedSum c (Sn p)) W
        ∗ atPos ER (cell c (.li j)) r ∅ 0
        ∗ (bigSep (lt 16 i) fun i : Fin 16 => pts (lSrc i) c qL (xArr m c)))
      ⊢ iprop(((owes (c : Thread nD τ) (owedSum c (Sn p)) (insert (csem (.li j), ()) W)
              ∗ atPos ER (cell c (.li j)) (r + 1) ∅ 0 ∗ reached ER (cell c (.li j)) (r + 1)
              ∗ pts (vSl j) c fullShare (VB m c ⟨i, hi16⟩ j)
              ∗ (bigSep (lt 16 (i + 1)) fun i : Fin 16 => pts (lSrc i) c qL (xArr m c)))
            -∗ wp frame (wpE (defs₀ (F := F)) 𝒱₀ (c : Thread nD τ) none) Set.univ (kk ⟨⟩) Q)
          -∗ wp frame (wpE (defs₀ (F := F)) 𝒱₀ (c : Thread nD τ) none) Set.univ (.op (.waitDma2 (sem2 cc0_scratch5 j).sem src dst hsrc hdst) kk) Q) := by
  rw [← put_lt (fun i : Fin 16 => pts (lSrc i) c qL (xArr m c)) i hi16]
  iintro ⟨#HR, #Hlev, Hc, HO, Hat, Hrl⟩ Hk
  iapply (wp_wait_dma m K c (.li j) (sem2 cc0_scratch5 j).sem rfl r (dutiesK_li j r hr) (Sn p)
      (lv_ok (.li j) p (minLv_pos p)) W hN) $$ [Hc HO Hat]
  · rw [show amountK (CK.li j) = NV from rfl]; iframe HR Hlev ∗
  rw [payloadK_li, hi]
  iintro ⟨HO, Hat, #Hr, Hv, Hx0⟩
  iapply Hk $$ [$HO $Hat $Hr $Hv $Hx0 $Hrl]

theorem step_out_start (c : Dev nD) (i : ℕ) (j : Fin 2) (r : ℕ) (hi16 : i < 16 := by decide) (hr : r < 8 := by decide) (hi : chunk j r = ⟨i, hi16⟩ := by rfl)
    {f0 : Buf (Elt F) ((c : Thread nD τ).loc main_v1)}
    {hsrc : (vSl j).view.WordExact} {hdst : (lDst c ⟨i, hi16⟩).view.WordExact}
    {hsem : DmaTarget.Typed .vmem (.dma (sem2 cc0_scratch6 j).sem) (.here (lDst c ⟨i, hi16⟩) : DmaTarget nD τ sig .tc .hbm S2048x1024 .f32)} {α : Type} {Q : α → sProp 𝕄} {kk : PUnit → Prog (TpuEff nD τ sig (Elt F) Λ₀ .tc) α} :
    iprop(records m K
        ∗ pts (vSl j) c fullShare (VB m c ⟨i, hi16⟩ j)
        ∗ (bigSep (ge 16 i) fun i : Fin 16 => pts (lDst c i) c fullShare f0)
        ∗ (bigSep (ge 8 r) fun r : Fin 8 => tokP c (.lo j r))
        ∗ reached ER (cell c (.lo j)) r)
      ⊢ iprop((((bigSep (ge 16 (i + 1)) fun i : Fin 16 => pts (lDst c i) c fullShare f0)
              ∗ (bigSep (ge 8 (r + 1)) fun r : Fin 8 => tokP c (.lo j r))
              ∗ cred (tallyAt (cell c (.lo j)) () N2048))
            -∗ wp frame (wpE (defs₀ (F := F)) 𝒱₀ (c : Thread nD τ) none) Set.univ (kk ⟨⟩) Q)
          -∗ wp frame (wpE (defs₀ (F := F)) 𝒱₀ (c : Thread nD τ) none) Set.univ (.op (.enqueueDma (vSl j) (.here (lDst c ⟨i, hi16⟩)) (.dma (sem2 cc0_scratch6 j).sem) hsrc hdst hsem) kk) Q) := by
  have e : (tokP (F := F) c (.lo j ⟨r, hr⟩) : sProp 𝕄) = dutyTok ER (cell c (.lo j)) r false := rfl
  rw [take_ge (fun i : Fin 16 => pts (lDst c i) c fullShare f0) i hi16, take_ge (fun r : Fin 8 => tokP c (.lo j r)) r hr, e]
  iintro ⟨#HR, Hv, ⟨Ho0, Ho⟩, ⟨Ht0, Ht⟩, #Hr⟩ Hk
  iapply (wp_copy_out m K c ⟨i, hi16⟩ j r hr hi f0) $$ [$HR $Hv $Ho0 $Ht0 $Hr]
  iintro Hc
  iapply Hk $$ [$Ho $Ht $Hc]

theorem step_out_wait (c : Dev nD) (i : ℕ) (j : Fin 2) (r p : ℕ) (hi16 : i < 16 := by decide) (hr : r < 8 := by decide) (hi : chunk j r = ⟨i, hi16⟩ := by rfl)
    {W : Waits sig Unit}
    {sp sp' : Space} {s s' : Shape} {e e' : EltTy} {src : Memref sig .tc sp' s' e'} {κ' : Kind} {dst : Memref sig κ' sp s e}
    {hsrc : src.view.WordExact} {hdst : dst.view.WordExact} (hN : dst.view.dmaCredit = N2048 := by unfold N2048; rfl) {α : Type} {Q : α → sProp 𝕄} {kk : PUnit → Prog (TpuEff nD τ sig (Elt F) Λ₀ .tc) α} :
    iprop(records m K ∗ levAts L lv ∗ cred (tallyAt (cell c (.lo j)) () N2048) ∗ owes (c : Thread nD τ) (owedSum c (Sn p)) W
        ∗ atPos ER (cell c (.lo j)) r ∅ 0
        ∗ (bigSep (lt 16 i) fun i : Fin 16 => pts (lDst c i) c fullShare (G m c)))
      ⊢ iprop(((owes (c : Thread nD τ) (owedSum c (Sn p)) (insert (csem (.lo j), ()) W)
              ∗ atPos ER (cell c (.lo j)) (r + 1) ∅ 0 ∗ reached ER (cell c (.lo j)) (r + 1)
              ∗ pts (vSl j) c fullShare (VB m c ⟨i, hi16⟩ j)
              ∗ (bigSep (lt 16 (i + 1)) fun i : Fin 16 => pts (lDst c i) c fullShare (G m c)))
            -∗ wp frame (wpE (defs₀ (F := F)) 𝒱₀ (c : Thread nD τ) none) Set.univ (kk ⟨⟩) Q)
          -∗ wp frame (wpE (defs₀ (F := F)) 𝒱₀ (c : Thread nD τ) none) Set.univ (.op (.waitDma2 (sem2 cc0_scratch6 j).sem src dst hsrc hdst) kk) Q) := by
  rw [← put_lt (fun i : Fin 16 => pts (lDst c i) c fullShare (G m c)) i hi16]
  iintro ⟨#HR, #Hlev, Hc, HO, Hat, Hro⟩ Hk
  iapply (wp_wait_dma m K c (.lo j) (sem2 cc0_scratch6 j).sem rfl r (dutiesK_lo j r hr) (Sn p)
      (lv_ok (.lo j) p (minLv_pos p)) W hN) $$ [Hc HO Hat]
  · rw [show amountK (CK.lo j) = N2048 from rfl]; iframe HR Hlev ∗
  rw [payloadK_lo, hi]
  iintro ⟨HO, Hat, #Hr, Ho0, Hv⟩
  iapply Hk $$ [$HO $Hat $Hr $Hv $Ho0 $Hro]

theorem step_sig_bar2 (c : Dev nD) (d : Bool) (n : ℕ) (hn : (TK.bar2 d).ord = n) {W : Waits sig Unit} {α : Type} {Q : α → sProp 𝕄} {kk : PUnit → Prog (TpuEff nD τ sig (Elt F) Λ₀ .tc) α} :
    iprop(records m K ∗ owes (c : Thread nD τ) (owedSum c (Sn n)) W ∗ tokP c (.bar2 d))
      ⊢ iprop((owes (c : Thread nD τ) (owedSum c (Sn (n + 1))) W -∗ wp frame (wpE (defs₀ (F := F)) 𝒱₀ (c : Thread nD τ) none) Set.univ (kk ⟨⟩) Q)
          -∗ wp frame (wpE (defs₀ (F := F)) 𝒱₀ (c : Thread nD τ) none) Set.univ (.op (.semSignal ((payer c (.bar2 d) : Dev nD) : Thread nD τ) bar2S 1) kk) Q) := by
  have e : (tokP (F := F) c (.bar2 d) : sProp 𝕄) = dutyTok ER (cell (payer c (.bar2 d)) .bar2) 0 d := rfl
  rw [e]
  iintro ⟨#HR, HO, Ht⟩
  iapply (wp_sig m K c (payer c (.bar2 d)) .bar2 bar2S rfl d (Finset.mem_univ _) rfl (owedSum c (Sn n)) (owedSum c (Sn (n + 1)))
    (owed_step c n (.bar2 d) rfl hn) W) $$ [HO Ht]
  isplitr; · iexact HR
  isplitl [HO]; · iexact HO
  isplitl [Ht]; · iexact Ht
  rw [payloadK_bar2]; iempintro

theorem step_wait_bar2 (c : Dev nD) {W : Waits sig Unit} {α : Type} {Q : α → sProp 𝕄} {kk : PUnit → Prog (TpuEff nD τ sig (Elt F) Λ₀ .tc) α} :
    iprop(records m K ∗ levAts L lv ∗ cred (tallyAt (cell c .bar2) () 2) ∗ owes (c : Thread nD τ) (owedSum c (Sn 68)) W ∗ atPos ER (cell c .bar2) 0 ∅ 0)
      ⊢ iprop(((owes (c : Thread nD τ) 0 (insert (csem .bar2, ()) W) ∗ semVal (cell c .bar2) 0)
            -∗ wp frame (wpE (defs₀ (F := F)) 𝒱₀ (c : Thread nD τ) none) Set.univ (kk ⟨⟩) Q)
          -∗ wp frame (wpE (defs₀ (F := F)) 𝒱₀ (c : Thread nD τ) none) Set.univ (.op (.semWait bar2S 2) kk) Q) := by
  have h0 : (0 : CellTallies nD τ sig Unit) = owedSum c (Sn 68) := by rw [Sn_top]; unfold owedSum; exact Finset.sum_empty.symm
  rw [h0]
  iintro ⟨#HR, #Hlev, Hc, HO, Hat⟩ Hk
  iapply (wp_wait_hs m K c .bar2 bar2S rfl rfl rfl (Sn 68) (fun t ht => by rw [Sn_top] at ht; exact absurd ht (Finset.notMem_empty t)) W) $$ [$HR $Hlev $Hc $HO $Hat]
  rw [payloadK_bar2 m c 0 false, payloadK_bar2 m c 0 true]
  iintro ⟨HO, Ha1, -, -⟩
  imod (close_cell m K c .bar2 1 (fun r hr => by cases r with | zero => omega | succ r => rfl)) $$ [$HR $Ha1] with Hz
  iapply Hk $$ [$HO $Hz]

end Cert.KernelIdeal.AG
end
-- ==== Proof.KI.Loop.lean ====
import proofs.«900683_g7700000000000684_dist_ag_v7x_xyz2x2x4_y_m32768_n1024_f32_1_alg».proof.Defs
import proofs.«900683_g7700000000000684_dist_ag_v7x_xyz2x2x4_y_m32768_n1024_f32_1_alg».proof.Proof.Gen.KernelIdeal
import proofs.«900683_g7700000000000684_dist_ag_v7x_xyz2x2x4_y_m32768_n1024_f32_1_alg».proof.Proof.Gen.KernelIdeal.Skeleton
import proofs.«900683_g7700000000000684_dist_ag_v7x_xyz2x2x4_y_m32768_n1024_f32_1_alg».proof.Proof.Gen.KernelIdeal.Launch
import proofs.«900683_g7700000000000684_dist_ag_v7x_xyz2x2x4_y_m32768_n1024_f32_1_alg».proof.Proof.KI.Mesh
import proofs.«900683_g7700000000000684_dist_ag_v7x_xyz2x2x4_y_m32768_n1024_f32_1_alg».proof.Proof.KI.Sched
import proofs.«900683_g7700000000000684_dist_ag_v7x_xyz2x2x4_y_m32768_n1024_f32_1_alg».proof.Proof.KI.Proto
import proofs.«900683_g7700000000000684_dist_ag_v7x_xyz2x2x4_y_m32768_n1024_f32_1_alg».proof.Proof.KI.Bundles
import proofs.«900683_g7700000000000684_dist_ag_v7x_xyz2x2x4_y_m32768_n1024_f32_1_alg».proof.Proof.KI.Steps
import proofs.«900683_g7700000000000684_dist_ag_v7x_xyz2x2x4_y_m32768_n1024_f32_1_alg».proof.Proof.KI.BodySteps
import Idealize.ShloMosaic.Lib.Pipeline.Launch
import Idealize.ShloMosaic.Lib.Pipeline.Kit
import Idealize.ShloMosaic.Lib.Tactic
import Idealize.ShloMosaic.Lib.ValueIdx

noncomputable section

namespace Cert.KernelIdeal.AG

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : Dev nD × CK → ℕ)

variable {α : Type}

/-- `Chain S rest n N p`: the program `p` is the blocks `n`, …, `N - 1`, each of the shape `S`, and then `rest`. -/
inductive Chain (S : ℕ → Prog (TpuEff nD τ sig (Elt F) Λ₀ .tc) α → Prog (TpuEff nD τ sig (Elt F) Λ₀ .tc) α → Prop) (rest : Prog (TpuEff nD τ sig (Elt F) Λ₀ .tc) α) : ℕ → ℕ → Prog (TpuEff nD τ sig (Elt F) Λ₀ .tc) α → Prop
  | nil {n : ℕ} : Chain S rest n n rest
  | cons {n N : ℕ} {p q : Prog (TpuEff nD τ sig (Elt F) Λ₀ .tc) α} : S n p q → Chain S rest (n + 1) N q → Chain S rest n N p

/-- An invariant that every block carries from its index to the next is carried along the whole chain. -/
theorem chain_wp {S : ℕ → Prog (TpuEff nD τ sig (Elt F) Λ₀ .tc) α → Prog (TpuEff nD τ sig (Elt F) Λ₀ .tc) α → Prop} (c : Dev nD) {I : ℕ → sProp 𝕄} {Q : α → sProp 𝕄}
    (hS : ∀ n p q, S n p q → I n ⊢ iprop((I (n + 1) -∗ wp frame (wpE (defs₀ (F := F)) 𝒱₀ (c : Thread nD τ) none) Set.univ q Q) -∗ wp frame (wpE (defs₀ (F := F)) 𝒱₀ (c : Thread nD τ) none) Set.univ p Q))
    {rest : Prog (TpuEff nD τ sig (Elt F) Λ₀ .tc) α} {n N : ℕ} {p : Prog (TpuEff nD τ sig (Elt F) Λ₀ .tc) α} (h : Chain S rest n N p) :
    I n ⊢ iprop((I N -∗ wp frame (wpE (defs₀ (F := F)) 𝒱₀ (c : Thread nD τ) none) Set.univ rest Q) -∗ wp frame (wpE (defs₀ (F := F)) 𝒱₀ (c : Thread nD τ) none) Set.univ p Q) := by
  induction h with
  | nil => iintro H Hk; iapply Hk $$ H
  | cons hs _ ih =>
    iintro H Hk
    iapply (hS _ _ _ hs) $$ H
    iintro H
    iapply ih $$ H Hk

/-- What a family of 32 one-round transfer cells holds once the first `n` of them have been waited for. -/
def fam (c : Dev nD) (ck : Fin 32 → CK) (P : Fin 32 → sProp 𝕄) (n : ℕ) : sProp 𝕄 :=
  iprop((bigSep (ge 32 n) fun k : Fin 32 => cred (tallyAt (cell c (ck k)) () N512))
    ∗ (bigSep (ge 32 n) fun k : Fin 32 => atPos ER (cell c (ck k)) 0 ∅ 0)
    ∗ (bigSep (lt 32 n) fun k : Fin 32 => semVal (cell c (ck k)) 0) ∗ bigSep (lt 32 n) P)

/-- Block `n` of the last stage: chunk `n` has left for the `y` peer, has left for the `x` peer, and has come from the `x` peer. -/
inductive DrainBlk : ℕ → Prog (TpuEff nD τ sig (Elt F) Λ₀ .tc) α → Prog (TpuEff nD τ sig (Elt F) Λ₀ .tc) α → Prop
  | mk {n : ℕ} (hn : n < 32) {q : Prog (TpuEff nD τ sig (Elt F) Λ₀ .tc) α}
      {sp1 sp1' : Space} {s1 s1' : Shape} {e1 e1' : EltTy} {src1 : Memref sig .tc sp1' s1' e1'} {κ1 : Kind} {dst1 : Memref sig κ1 sp1 s1 e1}
      {hs1 : src1.view.WordExact} {hd1 : dst1.view.WordExact} (h1 : dst1.view.dmaCredit = N512)
      {sp2 sp2' : Space} {s2 s2' : Shape} {e2 e2' : EltTy} {src2 : Memref sig .tc sp2' s2' e2'} {κ2 : Kind} {dst2 : Memref sig κ2 sp2 s2 e2}
      {hs2 : src2.view.WordExact} {hd2 : dst2.view.WordExact} (h2 : dst2.view.dmaCredit = N512)
      {sp3 sp3' : Space} {s3 s3' : Shape} {e3 e3' : EltTy} {src3 : Memref sig .tc sp3' s3' e3'} {κ3 : Kind} {dst3 : Memref sig κ3 sp3 s3 e3}
      {hs3 : src3.view.WordExact} {hd3 : dst3.view.WordExact} (h3 : dst3.view.dmaCredit = N512) :
      DrainBlk n (.op (.waitDma2 (sem32 cc0_scratch0 ⟨n, hn⟩).sem src1 dst1 hs1 hd1) fun _ =>
        .op (.waitDma2 (sem32 cc0_scratch2 ⟨n, hn⟩).sem src2 dst2 hs2 hd2) fun _ =>
        .op (.waitDma2 (sem32 cc0_scratch3 ⟨n, hn⟩).sem src3 dst3 hs3 hd3) fun _ => q) q

def drainI (c : Dev nD) (n : ℕ) : sProp 𝕄 :=
  iprop(records m K ∗ levAts L lv ∗ (∃ W, owes (c : Thread nD τ) (owedSum c (Sn 66)) W)
    ∗ fam c CK.ys (fun k => pts (ySrc c k) c qY (xArr m c)) n
    ∗ fam c CK.xs (fun k => pts (xBuf c k) c fullShare (G m c)) n
    ∗ fam c CK.xr (fun k => pts (xBuf (px c) k) c fullShare (G m c)) n)

theorem drain_wp (c : Dev nD) {Q : α → sProp 𝕄} (n : ℕ) (p q : Prog (TpuEff nD τ sig (Elt F) Λ₀ .tc) α) (h : DrainBlk (F := F) n p q) :
    drainI m K c n ⊢ iprop((drainI m K c (n + 1) -∗ wp frame (wpE (defs₀ (F := F)) 𝒱₀ (c : Thread nD τ) none) Set.univ q Q) -∗ wp frame (wpE (defs₀ (F := F)) 𝒱₀ (c : Thread nD τ) none) Set.univ p Q) := by
  cases h with
  | mk hn h1 h2 h3 =>
    unfold drainI fam
    iintro ⟨#HR, #Hlev, ⟨%W, HO⟩, ⟨Hc1, Ha1, Hz1, Hr1⟩, ⟨Hc2, Ha2, Hz2, Hr2⟩, ⟨Hc3, Ha3, Hz3, Hr3⟩⟩ Hk
    iapply (step_wait_ys m K c n 66 hn (by decide) (hN := h1)) $$ [$HR $Hlev $Hc1 $HO $Ha1 $Hz1 $Hr1]
    iintro ⟨Hc1, HO, Ha1, Hz1, Hr1⟩
    iapply (step_wait_xs m K c n 66 hn (by decide) (hN := h2)) $$ [$HR $Hlev $Hc2 $HO $Ha2 $Hz2 $Hr2]
    iintro ⟨Hc2, HO, Ha2, Hz2, Hr2⟩
    iapply (step_wait_xr m K c n 66 hn (by decide) (hN := h3)) $$ [$HR $Hlev $Hc3 $HO $Ha3 $Hz3 $Hr3]
    iintro ⟨Hc3, HO, Ha3, Hz3, Hr3⟩
    iapply Hk
    iframe HR Hlev ∗
    iexists _; iexact HO

/-- Block `n` of the first stage: chunk `n` of this device's own block leaves for the `y` peer. -/
inductive YSendBlk (c : Dev nD) : ℕ → Prog (TpuEff nD τ sig (Elt F) Λ₀ .tc) α → Prog (TpuEff nD τ sig (Elt F) Λ₀ .tc) α → Prop
  | mk {n : ℕ} (hn : n < 32) {d : Dev nD} (hd : d = py c) {q : Prog (TpuEff nD τ sig (Elt F) Λ₀ .tc) α}
      {hsc : ((yDst c ⟨n, hn⟩ : Memref sig .tc .hbm S512x1024 .f32) : Memref sig (Dev.tc d : Thread nD τ).2.kind .hbm S512x1024 .f32).view.ref.isScScratch = false}
      {hsrc : (ySrc c ⟨n, hn⟩).view.WordExact} {hdst : (yDst c ⟨n, hn⟩).view.WordExact}
      {hsem : DmaTarget.Typed .hbm (.dma (sem32 cc0_scratch1 ⟨n, hn⟩).sem) (.remote (Dev.tc d : Thread nD τ) (yDst c ⟨n, hn⟩) (.dma (sem32 cc0_scratch0 ⟨n, hn⟩).sem) hsc)} :
      YSendBlk c n (.op (.enqueueDma (ySrc c ⟨n, hn⟩) (.remote (Dev.tc d : Thread nD τ) (yDst c ⟨n, hn⟩) (.dma (sem32 cc0_scratch0 ⟨n, hn⟩).sem) hsc)
        (.dma (sem32 cc0_scratch1 ⟨n, hn⟩).sem) hsrc hdst hsem) fun _ => q) q

def ysendI (c : Dev nD) (W : Waits sig Unit) (n : ℕ) : sProp 𝕄 :=
  iprop(records m K
    ∗ (bigSep (ge 32 n) fun k : Fin 32 => pts (ySrc c k) c qY (xArr m c))
    ∗ (bigSep (ge 32 n) fun k : Fin 32 => iprop((∃ f, pts (yDst c k) (py c) fullShare f) ∗ reached ER (cell (py c) (.yr k)) 0))
    ∗ owes (c : Thread nD τ) (owedSum c (Sn (2 + n))) W
    ∗ (bigSep (ge 32 n) fun k : Fin 32 => tokP c (.ys k)) ∗ (bigSep (ge 32 n) fun k : Fin 32 => tokP c (.yr k))
    ∗ (bigSep (lt 32 n) fun k : Fin 32 => cred (tallyAt (cell c (.ys k)) () N512)))

theorem ysend_wp (c : Dev nD) (W : Waits sig Unit) {Q : α → sProp 𝕄} (n : ℕ) (p q : Prog (TpuEff nD τ sig (Elt F) Λ₀ .tc) α) (h : YSendBlk (F := F) c n p q) :
    ysendI m K c W n ⊢ iprop((ysendI m K c W (n + 1) -∗ wp frame (wpE (defs₀ (F := F)) 𝒱₀ (c : Thread nD τ) none) Set.univ q Q) -∗ wp frame (wpE (defs₀ (F := F)) 𝒱₀ (c : Thread nD τ) none) Set.univ p Q) := by
  cases h with
  | mk hn hd =>
    unfold ysendI
    rw [show 2 + (n + 1) = 2 + n + 1 from rfl]
    iintro ⟨#HR, H⟩ Hk
    iapply (step_ysend m K c n hd hn) $$ [$HR $H]
    iintro H
    iapply Hk $$ [$HR $H]

end Cert.KernelIdeal.AG
end
-- ==== Proof.KI.Body.lean ====
import proofs.«900683_g7700000000000684_dist_ag_v7x_xyz2x2x4_y_m32768_n1024_f32_1_alg».proof.Defs
import proofs.«900683_g7700000000000684_dist_ag_v7x_xyz2x2x4_y_m32768_n1024_f32_1_alg».proof.Proof.Gen.KernelIdeal
import proofs.«900683_g7700000000000684_dist_ag_v7x_xyz2x2x4_y_m32768_n1024_f32_1_alg».proof.Proof.Gen.KernelIdeal.Skeleton
import proofs.«900683_g7700000000000684_dist_ag_v7x_xyz2x2x4_y_m32768_n1024_f32_1_alg».proof.Proof.Gen.KernelIdeal.Launch
import proofs.«900683_g7700000000000684_dist_ag_v7x_xyz2x2x4_y_m32768_n1024_f32_1_alg».proof.Proof.KI.Mesh
import proofs.«900683_g7700000000000684_dist_ag_v7x_xyz2x2x4_y_m32768_n1024_f32_1_alg».proof.Proof.KI.Sched
import proofs.«900683_g7700000000000684_dist_ag_v7x_xyz2x2x4_y_m32768_n1024_f32_1_alg».proof.Proof.KI.Proto
import proofs.«900683_g7700000000000684_dist_ag_v7x_xyz2x2x4_y_m32768_n1024_f32_1_alg».proof.Proof.KI.Bundles
import proofs.«900683_g7700000000000684_dist_ag_v7x_xyz2x2x4_y_m32768_n1024_f32_1_alg».proof.Proof.KI.Regions
import proofs.«900683_g7700000000000684_dist_ag_v7x_xyz2x2x4_y_m32768_n1024_f32_1_alg».proof.Proof.KI.Values
import proofs.«900683_g7700000000000684_dist_ag_v7x_xyz2x2x4_y_m32768_n1024_f32_1_alg».proof.Proof.KI.Split
import proofs.«900683_g7700000000000684_dist_ag_v7x_xyz2x2x4_y_m32768_n1024_f32_1_alg».proof.Proof.KI.Steps
import proofs.«900683_g7700000000000684_dist_ag_v7x_xyz2x2x4_y_m32768_n1024_f32_1_alg».proof.Proof.KI.BodySteps
import proofs.«900683_g7700000000000684_dist_ag_v7x_xyz2x2x4_y_m32768_n1024_f32_1_alg».proof.Proof.KI.BodyStepsB
import proofs.«900683_g7700000000000684_dist_ag_v7x_xyz2x2x4_y_m32768_n1024_f32_1_alg».proof.Proof.KI.Loop
import Idealize.ShloMosaic.Lib.Pipeline.Launch
import Idealize.ShloMosaic.Lib.Pipeline.Kit
import Idealize.ShloMosaic.Lib.Tactic
import Idealize.ShloMosaic.Lib.ValueIdx

noncomputable section

namespace Cert.KernelIdeal.AG

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

omit [FloatOps F] in
theorem lt_full_ge {N : ℕ} (Φ : Fin N → sProp 𝕄) : bigSep (lt N N) Φ ⊢ bigSep (ge N 0) Φ := by rw [lt_top, ge_zero]
omit [FloatOps F] in
theorem lt_full {N : ℕ} (Φ : Fin N → sProp 𝕄) : bigSep (lt N N) Φ ⊢ bigSep Finset.univ Φ := by rw [lt_top]
omit [FloatOps F] in
theorem univ_ge {N : ℕ} (Φ : Fin N → sProp 𝕄) : bigSep Finset.univ Φ ⊢ bigSep (ge N 0) Φ := by rw [ge_zero]
omit [FloatOps F] in
theorem lt_none {N : ℕ} (Φ : Fin N → sProp 𝕄) : (emp : sProp 𝕄) ⊢ bigSep (lt N 0) Φ := by rw [lt_zero, bigSep_empty]; exact BI.Entails.refl _

theorem fam_xs_to_yr (c : Dev nD) :
    (bigSep Finset.univ fun k : Fin 32 => pts (xBuf c k) c fullShare (G m c) : sProp 𝕄)
      ⊢ bigSep Finset.univ fun k : Fin 32 => pts (yDst (py c) k) c fullShare (G m c) :=
  bigSep_mono fun k _ => Entails.of_eq (yr_as_xBuf m c k).symm

theorem owesAt_done (c : Dev nD) (W' : Waits sig Unit) :
    (owes (c : Thread nD τ) (0 : CellTallies nD τ sig Unit) W' : sProp 𝕄) ⊢ (dats m 0 c).owesAt () t₀.succ := by
  unfold Dat.owesAt Pipeline.owesWithin
  rw [show (dats m 0 c).owed t₀.succ = 0 from rfl]
  iintro H
  iexists W'
  isplitr; · ipureintro; exact fun _ _ => Or.inl trivial
  iexact H

set_option maxHeartbeats 2000000 in
set_option maxRecDepth 100000 in
theorem sound_body (K : Dev nD × CK → ℕ) (c : Dev nD) (Kt : PUnit → sProp 𝕄) :
    iprop(bodyPre m K c ∗ (bodyPost m c -∗ Kt ⟨⟩)) ⊢ wp frame (wpE (defs₀ (F := F)) 𝒱₀ c none) Set.univ (bodyProg (F := F)) Kt := by
  unfold bodyProg
  simp only [cc0_body_eq_skeleton, cc0_body_skel, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part1_skel, k0_part2_skel, k0_part3_skel, k0_part4_skel, k0_part5_skel, k0_part6_skel, k0_part7_skel, k0_part8_skel, k0_part9_skel, k0_part10_skel, k0_part11_skel, k0_part12_skel, k0_part13_skel, k0_part14_skel, k0_part15_skel, k0_part16_skel, k0_part17_skel, k0_part18_skel, k0_part19_skel, k0_part20_skel, k0_part21_skel, k0_part22_skel, k0_part23_skel, k0_part24_skel, k0_part25_skel, k0_part26_skel, k0_part27_skel, k0_part28_skel, k0_part29_skel, k0_part30_skel, k0_part31_skel, k0_part32_skel, k0_part33_skel, k0_part34_skel, k0_part35_skel, k0_part36_skel, k0_part37_skel, k0_part38_skel, k0_part39_skel, k0_part40_skel, k0_part41_skel, k0_part42_skel, k0_part43_skel, k0_part44_skel, k0_part45_skel, k0_part46_skel, k0_part47_skel, k0_part48_skel, k0_part49_skel, k0_part50_skel, k0_part51_skel, k0_part52_skel, k0_part53_skel, k0_part54_skel, k0_part55_skel, k0_part56_skel, k0_part57_skel, k0_part58_skel, k0_part59_skel, k0_part60_skel, k0_part61_skel, k0_part62_skel, k0_part63_skel, k0_part64_skel, k0_part65_skel, k0_part66_skel, k0_part67_skel, k0_part68_skel, k0_part69_skel, k0_part70_skel, k0_part71_skel]
  simp only [semSignalWord, semWaitWord, Prog.lift, Prog.bind_op, Prog.bind_ret, Prog.pure_eq_ret, wp_deviceId]
  simp only [dev_y c (k0_dev1_eq c), dev_x c (k0_dev2_eq c), dev_y c (k0_dev67_eq c), dev_x c (k0_dev68_eq c)]
  unfold bodyPre ghost creds
  iintro ⟨⟨⟨#HR, Hpos, Htok⟩, ⟨HcB, HcB2, HcYR, HcXR⟩, #Hlev, Hx, Ho, ⟨%fv, Hv⟩, Howes⟩, Hk⟩
  unfold Dat.owesAt Pipeline.owesWithin
  icases Howes with ⟨%W, %hW, HO⟩
  rw [show (dats m 0 c).owed t₀.castSucc = owedSum c (Sn 0) from by rw [Sn_zero]; rfl]

  ihave Htk := (toks_split c) $$ Htok
  unfold toksK
  icases Htk with ⟨Htb0, Htb1, Htc0, Htc1, HtYS, HtYR, HtXS, HtXR, HtLI0, HtLI1, HtLO0, HtLO1⟩
  ihave Hps := (pos_split c) $$ Hpos
  unfold posK
  icases Hps with ⟨HaB, HaB2, HaYS, HaYR, HaXS, HaXR, HaLI0, HaLI1, HaLO0, HaLO1⟩

  ihave Ho3 := (out_split c _).1 $$ Ho
  icases Ho3 with ⟨HoL, HoY, HoX⟩
  ihave Hx2 := (x_share c _).1 $$ Hx
  icases Hx2 with ⟨HxYw, HxLw⟩
  ihave HxY2 := (x_split_Y c _ _).1 $$ HxYw
  icases HxY2 with ⟨HxY, HxYrest⟩
  ihave HxL := (x_split_L c _ _).1 $$ HxLw
  ihave Hv2 := (v_split c fv).1 $$ Hv
  icases Hv2 with ⟨Hv0, Hv1⟩

  ihave HtYS := (univ_ge _) $$ HtYS
  ihave HtYR := (univ_ge _) $$ HtYR
  ihave HtXS := (univ_ge _) $$ HtXS
  ihave HtXR := (univ_ge _) $$ HtXR
  ihave HtLI0 := (univ_ge _) $$ HtLI0
  ihave HtLI1 := (univ_ge _) $$ HtLI1
  ihave HtLO0 := (univ_ge _) $$ HtLO0
  ihave HtLO1 := (univ_ge _) $$ HtLO1
  ihave HaYS := (univ_ge _) $$ HaYS
  ihave HaYR := (univ_ge _) $$ HaYR
  ihave HaXS := (univ_ge _) $$ HaXS
  ihave HaXR := (univ_ge _) $$ HaXR
  ihave HcYR := (univ_ge _) $$ HcYR
  ihave HcXR := (univ_ge _) $$ HcXR
  ihave HxY := (univ_ge _) $$ HxY
  ihave HxL := (univ_ge _) $$ HxL
  ihave HoL := (univ_ge _) $$ HoL
  ihave HcYS := (lt_none (N := 32) fun k : Fin 32 => cred (tallyAt (cell c (.ys k)) () N512)) $$ []
  · iempintro
  ihave HcXS := (lt_none (N := 32) fun k : Fin 32 => cred (tallyAt (cell c (.xs k)) () N512)) $$ []
  · iempintro
  ihave HzYS := (lt_none (N := 32) fun k : Fin 32 => semVal (cell c (.ys k)) 0) $$ []
  · iempintro
  ihave HzYR := (lt_none (N := 32) fun k : Fin 32 => semVal (cell c (.yr k)) 0) $$ []
  · iempintro
  ihave HzXS := (lt_none (N := 32) fun k : Fin 32 => semVal (cell c (.xs k)) 0) $$ []
  · iempintro
  ihave HzXR := (lt_none (N := 32) fun k : Fin 32 => semVal (cell c (.xr k)) 0) $$ []
  · iempintro
  ihave HrYS := (lt_none (N := 32) fun k : Fin 32 => pts (ySrc c k) c qY (xArr m c)) $$ []
  · iempintro
  ihave HrXS := (lt_none (N := 32) fun k : Fin 32 => pts (xBuf c k) c fullShare (G m c)) $$ []
  · iempintro
  ihave HrXR := (lt_none (N := 32) fun k : Fin 32 => pts (xBuf (px c) k) c fullShare (G m c)) $$ []
  · iempintro
  ihave HrL := (lt_none (N := 16) fun i : Fin 16 => pts (lSrc i) c qL (xArr m c)) $$ []
  · iempintro
  ihave HrO := (lt_none (N := 16) fun i : Fin 16 => pts (lDst c i) c fullShare (G m c)) $$ []
  · iempintro
  ihave #HrLI0 := (rec_reached m K (c, .li 0)) $$ HR
  ihave #HrLI1 := (rec_reached m K (c, .li 1)) $$ HR
  ihave #HrLO0 := (rec_reached m K (c, .lo 0)) $$ HR
  ihave #HrLO1 := (rec_reached m K (c, .lo 1)) $$ HR

  iapply (step_sig_bar_y m K c _) $$ [HO Htb0 HoY]
  · iframe HR ∗
  iintro HO
  iapply (step_sig_bar_x m K c _) $$ [HO Htb1 HoX]
  · iframe HR ∗
  iintro HO
  iapply (step_wait_bar m K c) $$ [HcB HO HaB]
  · iframe HR Hlev ∗
  iintro ⟨HO, HpY, HpX⟩
  iapply (chain_wp c (ysend_wp m K c _) (n := 0) (N := 32) (by repeat first | exact .nil | apply Chain.cons (YSendBlk.mk (by decide) (dev_y c (by simp only [k0_dev3_eq, k0_dev4_eq, k0_dev5_eq, k0_dev6_eq, k0_dev7_eq, k0_dev8_eq, k0_dev9_eq, k0_dev10_eq, k0_dev11_eq, k0_dev12_eq, k0_dev13_eq, k0_dev14_eq, k0_dev15_eq, k0_dev16_eq, k0_dev17_eq, k0_dev18_eq, k0_dev19_eq, k0_dev20_eq, k0_dev21_eq, k0_dev22_eq, k0_dev23_eq, k0_dev24_eq, k0_dev25_eq, k0_dev26_eq, k0_dev27_eq, k0_dev28_eq, k0_dev29_eq, k0_dev30_eq, k0_dev31_eq, k0_dev32_eq, k0_dev33_eq, k0_dev34_eq]) _))))
    $$ [HxY HpY HO HtYS HtYR HcYS]
  · unfold ysendI; iframe HR ∗
  unfold ysendI
  iintro ⟨-, HxY, HpY, HO, HtYS, HtYR, HcYS⟩
  iapply (step_wait_yr m K c 0 34) $$ [HcYR HO HaYR HzYR]
  · iframe HR Hlev ∗
  iintro ⟨HcYR, HO, HaYR, HzYR, Hgot⟩
  iapply (step_xsend m K c 0 (dev_x c (k0_dev35_eq c) _)) $$ [Hgot HpX HO HtXS HtXR HcXS]
  · iframe HR ∗
  iintro ⟨HpX, HO, HtXS, HtXR, HcXS⟩
  iapply (step_in_start m K c 0 0 0) $$ [HxL Hv0 HtLI0]
  · iframe HR HrLI0 ∗
  iintro ⟨HxL, HtLI0, HcLI0⟩
  iapply (step_in_wait m K c 0 0 0 35) $$ [HcLI0 HO HaLI0 HrL]
  · iframe HR Hlev ∗
  iintro ⟨HO, HaLI0, #HrLI0, Hv0, HrL⟩
  iapply (step_out_start m K c 0 0 0) $$ [Hv0 HoL HtLO0]
  · iframe HR HrLO0 ∗
  iintro ⟨HoL, HtLO0, HcLO0⟩
  iapply (step_in_start m K c 1 1 0) $$ [HxL Hv1 HtLI1]
  · iframe HR HrLI1 ∗
  iintro ⟨HxL, HtLI1, HcLI1⟩
  iapply (step_wait_yr m K c 1 35) $$ [HcYR HO HaYR HzYR]
  · iframe HR Hlev ∗
  iintro ⟨HcYR, HO, HaYR, HzYR, Hgot⟩
  iapply (step_xsend m K c 1 (dev_x c (k0_dev36_eq c) _)) $$ [Hgot HpX HO HtXS HtXR HcXS]
  · iframe HR ∗
  iintro ⟨HpX, HO, HtXS, HtXR, HcXS⟩
  iapply (step_in_wait m K c 1 1 0 36) $$ [HcLI1 HO HaLI1 HrL]
  · iframe HR Hlev ∗
  iintro ⟨HO, HaLI1, #HrLI1, Hv1, HrL⟩
  iapply (step_out_start m K c 1 1 0) $$ [Hv1 HoL HtLO1]
  · iframe HR HrLO1 ∗
  iintro ⟨HoL, HtLO1, HcLO1⟩
  iapply (step_out_wait m K c 0 0 0 36) $$ [HcLO0 HO HaLO0 HrO]
  · iframe HR Hlev ∗
  iintro ⟨HO, HaLO0, #HrLO0, Hv0, HrO⟩
  iapply (step_in_start m K c 2 0 1) $$ [HxL Hv0 HtLI0]
  · iframe HR HrLI0 ∗
  iintro ⟨HxL, HtLI0, HcLI0⟩
  iapply (step_wait_yr m K c 2 36) $$ [HcYR HO HaYR HzYR]
  · iframe HR Hlev ∗
  iintro ⟨HcYR, HO, HaYR, HzYR, Hgot⟩
  iapply (step_xsend m K c 2 (dev_x c (k0_dev37_eq c) _)) $$ [Hgot HpX HO HtXS HtXR HcXS]
  · iframe HR ∗
  iintro ⟨HpX, HO, HtXS, HtXR, HcXS⟩
  iapply (step_in_wait m K c 2 0 1 37) $$ [HcLI0 HO HaLI0 HrL]
  · iframe HR Hlev ∗
  iintro ⟨HO, HaLI0, #HrLI0, Hv0, HrL⟩
  iapply (step_out_start m K c 2 0 1) $$ [Hv0 HoL HtLO0]
  · iframe HR HrLO0 ∗
  iintro ⟨HoL, HtLO0, HcLO0⟩
  iapply (step_out_wait m K c 1 1 0 37) $$ [HcLO1 HO HaLO1 HrO]
  · iframe HR Hlev ∗
  iintro ⟨HO, HaLO1, #HrLO1, Hv1, HrO⟩
  iapply (step_in_start m K c 3 1 1) $$ [HxL Hv1 HtLI1]
  · iframe HR HrLI1 ∗
  iintro ⟨HxL, HtLI1, HcLI1⟩
  iapply (step_wait_yr m K c 3 37) $$ [HcYR HO HaYR HzYR]
  · iframe HR Hlev ∗
  iintro ⟨HcYR, HO, HaYR, HzYR, Hgot⟩
  iapply (step_xsend m K c 3 (dev_x c (k0_dev38_eq c) _)) $$ [Hgot HpX HO HtXS HtXR HcXS]
  · iframe HR ∗
  iintro ⟨HpX, HO, HtXS, HtXR, HcXS⟩
  iapply (step_in_wait m K c 3 1 1 38) $$ [HcLI1 HO HaLI1 HrL]
  · iframe HR Hlev ∗
  iintro ⟨HO, HaLI1, #HrLI1, Hv1, HrL⟩
  iapply (step_out_start m K c 3 1 1) $$ [Hv1 HoL HtLO1]
  · iframe HR HrLO1 ∗
  iintro ⟨HoL, HtLO1, HcLO1⟩
  iapply (step_out_wait m K c 2 0 1 38) $$ [HcLO0 HO HaLO0 HrO]
  · iframe HR Hlev ∗
  iintro ⟨HO, HaLO0, #HrLO0, Hv0, HrO⟩
  iapply (step_in_start m K c 4 0 2) $$ [HxL Hv0 HtLI0]
  · iframe HR HrLI0 ∗
  iintro ⟨HxL, HtLI0, HcLI0⟩
  iapply (step_wait_yr m K c 4 38) $$ [HcYR HO HaYR HzYR]
  · iframe HR Hlev ∗
  iintro ⟨HcYR, HO, HaYR, HzYR, Hgot⟩
  iapply (step_xsend m K c 4 (dev_x c (k0_dev39_eq c) _)) $$ [Hgot HpX HO HtXS HtXR HcXS]
  · iframe HR ∗
  iintro ⟨HpX, HO, HtXS, HtXR, HcXS⟩
  iapply (step_in_wait m K c 4 0 2 39) $$ [HcLI0 HO HaLI0 HrL]
  · iframe HR Hlev ∗
  iintro ⟨HO, HaLI0, #HrLI0, Hv0, HrL⟩
  iapply (step_out_start m K c 4 0 2) $$ [Hv0 HoL HtLO0]
  · iframe HR HrLO0 ∗
  iintro ⟨HoL, HtLO0, HcLO0⟩
  iapply (step_out_wait m K c 3 1 1 39) $$ [HcLO1 HO HaLO1 HrO]
  · iframe HR Hlev ∗
  iintro ⟨HO, HaLO1, #HrLO1, Hv1, HrO⟩
  iapply (step_in_start m K c 5 1 2) $$ [HxL Hv1 HtLI1]
  · iframe HR HrLI1 ∗
  iintro ⟨HxL, HtLI1, HcLI1⟩
  iapply (step_wait_yr m K c 5 39) $$ [HcYR HO HaYR HzYR]
  · iframe HR Hlev ∗
  iintro ⟨HcYR, HO, HaYR, HzYR, Hgot⟩
  iapply (step_xsend m K c 5 (dev_x c (k0_dev40_eq c) _)) $$ [Hgot HpX HO HtXS HtXR HcXS]
  · iframe HR ∗
  iintro ⟨HpX, HO, HtXS, HtXR, HcXS⟩
  iapply (step_in_wait m K c 5 1 2 40) $$ [HcLI1 HO HaLI1 HrL]
  · iframe HR Hlev ∗
  iintro ⟨HO, HaLI1, #HrLI1, Hv1, HrL⟩
  iapply (step_out_start m K c 5 1 2) $$ [Hv1 HoL HtLO1]
  · iframe HR HrLO1 ∗
  iintro ⟨HoL, HtLO1, HcLO1⟩
  iapply (step_out_wait m K c 4 0 2 40) $$ [HcLO0 HO HaLO0 HrO]
  · iframe HR Hlev ∗
  iintro ⟨HO, HaLO0, #HrLO0, Hv0, HrO⟩
  iapply (step_in_start m K c 6 0 3) $$ [HxL Hv0 HtLI0]
  · iframe HR HrLI0 ∗
  iintro ⟨HxL, HtLI0, HcLI0⟩
  iapply (step_wait_yr m K c 6 40) $$ [HcYR HO HaYR HzYR]
  · iframe HR Hlev ∗
  iintro ⟨HcYR, HO, HaYR, HzYR, Hgot⟩
  iapply (step_xsend m K c 6 (dev_x c (k0_dev41_eq c) _)) $$ [Hgot HpX HO HtXS HtXR HcXS]
  · iframe HR ∗
  iintro ⟨HpX, HO, HtXS, HtXR, HcXS⟩
  iapply (step_in_wait m K c 6 0 3 41) $$ [HcLI0 HO HaLI0 HrL]
  · iframe HR Hlev ∗
  iintro ⟨HO, HaLI0, #HrLI0, Hv0, HrL⟩
  iapply (step_out_start m K c 6 0 3) $$ [Hv0 HoL HtLO0]
  · iframe HR HrLO0 ∗
  iintro ⟨HoL, HtLO0, HcLO0⟩
  iapply (step_out_wait m K c 5 1 2 41) $$ [HcLO1 HO HaLO1 HrO]
  · iframe HR Hlev ∗
  iintro ⟨HO, HaLO1, #HrLO1, Hv1, HrO⟩
  iapply (step_in_start m K c 7 1 3) $$ [HxL Hv1 HtLI1]
  · iframe HR HrLI1 ∗
  iintro ⟨HxL, HtLI1, HcLI1⟩
  iapply (step_wait_yr m K c 7 41) $$ [HcYR HO HaYR HzYR]
  · iframe HR Hlev ∗
  iintro ⟨HcYR, HO, HaYR, HzYR, Hgot⟩
  iapply (step_xsend m K c 7 (dev_x c (k0_dev42_eq c) _)) $$ [Hgot HpX HO HtXS HtXR HcXS]
  · iframe HR ∗
  iintro ⟨HpX, HO, HtXS, HtXR, HcXS⟩
  iapply (step_in_wait m K c 7 1 3 42) $$ [HcLI1 HO HaLI1 HrL]
  · iframe HR Hlev ∗
  iintro ⟨HO, HaLI1, #HrLI1, Hv1, HrL⟩
  iapply (step_out_start m K c 7 1 3) $$ [Hv1 HoL HtLO1]
  · iframe HR HrLO1 ∗
  iintro ⟨HoL, HtLO1, HcLO1⟩
  iapply (step_out_wait m K c 6 0 3 42) $$ [HcLO0 HO HaLO0 HrO]
  · iframe HR Hlev ∗
  iintro ⟨HO, HaLO0, #HrLO0, Hv0, HrO⟩
  iapply (step_in_start m K c 8 0 4) $$ [HxL Hv0 HtLI0]
  · iframe HR HrLI0 ∗
  iintro ⟨HxL, HtLI0, HcLI0⟩
  iapply (step_wait_yr m K c 8 42) $$ [HcYR HO HaYR HzYR]
  · iframe HR Hlev ∗
  iintro ⟨HcYR, HO, HaYR, HzYR, Hgot⟩
  iapply (step_xsend m K c 8 (dev_x c (k0_dev43_eq c) _)) $$ [Hgot HpX HO HtXS HtXR HcXS]
  · iframe HR ∗
  iintro ⟨HpX, HO, HtXS, HtXR, HcXS⟩
  iapply (step_in_wait m K c 8 0 4 43) $$ [HcLI0 HO HaLI0 HrL]
  · iframe HR Hlev ∗
  iintro ⟨HO, HaLI0, #HrLI0, Hv0, HrL⟩
  iapply (step_out_start m K c 8 0 4) $$ [Hv0 HoL HtLO0]
  · iframe HR HrLO0 ∗
  iintro ⟨HoL, HtLO0, HcLO0⟩
  iapply (step_out_wait m K c 7 1 3 43) $$ [HcLO1 HO HaLO1 HrO]
  · iframe HR Hlev ∗
  iintro ⟨HO, HaLO1, #HrLO1, Hv1, HrO⟩
  iapply (step_in_start m K c 9 1 4) $$ [HxL Hv1 HtLI1]
  · iframe HR HrLI1 ∗
  iintro ⟨HxL, HtLI1, HcLI1⟩
  iapply (step_wait_yr m K c 9 43) $$ [HcYR HO HaYR HzYR]
  · iframe HR Hlev ∗
  iintro ⟨HcYR, HO, HaYR, HzYR, Hgot⟩
  iapply (step_xsend m K c 9 (dev_x c (k0_dev44_eq c) _)) $$ [Hgot HpX HO HtXS HtXR HcXS]
  · iframe HR ∗
  iintro ⟨HpX, HO, HtXS, HtXR, HcXS⟩
  iapply (step_in_wait m K c 9 1 4 44) $$ [HcLI1 HO HaLI1 HrL]
  · iframe HR Hlev ∗
  iintro ⟨HO, HaLI1, #HrLI1, Hv1, HrL⟩
  iapply (step_out_start m K c 9 1 4) $$ [Hv1 HoL HtLO1]
  · iframe HR HrLO1 ∗
  iintro ⟨HoL, HtLO1, HcLO1⟩
  iapply (step_out_wait m K c 8 0 4 44) $$ [HcLO0 HO HaLO0 HrO]
  · iframe HR Hlev ∗
  iintro ⟨HO, HaLO0, #HrLO0, Hv0, HrO⟩
  iapply (step_in_start m K c 10 0 5) $$ [HxL Hv0 HtLI0]
  · iframe HR HrLI0 ∗
  iintro ⟨HxL, HtLI0, HcLI0⟩
  iapply (step_wait_yr m K c 10 44) $$ [HcYR HO HaYR HzYR]
  · iframe HR Hlev ∗
  iintro ⟨HcYR, HO, HaYR, HzYR, Hgot⟩
  iapply (step_xsend m K c 10 (dev_x c (k0_dev45_eq c) _)) $$ [Hgot HpX HO HtXS HtXR HcXS]
  · iframe HR ∗
  iintro ⟨HpX, HO, HtXS, HtXR, HcXS⟩
  iapply (step_in_wait m K c 10 0 5 45) $$ [HcLI0 HO HaLI0 HrL]
  · iframe HR Hlev ∗
  iintro ⟨HO, HaLI0, #HrLI0, Hv0, HrL⟩
  iapply (step_out_start m K c 10 0 5) $$ [Hv0 HoL HtLO0]
  · iframe HR HrLO0 ∗
  iintro ⟨HoL, HtLO0, HcLO0⟩
  iapply (step_out_wait m K c 9 1 4 45) $$ [HcLO1 HO HaLO1 HrO]
  · iframe HR Hlev ∗
  iintro ⟨HO, HaLO1, #HrLO1, Hv1, HrO⟩
  iapply (step_in_start m K c 11 1 5) $$ [HxL Hv1 HtLI1]
  · iframe HR HrLI1 ∗
  iintro ⟨HxL, HtLI1, HcLI1⟩
  iapply (step_wait_yr m K c 11 45) $$ [HcYR HO HaYR HzYR]
  · iframe HR Hlev ∗
  iintro ⟨HcYR, HO, HaYR, HzYR, Hgot⟩
  iapply (step_xsend m K c 11 (dev_x c (k0_dev46_eq c) _)) $$ [Hgot HpX HO HtXS HtXR HcXS]
  · iframe HR ∗
  iintro ⟨HpX, HO, HtXS, HtXR, HcXS⟩
  iapply (step_in_wait m K c 11 1 5 46) $$ [HcLI1 HO HaLI1 HrL]
  · iframe HR Hlev ∗
  iintro ⟨HO, HaLI1, #HrLI1, Hv1, HrL⟩
  iapply (step_out_start m K c 11 1 5) $$ [Hv1 HoL HtLO1]
  · iframe HR HrLO1 ∗
  iintro ⟨HoL, HtLO1, HcLO1⟩
  iapply (step_out_wait m K c 10 0 5 46) $$ [HcLO0 HO HaLO0 HrO]
  · iframe HR Hlev ∗
  iintro ⟨HO, HaLO0, #HrLO0, Hv0, HrO⟩
  iapply (step_in_start m K c 12 0 6) $$ [HxL Hv0 HtLI0]
  · iframe HR HrLI0 ∗
  iintro ⟨HxL, HtLI0, HcLI0⟩
  iapply (step_wait_yr m K c 12 46) $$ [HcYR HO HaYR HzYR]
  · iframe HR Hlev ∗
  iintro ⟨HcYR, HO, HaYR, HzYR, Hgot⟩
  iapply (step_xsend m K c 12 (dev_x c (k0_dev47_eq c) _)) $$ [Hgot HpX HO HtXS HtXR HcXS]
  · iframe HR ∗
  iintro ⟨HpX, HO, HtXS, HtXR, HcXS⟩
  iapply (step_in_wait m K c 12 0 6 47) $$ [HcLI0 HO HaLI0 HrL]
  · iframe HR Hlev ∗
  iintro ⟨HO, HaLI0, #HrLI0, Hv0, HrL⟩
  iapply (step_out_start m K c 12 0 6) $$ [Hv0 HoL HtLO0]
  · iframe HR HrLO0 ∗
  iintro ⟨HoL, HtLO0, HcLO0⟩
  iapply (step_out_wait m K c 11 1 5 47) $$ [HcLO1 HO HaLO1 HrO]
  · iframe HR Hlev ∗
  iintro ⟨HO, HaLO1, #HrLO1, Hv1, HrO⟩
  iapply (step_in_start m K c 13 1 6) $$ [HxL Hv1 HtLI1]
  · iframe HR HrLI1 ∗
  iintro ⟨HxL, HtLI1, HcLI1⟩
  iapply (step_wait_yr m K c 13 47) $$ [HcYR HO HaYR HzYR]
  · iframe HR Hlev ∗
  iintro ⟨HcYR, HO, HaYR, HzYR, Hgot⟩
  iapply (step_xsend m K c 13 (dev_x c (k0_dev48_eq c) _)) $$ [Hgot HpX HO HtXS HtXR HcXS]
  · iframe HR ∗
  iintro ⟨HpX, HO, HtXS, HtXR, HcXS⟩
  iapply (step_in_wait m K c 13 1 6 48) $$ [HcLI1 HO HaLI1 HrL]
  · iframe HR Hlev ∗
  iintro ⟨HO, HaLI1, #HrLI1, Hv1, HrL⟩
  iapply (step_out_start m K c 13 1 6) $$ [Hv1 HoL HtLO1]
  · iframe HR HrLO1 ∗
  iintro ⟨HoL, HtLO1, HcLO1⟩
  iapply (step_out_wait m K c 12 0 6 48) $$ [HcLO0 HO HaLO0 HrO]
  · iframe HR Hlev ∗
  iintro ⟨HO, HaLO0, #HrLO0, Hv0, HrO⟩
  iapply (step_in_start m K c 14 0 7) $$ [HxL Hv0 HtLI0]
  · iframe HR HrLI0 ∗
  iintro ⟨HxL, HtLI0, HcLI0⟩
  iapply (step_wait_yr m K c 14 48) $$ [HcYR HO HaYR HzYR]
  · iframe HR Hlev ∗
  iintro ⟨HcYR, HO, HaYR, HzYR, Hgot⟩
  iapply (step_xsend m K c 14 (dev_x c (k0_dev49_eq c) _)) $$ [Hgot HpX HO HtXS HtXR HcXS]
  · iframe HR ∗
  iintro ⟨HpX, HO, HtXS, HtXR, HcXS⟩
  iapply (step_in_wait m K c 14 0 7 49) $$ [HcLI0 HO HaLI0 HrL]
  · iframe HR Hlev ∗
  iintro ⟨HO, HaLI0, #HrLI0, Hv0, HrL⟩
  iapply (step_out_start m K c 14 0 7) $$ [Hv0 HoL HtLO0]
  · iframe HR HrLO0 ∗
  iintro ⟨HoL, HtLO0, HcLO0⟩
  iapply (step_out_wait m K c 13 1 6 49) $$ [HcLO1 HO HaLO1 HrO]
  · iframe HR Hlev ∗
  iintro ⟨HO, HaLO1, #HrLO1, Hv1, HrO⟩
  iapply (step_in_start m K c 15 1 7) $$ [HxL Hv1 HtLI1]
  · iframe HR HrLI1 ∗
  iintro ⟨HxL, HtLI1, HcLI1⟩
  iapply (step_wait_yr m K c 15 49) $$ [HcYR HO HaYR HzYR]
  · iframe HR Hlev ∗
  iintro ⟨HcYR, HO, HaYR, HzYR, Hgot⟩
  iapply (step_xsend m K c 15 (dev_x c (k0_dev50_eq c) _)) $$ [Hgot HpX HO HtXS HtXR HcXS]
  · iframe HR ∗
  iintro ⟨HpX, HO, HtXS, HtXR, HcXS⟩
  iapply (step_in_wait m K c 15 1 7 50) $$ [HcLI1 HO HaLI1 HrL]
  · iframe HR Hlev ∗
  iintro ⟨HO, HaLI1, #HrLI1, Hv1, HrL⟩
  iapply (step_out_start m K c 15 1 7) $$ [Hv1 HoL HtLO1]
  · iframe HR HrLO1 ∗
  iintro ⟨HoL, HtLO1, HcLO1⟩
  iapply (step_wait_yr m K c 16 50) $$ [HcYR HO HaYR HzYR]
  · iframe HR Hlev ∗
  iintro ⟨HcYR, HO, HaYR, HzYR, Hgot⟩
  iapply (step_xsend m K c 16 (dev_x c (k0_dev51_eq c) _)) $$ [Hgot HpX HO HtXS HtXR HcXS]
  · iframe HR ∗
  iintro ⟨HpX, HO, HtXS, HtXR, HcXS⟩
  iapply (step_wait_yr m K c 17 51) $$ [HcYR HO HaYR HzYR]
  · iframe HR Hlev ∗
  iintro ⟨HcYR, HO, HaYR, HzYR, Hgot⟩
  iapply (step_xsend m K c 17 (dev_x c (k0_dev52_eq c) _)) $$ [Hgot HpX HO HtXS HtXR HcXS]
  · iframe HR ∗
  iintro ⟨HpX, HO, HtXS, HtXR, HcXS⟩
  iapply (step_wait_yr m K c 18 52) $$ [HcYR HO HaYR HzYR]
  · iframe HR Hlev ∗
  iintro ⟨HcYR, HO, HaYR, HzYR, Hgot⟩
  iapply (step_xsend m K c 18 (dev_x c (k0_dev53_eq c) _)) $$ [Hgot HpX HO HtXS HtXR HcXS]
  · iframe HR ∗
  iintro ⟨HpX, HO, HtXS, HtXR, HcXS⟩
  iapply (step_wait_yr m K c 19 53) $$ [HcYR HO HaYR HzYR]
  · iframe HR Hlev ∗
  iintro ⟨HcYR, HO, HaYR, HzYR, Hgot⟩
  iapply (step_xsend m K c 19 (dev_x c (k0_dev54_eq c) _)) $$ [Hgot HpX HO HtXS HtXR HcXS]
  · iframe HR ∗
  iintro ⟨HpX, HO, HtXS, HtXR, HcXS⟩
  iapply (step_wait_yr m K c 20 54) $$ [HcYR HO HaYR HzYR]
  · iframe HR Hlev ∗
  iintro ⟨HcYR, HO, HaYR, HzYR, Hgot⟩
  iapply (step_xsend m K c 20 (dev_x c (k0_dev55_eq c) _)) $$ [Hgot HpX HO HtXS HtXR HcXS]
  · iframe HR ∗
  iintro ⟨HpX, HO, HtXS, HtXR, HcXS⟩
  iapply (step_wait_yr m K c 21 55) $$ [HcYR HO HaYR HzYR]
  · iframe HR Hlev ∗
  iintro ⟨HcYR, HO, HaYR, HzYR, Hgot⟩
  iapply (step_xsend m K c 21 (dev_x c (k0_dev56_eq c) _)) $$ [Hgot HpX HO HtXS HtXR HcXS]
  · iframe HR ∗
  iintro ⟨HpX, HO, HtXS, HtXR, HcXS⟩
  iapply (step_wait_yr m K c 22 56) $$ [HcYR HO HaYR HzYR]
  · iframe HR Hlev ∗
  iintro ⟨HcYR, HO, HaYR, HzYR, Hgot⟩
  iapply (step_xsend m K c 22 (dev_x c (k0_dev57_eq c) _)) $$ [Hgot HpX HO HtXS HtXR HcXS]
  · iframe HR ∗
  iintro ⟨HpX, HO, HtXS, HtXR, HcXS⟩
  iapply (step_wait_yr m K c 23 57) $$ [HcYR HO HaYR HzYR]
  · iframe HR Hlev ∗
  iintro ⟨HcYR, HO, HaYR, HzYR, Hgot⟩
  iapply (step_xsend m K c 23 (dev_x c (k0_dev58_eq c) _)) $$ [Hgot HpX HO HtXS HtXR HcXS]
  · iframe HR ∗
  iintro ⟨HpX, HO, HtXS, HtXR, HcXS⟩
  iapply (step_wait_yr m K c 24 58) $$ [HcYR HO HaYR HzYR]
  · iframe HR Hlev ∗
  iintro ⟨HcYR, HO, HaYR, HzYR, Hgot⟩
  iapply (step_xsend m K c 24 (dev_x c (k0_dev59_eq c) _)) $$ [Hgot HpX HO HtXS HtXR HcXS]
  · iframe HR ∗
  iintro ⟨HpX, HO, HtXS, HtXR, HcXS⟩
  iapply (step_wait_yr m K c 25 59) $$ [HcYR HO HaYR HzYR]
  · iframe HR Hlev ∗
  iintro ⟨HcYR, HO, HaYR, HzYR, Hgot⟩
  iapply (step_xsend m K c 25 (dev_x c (k0_dev60_eq c) _)) $$ [Hgot HpX HO HtXS HtXR HcXS]
  · iframe HR ∗
  iintro ⟨HpX, HO, HtXS, HtXR, HcXS⟩
  iapply (step_wait_yr m K c 26 60) $$ [HcYR HO HaYR HzYR]
  · iframe HR Hlev ∗
  iintro ⟨HcYR, HO, HaYR, HzYR, Hgot⟩
  iapply (step_xsend m K c 26 (dev_x c (k0_dev61_eq c) _)) $$ [Hgot HpX HO HtXS HtXR HcXS]
  · iframe HR ∗
  iintro ⟨HpX, HO, HtXS, HtXR, HcXS⟩
  iapply (step_wait_yr m K c 27 61) $$ [HcYR HO HaYR HzYR]
  · iframe HR Hlev ∗
  iintro ⟨HcYR, HO, HaYR, HzYR, Hgot⟩
  iapply (step_xsend m K c 27 (dev_x c (k0_dev62_eq c) _)) $$ [Hgot HpX HO HtXS HtXR HcXS]
  · iframe HR ∗
  iintro ⟨HpX, HO, HtXS, HtXR, HcXS⟩
  iapply (step_wait_yr m K c 28 62) $$ [HcYR HO HaYR HzYR]
  · iframe HR Hlev ∗
  iintro ⟨HcYR, HO, HaYR, HzYR, Hgot⟩
  iapply (step_xsend m K c 28 (dev_x c (k0_dev63_eq c) _)) $$ [Hgot HpX HO HtXS HtXR HcXS]
  · iframe HR ∗
  iintro ⟨HpX, HO, HtXS, HtXR, HcXS⟩
  iapply (step_wait_yr m K c 29 63) $$ [HcYR HO HaYR HzYR]
  · iframe HR Hlev ∗
  iintro ⟨HcYR, HO, HaYR, HzYR, Hgot⟩
  iapply (step_xsend m K c 29 (dev_x c (k0_dev64_eq c) _)) $$ [Hgot HpX HO HtXS HtXR HcXS]
  · iframe HR ∗
  iintro ⟨HpX, HO, HtXS, HtXR, HcXS⟩
  iapply (step_wait_yr m K c 30 64) $$ [HcYR HO HaYR HzYR]
  · iframe HR Hlev ∗
  iintro ⟨HcYR, HO, HaYR, HzYR, Hgot⟩
  iapply (step_xsend m K c 30 (dev_x c (k0_dev65_eq c) _)) $$ [Hgot HpX HO HtXS HtXR HcXS]
  · iframe HR ∗
  iintro ⟨HpX, HO, HtXS, HtXR, HcXS⟩
  iapply (step_wait_yr m K c 31 65) $$ [HcYR HO HaYR HzYR]
  · iframe HR Hlev ∗
  iintro ⟨HcYR, HO, HaYR, HzYR, Hgot⟩
  iapply (step_xsend m K c 31 (dev_x c (k0_dev66_eq c) _)) $$ [Hgot HpX HO HtXS HtXR HcXS]
  · iframe HR ∗
  iintro ⟨HpX, HO, HtXS, HtXR, HcXS⟩
  ihave HcYS := (lt_full_ge _) $$ HcYS
  ihave HcXS := (lt_full_ge _) $$ HcXS
  iapply (chain_wp c (drain_wp m K c) (n := 0) (N := 32) (by repeat first | exact .nil | apply Chain.cons (DrainBlk.mk (by decide) (by unfold N512; rfl) (by unfold N512; rfl) (by unfold N512; rfl))))
    $$ [HO HcYS HaYS HzYS HrYS HcXS HaXS HzXS HrXS HcXR HaXR HzXR HrXR]
  · unfold drainI fam; iframe HR Hlev ∗; iexists _; iexact HO
  unfold drainI fam
  iintro ⟨-, -, ⟨%W', HO⟩, ⟨HcYS, HaYS, HzYS, HrYS⟩, ⟨HcXS, HaXS, HzXS, HrXS⟩, ⟨HcXR, HaXR, HzXR, HrXR⟩⟩
  iapply (step_out_wait m K c 14 0 7 66) $$ [HcLO0 HO HaLO0 HrO]
  · iframe HR Hlev ∗
  iintro ⟨HO, HaLO0, #HrLO0, Hv0, HrO⟩
  iapply (step_out_wait m K c 15 1 7 66) $$ [HcLO1 HO HaLO1 HrO]
  · iframe HR Hlev ∗
  iintro ⟨HO, HaLO1, #HrLO1, Hv1, HrO⟩
  iapply (step_sig_bar2 m K c false 66 rfl) $$ [HO Htc0]
  · iframe HR ∗
  iintro HO
  iapply (step_sig_bar2 m K c true 67 rfl) $$ [HO Htc1]
  · iframe HR ∗
  iintro HO
  iapply (step_wait_bar2 m K c) $$ [HcB2 HO HaB2]
  · iframe HR Hlev ∗
  iintro ⟨HO, HzB2⟩

  imod (close_cell m K c (.li 0) 8 (fun r hr => by show (if r < 8 then ({false} : Finset Bool) else ∅) = ∅; exact if_neg (by omega))) $$ [HaLI0] with HzLI0
  · iframe HR ∗
  imod (close_cell m K c (.li 1) 8 (fun r hr => by show (if r < 8 then ({false} : Finset Bool) else ∅) = ∅; exact if_neg (by omega))) $$ [HaLI1] with HzLI1
  · iframe HR ∗
  imod (close_cell m K c (.lo 0) 8 (fun r hr => by show (if r < 8 then ({false} : Finset Bool) else ∅) = ∅; exact if_neg (by omega))) $$ [HaLO0] with HzLO0
  · iframe HR ∗
  imod (close_cell m K c (.lo 1) 8 (fun r hr => by show (if r < 8 then ({false} : Finset Bool) else ∅) = ∅; exact if_neg (by omega))) $$ [HaLO1] with HzLO1
  · iframe HR ∗
  rw [wp_ret]; imodintro
  iapply Hk

  ihave HrYS := (lt_full _) $$ HrYS
  ihave HxYw := (x_split_Y c qY (xArr m c)).2 $$ [HrYS HxYrest]
  · iframe ∗
  ihave HrL := (lt_full _) $$ HrL
  ihave HxLw := (x_split_L c qL (xArr m c)).2 $$ HrL
  ihave Hx := (x_share c (xArr m c)).2 $$ [HxYw HxLw]
  · iframe ∗
  ihave HrO := (lt_full _) $$ HrO
  ihave HrXS := (lt_full _) $$ HrXS
  ihave HrXS := (fam_xs_to_yr m c) $$ HrXS
  ihave HrXR := (lt_full _) $$ HrXR
  ihave Ho := (out_split c (G m c)).2 $$ [HrO HrXS HrXR]
  · iframe ∗
  ihave Hv := (v_join c _ _) $$ [Hv0 Hv1]
  · iframe ∗
  ihave HzYS := (lt_full _) $$ HzYS
  ihave HzYR := (lt_full _) $$ HzYR
  ihave HzXS := (lt_full _) $$ HzXS
  ihave HzXR := (lt_full _) $$ HzXR
  ihave Hz := (sems_join c) $$ [HzB2 HzYS HzYR HzXS HzXR HzLI0 HzLI1 HzLO0 HzLO1]
  · unfold semsK
    isplitl [HzB2]; · iexact HzB2
    isplitl [HzYS]; · iexact HzYS
    isplitl [HzYR]; · iexact HzYR
    isplitl [HzXS]; · iexact HzXS
    isplitl [HzXR]; · iexact HzXR
    isplitl [HzLI0]; · iexact HzLI0
    isplitl [HzLI1]; · iexact HzLI1
    isplitl [HzLO0]; · iexact HzLO0
    iexact HzLO1
  unfold bodyPost Φ₁
  isplitl [Hx Ho Hv Hz]
  · isplitl [Hx]; · iexact Hx
    isplitl [Ho]; · iexact Ho
    isplitl [Hv]; · iexact Hv
    iexact Hz
  iapply (owesAt_done m c _)
  iexact HO

/-- info: 'Cert.KernelIdeal.AG.sound_body' depends on axioms: [propext, Classical.choice, Quot.sound] -/
#guard_msgs in #print axioms sound_body

end Cert.KernelIdeal.AG
end
-- ==== Proof.KI.Launch.lean ====
import proofs.«900683_g7700000000000684_dist_ag_v7x_xyz2x2x4_y_m32768_n1024_f32_1_alg».proof.Defs
import proofs.«900683_g7700000000000684_dist_ag_v7x_xyz2x2x4_y_m32768_n1024_f32_1_alg».proof.Proof.Gen.KernelIdeal
import proofs.«900683_g7700000000000684_dist_ag_v7x_xyz2x2x4_y_m32768_n1024_f32_1_alg».proof.Proof.Gen.KernelIdeal.Skeleton
import proofs.«900683_g7700000000000684_dist_ag_v7x_xyz2x2x4_y_m32768_n1024_f32_1_alg».proof.Proof.Gen.KernelIdeal.Launch
import proofs.«900683_g7700000000000684_dist_ag_v7x_xyz2x2x4_y_m32768_n1024_f32_1_alg».proof.Proof.KI.Mesh
import proofs.«900683_g7700000000000684_dist_ag_v7x_xyz2x2x4_y_m32768_n1024_f32_1_alg».proof.Proof.KI.Sched
import proofs.«900683_g7700000000000684_dist_ag_v7x_xyz2x2x4_y_m32768_n1024_f32_1_alg».proof.Proof.KI.Proto
import proofs.«900683_g7700000000000684_dist_ag_v7x_xyz2x2x4_y_m32768_n1024_f32_1_alg».proof.Proof.KI.Body
import Idealize.ShloMosaic.Lib.Pipeline.Launch
import Idealize.ShloMosaic.Lib.Pipeline.Kit
import Idealize.ShloMosaic.Lib.Tactic
import Idealize.ShloMosaic.Lib.ValueIdx

noncomputable section

namespace Cert.KernelIdeal.AG

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

theorem bigSep_W0 (Φ : Fin cfg0.W → sProp 𝕄) : bigSep Finset.univ Φ = iprop(emp) := by
  show bigSep (Finset.univ : Finset (Fin 0)) Φ = _
  rw [Finset.univ_eq_empty, bigSep_empty]
  rfl

set_option maxRecDepth 20000 in

theorem body_obligation (c : Dev nD) : BodyObligation (dats (F := F) m 0 c) (defs₀ (F := F)) 𝒱₀ () Set.univ := fun t => by
  rw [fin_N t]
  simp only [bigSep_W0]
  show iprop(Φ₀ m c ∗ (dats m 0 c).owesAt () t₀.castSucc ∗ emp) ⊢ wp frame (wpE (defs₀ (F := F)) 𝒱₀ c none) Set.univ
    (bodyProg (F := F)) (fun _ => iprop(Φ₁ m c ∗ (dats m 0 c).owesAt () t₀.succ ∗ emp))
  unfold Φ₀ start
  iintro ⟨⟨⟨⟨%K, Hg⟩, Hcr, Hlev⟩, Hx, Ho, Hv⟩, Howe, -⟩
  iapply (sound_body m K c fun _ => iprop(Φ₁ m c ∗ (dats m 0 c).owesAt () t₀.succ ∗ emp))
  isplitr []
  · unfold bodyPre; iframe
  · iintro H
    iapply (show bodyPost m c ⊢ iprop(Φ₁ m c ∗ (dats m 0 c).owesAt () t₀.succ ∗ emp) from by
      unfold bodyPost
      iintro ⟨H1, H2⟩
      iframe)
    iexact H

theorem ownSemFacts : Pipeline.OwnSemFacts cfg0.spec osem :=
  ⟨fun k => (show ∀ x : CK, x ≠ CK.bar → (csem x).isScoped .tc = true by decide) k.1 k.2,
    fun a b h => Subtype.ext (csem_injective h), fun _ w _ => w.elim0⟩

abbrev kcell (cx : Dev nD × CK) : GSem nD τ sig := cell cx.1 cx.2

theorem kcell_injective : Function.Injective (kcell : Dev nD × CK → GSem nD τ sig) := by
  rintro ⟨c, x⟩ ⟨c', x'⟩ h
  have h1 : c = c' := by have := congrArg (fun g : GSem nD τ sig => g.1.1) h; exact this
  subst h1
  have h2 : csem x = csem x' := congrArg Prod.snd h
  rw [csem_injective h2]
def agCells : Finset (GSem nD τ sig) := Finset.univ.map ⟨kcell, kcell_injective⟩

def TK.ofKey : CK → ℕ → Bool → TK
  | .bar, _, d => .bar d
  | .bar2, _, d => .bar2 d
  | .ys k, _, _ => .ys k
  | .yr k, _, _ => .yr k
  | .xs k, _, _ => .xs k
  | .xr k, _, _ => .xr k
  | .li j, r, _ => .li j ⟨r % 8, Nat.mod_lt _ (by decide)⟩
  | .lo j, r, _ => .lo j ⟨r % 8, Nat.mod_lt _ (by decide)⟩

theorem TK.ofKey_key (t : TK) : TK.ofKey t.ck t.round t.duty = t := by
  cases t with
  | li j r => exact congrArg (TK.li j) (Fin.ext (Nat.mod_eq_of_lt r.isLt))
  | lo j r => exact congrArg (TK.lo j) (Fin.ext (Nat.mod_eq_of_lt r.isLt))
  | _ => rfl

abbrev tokOf (ct : Dev nD × TK) : GSem nD τ sig × ℕ × Bool := (cell ct.1 ct.2.ck, ct.2.round, ct.2.duty)

theorem tokOf_injective : Function.Injective (tokOf : Dev nD × TK → GSem nD τ sig × ℕ × Bool) := by
  rintro ⟨c, t⟩ ⟨c', t'⟩ h
  have h1 : c = c' := by have := congrArg (fun x : GSem nD τ sig × ℕ × Bool => x.1.1.1) h; exact this
  subst h1
  have h2 : t.ck = t'.ck := csem_injective (congrArg (fun x : GSem nD τ sig × ℕ × Bool => x.1.2) h)
  have h3 : t.round = t'.round := congrArg (fun x : GSem nD τ sig × ℕ × Bool => x.2.1) h
  have h4 : t.duty = t'.duty := congrArg (fun x : GSem nD τ sig × ℕ × Bool => x.2.2) h
  have h5 : t = t' := by rw [← TK.ofKey_key t, ← TK.ofKey_key t', h2, h3, h4]
  rw [h5]
def agToks : Finset (GSem nD τ sig × ℕ × Bool) := Finset.univ.map ⟨tokOf, tokOf_injective⟩

def u₀ : UU :=
  (initOf (Pipeline.cells cfgs cellOf_inj) (Pipeline.launchToks cfgs cellOf_inj), initOf agCells agToks)

def dealt (c : Dev nD) : sProp 𝕄 :=
  iprop((bigSep Finset.univ fun x : CK => roundState ER (Rd m) (kcell (c, x)) 0)
    ∗ (bigSep Finset.univ fun x : CK => iprop(atPos ER (kcell (c, x)) 0 ∅ 0 ∗ reached ER (kcell (c, x)) 0))
    ∗ bigSep Finset.univ fun t : TK => tokM c t)

def held (c : Dev nD) : sProp 𝕄 := iprop(∃ K, ghost m K c)

theorem fund_cells : BI.own (ER (initOf agCells agToks)) ⊢ (|==> bigSep Finset.univ (dealt m) : sProp 𝕄) := by
  have hX (Φ : GSem nD τ sig → sProp 𝕄) : bigSep agCells Φ = bigSep Finset.univ fun c : Dev nD => bigSep Finset.univ fun x : CK => Φ (kcell (c, x)) := by
    unfold agCells; rw [bigSep_map, bigSep_univ_prod] <;> rfl
  have hT : bigSep agToks (fun x => (dutyTok ER x.1 x.2.1 x.2.2 : sProp 𝕄)) = bigSep Finset.univ fun c : Dev nD => bigSep Finset.univ fun t : TK => tokM c t := by
    unfold agToks; rw [bigSep_map, bigSep_univ_prod] <;> rfl
  iintro HX
  imod (Rounds.fund ER (Rd m) agCells agToks) $$ HX with ⟨Hst, Hr, Hat, Htok⟩
  imodintro
  ihave Hst' := (Entails.of_eq (hX fun g => roundState ER (Rd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold dealt; simp only [bigSep_sep']
  isplitl [Hst']; · iexact Hst'
  isplitl [Hat' Hr']
  · isplitl [Hat'] <;> iassumption
  iexact Htok'

theorem ownSems0_eq (c : Dev nD) : (Pipeline.ownSems0 (Ix := Unit) (Name := ℕ) (U := UU) (Lvl := ℕ) (Val := Elt F) (τ := τ) osem c : sProp 𝕄)
    = bigSep (Finset.univ.erase CK.bar) fun x : CK => semVal (kcell (c, x)) 0 :=
  bigSep_subtype_ne CK.bar (fun x : CK => (semVal (kcell (c, x)) 0 : sProp 𝕄))

theorem unscopedSems0_eq (c : Dev nD) : (unscopedSems0 c : sProp 𝕄) = semVal (kcell (c, CK.bar)) 0 := by
  unfold unscopedSems0; rw [bigSep_eq_bigSepL_of_eq [SemLoc.reg barS] (by decide) (by decide)]; rfl

theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun x : CK => semVal (kcell (c, x)) 0 : sProp 𝕄) := by
  rw [ownSems0_eq, unscopedSems0_eq, bigSep_univ_at _ CK.bar]
  iintro ⟨HS, HB⟩
  isplitl [HB] <;> iassumption

theorem core_alloc (c : Dev nD) :
    iprop(Pipeline.ownSems0 (Ix := Unit) (Name := ℕ) (U := UU) (Lvl := ℕ) (Val := Elt F) (τ := τ) osem c ∗ unscopedSems0 c ∗ dealt m c)
      ⊢ |={Set.univ}=> iprop((bigSep Finset.univ fun x : CK => iprop(∃ κ : ℕ, cellInv ER (Rd m) κ (kcell (c, x))))
          ∗ (bigSep Finset.univ fun x : CK => iprop(atPos ER (kcell (c, x)) 0 ∅ 0 ∗ reached ER (kcell (c, x)) 0))
          ∗ bigSep Finset.univ fun t : TK => tokM c t) := by
  unfold dealt
  iintro ⟨Hos, Hus, Hst, Hat, Htok⟩
  ihave Hv := (sems0_eq (F := F) c) $$ [Hos Hus]
  · isplitl [Hos] <;> iassumption
  imod (show iprop((bigSep Finset.univ fun x : CK => semVal (kcell (c, x)) 0) ∗ bigSep Finset.univ fun x : CK => roundState ER (Rd m) (kcell (c, x)) 0)
      ⊢ (|={Set.univ}=> bigSep Finset.univ fun x : CK => iprop(∃ κ : ℕ, cellInv ER (Rd m) κ (kcell (c, x))) : sProp 𝕄) from by
        rw [← bigSep_sep']
        exact (bigSep_mono fun x _ => (Rounds.body_intro ER (Rd m) (kcell (c, x))).trans inv_alloc).trans (bigSep_fupd _ _)) $$ [Hv Hst] with Hinv
  · isplitl [Hv] <;> iassumption
  imodintro
  iframe

def linear (c : Dev nD) : sProp 𝕄 :=
  iprop((bigSep Finset.univ fun x : CK => atPos ER (kcell (c, x)) 0 ∅ 0) ∗ bigSep Finset.univ fun t : TK => tokP c t)

theorem ghost_intro (K : Dev nD × CK → ℕ) (c : Dev nD) : iprop(records m K ∗ linear c) ⊢ held m c := by
  unfold linear held ghost
  iintro ⟨#HR, Hat, Htok⟩
  iexists K
  iframe HR ∗

def payerE (t : TK) : Dev nD ≃ Dev nD := ⟨fun c => payer c t, fun c => payer c t, fun c => payer_payer c t, fun c => payer_payer c t⟩

theorem toks_around : (bigSep Finset.univ fun c : Dev nD => bigSep Finset.univ fun t : TK => (tokM c t : sProp 𝕄))
    ⊢ bigSep Finset.univ fun c : Dev nD => bigSep Finset.univ fun t : TK => tokP c t := by
  rw [bigSep_univ_comm (fun (c : Dev nD) (t : TK) => (tokM c t : sProp 𝕄)), bigSep_univ_comm (fun (c : Dev nD) (t : TK) => (tokP c t : sProp 𝕄))]
  refine bigSep_mono fun t _ => show (bigSep Finset.univ fun c : Dev nD => (tokM c t : sProp 𝕄)) ⊢ bigSep Finset.univ fun c : Dev nD => (tokP c t : sProp 𝕄) from Entails.of_eq ?_
  rw [bigSep_univ_equiv (payerE t) (fun c : Dev nD => (tokM c t : sProp 𝕄))] <;> rfl

theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun x : CK => iprop(∃ κ : ℕ, cellInv ER (Rd m) κ (kcell (c, x))))
          ∗ (bigSep Finset.univ fun x : CK => iprop(atPos ER (kcell (c, x)) 0 ∅ 0 ∗ reached ER (kcell (c, x)) 0))
          ∗ bigSep Finset.univ fun t : TK => tokM c t) : sProp 𝕄)
      ⊢ bigSep Finset.univ (held m) := by
  rw [bigSep_sep', bigSep_sep', ← bigSep_univ_prod (fun cx : Dev nD × CK => iprop(∃ κ : ℕ, cellInv ER (Rd m) κ (kcell cx))),
    bigSep_congr (s := Finset.univ) (fun (c : Dev nD) _ => bigSep_sep' Finset.univ (fun x : CK => (atPos ER (kcell (c, x)) 0 ∅ 0 : sProp 𝕄)) (fun x => reached ER (kcell (c, x)) 0)),
    bigSep_sep', ← bigSep_univ_prod (fun cx : Dev nD × CK => (reached ER (kcell cx) 0 : sProp 𝕄))]
  iintro ⟨HI, ⟨Hat, #HR⟩, Htok⟩
  ihave HK := (BI.bigSep_exists_pi Finset.univ (fun (cx : Dev nD × CK) (κ : ℕ) => (cellInv ER (Rd m) κ (kcell cx) : sProp 𝕄))) $$ HI
  icases HK with ⟨%K, #HI⟩
  ihave Htk := (toks_around (F := F)) $$ Htok
  iapply (bigSep_with_persistent (R := records m K) fun c _ => ghost_intro m K c)
  isplitr
  · unfold records; isplitl; · iexact HI
    iexact HR
  · iapply ((Entails.of_eq (bigSep_sep' Finset.univ (fun c : Dev nD => bigSep Finset.univ fun x : CK => (atPos ER (kcell (c, x)) 0 ∅ 0 : sProp 𝕄))
        (fun c : Dev nD => bigSep Finset.univ fun t : TK => (tokP c t : sProp 𝕄))).symm).trans
      (bigSep_mono fun c _ => show _ ⊢ linear c from Entails.of_eq (by unfold linear; rfl)))
    isplitl [Hat]; · iexact Hat
    iexact Htk

theorem glob : (bigSep Finset.univ fun c => iprop(Pipeline.ownSems0 (Ix := Unit) (Name := ℕ) (U := UU) (Lvl := ℕ) (Val := Elt F) (τ := τ) osem c ∗ unscopedSems0 c ∗ dealt m c) : sProp 𝕄)
    ⊢ |={Set.univ}=> bigSep Finset.univ (held m) :=
  ((bigSep_mono fun c _ => core_alloc m c).trans (bigSep_fupd _ _)).trans (BI.fupd_mono (regroup m))

def owedE : (Bool ⊕ Bool) ⊕ (Fin 32 ⊕ Fin 32) → TK
  | .inl (.inl d) => .bar d
  | .inl (.inr d) => .bar2 d
  | .inr (.inl k) => .yr k
  | .inr (.inr k) => .xr k
def owedD : TK → Option ((Bool ⊕ Bool) ⊕ (Fin 32 ⊕ Fin 32))
  | .bar d => some (.inl (.inl d))
  | .bar2 d => some (.inl (.inr d))
  | .yr k => some (.inr (.inl k))
  | .xr k => some (.inr (.inr k))
  | _ => none
theorem owedD_E (a : (Bool ⊕ Bool) ⊕ (Fin 32 ⊕ Fin 32)) : owedD (owedE a) = some a := by
  rcases a with (a | a) | (a | a) <;> rfl
theorem owedE_injective : Function.Injective owedE := fun a b h =>
  Option.some.inj (by rw [← owedD_E a, h, owedD_E])

theorem owedAll_eq : owedAll = Finset.univ.map ⟨owedE, owedE_injective⟩ := by
  ext t
  rw [Finset.mem_map]
  unfold owedAll
  rw [Finset.mem_filter]
  constructor
  · rintro ⟨-, h⟩
    cases t with
    | bar d => exact ⟨.inl (.inl d), Finset.mem_univ _, rfl⟩
    | bar2 d => exact ⟨.inl (.inr d), Finset.mem_univ _, rfl⟩
    | yr k => exact ⟨.inr (.inl k), Finset.mem_univ _, rfl⟩
    | xr k => exact ⟨.inr (.inr k), Finset.mem_univ _, rfl⟩
    | _ => exact absurd h Bool.false_ne_true
  · rintro ⟨a, -, rfl⟩
    exact ⟨Finset.mem_univ _, by rcases a with (a | a) | (a | a) <;> rfl⟩

theorem bigSep_boolK (Φ : Bool → sProp 𝕄) : bigSep Finset.univ Φ = iprop(Φ false ∗ Φ true) :=
  bigSep_univ_eq_bigSepL [false, true] (by decide) (by decide) Φ

theorem bigSep_owedAll (Ψ : TK → sProp 𝕄) :
    bigSep owedAll Ψ = iprop(((Ψ (.bar false) ∗ Ψ (.bar true)) ∗ (Ψ (.bar2 false) ∗ Ψ (.bar2 true)))
      ∗ ((bigSep Finset.univ fun k : Fin 32 => Ψ (.yr k)) ∗ bigSep Finset.univ fun k : Fin 32 => Ψ (.xr k))) := by
  rw [owedAll_eq, bigSep_map, bigSep_univ_sum, bigSep_univ_sum, bigSep_univ_sum, bigSep_boolK, bigSep_boolK] <;> rfl

theorem cred_two (g : GSem nD τ sig) : iprop(cred (tallyAt g () 1) ∗ cred (tallyAt g () 1)) ⊢ (cred (tallyAt g () 2) : sProp 𝕄) := by
  rw [show (tallyAt g () 2 : CellTallies nD τ sig Unit) = tallyAt g () 1 + tallyAt g () 1 from (tallyAt_add g () 1 1).symm]
  exact (cred_add _ _).2

theorem launch_creds (c : Dev nD) : (Pipeline.launchCred O₀ c : sProp 𝕄) ⊢ creds c := by
  have h1 : (Pipeline.launchCred O₀ c : sProp 𝕄) ⊢ bigSep owedAll fun t : TK => cred (tallyAt (cell c t.ck) () (amountK t.ck)) := by
    show (Pipeline.launchCred (fun d : Dev nD => ∑ t ∈ owedAll, tallyAt (cell (payer d t) t.ck) () (amountK t.ck)) c : sProp 𝕄) ⊢ _
    rw [Pipeline.launchCred_sum owedAll (fun (t : TK) (d : Dev nD) => (tallyAt (cell (payer d t) t.ck) () (amountK t.ck) : CellTallies nD τ sig Unit)) c]
    exact bigSep_mono fun t _ => Pipeline.launchCred_tallyAt (csem t.ck) (fun d => payer d t) (fun d => payer d t)
      (fun d => payer_payer d t) (fun d => payer_payer d t) () (amountK t.ck) c
  refine h1.trans ?_
  rw [bigSep_owedAll]
  show iprop(((cred (tallyAt (cell c .bar) () 1) ∗ cred (tallyAt (cell c .bar) () 1)) ∗ (cred (tallyAt (cell c .bar2) () 1) ∗ cred (tallyAt (cell c .bar2) () 1)))
      ∗ ((bigSep Finset.univ fun k : Fin 32 => cred (tallyAt (cell c (.yr k)) () N512)) ∗ bigSep Finset.univ fun k : Fin 32 => cred (tallyAt (cell c (.xr k)) () N512)))
    ⊢ (creds c : sProp 𝕄)
  unfold creds
  iintro ⟨⟨Hb, Hb2⟩, Hy, Hx⟩
  isplitl [Hb]; · iapply (cred_two (F := F) (cell c .bar)); iexact Hb
  isplitl [Hb2]; · iapply (cred_two (F := F) (cell c .bar2)); iexact Hb2
  iframe

theorem xM_whole : (xM : Memref sig .tc .hbm S32768x1024 .f32).view.set = Finset.univ := View.set_whole _
theorem oM_whole : (oM : Memref sig .tc .hbm S65536x1024 .f32).view.set = Finset.univ := View.set_whole _
theorem vM_whole : (vM : Memref sig .tc .vmem S2x2048x1024 .f32).view.set = Finset.univ := View.set_whole _

theorem pts_xM (c : Dev nD) (f : Buf (Elt F) ((c : Thread nD τ).loc main_arg0)) :
    (pts xM c fullShare f : sProp 𝕄) = (((c : Thread nD τ).loc main_arg0) ↦{fullShare} f : sProp 𝕄) := by
  unfold pts; rw [xM_whole] <;> rfl
theorem pts_oM (c : Dev nD) (f : Buf (Elt F) ((c : Thread nD τ).loc main_v1)) :
    (pts oM c fullShare f : sProp 𝕄) = (((c : Thread nD τ).loc main_v1) ↦{fullShare} f : sProp 𝕄) := by
  unfold pts; rw [oM_whole] <;> rfl
theorem pts_vM (c : Dev nD) (f : Buf (Elt F) ((c : Thread nD τ).loc cc0_scratch4)) :
    (pts vM c fullShare f : sProp 𝕄) = (((c : Thread nD τ).loc cc0_scratch4) ↦{fullShare} f : sProp 𝕄) := by
  unfold pts; rw [vM_whole] <;> rfl

def Xc (c : Dev nD) : sProp 𝕄 :=
  iprop(start m c ∗ pts xM c fullShare (xArr m c) ∗ pts oM c fullShare (m ((c : Thread nD τ).loc main_v1)))

def Yc (c : Dev nD) : sProp 𝕄 := iprop(pts xM c fullShare (xArr m c) ∗ pts oM c fullShare (G m c))

theorem x_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ held m c)
      ⊢ |={Set.univ}=> iprop(Xc m c ∗ emp) := by
  rw [Pipeline.unscopedRestP_none, unscopedRest0_eq]
  iintro ⟨⟨Hx, Ho⟩, Hlev, Hcr, -, HG⟩
  ihave Hc := (launch_creds (F := F) c) $$ Hcr
  imodintro
  unfold Xc start held
  isplitl
  · isplitl [HG Hc Hlev]
    · isplitl [HG]; · iexact HG
      isplitl [Hc]; · iexact Hc
      iexact Hlev
    isplitl [Hx]
    · iapply (Entails.of_eq (pts_xM (F := F) c (xArr m c)).symm); iexact Hx
    · iapply (Entails.of_eq (pts_oM (F := F) c (m ((c : Thread nD τ).loc main_v1))).symm); iexact Ho
  · iempintro

theorem phi0_intro (c : Dev nD) :
    iprop(Xc m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀ Xc
  iintro ⟨⟨Hs, Hx, Ho⟩, -, ⟨%f, Hr⟩⟩
  iframe Hs Hx Ho
  iexists f
  iapply (Entails.of_eq (pts_vM (F := F) c f).symm); iexact Hr

theorem phi1_exit (c : Dev nD) :
    (dats m 0 c).Φ (Fin.last cfg0.N) ⊢ iprop(Yc m c ∗ Pipeline.ownSems0 osem c ∗ Pipeline.scopedRest cfg0.spec c) := by
  rw [show (dats m 0 c).Φ (Fin.last cfg0.N) = Φ₁ m c from rfl, scopedRest0_eq]
  unfold Φ₁ Yc Pipeline.ownSems0
  iintro ⟨Hx, Ho, ⟨%f, Hv⟩, Hz⟩
  isplitl [Hx Ho]
  · isplitl [Hx] <;> iassumption
  isplitl [Hz]; · iexact Hz
  iexists f
  iapply (Entails.of_eq (pts_vM (F := F) c f)); iexact Hv

theorem waits (c : Dev nD) : (levAts L lv : sProp 𝕄) ⊢ Pipeline.cellsWaits cfgs (dats m) () 0 c :=
  Pipeline.cellsWaits_intro cfgs (dats m) () 0 c fun w _ _ => w.elim0

def QC (c : Dev nD) (s : MemSt nD τ sig (Elt F)) : Prop :=
  s.mem ((c : Thread nD τ).loc main_v1) = G m c ∧ s.mem ((c : Thread nD τ).loc main_arg0) = m ((c : Thread nD τ).loc main_arg0)

set_option maxRecDepth 8000 in

theorem run_main : θ_run defs (onTc (τ := τ) (main (F := F))) ⟨m, fun _ => 0, ρ⟩ (fun r => ∀ c : Dev nD,
      r.2.mem ((c : Thread nD τ).loc main_v1) = G m c
      ∧ r.2.mem ((c : Thread nD τ).loc main_arg0) = m ((c : Thread nD τ).loc main_arg0)) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := fun c => (body_obligation m c).loose) (hne := fun w => w.elim0) (harr := arr_whole0) (hstage := stage_whole0)
    (hshare := fun _ w => w.elim0)
    (hdistinct := winFacts0.arr_inj)
    (O₀ := O₀) (howed₀ := fun _ => rfl) (howedN := fun _ => rfl)
    (L := L) (lv := lv) (hL := L_of_ne) (hwaits := waits m)
    (G := dealt m) (G' := held m) (u₀ := u₀)
    (hu₀ := by
      unfold u₀
      iintro Hu
      ihave H := (ownU_pair _ _) $$ Hu
      icases H with ⟨HP, HX⟩
      imod (fund_cells m) $$ HX with HG
      imodintro
      isplitl [HP] <;> iassumption)
    (hglob := glob m)
    (hA := fun _ w => w.elim0) (hpf := fun _ k => k.elim0)
    (X := Xc m) (Y := Yc m) (Z := fun _ => iprop(emp))
    (hX := x_intro m ρ) (hin := phi0_intro m) (hout := phi1_exit m)
    (QY := QC m)
    (hY := fun c s' => by
      unfold Yc
      iintro ⟨⟨Hx, Ho⟩, -, HSI⟩
      ihave Hx' := (Entails.of_eq (pts_xM (F := F) c (xArr m c))) $$ Hx
      ihave Ho' := (Entails.of_eq (pts_oM (F := F) c (G m c))) $$ Ho
      icombine HSI Hx' gives %hx
      icombine HSI Ho' gives %ho
      imodintro
      isplitr; · ipureintro; exact ⟨Buf.eq_of_forall_mem_univ ho, Buf.eq_of_forall_mem_univ hx⟩
      iexact HSI)
    (hQ := fun _ h c => (h c).2.2)

/-- info: 'Cert.KernelIdeal.AG.run_main' depends on axioms: [propext, Classical.choice, Quot.sound] -/
#guard_msgs in #print axioms run_main

end Cert.KernelIdeal.AG

end
-- ==== Proof.K.Mesh.lean ====
import proofs.«900683_g7700000000000684_dist_ag_v7x_xyz2x2x4_y_m32768_n1024_f32_1_alg».proof.Defs
import proofs.«900683_g7700000000000684_dist_ag_v7x_xyz2x2x4_y_m32768_n1024_f32_1_alg».proof.Proof.Gen.Kernel

namespace Cert.Kernel.AG

open Cert.Kernel Cert.Kernel.Gen
open Idealize.ShloMosaic

def py (c : Dev nD) : Dev nD :=
  ⟨(8 * (c.val / 8) + (c.val % 4) + 4) - 4 * ((c.val / 4) % 2), by have h : c.val < 16 := c.isLt; show _ < 16; omega⟩

def px (c : Dev nD) : Dev nD :=
  ⟨(4 * ((c.val / 4) % 2) + (c.val % 4) + 8) - 8 * (c.val / 8), by have h : c.val < 16 := c.isLt; show _ < 16; omega⟩

theorem py_py (c : Dev nD) : py (py c) = c := by revert c; decide
theorem px_px (c : Dev nD) : px (px c) = c := by revert c; decide

def mx (c : Dev nD) : ℕ := c.val / 8
def my (c : Dev nD) : ℕ := (c.val / 4) % 2
theorem mx_lt (c : Dev nD) : mx c < 2 := by have h : c.val < 16 := c.isLt; unfold mx; omega
theorem my_lt (c : Dev nD) : my c < 2 := by unfold my; omega
theorem mx_py (c : Dev nD) : mx (py c) = mx c := by revert c; decide
theorem my_py (c : Dev nD) : my (py c) = 1 - my c := by revert c; decide
theorem mx_px (c : Dev nD) : mx (px c) = 1 - mx c := by revert c; decide
theorem my_px (c : Dev nD) : my (px c) = my c := by revert c; decide

/-- A device number whose closed form is that of the `y` peer (of the `x` peer) names that peer. -/
theorem dev_y {v : ℕ} (c : Dev nD) (e : v = (8 * (c.val / 8) + (c.val % 4) + 4) - 4 * ((c.val / 4) % 2)) (h : v < nD) : (⟨v, h⟩ : Dev nD) = py c := Fin.ext e
theorem dev_x {v : ℕ} (c : Dev nD) (e : v = (4 * ((c.val / 4) % 2) + (c.val % 4) + 8) - 8 * (c.val / 8)) (h : v < nD) : (⟨v, h⟩ : Dev nD) = px c := Fin.ext e

end Cert.Kernel.AG
-- ==== Proof.K.Base.lean ====
import proofs.«900683_g7700000000000684_dist_ag_v7x_xyz2x2x4_y_m32768_n1024_f32_1_alg».proof.Defs
import proofs.«900683_g7700000000000684_dist_ag_v7x_xyz2x2x4_y_m32768_n1024_f32_1_alg».proof.Proof.Gen.Kernel
import proofs.«900683_g7700000000000684_dist_ag_v7x_xyz2x2x4_y_m32768_n1024_f32_1_alg».proof.Proof.Gen.Kernel.Skeleton
import proofs.«900683_g7700000000000684_dist_ag_v7x_xyz2x2x4_y_m32768_n1024_f32_1_alg».proof.Proof.Gen.Kernel.Launch
import proofs.«900683_g7700000000000684_dist_ag_v7x_xyz2x2x4_y_m32768_n1024_f32_1_alg».proof.Proof.K.Mesh
import Idealize.ShloMosaic.Lib.Pipeline.Launch
import Idealize.ShloMosaic.Lib.Pipeline.Kit
import Idealize.ShloMosaic.Lib.Tactic
import Idealize.ShloMosaic.Lib.ValueIdx

noncomputable section

namespace Cert.Kernel.AG

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

abbrev UB : Type := URounds (GSem nD τ sig) Bool
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

abbrev 𝒱₀ : Variants := Variants.none

variable (m : (ℓ : Loc nD τ sig) → Buf (Elt F) ℓ) (ρ : Dev nD → PrngReg)

abbrev xM : Memref sig .tc .hbm S32768x1024 .f32 := Memref.whole main_arg0
abbrev oM : Memref sig .tc .hbm S65536x1024 .f32 := Memref.whole main_v1
abbrev vM : Memref sig .tc .vmem S2x2048x1024 .f32 := Memref.whole cc0_scratch4

theorem inb32 (k : Fin 32) : ∀ a, (![k.val] : Fin 1 → Nat) a + S1.size a ≤ S32.size a := by
  intro a; have := k.isLt; fin_cases a; show k.val + 1 ≤ 32; omega
theorem inb2 (j : Fin 2) : ∀ a, (![j.val] : Fin 1 → Nat) a + S1.size a ≤ S2.size a := by
  intro a; have := j.isLt; fin_cases a; show j.val + 1 ≤ 2; omega
theorem inbL (i : Fin 16) : ∀ a, (![2048 * i.val, 0] : Fin 2 → Nat) a + S2048x1024.size a ≤ S32768x1024.size a := by
  intro a; have := i.isLt; fin_cases a
  · show 2048 * i.val + 2048 ≤ 32768; omega
  · show 0 + 1024 ≤ 1024; omega
theorem inbV (j : Fin 2) : ∀ a, (![j.val, 0, 0] : Fin 3 → Nat) a + S1x2048x1024.size a ≤ S2x2048x1024.size a := by
  intro a; have := j.isLt; fin_cases a
  · show j.val + 1 ≤ 2; omega
  · show 0 + 2048 ≤ 2048; omega
  · show 0 + 1024 ≤ 1024; omega

abbrev sem32 (A : DmaSems sig S32) (k : Fin 32) : DmaSems sig S_ :=
  (A.slice (Rect.unit (s := S32) ![k.val] S1.size (inb32 k))).squeeze S_ Gen.squeezes_S1_S_
abbrev sem2 (A : DmaSems sig S2) (j : Fin 2) : DmaSems sig S_ :=
  (A.slice (Rect.unit (s := S2) ![j.val] S1.size (inb2 j))).squeeze S_ Gen.squeezes_S1_S_

abbrev barS : Sem sig := (SemArray.scalar (sig.barrier 0 rfl) : Sems sig S_).sem
abbrev bar2S : Sem sig := (cc0_scoped0 : Sems sig S_).sem

abbrev ySrc (c : Dev nD) (k : Fin 32) : Memref sig .tc .hbm S512x1024 .f32 :=
  xM.slice (Rect.unit (s := S32768x1024) (k0_off2 c (BitVec.ofNat 32 (512 * k.val))) S512x1024.size (Gen.k0_off2_inb c k)) (fun _ => rfl)
abbrev yDst (c : Dev nD) (k : Fin 32) : Memref sig .tc .hbm S512x1024 .f32 :=
  oM.slice (Rect.unit (s := S65536x1024) (k0_off1 c (BitVec.ofNat 32 (512 * k.val))) S512x1024.size (Gen.k0_off1_inb c k)) (fun _ => rfl)
abbrev xBuf (c : Dev nD) (k : Fin 32) : Memref sig .tc .hbm S512x1024 .f32 :=
  oM.slice (Rect.unit (s := S65536x1024) (k0_off3 c (BitVec.ofNat 32 (512 * k.val))) S512x1024.size (Gen.k0_off3_inb c k)) (fun _ => rfl)
abbrev lDst (c : Dev nD) (i : Fin 16) : Memref sig .tc .hbm S2048x1024 .f32 :=
  oM.slice (Rect.unit (s := S65536x1024) (k0_off4 c (BitVec.ofNat 32 (2048 * i.val))) S2048x1024.size (Gen.k0_off4_inb c i)) (fun _ => rfl)
abbrev lSrc (i : Fin 16) : Memref sig .tc .hbm S2048x1024 .f32 :=
  xM.slice (Rect.unit (s := S32768x1024) ![2048 * i.val, 0] S2048x1024.size (inbL i)) (fun _ => rfl)
abbrev vSl (j : Fin 2) : Memref sig .tc .vmem S2048x1024 .f32 :=
  (vM.slice (Rect.unit (s := S2x2048x1024) ![j.val, 0, 0] S1x2048x1024.size (inbV j)) (fun _ => rfl)).squeeze S2048x1024 Gen.squeezes_S1x2048x1024_S2048x1024

abbrev pts {sp : Space} {s : Shape} (M : Memref sig .tc sp s .f32) (t : Dev nD) (q : PosShare TreeShare)
    (f : Buf (Elt F) (M.view.loc (t : Thread nD τ))) : sProp 𝕄 :=
  M.view.loc (t : Thread nD τ) ↦[M.view.set]{q} f

inductive CK : Type
  | bar | bar2
  | ys (k : Fin 32) | yr (k : Fin 32) | xs (k : Fin 32) | xr (k : Fin 32)
  | li (j : Fin 2) | lo (j : Fin 2)
  deriving DecidableEq, Fintype

def csem : CK → SemLoc sig
  | .bar => .reg barS
  | .bar2 => .reg bar2S
  | .ys k => .dma (sem32 cc0_scratch0 k).sem
  | .yr k => .dma (sem32 cc0_scratch1 k).sem
  | .xs k => .dma (sem32 cc0_scratch2 k).sem
  | .xr k => .dma (sem32 cc0_scratch3 k).sem
  | .li j => .dma (sem2 cc0_scratch5 j).sem
  | .lo j => .dma (sem2 cc0_scratch6 j).sem

abbrev cell (c : Dev nD) (x : CK) : GSem nD τ sig := ((c : Thread nD τ), csem x)

theorem csem_injective : Function.Injective csem := by
  intro a b h
  revert a b
  decide

end Cert.Kernel.AG
end
-- ==== Proof.K.Sched.lean ====
import proofs.«900683_g7700000000000684_dist_ag_v7x_xyz2x2x4_y_m32768_n1024_f32_1_alg».proof.Defs
import proofs.«900683_g7700000000000684_dist_ag_v7x_xyz2x2x4_y_m32768_n1024_f32_1_alg».proof.Proof.Gen.Kernel
import proofs.«900683_g7700000000000684_dist_ag_v7x_xyz2x2x4_y_m32768_n1024_f32_1_alg».proof.Proof.Gen.Kernel.Skeleton
import proofs.«900683_g7700000000000684_dist_ag_v7x_xyz2x2x4_y_m32768_n1024_f32_1_alg».proof.Proof.Gen.Kernel.Launch
import proofs.«900683_g7700000000000684_dist_ag_v7x_xyz2x2x4_y_m32768_n1024_f32_1_alg».proof.Proof.K.Mesh
import proofs.«900683_g7700000000000684_dist_ag_v7x_xyz2x2x4_y_m32768_n1024_f32_1_alg».proof.Proof.K.Base
import Idealize.ShloMosaic.Lib.Pipeline.Launch
import Idealize.ShloMosaic.Lib.Pipeline.Kit
import Idealize.ShloMosaic.Lib.Tactic
import Idealize.ShloMosaic.Lib.ValueIdx

noncomputable section

namespace Cert.Kernel.AG

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

def srcDev (c : Dev nD) (row : ℕ) : Dev nD :=
  if row / 32768 = my c then c else if (row % 32768) / 16384 = mx c then py c else py (px c)

abbrev xArr (d : Dev nD) : Buf (Elt F) ((d : Thread nD τ).loc main_arg0) := m ((d : Thread nD τ).loc main_arg0)

def G (c : Dev nD) : Buf (Elt F) ((c : Thread nD τ).loc main_v1) := fun i =>
  xArr m (srcDev c (i 0).val) (ValueIdx.ix2 (⟨(i 0).val % 32768, Nat.mod_lt _ (by decide)⟩ : Fin 32768) (i 1))

def VB (c : Dev nD) (i : Fin 16) (j : Fin 2) : Buf (Elt F) ((c : Thread nD τ).loc cc0_scratch4) :=
  (vSl j).view.write (Elt F) (m ((c : Thread nD τ).loc cc0_scratch4)) ((lSrc i).view.read (Elt F) (xArr m c)) Finset.univ

abbrev qY : PosShare TreeShare := fullShare.left
abbrev qL : PosShare TreeShare := fullShare.right

def chunk (j : Fin 2) (r : ℕ) : Fin 16 := ⟨(2 * r + j.val) % 16, Nat.mod_lt _ (by decide)⟩

def barPayY (c : Dev nD) : sProp 𝕄 :=
  bigSep Finset.univ fun k : Fin 32 => iprop((∃ f, pts (yDst c k) (py c) fullShare f) ∗ reached ER (cell (py c) (.yr k)) 0)

def barPayX (c : Dev nD) : sProp 𝕄 :=
  bigSep Finset.univ fun k : Fin 32 => iprop((∃ f, pts (xBuf c k) (px c) fullShare f) ∗ reached ER (cell (px c) (.xr k)) 0)

def payloadK (c : Dev nD) : CK → ℕ → Bool → sProp 𝕄
  | .bar, _, false => barPayY c
  | .bar, _, true => barPayX c
  | .bar2, _, _ => iprop(emp)
  | .ys k, _, _ => pts (ySrc c k) c qY (xArr m c)
  | .yr k, _, _ => pts (yDst (py c) k) c fullShare (G m c)
  | .xs k, _, _ => pts (xBuf c k) c fullShare (G m c)
  | .xr k, _, _ => pts (xBuf (px c) k) c fullShare (G m c)
  | .li j, r, _ => iprop(pts (vSl j) c fullShare (VB m c (chunk j r) j) ∗ pts (lSrc (chunk j r)) c qL (xArr m c))
  | .lo j, r, _ => iprop(pts (lDst c (chunk j r)) c fullShare (G m c) ∗ pts (vSl j) c fullShare (VB m c (chunk j r) j))

def dutiesK : CK → ℕ → Finset Bool
  | .bar, 0 => Finset.univ
  | .bar2, 0 => Finset.univ
  | .ys _, 0 => {false}
  | .yr _, 0 => {false}
  | .xs _, 0 => {false}
  | .xr _, 0 => {false}
  | .li _, r => if r < 8 then {false} else ∅
  | .lo _, r => if r < 8 then {false} else ∅
  | _, _ => ∅

def N512 : ℕ := (yDst (0 : Dev nD) 0).view.dmaCredit
def NV : ℕ := (vSl 0).view.dmaCredit
def N2048 : ℕ := (lDst (0 : Dev nD) 0).view.dmaCredit

def amountK : CK → ℕ
  | .bar => 1
  | .bar2 => 1
  | .ys _ => N512
  | .yr _ => N512
  | .xs _ => N512
  | .xr _ => N512
  | .li _ => NV
  | .lo _ => N2048

theorem N512_pos : 0 < N512 := by unfold N512; exact View.dmaCredit_pos _ (by show 0 < 512 * 1024; omega)
theorem NV_pos : 0 < NV := by unfold NV; exact View.dmaCredit_pos _ (by show 0 < 2048 * 1024; omega)
theorem N2048_pos : 0 < N2048 := by unfold N2048; exact View.dmaCredit_pos _ (by show 0 < 2048 * 1024; omega)
theorem amountK_pos (x : CK) : 0 < amountK x := by
  cases x
  · exact Nat.one_pos
  · exact Nat.one_pos
  · exact N512_pos
  · exact N512_pos
  · exact N512_pos
  · exact N512_pos
  · exact NV_pos
  · exact N2048_pos

open Classical in

def ckOf (s : SemLoc sig) : Option CK := if h : ∃ x, csem x = s then some h.choose else none

theorem ckOf_csem (x : CK) : ckOf (csem x) = some x := by
  unfold ckOf
  have h : ∃ y, csem y = csem x := ⟨x, rfl⟩
  rw [dif_pos h]
  exact congrArg some (csem_injective h.choose_spec)

def Rd : Rounds.Schedule (GSem nD τ sig) Bool 𝕄 where
  duties g r := if g.1.2 = .tc then (match ckOf g.2 with | some x => dutiesK x r | none => ∅) else ∅
  unitless _ := False
  amount g _ _ := match ckOf g.2 with | some x => amountK x | none => 1
  payload g r d := match ckOf g.2 with | some x => payloadK m g.1.1 x r d | none => iprop(emp)
  amount_pos g _ _ _ := by
    cases h : ckOf g.2 with
    | none => simp only [h]; exact Nat.one_pos
    | some x => simp only [h]; exact amountK_pos x

instance payloadK_storable (c : Dev nD) (x : CK) (r : ℕ) (d : Bool) : BI.Storable (upEmb : UEmb _ 𝕄) (payloadK (F := F) m c x r d) := by
  cases x with
  | bar =>
    cases d
    · show BI.Storable upEmb (barPayY c); unfold barPayY; infer_instance
    · show BI.Storable upEmb (barPayX c); unfold barPayX; infer_instance
  | bar2 => show BI.Storable upEmb (iprop(emp) : sProp 𝕄); infer_instance
  | ys k => show BI.Storable upEmb (pts (ySrc c k) c qY (xArr m c)); infer_instance
  | yr k => show BI.Storable upEmb (pts (yDst (py c) k) c fullShare (G m c)); infer_instance
  | xs k => show BI.Storable upEmb (pts (xBuf c k) c fullShare (G m c)); infer_instance
  | xr k => show BI.Storable upEmb (pts (xBuf (px c) k) c fullShare (G m c)); infer_instance
  | li j => show BI.Storable upEmb (iprop(pts (vSl j) c fullShare (VB m c (chunk j r) j) ∗ pts (lSrc (chunk j r)) c qL (xArr m c))); infer_instance
  | lo j => show BI.Storable upEmb (iprop(pts (lDst c (chunk j r)) c fullShare (G m c) ∗ pts (vSl j) c fullShare (VB m c (chunk j r) j))); infer_instance

instance Rd_payload_storable (g : GSem nD τ sig) (r : ℕ) (d : Bool) :
    BI.Storable (upEmb : UEmb _ 𝕄) ((Rd (F := F) m).payload g r d) := by
  show BI.Storable upEmb (match ckOf g.2 with | some x => payloadK m g.1.1 x r d | none => iprop(emp))
  cases ckOf g.2 with
  | none => show BI.Storable upEmb (iprop(emp) : sProp 𝕄); infer_instance
  | some x => exact payloadK_storable m g.1.1 x r d

section Tables
variable (c : Dev nD)

omit [FloatOps F] in
theorem duties_cell (x : CK) (r : ℕ) : (Rd (F := F) m).duties (cell c x) r = dutiesK x r := by
  show (if ((c : Thread nD τ)).2 = .tc then (match ckOf (csem x) with | some x => dutiesK x r | none => ∅) else ∅) = _
  rw [if_pos rfl, ckOf_csem]
omit [FloatOps F] in
theorem amount_cell (x : CK) (r : ℕ) (d : Bool) : (Rd (F := F) m).amount (cell c x) r d = amountK x := by
  show (match ckOf (csem x) with | some x => amountK x | none => 1) = _
  rw [ckOf_csem]
omit [FloatOps F] in
theorem payload_cell (x : CK) (r : ℕ) (d : Bool) : (Rd (F := F) m).payload (cell c x) r d = payloadK m c x r d := by
  show (match ckOf (csem x) with | some x => payloadK m c x r d | none => iprop(emp)) = _
  rw [ckOf_csem]

omit [FloatOps F] in
theorem expect_cell (x : CK) (r : ℕ) : (Rd (F := F) m).expect (cell c x) r = (dutiesK x r).card * amountK x := by
  unfold Schedule.expect Schedule.amountOf
  rw [duties_cell, Finset.sum_congr rfl fun d _ => amount_cell m c x r d, Finset.sum_const, smul_eq_mul]

end Tables

end Cert.Kernel.AG
end
-- ==== Proof.K.Proto.lean ====
import proofs.«900683_g7700000000000684_dist_ag_v7x_xyz2x2x4_y_m32768_n1024_f32_1_alg».proof.Defs
import proofs.«900683_g7700000000000684_dist_ag_v7x_xyz2x2x4_y_m32768_n1024_f32_1_alg».proof.Proof.Gen.Kernel
import proofs.«900683_g7700000000000684_dist_ag_v7x_xyz2x2x4_y_m32768_n1024_f32_1_alg».proof.Proof.Gen.Kernel.Skeleton
import proofs.«900683_g7700000000000684_dist_ag_v7x_xyz2x2x4_y_m32768_n1024_f32_1_alg».proof.Proof.Gen.Kernel.Launch
import proofs.«900683_g7700000000000684_dist_ag_v7x_xyz2x2x4_y_m32768_n1024_f32_1_alg».proof.Proof.K.Mesh
import proofs.«900683_g7700000000000684_dist_ag_v7x_xyz2x2x4_y_m32768_n1024_f32_1_alg».proof.Proof.K.Sched
import Idealize.ShloMosaic.Lib.Pipeline.Launch
import Idealize.ShloMosaic.Lib.Pipeline.Kit
import Idealize.ShloMosaic.Lib.Tactic
import Idealize.ShloMosaic.Lib.ValueIdx

noncomputable section

namespace Cert.Kernel.AG

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

inductive TK : Type
  | bar (d : Bool) | bar2 (d : Bool)
  | ys (k : Fin 32) | yr (k : Fin 32) | xs (k : Fin 32) | xr (k : Fin 32)
  | li (j : Fin 2) (r : Fin 8) | lo (j : Fin 2) (r : Fin 8)
  deriving DecidableEq, Fintype

def TK.ck : TK → CK
  | .bar _ => .bar | .bar2 _ => .bar2 | .ys k => .ys k | .yr k => .yr k | .xs k => .xs k | .xr k => .xr k
  | .li j _ => .li j | .lo j _ => .lo j
def TK.round : TK → ℕ
  | .li _ r => r.val | .lo _ r => r.val | _ => 0
def TK.duty : TK → Bool
  | .bar d => d | .bar2 d => d | _ => false

def payer (c : Dev nD) : TK → Dev nD
  | .bar false => py c | .bar true => px c | .bar2 false => py c | .bar2 true => px c
  | .yr _ => py c | .xr _ => px c
  | _ => c

theorem payer_payer (c : Dev nD) (t : TK) : payer (payer c t) t = c := by
  cases t with
  | bar d => cases d <;> simp only [payer, py_py, px_px]
  | bar2 d => cases d <;> simp only [payer, py_py, px_px]
  | yr k => simp only [payer, py_py]
  | xr k => simp only [payer, px_px]
  | _ => rfl

def tokP (c : Dev nD) (t : TK) : sProp 𝕄 := dutyTok ER (cell (payer c t) t.ck) t.round t.duty

def tokM (c : Dev nD) (t : TK) : sProp 𝕄 := dutyTok ER (cell c t.ck) t.round t.duty

def TK.owed : TK → Bool
  | .bar _ => true | .bar2 _ => true | .yr _ => true | .xr _ => true | _ => false

def owedSum (c : Dev nD) (S : Finset TK) : CellTallies nD τ sig Unit :=
  ∑ t ∈ S, tallyAt (cell (payer c t) t.ck) () (amountK t.ck)

def owedAll : Finset TK := Finset.univ.filter fun t => t.owed = true

def O₀ (c : Dev nD) : CellTallies nD τ sig Unit := owedSum c owedAll

theorem owedSum_erase (c : Dev nD) {S : Finset TK} {t : TK} (h : t ∈ S) :
    owedSum c S = owedSum c (S.erase t) + tallyAt (cell (payer c t) t.ck) () (amountK t.ck) := by
  unfold owedSum; rw [add_comm]; exact (Finset.add_sum_erase S _ h).symm

def L (g : GSem nD τ sig) : Finset Unit := if g.1.2 = .tc then {()} else ∅
def lvK : CK → ℕ
  | .bar => 1 | .yr _ => 2 | .xr _ => 3 | .bar2 => 4 | _ => 0
def lv (g : GSem nD τ sig) (_ : Unit) : ℕ := match ckOf g.2 with | some x => lvK x | none => 0

theorem L_of_ne (g : GSem nD τ sig) (h : g.1.2 ≠ .tc) : L g = ∅ := if_neg h
theorem L_tc (c : Dev nD) (sm : SemLoc sig) : L ((c : Thread nD τ), sm) = {()} := if_pos rfl
theorem lv_cell (c : Dev nD) (x : CK) (u : Unit) : lv (cell c x) u = lvK x := by
  show (match ckOf (csem x) with | some x => lvK x | none => 0) = _
  rw [ckOf_csem]

def records (K : Dev nD × CK → ℕ) : sProp 𝕄 :=
  iprop((bigSep Finset.univ fun cx : Dev nD × CK => cellInv ER (Rd m) (K cx) (cell cx.1 cx.2))
    ∗ bigSep Finset.univ fun cx : Dev nD × CK => reached ER (cell cx.1 cx.2) 0)

instance records_persistent (K : Dev nD × CK → ℕ) : BI.Persistent (records (F := F) m K) := by unfold records; infer_instance

def creds (c : Dev nD) : sProp 𝕄 :=
  iprop(cred (tallyAt (cell c .bar) () 2) ∗ cred (tallyAt (cell c .bar2) () 2)
    ∗ (bigSep Finset.univ fun k : Fin 32 => cred (tallyAt (cell c (.yr k)) () N512))
    ∗ (bigSep Finset.univ fun k : Fin 32 => cred (tallyAt (cell c (.xr k)) () N512)))

def ghost (K : Dev nD × CK → ℕ) (c : Dev nD) : sProp 𝕄 :=
  iprop(records m K ∗ (bigSep Finset.univ fun x : CK => atPos ER (cell c x) 0 ∅ 0) ∗ (bigSep Finset.univ fun t : TK => tokP c t))

def start (c : Dev nD) : sProp 𝕄 := iprop((∃ K, ghost m K c) ∗ creds c ∗ levAts L lv)

def Φ₀ (c : Dev nD) : sProp 𝕄 :=
  iprop(start m c ∗ pts xM c fullShare (xArr m c) ∗ pts oM c fullShare (m ((c : Thread nD τ).loc main_v1)) ∗ ∃ f, pts vM c fullShare f)

abbrev OK : Type := {x : CK // x ≠ CK.bar}
abbrev osem : OK → SemLoc sig := fun x => csem x.1

def Φ₁ (c : Dev nD) : sProp 𝕄 :=
  iprop(pts xM c fullShare (xArr m c) ∗ pts oM c fullShare (G m c) ∗ (∃ f, pts vM c fullShare f)
    ∗ bigSep Finset.univ fun x : OK => semVal (cell c x.1) 0)

def dats (_ : Fin 1) (c : Dev nD) : Dat τ (Elt F) Unit ℕ UU ℕ cfg0 c where
  A w := w.elim0
  after w _ := w.elim0
  Φ t := match t with
    | ⟨0, _⟩ => Φ₀ m c
    | ⟨_ + 1, _⟩ => Φ₁ m c
  q _ := fullShare
  owed t := match t with
    | ⟨0, _⟩ => O₀ c
    | ⟨_ + 1, _⟩ => 0

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

def bodyPre (K : Dev nD × CK → ℕ) (c : Dev nD) : sProp 𝕄 :=
  iprop(ghost m K c ∗ creds c ∗ levAts L lv
    ∗ pts xM c fullShare (xArr m c) ∗ pts oM c fullShare (m ((c : Thread nD τ).loc main_v1)) ∗ (∃ f, pts vM c fullShare f)
    ∗ (dats m 0 c).owesAt () t₀.castSucc)

def bodyPost (c : Dev nD) : sProp 𝕄 := iprop(Φ₁ m c ∗ (dats m 0 c).owesAt () t₀.succ)

abbrev bodyProg : Prog (TpuEff nD τ sig (Elt F) Λ₀ .tc) PUnit :=
  cc0_body (Memref.whole main_arg0) (Memref.isWhole_whole _) (Memref.whole main_v1) (Memref.isWhole_whole _) cc0_scratch0 cc0_scratch1 cc0_scratch2 cc0_scratch3
    (Memref.whole cc0_scratch4) (Memref.isWhole_whole _) cc0_scratch5 cc0_scratch6 cc0_scoped0

end Cert.Kernel.AG
end
-- ==== Proof.K.Bundles.lean ====
import proofs.«900683_g7700000000000684_dist_ag_v7x_xyz2x2x4_y_m32768_n1024_f32_1_alg».proof.Defs
import proofs.«900683_g7700000000000684_dist_ag_v7x_xyz2x2x4_y_m32768_n1024_f32_1_alg».proof.Proof.Gen.Kernel
import proofs.«900683_g7700000000000684_dist_ag_v7x_xyz2x2x4_y_m32768_n1024_f32_1_alg».proof.Proof.Gen.Kernel.Skeleton
import proofs.«900683_g7700000000000684_dist_ag_v7x_xyz2x2x4_y_m32768_n1024_f32_1_alg».proof.Proof.Gen.Kernel.Launch
import proofs.«900683_g7700000000000684_dist_ag_v7x_xyz2x2x4_y_m32768_n1024_f32_1_alg».proof.Proof.K.Mesh
import proofs.«900683_g7700000000000684_dist_ag_v7x_xyz2x2x4_y_m32768_n1024_f32_1_alg».proof.Proof.K.Sched
import proofs.«900683_g7700000000000684_dist_ag_v7x_xyz2x2x4_y_m32768_n1024_f32_1_alg».proof.Proof.K.Proto
import Idealize.ShloMosaic.Lib.Pipeline.Launch
import Idealize.ShloMosaic.Lib.Pipeline.Kit
import Idealize.ShloMosaic.Lib.Tactic
import Idealize.ShloMosaic.Lib.ValueIdx

noncomputable section

namespace Cert.Kernel.AG

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

def ge (N n : ℕ) : Finset (Fin N) := Finset.univ.filter fun k => n ≤ k.val
def lt (N n : ℕ) : Finset (Fin N) := Finset.univ.filter fun k => k.val < n

theorem ge_zero (N : ℕ) : ge N 0 = Finset.univ := by ext k; simp [ge]
theorem lt_top (N : ℕ) : lt N N = Finset.univ := by ext k; simp [lt]
theorem lt_zero (N : ℕ) : lt N 0 = ∅ := by ext k; simp [lt]
theorem mem_ge {N n : ℕ} (hn : n < N) : (⟨n, hn⟩ : Fin N) ∈ ge N n := by simp [ge]
theorem ge_erase {N n : ℕ} (hn : n < N) : (ge N n).erase ⟨n, hn⟩ = ge N (n + 1) := by
  ext k; simp only [ge, Finset.mem_erase, Finset.mem_filter, Finset.mem_univ, true_and, ne_eq, Fin.ext_iff]; omega
theorem not_mem_lt {N n : ℕ} (hn : n < N) : (⟨n, hn⟩ : Fin N) ∉ lt N n := by simp [lt]
theorem lt_insert {N n : ℕ} (hn : n < N) : insert (⟨n, hn⟩ : Fin N) (lt N n) = lt N (n + 1) := by
  ext k; simp only [lt, Finset.mem_insert, Finset.mem_filter, Finset.mem_univ, true_and, Fin.ext_iff]; omega

omit [FloatOps F] in
theorem take_ge {N : ℕ} (Φ : Fin N → sProp 𝕄) (n : ℕ) (hn : n < N) :
    bigSep (ge N n) Φ = iprop(Φ ⟨n, hn⟩ ∗ bigSep (ge N (n + 1)) Φ) := by
  rw [bigSep_erase (mem_ge hn), ge_erase hn]; rfl
omit [FloatOps F] in
theorem put_lt {N : ℕ} (Φ : Fin N → sProp 𝕄) (n : ℕ) (hn : n < N) :
    iprop(Φ ⟨n, hn⟩ ∗ bigSep (lt N n) Φ) = bigSep (lt N (n + 1)) Φ := by
  rw [← lt_insert hn, bigSep_insert (not_mem_lt hn)]; rfl

def TK.ord : TK → ℕ
  | .bar false => 0 | .bar true => 1 | .yr k => 2 + k.val | .xr k => 34 + k.val | .bar2 false => 66 | .bar2 true => 67
  | _ => 0

def Sn (n : ℕ) : Finset TK := owedAll.filter fun t => n ≤ t.ord

theorem Sn_zero : Sn 0 = owedAll := by ext t; simp [Sn]

theorem owed_cases (a : TK) (ha : a.owed = true) :
    (a = .bar false ∧ a.ord = 0) ∨ (a = .bar true ∧ a.ord = 1) ∨ (∃ k, a = .yr k ∧ a.ord = 2 + k.val) ∨ (∃ k, a = .xr k ∧ a.ord = 34 + k.val)
      ∨ (a = .bar2 false ∧ a.ord = 66) ∨ (a = .bar2 true ∧ a.ord = 67) := by
  cases a with
  | bar d =>
    cases d
    · exact Or.inl ⟨rfl, rfl⟩
    · exact Or.inr (Or.inl ⟨rfl, rfl⟩)
  | bar2 d =>
    cases d
    · exact Or.inr (Or.inr (Or.inr (Or.inr (Or.inl ⟨rfl, rfl⟩))))
    · exact Or.inr (Or.inr (Or.inr (Or.inr (Or.inr ⟨rfl, rfl⟩))))
  | yr k => exact Or.inr (Or.inr (Or.inl ⟨k, rfl, rfl⟩))
  | xr k => exact Or.inr (Or.inr (Or.inr (Or.inl ⟨k, rfl, rfl⟩)))
  | ys k => exact absurd ha (by simp [TK.owed])
  | xs k => exact absurd ha (by simp [TK.owed])
  | li j r => exact absurd ha (by simp [TK.owed])
  | lo j r => exact absurd ha (by simp [TK.owed])

theorem ord_inj {t t' : TK} (h : t.owed = true) (h' : t'.owed = true) (e : t.ord = t'.ord) : t = t' := by
  rcases owed_cases t h with ⟨rfl, o⟩ | ⟨rfl, o⟩ | ⟨k, rfl, o⟩ | ⟨k, rfl, o⟩ | ⟨rfl, o⟩ | ⟨rfl, o⟩ <;>
  rcases owed_cases t' h' with ⟨rfl, o'⟩ | ⟨rfl, o'⟩ | ⟨k', rfl, o'⟩ | ⟨k', rfl, o'⟩ | ⟨rfl, o'⟩ | ⟨rfl, o'⟩ <;>
  first
    | rfl
    | (have hk : k = k' := Fin.ext (by omega); subst hk; rfl)
    | (exfalso; have := k.isLt; omega)
    | (exfalso; have := k'.isLt; omega)
    | (exfalso; omega)

theorem Sn_erase {n : ℕ} {t : TK} (ho : t.owed = true) (hn : t.ord = n) : (Sn n).erase t = Sn (n + 1) := by
  ext t'
  simp only [Sn, owedAll, Finset.mem_erase, Finset.mem_filter, Finset.mem_univ, true_and, ne_eq]
  constructor
  · rintro ⟨hne, ho', hle⟩
    refine ⟨ho', ?_⟩
    rcases Nat.lt_or_ge n t'.ord with h | h
    · exact h
    · exact absurd (ord_inj ho' ho (by omega)) hne
  · rintro ⟨ho', hle⟩
    exact ⟨fun e => by subst e; omega, ho', by omega⟩

theorem mem_Sn {n : ℕ} {t : TK} (ho : t.owed = true) (hn : t.ord = n) : t ∈ Sn n := by
  simp only [Sn, owedAll, Finset.mem_filter, Finset.mem_univ, true_and]; exact ⟨ho, by omega⟩

def minLv (n : ℕ) : ℕ := if n < 2 then 1 else if n < 34 then 2 else if n < 66 then 3 else 4

theorem lv_of_Sn {n : ℕ} {t : TK} (h : t ∈ Sn n) : minLv n ≤ lvK t.ck := by
  simp only [Sn, owedAll, Finset.mem_filter, Finset.mem_univ, true_and] at h
  obtain ⟨ho, hle⟩ := h
  unfold minLv
  cases t with
  | bar d => cases d <;> simp only [TK.ord, TK.ck, lvK] at hle ⊢ <;> (split_ifs <;> omega)
  | bar2 d => cases d <;> simp only [TK.ord, TK.ck, lvK] at hle ⊢ <;> (split_ifs <;> omega)
  | yr k => simp only [TK.ord, TK.ck, lvK] at hle ⊢; have := k.isLt; split_ifs <;> omega
  | xr k => simp only [TK.ord, TK.ck, lvK] at hle ⊢; have := k.isLt; split_ifs <;> omega
  | ys k => simp [TK.owed] at ho
  | xs k => simp [TK.owed] at ho
  | li j r => simp [TK.owed] at ho
  | lo j r => simp [TK.owed] at ho

theorem Sn_top : Sn 68 = ∅ := by
  ext t
  simp only [Sn, owedAll, Finset.mem_filter, Finset.mem_univ, true_and, Finset.notMem_empty, iff_false, not_and, not_le]
  intro ho
  cases t with
  | bar d => cases d <;> simp [TK.ord]
  | bar2 d => cases d <;> simp [TK.ord]
  | yr k => have := k.isLt; simp only [TK.ord]; omega
  | xr k => have := k.isLt; simp only [TK.ord]; omega
  | ys k => simp [TK.owed] at ho
  | xs k => simp [TK.owed] at ho
  | li j r => simp [TK.owed] at ho
  | lo j r => simp [TK.owed] at ho

variable (m : (ℓ : Loc nD τ sig) → Buf (Elt F) ℓ)

def toksK (c : Dev nD) : sProp 𝕄 :=
  iprop(tokP c (.bar false) ∗ tokP c (.bar true) ∗ tokP c (.bar2 false) ∗ tokP c (.bar2 true)
    ∗ (bigSep Finset.univ fun k : Fin 32 => tokP c (.ys k)) ∗ (bigSep Finset.univ fun k : Fin 32 => tokP c (.yr k))
    ∗ (bigSep Finset.univ fun k : Fin 32 => tokP c (.xs k)) ∗ (bigSep Finset.univ fun k : Fin 32 => tokP c (.xr k))
    ∗ (bigSep Finset.univ fun r : Fin 8 => tokP c (.li 0 r)) ∗ (bigSep Finset.univ fun r : Fin 8 => tokP c (.li 1 r))
    ∗ (bigSep Finset.univ fun r : Fin 8 => tokP c (.lo 0 r)) ∗ (bigSep Finset.univ fun r : Fin 8 => tokP c (.lo 1 r)))

def posK (c : Dev nD) : sProp 𝕄 :=
  iprop(atPos ER (cell c .bar) 0 ∅ 0 ∗ atPos ER (cell c .bar2) 0 ∅ 0
    ∗ (bigSep Finset.univ fun k : Fin 32 => atPos ER (cell c (.ys k)) 0 ∅ 0) ∗ (bigSep Finset.univ fun k : Fin 32 => atPos ER (cell c (.yr k)) 0 ∅ 0)
    ∗ (bigSep Finset.univ fun k : Fin 32 => atPos ER (cell c (.xs k)) 0 ∅ 0) ∗ (bigSep Finset.univ fun k : Fin 32 => atPos ER (cell c (.xr k)) 0 ∅ 0)
    ∗ atPos ER (cell c (.li 0)) 0 ∅ 0 ∗ atPos ER (cell c (.li 1)) 0 ∅ 0 ∗ atPos ER (cell c (.lo 0)) 0 ∅ 0 ∗ atPos ER (cell c (.lo 1)) 0 ∅ 0)

def semsK (c : Dev nD) : sProp 𝕄 :=
  iprop(semVal (cell c .bar2) 0
    ∗ (bigSep Finset.univ fun k : Fin 32 => semVal (cell c (.ys k)) 0) ∗ (bigSep Finset.univ fun k : Fin 32 => semVal (cell c (.yr k)) 0)
    ∗ (bigSep Finset.univ fun k : Fin 32 => semVal (cell c (.xs k)) 0) ∗ (bigSep Finset.univ fun k : Fin 32 => semVal (cell c (.xr k)) 0)
    ∗ semVal (cell c (.li 0)) 0 ∗ semVal (cell c (.li 1)) 0 ∗ semVal (cell c (.lo 0)) 0 ∗ semVal (cell c (.lo 1)) 0)

end Cert.Kernel.AG
end
-- ==== Proof.K.Regions.lean ====
import proofs.«900683_g7700000000000684_dist_ag_v7x_xyz2x2x4_y_m32768_n1024_f32_1_alg».proof.Proof.K.Base
import Idealize.ShloMosaic.Rules.PointsTo
import Idealize.SL.BI.Region

noncomputable section

namespace Cert.Kernel.AG

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

theorem yDst_py (c : Dev nD) (k : Fin 32) : yDst (py c) k = xBuf c k := by
  refine Memref.slice_unit_congr oM ?_ _ _ _ _
  rw [k0_off1_eq, k0_off3_eq]
  have h1 := mx_py c; have h2 := my_py c; have h3 := my_lt c
  unfold mx at h1; unfold my at h2 h3
  rw [h1, h2]
  congr 1
  omega

theorem pts_congr {sp : Space} {s : Shape} (M : Memref sig .tc sp s .f32) (t : Dev nD) (q : PosShare TreeShare)
    (f g : Buf (Elt F) (M.view.loc (t : Thread nD τ))) (h : ∀ i ∈ M.view.set, f i = g i) :
    (pts M t q f : sProp 𝕄) = pts M t q g :=
  pointsTo_congr h

theorem x_share (c : Dev nD) (f : Buf (Elt F) ((c : Thread nD τ).loc main_arg0)) :
    (pts xM c fullShare f : sProp 𝕄) ⊣⊢ iprop(pts xM c fullShare.left f ∗ pts xM c fullShare.right f) :=
  pointsTo_share (PosShare.mem_left_op_right fullShare)

theorem mem_o (off : Fin 2 → Nat) (sz : Fin 2 → Nat) (inb) (hs) (i : S65536x1024.Idx) :
    i ∈ (oM.slice (Rect.unit (s := S65536x1024) off sz inb) hs).view.set ↔ ∀ a, off a ≤ i a ∧ (i a : Nat) < off a + sz a := by
  show i ∈ ((View.whole main_v1).slice (Rect.unit (s := S65536x1024) off sz inb)).set ↔ _
  rw [View.set_slice_whole, Rect.mem_set_unit]
  exact Iff.rfl

theorem mem_x (off : Fin 2 → Nat) (sz : Fin 2 → Nat) (inb) (hs) (i : S32768x1024.Idx) :
    i ∈ (xM.slice (Rect.unit (s := S32768x1024) off sz inb) hs).view.set ↔ ∀ a, off a ≤ i a ∧ (i a : Nat) < off a + sz a := by
  show i ∈ ((View.whole main_arg0).slice (Rect.unit (s := S32768x1024) off sz inb)).set ↔ _
  rw [View.set_slice_whole, Rect.mem_set_unit]
  exact Iff.rfl

theorem band_iff {n : Nat} (r : Nat) (w : Nat) (i : (⟨2, ![n, 1024]⟩ : Shape).Idx) :
    (∀ a : Fin 2, (![r, 0] : Fin 2 → Nat) a ≤ i a ∧ (i a : Nat) < (![r, 0] : Fin 2 → Nat) a + (![w, 1024] : Fin 2 → Nat) a)
      ↔ r ≤ (i 0 : Nat) ∧ (i 0 : Nat) < r + w := by
  have h1 : ((i 1 : Fin 1024) : Nat) < 1024 := (i 1).isLt
  rw [Fin.forall_fin_two]
  simp only [Matrix.cons_val_zero, Matrix.cons_val_one, Nat.zero_le, Nat.zero_add, true_and]
  exact ⟨fun h => h.1, fun h => ⟨h, h1⟩⟩

theorem mem_lDst (c : Dev nD) (t : Fin 16) (i : S65536x1024.Idx) :
    i ∈ (lDst c t).view.set ↔ 32768 * my c + 2048 * t.val ≤ (i 0 : Nat) ∧ (i 0 : Nat) < 32768 * my c + 2048 * t.val + 2048 := by
  rw [mem_o, k0_off4_eq]; exact band_iff _ _ i
theorem mem_yDst (c : Dev nD) (k : Fin 32) (i : S65536x1024.Idx) :
    i ∈ (yDst c k).view.set ↔ 32768 * my c + 16384 * mx c + 512 * k.val ≤ (i 0 : Nat) ∧ (i 0 : Nat) < 32768 * my c + 16384 * mx c + 512 * k.val + 512 := by
  rw [mem_o, k0_off1_eq]; exact band_iff _ _ i
theorem mem_xBuf (c : Dev nD) (k : Fin 32) (i : S65536x1024.Idx) :
    i ∈ (xBuf c k).view.set ↔ (16384 * mx c + 512 * k.val + 32768) - 32768 * my c ≤ (i 0 : Nat) ∧ (i 0 : Nat) < (16384 * mx c + 512 * k.val + 32768) - 32768 * my c + 512 := by
  rw [mem_o, k0_off3_eq]; exact band_iff _ _ i
theorem mem_ySrc (c : Dev nD) (k : Fin 32) (i : S32768x1024.Idx) :
    i ∈ (ySrc c k).view.set ↔ 16384 * mx c + 512 * k.val ≤ (i 0 : Nat) ∧ (i 0 : Nat) < 16384 * mx c + 512 * k.val + 512 := by
  rw [mem_x, k0_off2_eq]; exact band_iff _ _ i
theorem mem_lSrc (t : Fin 16) (i : S32768x1024.Idx) :
    i ∈ (lSrc t).view.set ↔ 2048 * t.val ≤ (i 0 : Nat) ∧ (i 0 : Nat) < 2048 * t.val + 2048 := by
  rw [mem_x]; exact band_iff _ _ i

theorem mem_A (c : Dev nD) (i : S65536x1024.Idx) :
    i ∈ (Finset.univ.biUnion fun t : Fin 16 => (lDst c t).view.set)
      ↔ 32768 * my c ≤ (i 0 : Nat) ∧ (i 0 : Nat) < 32768 * my c + 32768 := by
  rw [Finset.mem_biUnion]
  constructor
  · rintro ⟨t, -, h⟩
    rw [mem_lDst] at h
    have := t.isLt
    omega
  · intro h
    refine ⟨⟨((i 0 : Nat) - 32768 * my c) / 2048, by omega⟩, Finset.mem_univ _, ?_⟩
    rw [mem_lDst]
    show 32768 * my c + 2048 * (((i 0 : Nat) - 32768 * my c) / 2048) ≤ _ ∧ _ < 32768 * my c + 2048 * (((i 0 : Nat) - 32768 * my c) / 2048) + 2048
    omega

theorem mem_B (c : Dev nD) (i : S65536x1024.Idx) :
    i ∈ (Finset.univ.biUnion fun k : Fin 32 => (yDst (py c) k).view.set)
      ↔ 32768 * (1 - my c) + 16384 * mx c ≤ (i 0 : Nat) ∧ (i 0 : Nat) < 32768 * (1 - my c) + 16384 * mx c + 16384 := by
  rw [Finset.mem_biUnion]
  constructor
  · rintro ⟨t, -, h⟩
    rw [mem_yDst, my_py, mx_py] at h
    have := t.isLt
    omega
  · intro h
    refine ⟨⟨((i 0 : Nat) - (32768 * (1 - my c) + 16384 * mx c)) / 512, by omega⟩, Finset.mem_univ _, ?_⟩
    rw [mem_yDst, my_py, mx_py]
    show 32768 * (1 - my c) + 16384 * mx c + 512 * (((i 0 : Nat) - (32768 * (1 - my c) + 16384 * mx c)) / 512) ≤ _ ∧ _ < 32768 * (1 - my c) + 16384 * mx c + 512 * (((i 0 : Nat) - (32768 * (1 - my c) + 16384 * mx c)) / 512) + 512
    omega

theorem mem_C (c : Dev nD) (i : S65536x1024.Idx) :
    i ∈ (Finset.univ.biUnion fun k : Fin 32 => (xBuf (px c) k).view.set)
      ↔ (16384 * (1 - mx c) + 32768) - 32768 * my c ≤ (i 0 : Nat) ∧ (i 0 : Nat) < (16384 * (1 - mx c) + 32768) - 32768 * my c + 16384 := by
  have hy := my_lt c
  rw [Finset.mem_biUnion]
  constructor
  · rintro ⟨t, -, h⟩
    rw [mem_xBuf, my_px, mx_px] at h
    have := t.isLt
    omega
  · intro h
    refine ⟨⟨((i 0 : Nat) - ((16384 * (1 - mx c) + 32768) - 32768 * my c)) / 512, by omega⟩, Finset.mem_univ _, ?_⟩
    rw [mem_xBuf, my_px, mx_px]
    show (16384 * (1 - mx c) + 512 * (((i 0 : Nat) - ((16384 * (1 - mx c) + 32768) - 32768 * my c)) / 512) + 32768) - 32768 * my c ≤ _ ∧ _ < (16384 * (1 - mx c) + 512 * (((i 0 : Nat) - ((16384 * (1 - mx c) + 32768) - 32768 * my c)) / 512) + 32768) - 32768 * my c + 512
    omega

theorem lDst_disjoint (c : Dev nD) (t t' : Fin 16) (h : t ≠ t') : Disjoint (lDst c t).view.set (lDst c t').view.set := by
  rw [Finset.disjoint_left]; intro i hi hi'
  rw [mem_lDst] at hi hi'
  exact h (Fin.ext (by omega))
theorem yDst_disjoint (c : Dev nD) (t t' : Fin 32) (h : t ≠ t') : Disjoint (yDst c t).view.set (yDst c t').view.set := by
  rw [Finset.disjoint_left]; intro i hi hi'
  rw [mem_yDst] at hi hi'
  exact h (Fin.ext (by omega))
theorem xBuf_disjoint (c : Dev nD) (t t' : Fin 32) (h : t ≠ t') : Disjoint (xBuf c t).view.set (xBuf c t').view.set := by
  have hy := my_lt c
  rw [Finset.disjoint_left]; intro i hi hi'
  rw [mem_xBuf] at hi hi'
  exact h (Fin.ext (by omega))
theorem ySrc_disjoint (c : Dev nD) (t t' : Fin 32) (h : t ≠ t') : Disjoint (ySrc c t).view.set (ySrc c t').view.set := by
  rw [Finset.disjoint_left]; intro i hi hi'
  rw [mem_ySrc] at hi hi'
  exact h (Fin.ext (by omega))
theorem lSrc_disjoint (t t' : Fin 16) (h : t ≠ t') : Disjoint (lSrc t).view.set (lSrc t').view.set := by
  rw [Finset.disjoint_left]; intro i hi hi'
  rw [mem_lSrc] at hi hi'
  exact h (Fin.ext (by omega))

theorem xM_set : xM.view.set = Finset.univ := View.set_whole main_arg0
theorem oM_set : oM.view.set = Finset.univ := View.set_whole main_v1
theorem vM_set : vM.view.set = Finset.univ := View.set_whole cc0_scratch4

theorem cover_L : xM.view.set = Finset.univ.biUnion fun t : Fin 16 => (lSrc t).view.set := by
  rw [xM_set]
  refine (Finset.eq_univ_iff_forall.mpr fun (i : S32768x1024.Idx) => ?_).symm
  have hi : (i 0 : Nat) < 32768 := (i 0).isLt
  rw [Finset.mem_biUnion]
  refine ⟨⟨(i 0 : Nat) / 2048, by omega⟩, Finset.mem_univ _, ?_⟩
  rw [mem_lSrc]
  show 2048 * ((i 0 : Nat) / 2048) ≤ _ ∧ _ < 2048 * ((i 0 : Nat) / 2048) + 2048
  omega

theorem cover_O (c : Dev nD) : oM.view.set
    = ((Finset.univ.biUnion fun t : Fin 16 => (lDst c t).view.set : Finset S65536x1024.Idx)
      ∪ ((Finset.univ.biUnion fun k : Fin 32 => (yDst (py c) k).view.set : Finset S65536x1024.Idx)
        ∪ (Finset.univ.biUnion fun k : Fin 32 => (xBuf (px c) k).view.set : Finset S65536x1024.Idx))) := by
  have hx := mx_lt c; have hy := my_lt c
  rw [oM_set]
  refine (Finset.eq_univ_iff_forall.mpr fun (i : S65536x1024.Idx) => ?_).symm
  have hi : (i 0 : Nat) < 65536 := (i 0).isLt
  rw [Finset.mem_union, Finset.mem_union, mem_A c i, mem_B c i, mem_C c i]
  omega

theorem disj_A_BC (c : Dev nD) : Disjoint (Finset.univ.biUnion fun t : Fin 16 => (lDst c t).view.set : Finset S65536x1024.Idx)
      ((Finset.univ.biUnion fun k : Fin 32 => (yDst (py c) k).view.set : Finset S65536x1024.Idx)
        ∪ (Finset.univ.biUnion fun k : Fin 32 => (xBuf (px c) k).view.set : Finset S65536x1024.Idx)) := by
  have hx := mx_lt c; have hy := my_lt c
  rw [Finset.disjoint_left]; intro i hi hi'
  rw [Finset.mem_union, mem_B c i, mem_C c i] at hi'
  rw [mem_A c i] at hi
  omega

theorem disj_B_C (c : Dev nD) : Disjoint (Finset.univ.biUnion fun k : Fin 32 => (yDst (py c) k).view.set : Finset S65536x1024.Idx)
      (Finset.univ.biUnion fun k : Fin 32 => (xBuf (px c) k).view.set : Finset S65536x1024.Idx) := by
  have hx := mx_lt c; have hy := my_lt c
  rw [Finset.disjoint_left]; intro i hi hi'
  rw [mem_B c i] at hi
  rw [mem_C c i] at hi'
  omega

theorem x_split_L (c : Dev nD) (q : PosShare TreeShare) (f : Buf (Elt F) ((c : Thread nD τ).loc main_arg0)) :
    (pts xM c q f : sProp 𝕄) ⊣⊢ bigSep Finset.univ fun i : Fin 16 => pts (lSrc i) c q f := by
  show (xM.view.loc (c : Thread nD τ) ↦[xM.view.set]{q} f : sProp 𝕄) ⊣⊢ _
  rw [cover_L]
  exact BiEntails.of_eq (pointsTo_biUnion _ _ fun t _ t' _ h => lSrc_disjoint t t' h)

theorem out_split (c : Dev nD) (f : Buf (Elt F) ((c : Thread nD τ).loc main_v1)) :
    (pts oM c fullShare f : sProp 𝕄) ⊣⊢ iprop((bigSep Finset.univ fun i : Fin 16 => pts (lDst c i) c fullShare f)
      ∗ (bigSep Finset.univ fun k : Fin 32 => pts (yDst (py c) k) c fullShare f)
      ∗ (bigSep Finset.univ fun k : Fin 32 => pts (xBuf (px c) k) c fullShare f)) := by
  show (oM.view.loc (c : Thread nD τ) ↦[oM.view.set]{fullShare} f : sProp 𝕄) ⊣⊢ _
  rw [cover_O c]
  refine (pointsTo_union (disj_A_BC c)).trans (sep_congr (BiEntails.of_eq ?_)
    ((pointsTo_union (disj_B_C c)).trans (sep_congr (BiEntails.of_eq ?_) (BiEntails.of_eq ?_))))
  · exact pointsTo_biUnion _ _ fun t _ t' _ h => lDst_disjoint c t t' h
  · exact pointsTo_biUnion _ _ fun t _ t' _ h => yDst_disjoint (py c) t t' h
  · exact pointsTo_biUnion _ _ fun t _ t' _ h => xBuf_disjoint (px c) t t' h

theorem x_split_Y (c : Dev nD) (q : PosShare TreeShare) (f : Buf (Elt F) ((c : Thread nD τ).loc main_arg0)) :
    (pts xM c q f : sProp 𝕄) ⊣⊢ iprop((bigSep Finset.univ fun k : Fin 32 => pts (ySrc c k) c q f)
      ∗ ((c : Thread nD τ).loc main_arg0 ↦[Finset.univ \ (Finset.univ.biUnion fun k : Fin 32 => (ySrc c k).view.set)]{q} f)) := by
  have e : (pts xM c q f : sProp 𝕄) = (xM.view.loc (c : Thread nD τ) ↦[Finset.univ]{q} f) := by
    show (xM.view.loc (c : Thread nD τ) ↦[xM.view.set]{q} f : sProp 𝕄) = _
    rw [xM_set]
  have k : (xM.view.loc (c : Thread nD τ) ↦[Finset.univ]{q} f : sProp 𝕄)
      ⊣⊢ iprop((xM.view.loc (c : Thread nD τ) ↦[Finset.univ.biUnion fun k : Fin 32 => (ySrc c k).view.set]{q} f)
        ∗ (xM.view.loc (c : Thread nD τ) ↦[Finset.univ \ (Finset.univ.biUnion fun k : Fin 32 => (ySrc c k).view.set)]{q} f)) :=
    pointsTo_split_subset (Finset.subset_univ _)
  have b : (xM.view.loc (c : Thread nD τ) ↦[Finset.univ.biUnion fun k : Fin 32 => (ySrc c k).view.set]{q} f : sProp 𝕄)
      = bigSep Finset.univ fun k : Fin 32 => pts (ySrc c k) c q f :=
    pointsTo_biUnion _ _ fun t _ t' _ h => ySrc_disjoint c t t' h
  rw [e]
  rw [b] at k
  exact k

theorem mem_vSl (j : Fin 2) (i : S2x2048x1024.Idx) : i ∈ (vSl j).view.set ↔ (i 0 : Nat) = j.val := by
  show i ∈ (((View.whole cc0_scratch4).slice (Rect.unit (s := S2x2048x1024) ![j.val, 0, 0] S1x2048x1024.size (inbV j))).reshape
    S2048x1024 Gen.squeezes_S1x2048x1024_S2048x1024.numel_eq).set ↔ _
  rw [View.set_reshape, View.set_slice_whole, Rect.mem_set_unit]
  have h1 : ((i 1 : Fin 2048) : Nat) < 2048 := (i 1).isLt
  have h2 : ((i 2 : Fin 1024) : Nat) < 1024 := (i 2).isLt
  constructor
  · intro h
    have h0 : j.val ≤ (i 0 : Nat) ∧ (i 0 : Nat) < j.val + 1 := h 0
    omega
  · intro h a
    fin_cases a
    · show j.val ≤ (i 0 : Nat) ∧ (i 0 : Nat) < j.val + 1
      omega
    · show 0 ≤ (i 1 : Nat) ∧ (i 1 : Nat) < 0 + 2048
      omega
    · show 0 ≤ (i 2 : Nat) ∧ (i 2 : Nat) < 0 + 1024
      omega

theorem cover_V : vM.view.set = ((vSl 0).view.set ∪ (vSl 1).view.set : Finset S2x2048x1024.Idx) := by
  rw [vM_set]
  refine (Finset.eq_univ_iff_forall.mpr fun (i : S2x2048x1024.Idx) => ?_).symm
  have hi : (i 0 : Nat) < 2 := (i 0).isLt
  rw [Finset.mem_union, mem_vSl 0 i, mem_vSl 1 i]
  show (i 0 : Nat) = 0 ∨ (i 0 : Nat) = 1
  omega

theorem vSl_disjoint : Disjoint ((vSl 0).view.set : Finset S2x2048x1024.Idx) (vSl 1).view.set := by
  rw [Finset.disjoint_left]; intro i hi hi'
  rw [mem_vSl] at hi hi'
  have h : ((0 : Fin 2) : Nat) = ((1 : Fin 2) : Nat) := hi.symm.trans hi'
  exact absurd h (by decide)

theorem v_split (c : Dev nD) (f : Buf (Elt F) ((c : Thread nD τ).loc cc0_scratch4)) :
    (pts vM c fullShare f : sProp 𝕄) ⊣⊢ iprop(pts (vSl 0) c fullShare f ∗ pts (vSl 1) c fullShare f) := by
  have e : (pts vM c fullShare f : sProp 𝕄)
      = (vM.view.loc (c : Thread nD τ) ↦[((vSl 0).view.set ∪ (vSl 1).view.set : Finset S2x2048x1024.Idx)]{fullShare} f) := by
    show (vM.view.loc (c : Thread nD τ) ↦[vM.view.set]{fullShare} f : sProp 𝕄) = _
    rw [cover_V]
  rw [e]
  exact pointsTo_union vSl_disjoint

theorem v_join (c : Dev nD) (f0 f1 : Buf (Elt F) ((c : Thread nD τ).loc cc0_scratch4)) :
    iprop(pts (vSl 0) c fullShare f0 ∗ pts (vSl 1) c fullShare f1) ⊢ (∃ f, pts vM c fullShare f : sProp 𝕄) := by
  have h : iprop((vM.view.loc (c : Thread nD τ) ↦[((vSl 0).view.set : Finset S2x2048x1024.Idx)]{fullShare} f0)
        ∗ (vM.view.loc (c : Thread nD τ) ↦[((vSl 1).view.set : Finset S2x2048x1024.Idx)]{fullShare} f1))
      ⊢ (vM.view.loc (c : Thread nD τ) ↦[((vSl 0).view.set ∪ (vSl 1).view.set : Finset S2x2048x1024.Idx)]{fullShare}
          (((vSl 1).view.set : Finset S2x2048x1024.Idx).piecewise f1 f0) : sProp 𝕄) :=
    pointsTo_join vSl_disjoint
  rw [← cover_V] at h
  exact exists_intro_trans (((vSl 1).view.set : Finset S2x2048x1024.Idx).piecewise f1 f0) h

/-- info: 'Cert.Kernel.AG.out_split' depends on axioms: [propext, Classical.choice, Quot.sound] -/
#guard_msgs in #print axioms out_split
/-- info: 'Cert.Kernel.AG.x_split_L' depends on axioms: [propext, Classical.choice, Quot.sound] -/
#guard_msgs in #print axioms x_split_L
/-- info: 'Cert.Kernel.AG.x_split_Y' depends on axioms: [propext, Classical.choice, Quot.sound] -/
#guard_msgs in #print axioms x_split_Y
/-- info: 'Cert.Kernel.AG.v_split' depends on axioms: [propext, Classical.choice, Quot.sound] -/
#guard_msgs in #print axioms v_split
/-- info: 'Cert.Kernel.AG.yDst_py' depends on axioms: [propext, Classical.choice, Quot.sound] -/
#guard_msgs in #print axioms yDst_py
/-- info: 'Cert.Kernel.AG.x_share' depends on axioms: [propext, Classical.choice, Quot.sound] -/
#guard_msgs in #print axioms x_share
/-- info: 'Cert.Kernel.AG.pts_congr' depends on axioms: [propext, Classical.choice, Quot.sound] -/
#guard_msgs in #print axioms pts_congr
/-- info: 'Cert.Kernel.AG.v_join' depends on axioms: [propext, Classical.choice, Quot.sound] -/
#guard_msgs in #print axioms v_join

end Cert.Kernel.AG
end
-- ==== Proof.K.Values.lean ====
import proofs.«900683_g7700000000000684_dist_ag_v7x_xyz2x2x4_y_m32768_n1024_f32_1_alg».proof.Proof.K.Sched
import proofs.«900683_g7700000000000684_dist_ag_v7x_xyz2x2x4_y_m32768_n1024_f32_1_alg».proof.Proof.K.Regions
import Idealize.ShloMosaic.Lib.Pipeline.Value

noncomputable section

namespace Cert.Kernel.AG

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

theorem srcDev_own (c : Dev nD) (row : ℕ) (h : row / 32768 = my c) : srcDev c row = c := by
  unfold srcDev; rw [if_pos h]
theorem srcDev_y (c : Dev nD) (row : ℕ) (h1 : row / 32768 ≠ my c) (h2 : row % 32768 / 16384 = mx c) : srcDev c row = py c := by
  unfold srcDev; rw [if_neg h1, if_pos h2]
theorem srcDev_x (c : Dev nD) (row : ℕ) (h1 : row / 32768 ≠ my c) (h2 : row % 32768 / 16384 ≠ mx c) : srcDev c row = py (px c) := by
  unfold srcDev; rw [if_neg h1, if_neg h2]

theorem G_eq (m : (ℓ : Loc nD τ sig) → Buf (Elt F) ℓ) (c d : Dev nD) (i : S65536x1024.Idx) (r : Fin 32768)
    (hd : srcDev c (i 0).val = d) (hr : (i 0).val % 32768 = r.val) :
    G m c i = xArr m d (ValueIdx.ix2 r (i 1)) := by
  subst hd
  have e : (⟨(i 0).val % 32768, Nat.mod_lt _ (by decide)⟩ : Fin 32768) = r := Fin.ext hr
  rw [← e]
  rfl

theorem yDst_emb (c : Dev nD) (k : Fin 32) (x : S512x1024.Idx) :
    ((((yDst c k).view.emb x : S65536x1024.Idx) 0 : Nat) = 32768 * my c + 16384 * mx c + 512 * k.val + (x 0 : Nat))
      ∧ ((((yDst c k).view.emb x : S65536x1024.Idx) 1 : Nat) = (x 1 : Nat)) := by
  constructor
  · show k0_off1 c (BitVec.ofNat 32 (512 * k.val)) 0 + 1 * (x 0 : Nat) = _
    rw [k0_off1_eq]
    show 32768 * my c + 16384 * mx c + 512 * k.val + 1 * (x 0 : Nat) = _
    omega
  · show k0_off1 c (BitVec.ofNat 32 (512 * k.val)) 1 + 1 * (x 1 : Nat) = _
    rw [k0_off1_eq]
    show 0 + 1 * (x 1 : Nat) = _
    omega

theorem xBuf_emb (c : Dev nD) (k : Fin 32) (x : S512x1024.Idx) :
    ((((xBuf c k).view.emb x : S65536x1024.Idx) 0 : Nat) = (16384 * mx c + 512 * k.val + 32768) - 32768 * my c + (x 0 : Nat))
      ∧ ((((xBuf c k).view.emb x : S65536x1024.Idx) 1 : Nat) = (x 1 : Nat)) := by
  constructor
  · show k0_off3 c (BitVec.ofNat 32 (512 * k.val)) 0 + 1 * (x 0 : Nat) = _
    rw [k0_off3_eq]
    show (16384 * mx c + 512 * k.val + 32768) - 32768 * my c + 1 * (x 0 : Nat) = _
    omega
  · show k0_off3 c (BitVec.ofNat 32 (512 * k.val)) 1 + 1 * (x 1 : Nat) = _
    rw [k0_off3_eq]
    show 0 + 1 * (x 1 : Nat) = _
    omega

theorem lDst_emb (c : Dev nD) (t : Fin 16) (x : S2048x1024.Idx) :
    ((((lDst c t).view.emb x : S65536x1024.Idx) 0 : Nat) = 32768 * my c + 2048 * t.val + (x 0 : Nat))
      ∧ ((((lDst c t).view.emb x : S65536x1024.Idx) 1 : Nat) = (x 1 : Nat)) := by
  constructor
  · show k0_off4 c (BitVec.ofNat 32 (2048 * t.val)) 0 + 1 * (x 0 : Nat) = _
    rw [k0_off4_eq]
    show 32768 * my c + 2048 * t.val + 1 * (x 0 : Nat) = _
    omega
  · show k0_off4 c (BitVec.ofNat 32 (2048 * t.val)) 1 + 1 * (x 1 : Nat) = _
    rw [k0_off4_eq]
    show 0 + 1 * (x 1 : Nat) = _
    omega

theorem ySrc_emb (c : Dev nD) (k : Fin 32) (x : S512x1024.Idx) :
    ((((ySrc c k).view.emb x : S32768x1024.Idx) 0 : Nat) = 16384 * mx c + 512 * k.val + (x 0 : Nat))
      ∧ ((((ySrc c k).view.emb x : S32768x1024.Idx) 1 : Nat) = (x 1 : Nat)) := by
  constructor
  · show k0_off2 c (BitVec.ofNat 32 (512 * k.val)) 0 + 1 * (x 0 : Nat) = _
    rw [k0_off2_eq]
    show 16384 * mx c + 512 * k.val + 1 * (x 0 : Nat) = _
    omega
  · show k0_off2 c (BitVec.ofNat 32 (512 * k.val)) 1 + 1 * (x 1 : Nat) = _
    rw [k0_off2_eq]
    show 0 + 1 * (x 1 : Nat) = _
    omega

theorem lSrc_emb (t : Fin 16) (x : S2048x1024.Idx) :
    ((((lSrc t).view.emb x : S32768x1024.Idx) 0 : Nat) = 2048 * t.val + (x 0 : Nat))
      ∧ ((((lSrc t).view.emb x : S32768x1024.Idx) 1 : Nat) = (x 1 : Nat)) := by
  constructor
  · show 2048 * t.val + 1 * (x 0 : Nat) = _
    omega
  · show 0 + 1 * (x 1 : Nat) = _
    omega

theorem write_read_emb {Val : EltTy → Type} {κ : Kind} {sp sp' : Space} {s : Shape} {e : EltTy}
    (v : View sig κ sp s e) (v' : View sig κ sp' s e) (fd : v.ty.Contents Val) (g : v'.ty.Contents Val) (x : s.Idx) :
    HEq (v.write Val fd (v'.read Val g) Finset.univ (v.emb x)) (g (v'.emb x)) := by
  rw [View.write_emb_of_mem _ _ (Finset.mem_univ x), View.read_apply, cast_cast]
  exact cast_heq _ _

theorem land_Y (m : (ℓ : Loc nD τ sig) → Buf (Elt F) ℓ) (c : Dev nD) (k : Fin 32)
    (fd : Buf (Elt F) ((yDst c k).view.loc ((py c : Dev nD) : Thread nD τ))) :
    (pts (yDst c k) (py c) fullShare ((yDst c k).view.write (Elt F) fd ((ySrc c k).view.read (Elt F) (xArr m c)) Finset.univ) : sProp 𝕄)
      = pts (yDst c k) (py c) fullShare (G m (py c)) := by
  refine pts_congr (yDst c k) (py c) fullShare _ _ fun i hi => ?_
  obtain ⟨x, rfl⟩ := View.exists_emb_of_mem_set (yDst c k).view hi
  refine (eq_of_heq (write_read_emb (yDst c k).view (ySrc c k).view fd (xArr m c) x)).trans ?_
  obtain ⟨hy0, hy1⟩ := yDst_emb c k x
  obtain ⟨hs0, hs1⟩ := ySrc_emb c k x
  have hx := mx_lt c; have hy := my_lt c
  have hx0 : (x 0 : Nat) < 512 := (x 0).isLt
  have hk := k.isLt
  have hd : srcDev (py c) (((yDst c k).view.emb x : S65536x1024.Idx) 0).val = c := by
    rw [hy0]
    have e1 : (32768 * my c + 16384 * mx c + 512 * k.val + (x 0 : Nat)) / 32768 ≠ my (py c) := by rw [my_py]; omega
    have e2 : (32768 * my c + 16384 * mx c + 512 * k.val + (x 0 : Nat)) % 32768 / 16384 = mx (py c) := by rw [mx_py]; omega
    rw [srcDev_y _ _ e1 e2, py_py]
  have hr : (((yDst c k).view.emb x : S65536x1024.Idx) 0).val % 32768
      = (⟨16384 * mx c + 512 * k.val + (x 0 : Nat), by omega⟩ : Fin 32768).val := by
    rw [hy0]; show _ = 16384 * mx c + 512 * k.val + (x 0 : Nat); omega
  rw [G_eq m (py c) c _ _ hd hr]
  exact congrArg (xArr m c) (Shape.idx_ext₂ hs0 (hs1.trans hy1.symm))

theorem land_X (m : (ℓ : Loc nD τ sig) → Buf (Elt F) ℓ) (c : Dev nD) (k : Fin 32)
    (fd : Buf (Elt F) ((xBuf c k).view.loc ((px c : Dev nD) : Thread nD τ))) :
    (pts (xBuf c k) (px c) fullShare ((xBuf c k).view.write (Elt F) fd ((xBuf c k).view.read (Elt F) (G m c)) Finset.univ) : sProp 𝕄)
      = pts (xBuf c k) (px c) fullShare (G m (px c)) := by
  refine pts_congr (xBuf c k) (px c) fullShare _ _ fun i hi => ?_
  obtain ⟨x, rfl⟩ := View.exists_emb_of_mem_set (xBuf c k).view hi
  refine (eq_of_heq (write_read_emb (xBuf c k).view (xBuf c k).view fd (G m c) x)).trans ?_
  obtain ⟨h0, h1⟩ := xBuf_emb c k x
  have hx := mx_lt c; have hy := my_lt c
  have hx0 : (x 0 : Nat) < 512 := (x 0).isLt
  have hk := k.isLt
  have hd1 : srcDev c (((xBuf c k).view.emb x : S65536x1024.Idx) 0).val = py c := by
    rw [h0]
    have e1 : ((16384 * mx c + 512 * k.val + 32768) - 32768 * my c + (x 0 : Nat)) / 32768 ≠ my c := by omega
    have e2 : ((16384 * mx c + 512 * k.val + 32768) - 32768 * my c + (x 0 : Nat)) % 32768 / 16384 = mx c := by omega
    rw [srcDev_y _ _ e1 e2]
  have hd2 : srcDev (px c) (((xBuf c k).view.emb x : S65536x1024.Idx) 0).val = py c := by
    rw [h0]
    have e1 : ((16384 * mx c + 512 * k.val + 32768) - 32768 * my c + (x 0 : Nat)) / 32768 ≠ my (px c) := by rw [my_px]; omega
    have e2 : ((16384 * mx c + 512 * k.val + 32768) - 32768 * my c + (x 0 : Nat)) % 32768 / 16384 ≠ mx (px c) := by rw [mx_px]; omega
    rw [srcDev_x _ _ e1 e2, px_px]
  have hr : (((xBuf c k).view.emb x : S65536x1024.Idx) 0).val % 32768
      = (⟨16384 * mx c + 512 * k.val + (x 0 : Nat), by omega⟩ : Fin 32768).val := by
    rw [h0]; show _ = 16384 * mx c + 512 * k.val + (x 0 : Nat); omega
  exact (G_eq m c (py c) _ _ hd1 hr).trans (G_eq m (px c) (py c) _ _ hd2 hr).symm

theorem land_in (m : (ℓ : Loc nD τ sig) → Buf (Elt F) ℓ) (c : Dev nD) (i : Fin 16) (j : Fin 2)
    (fd : Buf (Elt F) ((c : Thread nD τ).loc cc0_scratch4)) :
    (pts (vSl j) c fullShare ((vSl j).view.write (Elt F) fd ((lSrc i).view.read (Elt F) (xArr m c)) Finset.univ) : sProp 𝕄)
      = pts (vSl j) c fullShare (VB m c i j) := by
  refine pts_congr (vSl j) c fullShare _ _ fun i' hi => ?_
  obtain ⟨x, rfl⟩ := View.exists_emb_of_mem_set (vSl j).view hi
  exact (View.write_emb_of_mem _ _ (Finset.mem_univ x)).trans
    (View.write_emb_of_mem (v := (vSl j).view) (m ((c : Thread nD τ).loc cc0_scratch4)) ((lSrc i).view.read (Elt F) (xArr m c))
      (Finset.mem_univ x)).symm

theorem land_out (m : (ℓ : Loc nD τ sig) → Buf (Elt F) ℓ) (c : Dev nD) (i : Fin 16) (j : Fin 2)
    (fd : Buf (Elt F) ((c : Thread nD τ).loc main_v1)) :
    (pts (lDst c i) c fullShare ((lDst c i).view.write (Elt F) fd ((vSl j).view.read (Elt F) (VB m c i j)) Finset.univ) : sProp 𝕄)
      = pts (lDst c i) c fullShare (G m c) := by
  have hrd : (vSl j).view.read (Elt F) (VB m c i j) = (lSrc i).view.read (Elt F) (xArr m c) := View.read_write_univ _ _
  rw [hrd]
  refine pts_congr (lDst c i) c fullShare _ _ fun i' hi' => ?_
  obtain ⟨x, rfl⟩ := View.exists_emb_of_mem_set (lDst c i).view hi'
  refine (eq_of_heq (write_read_emb (lDst c i).view (lSrc i).view fd (xArr m c) x)).trans ?_
  obtain ⟨hd0, hd1⟩ := lDst_emb c i x
  obtain ⟨hs0, hs1⟩ := lSrc_emb i x
  have hy := my_lt c
  have hx0 : (x 0 : Nat) < 2048 := (x 0).isLt
  have hil := i.isLt
  have hd : srcDev c (((lDst c i).view.emb x : S65536x1024.Idx) 0).val = c := by
    rw [hd0]; exact srcDev_own c _ (by omega)
  have hr : (((lDst c i).view.emb x : S65536x1024.Idx) 0).val % 32768
      = (⟨2048 * i.val + (x 0 : Nat), by omega⟩ : Fin 32768).val := by
    rw [hd0]; show _ = 2048 * i.val + (x 0 : Nat); omega
  rw [G_eq m c c _ _ hd hr]
  exact congrArg (xArr m c) (Shape.idx_ext₂ hs0 (hs1.trans hd1.symm))

theorem yr_as_xBuf (m : (ℓ : Loc nD τ sig) → Buf (Elt F) ℓ) (c : Dev nD) (k : Fin 32) :
    (pts (yDst (py c) k) c fullShare (G m c) : sProp 𝕄) = pts (xBuf c k) c fullShare (G m c) := by
  have hs : ((yDst (py c) k).view.set : Finset S65536x1024.Idx) = (xBuf c k).view.set := by
    have hy := my_lt c
    ext i
    rw [mem_yDst, mem_xBuf, my_py, mx_py]
    omega
  show (oM.view.loc (c : Thread nD τ) ↦[(yDst (py c) k).view.set]{fullShare} (G m c) : sProp 𝕄)
    = (oM.view.loc (c : Thread nD τ) ↦[(xBuf c k).view.set]{fullShare} (G m c))
  rw [hs]

/-- info: 'Cert.Kernel.AG.land_Y' depends on axioms: [propext, Classical.choice, Quot.sound] -/
#guard_msgs in #print axioms land_Y
/-- info: 'Cert.Kernel.AG.land_X' depends on axioms: [propext, Classical.choice, Quot.sound] -/
#guard_msgs in #print axioms land_X
/-- info: 'Cert.Kernel.AG.land_in' depends on axioms: [propext, Classical.choice, Quot.sound] -/
#guard_msgs in #print axioms land_in
/-- info: 'Cert.Kernel.AG.land_out' depends on axioms: [propext, Classical.choice, Quot.sound] -/
#guard_msgs in #print axioms land_out
/-- info: 'Cert.Kernel.AG.yr_as_xBuf' depends on axioms: [propext, Classical.choice, Quot.sound] -/
#guard_msgs in #print axioms yr_as_xBuf

end Cert.Kernel.AG
end
-- ==== Proof.K.Split.lean ====
import proofs.«900683_g7700000000000684_dist_ag_v7x_xyz2x2x4_y_m32768_n1024_f32_1_alg».proof.Proof.K.Bundles
import Idealize.SL.BI.BigOp
import Mathlib.Logic.Equiv.Defs
import Mathlib.Tactic.FinCases

noncomputable section

namespace Cert.Kernel.AG

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

section Sums

universe u
variable {M : Type u} [URA M]

def tkE : (Unit ⊕ Unit ⊕ Unit ⊕ Unit ⊕ Fin 32 ⊕ Fin 32 ⊕ Fin 32 ⊕ Fin 32 ⊕ Fin 8 ⊕ Fin 8 ⊕ Fin 8 ⊕ Fin 8) ≃ TK where
  toFun
    | .inl _ => .bar false
    | .inr (.inl _) => .bar true
    | .inr (.inr (.inl _)) => .bar2 false
    | .inr (.inr (.inr (.inl _))) => .bar2 true
    | .inr (.inr (.inr (.inr (.inl k)))) => .ys k
    | .inr (.inr (.inr (.inr (.inr (.inl k))))) => .yr k
    | .inr (.inr (.inr (.inr (.inr (.inr (.inl k)))))) => .xs k
    | .inr (.inr (.inr (.inr (.inr (.inr (.inr (.inl k))))))) => .xr k
    | .inr (.inr (.inr (.inr (.inr (.inr (.inr (.inr (.inl r)))))))) => .li 0 r
    | .inr (.inr (.inr (.inr (.inr (.inr (.inr (.inr (.inr (.inl r))))))))) => .li 1 r
    | .inr (.inr (.inr (.inr (.inr (.inr (.inr (.inr (.inr (.inr (.inl r)))))))))) => .lo 0 r
    | .inr (.inr (.inr (.inr (.inr (.inr (.inr (.inr (.inr (.inr (.inr (r))))))))))) => .lo 1 r
  invFun
    | .bar false => .inl ()
    | .bar true => .inr (.inl ())
    | .bar2 false => .inr (.inr (.inl ()))
    | .bar2 true => .inr (.inr (.inr (.inl ())))
    | .ys k => .inr (.inr (.inr (.inr (.inl k))))
    | .yr k => .inr (.inr (.inr (.inr (.inr (.inl k)))))
    | .xs k => .inr (.inr (.inr (.inr (.inr (.inr (.inl k))))))
    | .xr k => .inr (.inr (.inr (.inr (.inr (.inr (.inr (.inl k)))))))
    | .li ⟨0, _⟩ r => .inr (.inr (.inr (.inr (.inr (.inr (.inr (.inr (.inl r))))))))
    | .li ⟨1, _⟩ r => .inr (.inr (.inr (.inr (.inr (.inr (.inr (.inr (.inr (.inl r)))))))))
    | .lo ⟨0, _⟩ r => .inr (.inr (.inr (.inr (.inr (.inr (.inr (.inr (.inr (.inr (.inl r))))))))))
    | .lo ⟨1, _⟩ r => .inr (.inr (.inr (.inr (.inr (.inr (.inr (.inr (.inr (.inr (.inr (r)))))))))))
  left_inv := by
    rintro (_ | _ | _ | _ | k | k | k | k | r | r | r | r) <;> rfl
  right_inv := by
    intro t
    cases t with
    | bar d => cases d <;> rfl
    | bar2 d => cases d <;> rfl
    | li j r => fin_cases j <;> rfl
    | lo j r => fin_cases j <;> rfl
    | _ => rfl

def ckE : (Unit ⊕ Unit ⊕ Fin 32 ⊕ Fin 32 ⊕ Fin 32 ⊕ Fin 32 ⊕ Unit ⊕ Unit ⊕ Unit ⊕ Unit) ≃ CK where
  toFun
    | .inl _ => .bar
    | .inr (.inl _) => .bar2
    | .inr (.inr (.inl k)) => .ys k
    | .inr (.inr (.inr (.inl k))) => .yr k
    | .inr (.inr (.inr (.inr (.inl k)))) => .xs k
    | .inr (.inr (.inr (.inr (.inr (.inl k))))) => .xr k
    | .inr (.inr (.inr (.inr (.inr (.inr (.inl _)))))) => .li 0
    | .inr (.inr (.inr (.inr (.inr (.inr (.inr (.inl _))))))) => .li 1
    | .inr (.inr (.inr (.inr (.inr (.inr (.inr (.inr (.inl _)))))))) => .lo 0
    | .inr (.inr (.inr (.inr (.inr (.inr (.inr (.inr (.inr (_))))))))) => .lo 1
  invFun
    | .bar => .inl ()
    | .bar2 => .inr (.inl ())
    | .ys k => .inr (.inr (.inl k))
    | .yr k => .inr (.inr (.inr (.inl k)))
    | .xs k => .inr (.inr (.inr (.inr (.inl k))))
    | .xr k => .inr (.inr (.inr (.inr (.inr (.inl k)))))
    | .li ⟨0, _⟩ => .inr (.inr (.inr (.inr (.inr (.inr (.inl ()))))))
    | .li ⟨1, _⟩ => .inr (.inr (.inr (.inr (.inr (.inr (.inr (.inl ())))))))
    | .lo ⟨0, _⟩ => .inr (.inr (.inr (.inr (.inr (.inr (.inr (.inr (.inl ()))))))))
    | .lo ⟨1, _⟩ => .inr (.inr (.inr (.inr (.inr (.inr (.inr (.inr (.inr (())))))))))
  left_inv := by
    rintro (_ | _ | k | k | k | k | _ | _ | _ | _) <;> rfl
  right_inv := by
    intro x
    cases x with
    | li j => fin_cases j <;> rfl
    | lo j => fin_cases j <;> rfl
    | _ => rfl

def okE : (Unit ⊕ Fin 32 ⊕ Fin 32 ⊕ Fin 32 ⊕ Fin 32 ⊕ Unit ⊕ Unit ⊕ Unit ⊕ Unit) ≃ OK where
  toFun
    | .inl _ => ⟨.bar2, by intro h; cases h⟩
    | .inr (.inl k) => ⟨.ys k, by intro h; cases h⟩
    | .inr (.inr (.inl k)) => ⟨.yr k, by intro h; cases h⟩
    | .inr (.inr (.inr (.inl k))) => ⟨.xs k, by intro h; cases h⟩
    | .inr (.inr (.inr (.inr (.inl k)))) => ⟨.xr k, by intro h; cases h⟩
    | .inr (.inr (.inr (.inr (.inr (.inl _))))) => ⟨.li 0, by intro h; cases h⟩
    | .inr (.inr (.inr (.inr (.inr (.inr (.inl _)))))) => ⟨.li 1, by intro h; cases h⟩
    | .inr (.inr (.inr (.inr (.inr (.inr (.inr (.inl _))))))) => ⟨.lo 0, by intro h; cases h⟩
    | .inr (.inr (.inr (.inr (.inr (.inr (.inr (.inr (_)))))))) => ⟨.lo 1, by intro h; cases h⟩
  invFun
    | ⟨.bar, h⟩ => absurd rfl h
    | ⟨.bar2, _⟩ => .inl ()
    | ⟨.ys k, _⟩ => .inr (.inl k)
    | ⟨.yr k, _⟩ => .inr (.inr (.inl k))
    | ⟨.xs k, _⟩ => .inr (.inr (.inr (.inl k)))
    | ⟨.xr k, _⟩ => .inr (.inr (.inr (.inr (.inl k))))
    | ⟨.li ⟨0, _⟩, _⟩ => .inr (.inr (.inr (.inr (.inr (.inl ())))))
    | ⟨.li ⟨1, _⟩, _⟩ => .inr (.inr (.inr (.inr (.inr (.inr (.inl ()))))))
    | ⟨.lo ⟨0, _⟩, _⟩ => .inr (.inr (.inr (.inr (.inr (.inr (.inr (.inl ())))))))
    | ⟨.lo ⟨1, _⟩, _⟩ => .inr (.inr (.inr (.inr (.inr (.inr (.inr (.inr (()))))))))
  left_inv := by
    rintro (_ | k | k | k | k | _ | _ | _ | _) <;> rfl
  right_inv := by
    rintro ⟨x, hx⟩
    cases x with
    | bar => exact absurd rfl hx
    | li j => fin_cases j <;> rfl
    | lo j => fin_cases j <;> rfl
    | _ => rfl

theorem bigSep_TK (Φ : TK → sProp M) :
    bigSep Finset.univ Φ
      = iprop(Φ (.bar false) ∗ Φ (.bar true) ∗ Φ (.bar2 false) ∗ Φ (.bar2 true)
        ∗ (bigSep Finset.univ fun k : Fin 32 => Φ (.ys k)) ∗ (bigSep Finset.univ fun k : Fin 32 => Φ (.yr k))
        ∗ (bigSep Finset.univ fun k : Fin 32 => Φ (.xs k)) ∗ (bigSep Finset.univ fun k : Fin 32 => Φ (.xr k))
        ∗ (bigSep Finset.univ fun r : Fin 8 => Φ (.li 0 r)) ∗ (bigSep Finset.univ fun r : Fin 8 => Φ (.li 1 r))
        ∗ (bigSep Finset.univ fun r : Fin 8 => Φ (.lo 0 r)) ∗ (bigSep Finset.univ fun r : Fin 8 => Φ (.lo 1 r))) := by
  rw [bigSep_univ_equiv tkE Φ]
  simp only [bigSep_univ_sum, bigSep_univ_of_subsingleton ()]
  rfl

theorem bigSep_CK (Φ : CK → sProp M) :
    bigSep Finset.univ Φ
      = iprop(Φ .bar ∗ Φ .bar2
        ∗ (bigSep Finset.univ fun k : Fin 32 => Φ (.ys k)) ∗ (bigSep Finset.univ fun k : Fin 32 => Φ (.yr k))
        ∗ (bigSep Finset.univ fun k : Fin 32 => Φ (.xs k)) ∗ (bigSep Finset.univ fun k : Fin 32 => Φ (.xr k))
        ∗ Φ (.li 0) ∗ Φ (.li 1) ∗ Φ (.lo 0) ∗ Φ (.lo 1)) := by
  rw [bigSep_univ_equiv ckE Φ]
  simp only [bigSep_univ_sum, bigSep_univ_of_subsingleton ()]
  rfl

theorem bigSep_OK (Φ : CK → sProp M) :
    (bigSep Finset.univ fun x : OK => Φ x.1)
      = iprop(Φ .bar2
        ∗ (bigSep Finset.univ fun k : Fin 32 => Φ (.ys k)) ∗ (bigSep Finset.univ fun k : Fin 32 => Φ (.yr k))
        ∗ (bigSep Finset.univ fun k : Fin 32 => Φ (.xs k)) ∗ (bigSep Finset.univ fun k : Fin 32 => Φ (.xr k))
        ∗ Φ (.li 0) ∗ Φ (.li 1) ∗ Φ (.lo 0) ∗ Φ (.lo 1)) := by
  rw [bigSep_univ_equiv okE fun x : OK => Φ x.1]
  simp only [bigSep_univ_sum, bigSep_univ_of_subsingleton ()]
  rfl

end Sums

variable {F : FTy → Type} [FloatOps F]

local notation "𝕄" => MT nD τ sig Unit (Elt F) ℕ UU ℕ

theorem toks_split (c : Dev nD) : (bigSep Finset.univ fun t : TK => tokP c t : sProp 𝕄) ⊢ toksK c := by
  rw [bigSep_TK]; exact .refl

theorem pos_split (c : Dev nD) : (bigSep Finset.univ fun x : CK => atPos ER (cell c x) 0 ∅ 0 : sProp 𝕄) ⊢ posK c := by
  rw [bigSep_CK]; exact .refl

theorem sems_join (c : Dev nD) : (semsK c : sProp 𝕄) ⊢ bigSep Finset.univ fun x : OK => semVal (cell c x.1) 0 := by
  rw [bigSep_OK fun x : CK => (semVal (cell c x) 0 : sProp 𝕄)]; exact .refl

end Cert.Kernel.AG

end

/-- info: 'Cert.Kernel.AG.toks_split' depends on axioms: [propext, Classical.choice, Quot.sound] -/
#guard_msgs in #print axioms Cert.Kernel.AG.toks_split
/-- info: 'Cert.Kernel.AG.pos_split' depends on axioms: [propext, Classical.choice, Quot.sound] -/
#guard_msgs in #print axioms Cert.Kernel.AG.pos_split
/-- info: 'Cert.Kernel.AG.sems_join' depends on axioms: [propext, Classical.choice, Quot.sound] -/
#guard_msgs in #print axioms Cert.Kernel.AG.sems_join
-- ==== Proof.K.Steps.lean ====
import proofs.«900683_g7700000000000684_dist_ag_v7x_xyz2x2x4_y_m32768_n1024_f32_1_alg».proof.Defs
import proofs.«900683_g7700000000000684_dist_ag_v7x_xyz2x2x4_y_m32768_n1024_f32_1_alg».proof.Proof.Gen.Kernel
import proofs.«900683_g7700000000000684_dist_ag_v7x_xyz2x2x4_y_m32768_n1024_f32_1_alg».proof.Proof.Gen.Kernel.Skeleton
import proofs.«900683_g7700000000000684_dist_ag_v7x_xyz2x2x4_y_m32768_n1024_f32_1_alg».proof.Proof.Gen.Kernel.Launch
import proofs.«900683_g7700000000000684_dist_ag_v7x_xyz2x2x4_y_m32768_n1024_f32_1_alg».proof.Proof.K.Mesh
import proofs.«900683_g7700000000000684_dist_ag_v7x_xyz2x2x4_y_m32768_n1024_f32_1_alg».proof.Proof.K.Sched
import proofs.«900683_g7700000000000684_dist_ag_v7x_xyz2x2x4_y_m32768_n1024_f32_1_alg».proof.Proof.K.Proto
import proofs.«900683_g7700000000000684_dist_ag_v7x_xyz2x2x4_y_m32768_n1024_f32_1_alg».proof.Proof.K.Regions
import proofs.«900683_g7700000000000684_dist_ag_v7x_xyz2x2x4_y_m32768_n1024_f32_1_alg».proof.Proof.K.Values
import Idealize.ShloMosaic.Lib.Pipeline.Launch
import Idealize.ShloMosaic.Lib.Pipeline.Kit
import Idealize.ShloMosaic.Lib.Tactic
import Idealize.ShloMosaic.Lib.ValueIdx

noncomputable section

namespace Cert.Kernel.AG

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

section Records
variable (K : Dev nD × CK → ℕ)

omit [FloatOps F] in
theorem rec_inv (cx : Dev nD × CK) : (records (F := F) m K) ⊢ cellInv ER (Rd m) (K cx) (cell cx.1 cx.2) := by
  have h : (bigSep Finset.univ fun cx : Dev nD × CK => cellInv ER (Rd (F := F) m) (K cx) (cell cx.1 cx.2) : sProp 𝕄)
      ⊢ cellInv ER (Rd m) (K cx) (cell cx.1 cx.2) := bigSep_elim (Finset.mem_univ cx)
  unfold records; iintro ⟨HI, -⟩; iapply h; iexact HI
omit [FloatOps F] in
theorem rec_reached (cx : Dev nD × CK) : (records (F := F) m K) ⊢ reached ER (cell cx.1 cx.2) 0 := by
  have h : (bigSep Finset.univ fun cx : Dev nD × CK => reached ER (cell cx.1 cx.2) 0 : sProp 𝕄)
      ⊢ reached ER (cell cx.1 cx.2) 0 := bigSep_elim (Finset.mem_univ cx)
  unfold records; iintro ⟨-, HR⟩; iapply h; iexact HR

end Records

omit [FloatOps F] in
theorem owedSum_apply (c : Dev nD) (S : Finset TK) (g : GSem nD τ sig) (u : Unit) :
    owedSum c S g u = ∑ t ∈ S, (tallyAt (cell (payer c t) t.ck) () (amountK t.ck) : CellTallies nD τ sig Unit) g u := by
  unfold owedSum; rw [Finset.sum_apply, Finsupp.finset_sum_apply]

omit [FloatOps F] in
theorem owedSum_pos {c : Dev nD} {S : Finset TK} {g : GSem nD τ sig} {u : Unit} (h : 0 < owedSum c S g u) :
    ∃ t ∈ S, g = cell (payer c t) t.ck := by
  rw [owedSum_apply] at h
  obtain ⟨t, ht, hpos⟩ := Finset.exists_lt_of_sum_lt (s := S) (f := fun _ => 0) (by simpa using h)
  refine ⟨t, ht, ?_⟩
  rw [tallyAt_apply] at hpos
  by_contra hn
  rw [if_neg (fun h' => hn h'.1)] at hpos
  exact Nat.lt_irrefl 0 hpos

omit [FloatOps F] in
theorem mayWait_of (c : Dev nD) (x : CK) (S : Finset TK) (hlv : ∀ t ∈ S, lvK x < lvK t.ck) :
    (levAts L lv : sProp 𝕄) ⊢ MayWait (c : Thread nD τ) (csem x) () (owedSum c S) :=
  MayOwe.of_cut (L := L) (lev := lv) (lvK x)
    (fun p hp => by rw [Finset.mem_singleton.mp hp, L_tc]; exact Finset.mem_singleton_self _)
    (fun g u hg => by obtain ⟨t, _, rfl⟩ := owedSum_pos hg; rw [L_tc]; exact Finset.mem_singleton_self _)
    (fun p hp => by rw [Finset.mem_singleton.mp hp]; exact le_of_eq (lv_cell c x ()))
    (fun g u hg => by obtain ⟨t, ht, rfl⟩ := owedSum_pos hg; rw [lv_cell]; exact hlv t ht)

section Rules
variable (K : Dev nD × CK → ℕ)

theorem wp_sig (c n : Dev nD) (x : CK) (sm : Sem sig) (hx : csem x = .reg sm) (d : Bool) (hd : d ∈ dutiesK x 0) (hk : amountK x = 1)
    {α : Type} {Q : α → sProp 𝕄} {k : PUnit → Prog (TpuEff nD τ sig (Elt F) Λ₀ .tc) α}
    (O₀ O : CellTallies nD τ sig Unit) (hO : O₀ = O + tallyAt (cell n x) () 1) (W : Waits sig Unit) :
    iprop(records m K ∗ owes (c : Thread nD τ) O₀ W ∗ dutyTok ER (cell n x) 0 d ∗ payloadK m n x 0 d)
      ⊢ iprop((owes (c : Thread nD τ) O W -∗ wp frame (wpE (defs₀ (F := F)) 𝒱₀ (c : Thread nD τ) none) Set.univ (k ⟨⟩) Q)
          -∗ wp frame (wpE (defs₀ (F := F)) 𝒱₀ (c : Thread nD τ) none) Set.univ (.op (.semSignal (n : Thread nD τ) sm 1) k) Q) := by
  have hc : cell n x = ((n : Thread nD τ), SemLoc.reg sm) := by unfold cell; rw [hx]
  have hd' : d ∈ (Rd (F := F) m).duties ((n : Thread nD τ), SemLoc.reg sm) 0 := by rw [← hc, duties_cell]; exact hd
  have hk' : (Rd (F := F) m).amount ((n : Thread nD τ), SemLoc.reg sm) 0 d = 1 := by rw [← hc, amount_cell]; exact hk
  have hO' : O₀ = O + tallyAt ((n : Thread nD τ), SemLoc.reg sm) () 1 := by rw [← hc]; exact hO
  iintro ⟨#HR, HO, Ht, Hp⟩
  iapply (Rounds.wp_signal 𝒱₀ ER (Rd m) (c : Thread nD τ) none (dst := (n : Thread nD τ)) (sem := sm) (κ := K (n, x)) (r := 0) (d := d) (k' := 1)
    hd' hk' () (O₀ := O₀) O hO') $$ [HO Ht Hp]
  rw [← hc]
  isplitr; · iapply (rec_inv m K (n, x)); iexact HR
  isplitl [HO]; · iexact HO
  isplitl [Ht]; · iexact Ht
  isplitl [Hp]; · rw [payload_cell]; iexact Hp
  iapply (rec_reached m K (n, x)); iexact HR

end Rules

omit [FloatOps F] in

theorem rest_hs (c : Dev nD) (x : CK) (hdu : dutiesK x 0 = Finset.univ) :
    bigSep ((Rd (F := F) m).duties (cell c x) 0 \ ∅) (fun d => (Rd (F := F) m).payload (cell c x) 0 d)
      = iprop(payloadK m c x 0 false ∗ payloadK m c x 0 true) := by
  rw [Finset.sdiff_empty, duties_cell, hdu, bigSep_univ_eq_bigSepL [false, true] (by decide) (by decide), bigSepL_cons_cons, bigSepL_singleton,
    payload_cell, payload_cell]
  rfl

omit [FloatOps F] in

theorem rest_one (c : Dev nD) (x : CK) (R : ℕ) (hdu : dutiesK x R = {false}) :
    bigSep ((Rd (F := F) m).duties (cell c x) R \ ∅) (fun d => (Rd (F := F) m).payload (cell c x) R d) = payloadK m c x R false := by
  rw [Finset.sdiff_empty, duties_cell, hdu, bigSep_singleton, payload_cell]

section Rules2
variable (K : Dev nD × CK → ℕ)

theorem wp_wait_hs (c : Dev nD) (x : CK) (sm : Sem sig) (hx : csem x = .reg sm) (hdu : dutiesK x 0 = Finset.univ) (hk : amountK x = 1)
    (S : Finset TK) (hlv : ∀ t ∈ S, lvK x < lvK t.ck) (W : Waits sig Unit)
    {α : Type} {Q : α → sProp 𝕄} {k : PUnit → Prog (TpuEff nD τ sig (Elt F) Λ₀ .tc) α} :
    iprop(records m K ∗ levAts L lv ∗ cred (tallyAt (cell c x) () 2) ∗ owes (c : Thread nD τ) (owedSum c S) W ∗ atPos ER (cell c x) 0 ∅ 0)
      ⊢ iprop(((owes (c : Thread nD τ) (owedSum c S) (insert (csem x, ()) W) ∗ atPos ER (cell c x) 1 ∅ 0
              ∗ payloadK m c x 0 false ∗ payloadK m c x 0 true)
            -∗ wp frame (wpE (defs₀ (F := F)) 𝒱₀ (c : Thread nD τ) none) Set.univ (k ⟨⟩) Q)
          -∗ wp frame (wpE (defs₀ (F := F)) 𝒱₀ (c : Thread nD τ) none) Set.univ (.op (.semWait sm 2) k) Q) := by
  have hc : cell c x = ((c : Thread nD τ), SemLoc.reg sm) := by unfold cell; rw [hx]
  have hrest := rest_hs m c x hdu
  have hexp : 0 + 2 = (Rd (F := F) m).expect (cell c x) 0 := by rw [expect_cell, hdu, hk]; decide
  have hmw := mayWait_of (F := F) c x S hlv
  rw [hx] at hmw ⊢
  rw [hc] at hrest hexp ⊢
  iintro ⟨#HR, #Hlev, Hc, HO, Hat⟩ Hk
  iapply (Rounds.wp_wait_rest_token 𝒱₀ ER (Rd m) (c : Thread nD τ) none (κ := K (c, x))
      (wpE_semWait_eq 𝒱₀ (c : Thread nD τ) none Set.univ) (Set.mem_univ _) () (O := owedSum c S) (W := W) (R := 0) (m := 0) (T := ∅) hexp) $$ [Hc HO Hat]
  · isplitr; · rw [← hc]; iapply (rec_inv m K (c, x)); iexact HR
    isplitl [Hc]; · iexact Hc
    isplitl [HO]; · iexact HO
    isplitr; · iapply hmw; iexact Hlev
    iexact Hat
  iintro ⟨HO, Hat, -, Hpay⟩
  ihave Hp := (Entails.of_eq hrest) $$ Hpay
  icases Hp with ⟨Hp1, Hp2⟩
  iapply Hk $$ [$HO $Hat $Hp1 $Hp2]

theorem wp_wait_dma (c : Dev nD) (x : CK) (sm : DmaSem sig) (hx : csem x = .dma sm) (R : ℕ) (hdu : dutiesK x R = {false})
    (S : Finset TK) (hlv : ∀ t ∈ S, lvK x < lvK t.ck) (W : Waits sig Unit)
    {sp sp' : Space} {s s' : Shape} {e e' : EltTy} {src : Memref sig .tc sp' s' e'} {κ' : Kind} {dst : Memref sig κ' sp s e}
    {hsrc : src.view.WordExact} {hdst : dst.view.WordExact} (hN : dst.view.dmaCredit = amountK x)
    {α : Type} {Q : α → sProp 𝕄} {k : PUnit → Prog (TpuEff nD τ sig (Elt F) Λ₀ .tc) α} :
    iprop(records m K ∗ levAts L lv ∗ cred (tallyAt (cell c x) () (amountK x)) ∗ owes (c : Thread nD τ) (owedSum c S) W ∗ atPos ER (cell c x) R ∅ 0)
      ⊢ iprop(((owes (c : Thread nD τ) (owedSum c S) (insert (csem x, ()) W) ∗ atPos ER (cell c x) (R + 1) ∅ 0 ∗ reached ER (cell c x) (R + 1) ∗ payloadK m c x R false)
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 sm src dst hsrc hdst) k) Q) := by
  have hc : cell c x = ((c : Thread nD τ), SemLoc.dma sm) := by unfold cell; rw [hx]
  have hrest := rest_one m c x R hdu
  have hexp : 0 + dst.view.dmaCredit = (Rd (F := F) m).expect (cell c x) R := by rw [expect_cell, hdu, hN]; simp
  have hmw := mayWait_of (F := F) c x S hlv
  rw [hx] at hmw ⊢
  rw [hc] at hrest hexp ⊢
  rw [← hN]
  iintro ⟨#HR, #Hlev, Hc, HO, Hat⟩ Hk
  iapply (Rounds.wp_wait_rest_token 𝒱₀ ER (Rd m) (c : Thread nD τ) none (κ := K (c, x))
      (wpE_waitDma2_eq 𝒱₀ (c : Thread nD τ) none Set.univ) (Set.mem_univ _) () (O := owedSum c S) (W := W) (R := R) (m := 0) (T := ∅) hexp) $$ [Hc HO Hat]
  · isplitr; · rw [← hc]; iapply (rec_inv m K (c, x)); iexact HR
    isplitl [Hc]; · iexact Hc
    isplitl [HO]; · iexact HO
    isplitr; · iapply hmw; iexact Hlev
    iexact Hat
  iintro ⟨HO, Hat, #Hr, Hpay⟩
  ihave Hp := (Entails.of_eq hrest) $$ Hpay
  iapply Hk $$ [$HO $Hat $Hr $Hp]

end Rules2

section Rules3
variable (K : Dev nD × CK → ℕ)

omit [FloatOps F] in
theorem credit_yDst (c : Dev nD) (k : Fin 32) : (yDst c k).view.dmaCredit = N512 := by unfold N512; rfl
omit [FloatOps F] in
theorem credit_xBuf (c : Dev nD) (k : Fin 32) : (xBuf c k).view.dmaCredit = N512 := by unfold N512; rfl
omit [FloatOps F] in
theorem credit_vSl (j : Fin 2) : (vSl j).view.dmaCredit = NV := by unfold NV; rfl
omit [FloatOps F] in
theorem credit_lDst (c : Dev nD) (i : Fin 16) : (lDst c i).view.dmaCredit = N2048 := by unfold N2048; rfl

theorem wp_ysend (c : Dev nD) (k : Fin 32) (S : Finset TK) (hS : TK.yr k ∈ S) {W : Waits sig Unit}
    {hsc : ((yDst c k : Memref sig .tc .hbm S512x1024 .f32) : Memref sig (Dev.tc (py c) : Thread nD τ).2.kind .hbm S512x1024 .f32).view.ref.isScScratch = false}
    {hsrc : (ySrc c k).view.WordExact} {hdst : (yDst c k).view.WordExact}
    {hsem : DmaTarget.Typed .hbm (.dma (sem32 cc0_scratch1 k).sem) (.remote (Dev.tc (py c) : Thread nD τ) (yDst c k) (.dma (sem32 cc0_scratch0 k).sem) hsc)}
    {α : Type} {Q : α → sProp 𝕄} {kk : PUnit → Prog (TpuEff nD τ sig (Elt F) Λ₀ .tc) α}
    (fd : Buf (Elt F) ((yDst c k).view.loc ((py c : Dev nD) : Thread nD τ))) :
    iprop(records m K ∗ pts (ySrc c k) c qY (xArr m c) ∗ pts (yDst c k) (py c) fullShare fd
        ∗ owes (c : Thread nD τ) (owedSum c S) W ∗ tokP c (.ys k) ∗ tokP c (.yr k))
      ⊢ iprop(((cred (tallyAt (cell c (.ys k)) () N512) ∗ owes (c : Thread nD τ) (owedSum c (S.erase (.yr k))) W)
            -∗ wp frame (wpE (defs₀ (F := F)) 𝒱₀ (c : Thread nD τ) none) Set.univ (kk ⟨⟩) Q)
          -∗ wp frame (wpE (defs₀ (F := F)) 𝒱₀ (c : Thread nD τ) none) Set.univ
              (.op (.enqueueDma (ySrc c k) (.remote (Dev.tc (py c) : Thread nD τ) (yDst c k) (.dma (sem32 cc0_scratch0 k).sem) hsc)
                (.dma (sem32 cc0_scratch1 k).sem) hsrc hdst hsem) kk) Q) := by
  have e1 : (tokP (F := F) c (.ys k) : sProp 𝕄) = dutyTok ER (cell c (.ys k)) 0 false := rfl
  have e2 : (tokP (F := F) c (.yr k) : sProp 𝕄) = dutyTok ER (cell (py c) (.yr k)) 0 false := rfl
  rw [e1, e2]
  iintro ⟨#HR, Hsrc, Hdst, HO, Hts, Htr⟩
  iapply (Rounds.wp_send_pointsTo 𝒱₀ ER (Rd m) (c : Thread nD τ) none (c' := (py c : Thread nD τ)) (src := ySrc c k) (dst := yDst c k)
    (sS := csem (.ys k)) (sem := csem (.yr k)) (q := qY) (fs := xArr m c) (κ₁ := K (c, .ys k)) (κ₂ := K (py c, .yr k))
    (r₁ := 0) (r₂ := 0) (d₁ := false) (d₂ := false) (fd := fd)
    (by show false ∈ (Rd (F := F) m).duties (cell c (.ys k)) 0; rw [duties_cell]; exact Finset.mem_singleton_self _)
    (by show false ∈ (Rd (F := F) m).duties (cell (py c) (.yr k)) 0; rw [duties_cell]; exact Finset.mem_singleton_self _)
    () () N512 (credit_yDst c k)
    (by show (Rd (F := F) m).amount (cell c (.ys k)) 0 false = N512; rw [amount_cell]; rfl)
    (by show (Rd (F := F) m).amount (cell (py c) (.yr k)) 0 false = N512; rw [amount_cell]; rfl)
    (owedSum c (S.erase (.yr k))) (owedSum_erase c hS) (W := W)
    (by show _ ⊢ (Rd (F := F) m).payload (cell c (.ys k)) 0 false; rw [payload_cell]; exact BI.Entails.refl _)
    (by show _ ⊢ (Rd (F := F) m).payload (cell (py c) (.yr k)) 0 false
        rw [payload_cell]
        show _ ⊢ pts (yDst (py (py c)) k) (py c) fullShare (G m (py c))
        rw [py_py]; exact Entails.of_eq (land_Y m c k fd))) $$ [Hsrc Hdst HO Hts Htr]
  isplitr; · iapply (rec_inv m K (c, .ys k)); iexact HR
  isplitr; · iapply (rec_inv m K (py c, .yr k)); iexact HR
  isplitl [Hsrc]; · iexact Hsrc
  isplitl [Hdst]; · iexact Hdst
  isplitl [HO]; · iexact HO
  isplitl [Hts]; · iexact Hts
  isplitr; · iapply (rec_reached m K (c, .ys k)); iexact HR
  isplitl [Htr]; · iexact Htr
  iapply (rec_reached m K (py c, .yr k)); iexact HR

theorem wp_xsend (c : Dev nD) (k : Fin 32) (S : Finset TK) (hS : TK.xr k ∈ S) {W : Waits sig Unit}
    {hsc : ((xBuf c k : Memref sig .tc .hbm S512x1024 .f32) : Memref sig (Dev.tc (px c) : Thread nD τ).2.kind .hbm S512x1024 .f32).view.ref.isScScratch = false}
    {hsrc : (xBuf c k).view.WordExact} {hdst : (xBuf c k).view.WordExact}
    {hsem : DmaTarget.Typed .hbm (.dma (sem32 cc0_scratch3 k).sem) (.remote (Dev.tc (px c) : Thread nD τ) (xBuf c k) (.dma (sem32 cc0_scratch2 k).sem) hsc)}
    {α : Type} {Q : α → sProp 𝕄} {kk : PUnit → Prog (TpuEff nD τ sig (Elt F) Λ₀ .tc) α}
    (fd : Buf (Elt F) ((xBuf c k).view.loc ((px c : Dev nD) : Thread nD τ))) :
    iprop(records m K ∗ pts (xBuf c k) c fullShare (G m c) ∗ pts (xBuf c k) (px c) fullShare fd
        ∗ owes (c : Thread nD τ) (owedSum c S) W ∗ tokP c (.xs k) ∗ tokP c (.xr k))
      ⊢ iprop(((cred (tallyAt (cell c (.xs k)) () N512) ∗ owes (c : Thread nD τ) (owedSum c (S.erase (.xr k))) W)
            -∗ wp frame (wpE (defs₀ (F := F)) 𝒱₀ (c : Thread nD τ) none) Set.univ (kk ⟨⟩) Q)
          -∗ wp frame (wpE (defs₀ (F := F)) 𝒱₀ (c : Thread nD τ) none) Set.univ
              (.op (.enqueueDma (xBuf c k) (.remote (Dev.tc (px c) : Thread nD τ) (xBuf c k) (.dma (sem32 cc0_scratch2 k).sem) hsc)
                (.dma (sem32 cc0_scratch3 k).sem) hsrc hdst hsem) kk) Q) := by
  have e1 : (tokP (F := F) c (.xs k) : sProp 𝕄) = dutyTok ER (cell c (.xs k)) 0 false := rfl
  have e2 : (tokP (F := F) c (.xr k) : sProp 𝕄) = dutyTok ER (cell (px c) (.xr k)) 0 false := rfl
  rw [e1, e2]
  iintro ⟨#HR, Hsrc, Hdst, HO, Hts, Htr⟩
  iapply (Rounds.wp_send_pointsTo 𝒱₀ ER (Rd m) (c : Thread nD τ) none (c' := (px c : Thread nD τ)) (src := xBuf c k) (dst := xBuf c k)
    (sS := csem (.xs k)) (sem := csem (.xr k)) (q := fullShare) (fs := G m c) (κ₁ := K (c, .xs k)) (κ₂ := K (px c, .xr k))
    (r₁ := 0) (r₂ := 0) (d₁ := false) (d₂ := false) (fd := fd)
    (by show false ∈ (Rd (F := F) m).duties (cell c (.xs k)) 0; rw [duties_cell]; exact Finset.mem_singleton_self _)
    (by show false ∈ (Rd (F := F) m).duties (cell (px c) (.xr k)) 0; rw [duties_cell]; exact Finset.mem_singleton_self _)
    () () N512 (credit_xBuf c k)
    (by show (Rd (F := F) m).amount (cell c (.xs k)) 0 false = N512; rw [amount_cell]; rfl)
    (by show (Rd (F := F) m).amount (cell (px c) (.xr k)) 0 false = N512; rw [amount_cell]; rfl)
    (owedSum c (S.erase (.xr k))) (owedSum_erase c hS) (W := W)
    (by show _ ⊢ (Rd (F := F) m).payload (cell c (.xs k)) 0 false; rw [payload_cell]; exact BI.Entails.refl _)
    (by show _ ⊢ (Rd (F := F) m).payload (cell (px c) (.xr k)) 0 false
        rw [payload_cell]
        show _ ⊢ pts (xBuf (px (px c)) k) (px c) fullShare (G m (px c))
        rw [px_px]; exact Entails.of_eq (land_X m c k fd))) $$ [Hsrc Hdst HO Hts Htr]
  isplitr; · iapply (rec_inv m K (c, .xs k)); iexact HR
  isplitr; · iapply (rec_inv m K (px c, .xr k)); iexact HR
  isplitl [Hsrc]; · iexact Hsrc
  isplitl [Hdst]; · iexact Hdst
  isplitl [HO]; · iexact HO
  isplitl [Hts]; · iexact Hts
  isplitr; · iapply (rec_reached m K (c, .xs k)); iexact HR
  isplitl [Htr]; · iexact Htr
  iapply (rec_reached m K (px c, .xr k)); iexact HR

end Rules3

theorem dutiesK_li (j : Fin 2) (r : ℕ) (hr : r < 8) : dutiesK (.li j) r = {false} := by
  show (if r < 8 then ({false} : Finset Bool) else ∅) = _
  rw [if_pos hr]
theorem dutiesK_lo (j : Fin 2) (r : ℕ) (hr : r < 8) : dutiesK (.lo j) r = {false} := by
  show (if r < 8 then ({false} : Finset Bool) else ∅) = _
  rw [if_pos hr]

section Rules4
variable (K : Dev nD × CK → ℕ)

theorem wp_copy_in (c : Dev nD) (i : Fin 16) (j : Fin 2) (r : ℕ) (hr : r < 8) (hi : chunk j r = i)
    {hsrc : (lSrc i).view.WordExact} {hdst : (vSl j).view.WordExact}
    {hsem : DmaTarget.Typed .hbm (.dma (sem2 cc0_scratch5 j).sem) (.here (vSl j) : DmaTarget nD τ sig .tc .vmem S2048x1024 .f32)}
    {α : Type} {Q : α → sProp 𝕄} {kk : PUnit → Prog (TpuEff nD τ sig (Elt F) Λ₀ .tc) α}
    (fd : Buf (Elt F) ((vSl j).view.loc (c : Thread nD τ))) :
    iprop(records m K ∗ pts (lSrc i) c qL (xArr m c) ∗ pts (vSl j) c fullShare fd
        ∗ dutyTok ER (cell c (.li j)) r false ∗ reached ER (cell c (.li j)) r)
      ⊢ iprop((cred (tallyAt (cell c (.li j)) () NV) -∗ wp frame (wpE (defs₀ (F := F)) 𝒱₀ (c : Thread nD τ) none) Set.univ (kk ⟨⟩) Q)
          -∗ wp frame (wpE (defs₀ (F := F)) 𝒱₀ (c : Thread nD τ) none) Set.univ
              (.op (.enqueueDma (lSrc i) (.here (vSl j)) (.dma (sem2 cc0_scratch5 j).sem) hsrc hdst hsem) kk) Q) := by
  iintro ⟨#HR, Hsrc, Hdst, Ht, #Hr⟩
  iapply (Rounds.wp_copy_pointsTo 𝒱₀ ER (Rd m) (c : Thread nD τ) none (src := lSrc i) (dst := vSl j) (sem := csem (.li j))
    (κ := K (c, .li j)) (r := r) (d := false) (q := qL)
    (fs := xArr m c) (fd := fd)
    (by show false ∈ (Rd (F := F) m).duties (cell c (.li j)) r; rw [duties_cell, dutiesK_li j r hr]; exact Finset.mem_singleton_self _)
    () NV (credit_vSl j)
    (by show (Rd (F := F) m).amount (cell c (.li j)) r false = NV; rw [amount_cell]; rfl)
    (by show _ ⊢ (Rd (F := F) m).payload (cell c (.li j)) r false
        rw [payload_cell]
        show _ ⊢ iprop(pts (vSl j) c fullShare (VB m c (chunk j r) j) ∗ pts (lSrc (chunk j r)) c qL (xArr m c))
        rw [hi]; exact sep_mono_left (Entails.of_eq (land_in m c i j fd)))) $$ [Hsrc Hdst Ht]
  isplitr; · iapply (rec_inv m K (c, .li j)); iexact HR
  isplitl [Hsrc]; · iexact Hsrc
  isplitl [Hdst]; · iexact Hdst
  isplitl [Ht]; · iexact Ht
  iexact Hr

theorem wp_copy_out (c : Dev nD) (i : Fin 16) (j : Fin 2) (r : ℕ) (hr : r < 8) (hi : chunk j r = i)
    {hsrc : (vSl j).view.WordExact} {hdst : (lDst c i).view.WordExact}
    {hsem : DmaTarget.Typed .vmem (.dma (sem2 cc0_scratch6 j).sem) (.here (lDst c i) : DmaTarget nD τ sig .tc .hbm S2048x1024 .f32)}
    {α : Type} {Q : α → sProp 𝕄} {kk : PUnit → Prog (TpuEff nD τ sig (Elt F) Λ₀ .tc) α}
    (fd : Buf (Elt F) ((lDst c i).view.loc (c : Thread nD τ))) :
    iprop(records m K ∗ pts (vSl j) c fullShare (VB m c i j) ∗ pts (lDst c i) c fullShare fd
        ∗ dutyTok ER (cell c (.lo j)) r false ∗ reached ER (cell c (.lo j)) r)
      ⊢ iprop((cred (tallyAt (cell c (.lo j)) () N2048) -∗ wp frame (wpE (defs₀ (F := F)) 𝒱₀ (c : Thread nD τ) none) Set.univ (kk ⟨⟩) Q)
          -∗ wp frame (wpE (defs₀ (F := F)) 𝒱₀ (c : Thread nD τ) none) Set.univ
              (.op (.enqueueDma (vSl j) (.here (lDst c i)) (.dma (sem2 cc0_scratch6 j).sem) hsrc hdst hsem) kk) Q) := by
  iintro ⟨#HR, Hsrc, Hdst, Ht, #Hr⟩
  iapply (Rounds.wp_copy_pointsTo 𝒱₀ ER (Rd m) (c : Thread nD τ) none (src := vSl j) (dst := lDst c i) (sem := csem (.lo j))
    (κ := K (c, .lo j)) (r := r) (d := false) (q := fullShare)
    (fs := VB m c i j) (fd := fd)
    (by show false ∈ (Rd (F := F) m).duties (cell c (.lo j)) r; rw [duties_cell, dutiesK_lo j r hr]; exact Finset.mem_singleton_self _)
    () N2048 (credit_lDst c i)
    (by show (Rd (F := F) m).amount (cell c (.lo j)) r false = N2048; rw [amount_cell]; rfl)
    (by show _ ⊢ (Rd (F := F) m).payload (cell c (.lo j)) r false
        rw [payload_cell]
        show _ ⊢ iprop(pts (lDst c (chunk j r)) c fullShare (G m c) ∗ pts (vSl j) c fullShare (VB m c (chunk j r) j))
        rw [hi]; exact sep_mono_left (Entails.of_eq (land_out m c i j fd)))) $$ [Hsrc Hdst Ht]
  isplitr; · iapply (rec_inv m K (c, .lo j)); iexact HR
  isplitl [Hsrc]; · iexact Hsrc
  isplitl [Hdst]; · iexact Hdst
  isplitl [Ht]; · iexact Ht
  iexact Hr

theorem close_cell (c : Dev nD) (x : CK) (R : ℕ) (hfin : ∀ r, R ≤ r → dutiesK x r = ∅) :
    iprop(records m K ∗ atPos ER (cell c x) R ∅ 0) ⊢ (|={Set.univ}=> semVal (cell c x) 0 : sProp 𝕄) := by
  iintro ⟨#HR, Hat⟩
  iapply (Rounds.cell_close ER (Rd m) (Set.mem_univ (K (c, x))) (fun h => h) (R := R) (fun r hr => by rw [duties_cell]; exact hfin r hr))
  isplitr; · iapply (rec_inv m K (c, x)); iexact HR
  iexact Hat

end Rules4

end Cert.Kernel.AG
end
-- ==== Proof.K.BodySteps.lean ====
import proofs.«900683_g7700000000000684_dist_ag_v7x_xyz2x2x4_y_m32768_n1024_f32_1_alg».proof.Defs
import proofs.«900683_g7700000000000684_dist_ag_v7x_xyz2x2x4_y_m32768_n1024_f32_1_alg».proof.Proof.Gen.Kernel
import proofs.«900683_g7700000000000684_dist_ag_v7x_xyz2x2x4_y_m32768_n1024_f32_1_alg».proof.Proof.Gen.Kernel.Skeleton
import proofs.«900683_g7700000000000684_dist_ag_v7x_xyz2x2x4_y_m32768_n1024_f32_1_alg».proof.Proof.Gen.Kernel.Launch
import proofs.«900683_g7700000000000684_dist_ag_v7x_xyz2x2x4_y_m32768_n1024_f32_1_alg».proof.Proof.K.Mesh
import proofs.«900683_g7700000000000684_dist_ag_v7x_xyz2x2x4_y_m32768_n1024_f32_1_alg».proof.Proof.K.Sched
import proofs.«900683_g7700000000000684_dist_ag_v7x_xyz2x2x4_y_m32768_n1024_f32_1_alg».proof.Proof.K.Proto
import proofs.«900683_g7700000000000684_dist_ag_v7x_xyz2x2x4_y_m32768_n1024_f32_1_alg».proof.Proof.K.Bundles
import proofs.«900683_g7700000000000684_dist_ag_v7x_xyz2x2x4_y_m32768_n1024_f32_1_alg».proof.Proof.K.Steps
import Idealize.ShloMosaic.Lib.Pipeline.Launch
import Idealize.ShloMosaic.Lib.Pipeline.Kit
import Idealize.ShloMosaic.Lib.Tactic
import Idealize.ShloMosaic.Lib.ValueIdx

noncomputable section

namespace Cert.Kernel.AG

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : Dev nD × CK → ℕ)

omit [FloatOps F] in
theorem barPayY_of (c n : Dev nD) (h : py n = c) :
    (barPayY (F := F) n) = bigSep Finset.univ fun k : Fin 32 => iprop((∃ f, pts (yDst n k) c fullShare f) ∗ reached ER (cell c (.yr k)) 0) := by
  subst h; rfl
omit [FloatOps F] in
theorem barPayX_of (c n : Dev nD) (h : px n = c) :
    (barPayX (F := F) n) = bigSep Finset.univ fun k : Fin 32 => iprop((∃ f, pts (xBuf n k) c fullShare f) ∗ reached ER (cell c (.xr k)) 0) := by
  subst h; rfl

omit [FloatOps F] in
theorem owed_step (c : Dev nD) (n : ℕ) (t : TK) (ho : t.owed = true) (hn : t.ord = n) :
    owedSum c (Sn n) = owedSum c (Sn (n + 1)) + tallyAt (cell (payer c t) t.ck) () (amountK t.ck) := by
  rw [owedSum_erase c (mem_Sn ho hn), Sn_erase ho hn]

omit [FloatOps F] in
theorem lv_ok (x : CK) (n : ℕ) (h : lvK x < minLv n) : ∀ t ∈ Sn n, lvK x < lvK t.ck :=
  fun t ht => lt_of_lt_of_le h (lv_of_Sn ht)

theorem step_sig_bar_y (c : Dev nD) (f0 : Buf (Elt F) ((c : Thread nD τ).loc main_v1)) {W : Waits sig Unit} {α : Type} {Q : α → sProp 𝕄} {kk : PUnit → Prog (TpuEff nD τ sig (Elt F) Λ₀ .tc) α} :
    iprop(records m K ∗ owes (c : Thread nD τ) (owedSum c (Sn 0)) W ∗ tokP c (.bar false)
        ∗ bigSep Finset.univ (fun k : Fin 32 => pts (yDst (py c) k) c fullShare f0))
      ⊢ iprop((owes (c : Thread nD τ) (owedSum c (Sn 1)) W -∗ wp frame (wpE (defs₀ (F := F)) 𝒱₀ (c : Thread nD τ) none) Set.univ (kk ⟨⟩) Q)
          -∗ wp frame (wpE (defs₀ (F := F)) 𝒱₀ (c : Thread nD τ) none) Set.univ (.op (.semSignal ((py c : Dev nD) : Thread nD τ) barS 1) kk) Q) := by
  have hp : iprop(records m K ∗ bigSep Finset.univ (fun k : Fin 32 => pts (yDst (py c) k) c fullShare f0)) ⊢ payloadK m (py c) .bar 0 false := by
    show _ ⊢ barPayY (py c)
    rw [barPayY_of c (py c) (py_py c)]
    refine (sep_mono_left (BI.bigSep_of_persistent (Finset.univ : Finset (Fin 32)) (records m K))).trans ?_
    rw [← bigSep_sep']
    refine bigSep_mono fun k _ => show iprop(records m K ∗ pts (yDst (py c) k) c fullShare f0)
      ⊢ iprop((∃ f, pts (yDst (py c) k) c fullShare f) ∗ reached ER (cell c (.yr k)) 0) from ?_
    iintro ⟨#HR, H⟩
    isplitl [H]; · iexists f0; iexact H
    iapply (rec_reached m K (c, .yr k)); iexact HR
  have htok : tokP c (.bar false) ⊢ (dutyTok ER (cell (py c) .bar) 0 false : sProp 𝕄) := Entails.of_eq rfl
  iintro ⟨#HR, HO, Ht, Ho⟩
  ihave Hp := hp $$ [$HR $Ho]
  ihave Ht' := htok $$ Ht
  iapply (wp_sig m K c (py c) .bar barS rfl false (by decide) rfl (owedSum c (Sn 0)) (owedSum c (Sn 1))
    (owed_step c 0 (.bar false) rfl rfl)) $$ [$HR $HO $Ht' $Hp]

theorem step_sig_bar_x (c : Dev nD) (f0 : Buf (Elt F) ((c : Thread nD τ).loc main_v1)) {W : Waits sig Unit} {α : Type} {Q : α → sProp 𝕄} {kk : PUnit → Prog (TpuEff nD τ sig (Elt F) Λ₀ .tc) α} :
    iprop(records m K ∗ owes (c : Thread nD τ) (owedSum c (Sn 1)) W ∗ tokP c (.bar true)
        ∗ bigSep Finset.univ (fun k : Fin 32 => pts (xBuf (px c) k) c fullShare f0))
      ⊢ iprop((owes (c : Thread nD τ) (owedSum c (Sn 2)) W -∗ wp frame (wpE (defs₀ (F := F)) 𝒱₀ (c : Thread nD τ) none) Set.univ (kk ⟨⟩) Q)
          -∗ wp frame (wpE (defs₀ (F := F)) 𝒱₀ (c : Thread nD τ) none) Set.univ (.op (.semSignal ((px c : Dev nD) : Thread nD τ) barS 1) kk) Q) := by
  have hp : iprop(records m K ∗ bigSep Finset.univ (fun k : Fin 32 => pts (xBuf (px c) k) c fullShare f0)) ⊢ payloadK m (px c) .bar 0 true := by
    show _ ⊢ barPayX (px c)
    rw [barPayX_of c (px c) (px_px c)]
    refine (sep_mono_left (BI.bigSep_of_persistent (Finset.univ : Finset (Fin 32)) (records m K))).trans ?_
    rw [← bigSep_sep']
    refine bigSep_mono fun k _ => show iprop(records m K ∗ pts (xBuf (px c) k) c fullShare f0)
      ⊢ iprop((∃ f, pts (xBuf (px c) k) c fullShare f) ∗ reached ER (cell c (.xr k)) 0) from ?_
    iintro ⟨#HR, H⟩
    isplitl [H]; · iexists f0; iexact H
    iapply (rec_reached m K (c, .xr k)); iexact HR
  have htok : tokP c (.bar true) ⊢ (dutyTok ER (cell (px c) .bar) 0 true : sProp 𝕄) := Entails.of_eq rfl
  iintro ⟨#HR, HO, Ht, Ho⟩
  ihave Hp := hp $$ [$HR $Ho]
  ihave Ht' := htok $$ Ht
  iapply (wp_sig m K c (px c) .bar barS rfl true (by decide) rfl (owedSum c (Sn 1)) (owedSum c (Sn 2))
    (owed_step c 1 (.bar true) rfl rfl)) $$ [$HR $HO $Ht' $Hp]

theorem step_wait_bar (c : Dev nD) {W : Waits sig Unit} {α : Type} {Q : α → sProp 𝕄} {kk : PUnit → Prog (TpuEff nD τ sig (Elt F) Λ₀ .tc) α} :
    iprop(records m K ∗ levAts L lv ∗ cred (tallyAt (cell c .bar) () 2) ∗ owes (c : Thread nD τ) (owedSum c (Sn 2)) W ∗ atPos ER (cell c .bar) 0 ∅ 0)
      ⊢ iprop(((owes (c : Thread nD τ) (owedSum c (Sn 2)) (insert (csem .bar, ()) W)
              ∗ (bigSep (ge 32 0) fun k : Fin 32 => iprop((∃ f, pts (yDst c k) (py c) fullShare f) ∗ reached ER (cell (py c) (.yr k)) 0))
              ∗ (bigSep (ge 32 0) fun k : Fin 32 => iprop((∃ f, pts (xBuf c k) (px c) fullShare f) ∗ reached ER (cell (px c) (.xr k)) 0)))
            -∗ wp frame (wpE (defs₀ (F := F)) 𝒱₀ (c : Thread nD τ) none) Set.univ (kk ⟨⟩) Q)
          -∗ wp frame (wpE (defs₀ (F := F)) 𝒱₀ (c : Thread nD τ) none) Set.univ (.op (.semWait barS 2) kk) Q) := by
  rw [ge_zero]
  have hp1 : payloadK m c .bar 0 false
      ⊢ bigSep Finset.univ fun k : Fin 32 => iprop((∃ f, pts (yDst c k) (py c) fullShare f) ∗ reached ER (cell (py c) (.yr k)) 0) := Entails.of_eq rfl
  have hp2 : payloadK m c .bar 0 true
      ⊢ bigSep Finset.univ fun k : Fin 32 => iprop((∃ f, pts (xBuf c k) (px c) fullShare f) ∗ reached ER (cell (px c) (.xr k)) 0) := Entails.of_eq rfl
  iintro ⟨#HR, #Hlev, Hc, HO, Hat⟩ Hk
  iapply (wp_wait_hs m K c .bar barS rfl rfl rfl (Sn 2) (lv_ok .bar 2 (by decide)) W) $$ [$HR $Hlev $Hc $HO $Hat]
  iintro ⟨HO, -, Hp1, Hp2⟩
  ihave Hp1 := hp1 $$ Hp1
  ihave Hp2 := hp2 $$ Hp2
  iapply Hk $$ [$HO $Hp1 $Hp2]

theorem step_ysend (c : Dev nD) (n : ℕ) {d : Dev nD} (hd : d = py c) (hn : n < 32 := by decide) {W : Waits sig Unit}
    {hsc : ((yDst c ⟨n, hn⟩ : Memref sig .tc .hbm S512x1024 .f32) : Memref sig (Dev.tc d : Thread nD τ).2.kind .hbm S512x1024 .f32).view.ref.isScScratch = false}
    {hsrc : (ySrc c ⟨n, hn⟩).view.WordExact} {hdst : (yDst c ⟨n, hn⟩).view.WordExact}
    {hsem : DmaTarget.Typed .hbm (.dma (sem32 cc0_scratch1 ⟨n, hn⟩).sem) (.remote (Dev.tc d : Thread nD τ) (yDst c ⟨n, hn⟩) (.dma (sem32 cc0_scratch0 ⟨n, hn⟩).sem) hsc)}
    {α : Type} {Q : α → sProp 𝕄} {kk : PUnit → Prog (TpuEff nD τ sig (Elt F) Λ₀ .tc) α} :
    iprop(records m K
        ∗ (bigSep (ge 32 n) fun k : Fin 32 => pts (ySrc c k) c qY (xArr m c))
        ∗ (bigSep (ge 32 n) fun k : Fin 32 => iprop((∃ f, pts (yDst c k) (py c) fullShare f) ∗ reached ER (cell (py c) (.yr k)) 0))
        ∗ owes (c : Thread nD τ) (owedSum c (Sn (2 + n))) W
        ∗ (bigSep (ge 32 n) fun k : Fin 32 => tokP c (.ys k)) ∗ (bigSep (ge 32 n) fun k : Fin 32 => tokP c (.yr k))
        ∗ (bigSep (lt 32 n) fun k : Fin 32 => cred (tallyAt (cell c (.ys k)) () N512)))
      ⊢ iprop((((bigSep (ge 32 (n + 1)) fun k : Fin 32 => pts (ySrc c k) c qY (xArr m c))
              ∗ (bigSep (ge 32 (n + 1)) fun k : Fin 32 => iprop((∃ f, pts (yDst c k) (py c) fullShare f) ∗ reached ER (cell (py c) (.yr k)) 0))
              ∗ owes (c : Thread nD τ) (owedSum c (Sn (2 + n + 1))) W
              ∗ (bigSep (ge 32 (n + 1)) fun k : Fin 32 => tokP c (.ys k)) ∗ (bigSep (ge 32 (n + 1)) fun k : Fin 32 => tokP c (.yr k))
              ∗ (bigSep (lt 32 (n + 1)) fun k : Fin 32 => cred (tallyAt (cell c (.ys k)) () N512)))
            -∗ wp frame (wpE (defs₀ (F := F)) 𝒱₀ (c : Thread nD τ) none) Set.univ (kk ⟨⟩) Q)
          -∗ wp frame (wpE (defs₀ (F := F)) 𝒱₀ (c : Thread nD τ) none) Set.univ (.op (.enqueueDma (ySrc c ⟨n, hn⟩) (.remote (Dev.tc d : Thread nD τ) (yDst c ⟨n, hn⟩) (.dma (sem32 cc0_scratch0 ⟨n, hn⟩).sem) hsc) (.dma (sem32 cc0_scratch1 ⟨n, hn⟩).sem) hsrc hdst hsem) kk) Q) := by
  subst hd
  rw [take_ge (fun k : Fin 32 => pts (ySrc c k) c qY (xArr m c)) n hn,
    take_ge (fun k : Fin 32 => iprop((∃ f, pts (yDst c k) (py c) fullShare f) ∗ reached ER (cell (py c) (.yr k)) 0)) n hn,
    take_ge (fun k : Fin 32 => tokP c (.ys k)) n hn, take_ge (fun k : Fin 32 => tokP c (.yr k)) n hn,
    ← put_lt (fun k : Fin 32 => cred (tallyAt (cell c (.ys k)) () N512)) n hn, ← Sn_erase (t := .yr ⟨n, hn⟩) (n := 2 + n) rfl rfl]
  iintro ⟨#HR, ⟨Hx0, Hx⟩, ⟨⟨⟨%fd, Hd0⟩, -⟩, Hp⟩, HO, ⟨Hts0, Hts⟩, ⟨Htr0, Htr⟩, Hcr⟩ Hk
  iapply (wp_ysend m K c ⟨n, hn⟩ (Sn (2 + n)) (mem_Sn (t := .yr ⟨n, hn⟩) rfl rfl) fd) $$ [$HR $Hx0 $Hd0 $HO $Hts0 $Htr0]
  iintro ⟨Hc0, HO⟩
  iapply Hk $$ [$Hx $Hp $HO $Hts $Htr $Hc0 $Hcr]

omit [FloatOps F] in
theorem minLv_pos (n : ℕ) : 0 < minLv n := by unfold minLv; split_ifs <;> omega
omit [FloatOps F] in
theorem minLv_mid (n : ℕ) (h : 34 ≤ n) : 2 < minLv n := by unfold minLv; split_ifs <;> omega
omit [FloatOps F] in
theorem minLv_top (n : ℕ) (h : 66 ≤ n) : 3 < minLv n := by unfold minLv; split_ifs <;> omega
omit [FloatOps F] in
/-- A cell whose duties all lie in round 0 has none from round 1 on. -/
theorem one_round (x : CK) (h : ∀ r, dutiesK x (r + 1) = ∅) : ∀ r, 1 ≤ r → dutiesK x r = ∅ :=
  fun r hr => by cases r with | zero => omega | succ r => exact h r

/-- One wait on a family of 32 one-round transfer cells: cell `n` is consumed and closed, and its payload comes out. -/
theorem step_wait_fam (c : Dev nD) (ck : Fin 32 → CK) (sm : Fin 32 → DmaSem sig) (P : Fin 32 → sProp 𝕄) (q : ℕ)
    (hx : ∀ k, csem (ck k) = .dma (sm k)) (hdu : ∀ k, dutiesK (ck k) 0 = {false}) (hfin : ∀ k r, 1 ≤ r → dutiesK (ck k) r = ∅)
    (ham : ∀ k, amountK (ck k) = N512) (hpay : ∀ k, payloadK m c (ck k) 0 false = P k) (hq : ∀ k p, q ≤ p → lvK (ck k) < minLv p)
    (n p : ℕ) (hn : n < 32) (hp : q ≤ p) {W : Waits sig Unit}
    {sp sp' : Space} {s s' : Shape} {e e' : EltTy} {src : Memref sig .tc sp' s' e'} {κ' : Kind} {dst : Memref sig κ' sp s e}
    {hsrc : src.view.WordExact} {hdst : dst.view.WordExact} (hN : dst.view.dmaCredit = N512 := by unfold N512; rfl)
    {α : Type} {Q : α → sProp 𝕄} {kk : PUnit → Prog (TpuEff nD τ sig (Elt F) Λ₀ .tc) α} :
    iprop(records m K ∗ levAts L lv
        ∗ (bigSep (ge 32 n) fun k : Fin 32 => cred (tallyAt (cell c (ck k)) () N512))
        ∗ owes (c : Thread nD τ) (owedSum c (Sn p)) W
        ∗ (bigSep (ge 32 n) fun k : Fin 32 => atPos ER (cell c (ck k)) 0 ∅ 0)
        ∗ (bigSep (lt 32 n) fun k : Fin 32 => semVal (cell c (ck k)) 0))
      ⊢ iprop((((bigSep (ge 32 (n + 1)) fun k : Fin 32 => cred (tallyAt (cell c (ck k)) () N512))
              ∗ owes (c : Thread nD τ) (owedSum c (Sn p)) (insert (csem (ck ⟨n, hn⟩), ()) W)
              ∗ (bigSep (ge 32 (n + 1)) fun k : Fin 32 => atPos ER (cell c (ck k)) 0 ∅ 0)
              ∗ (bigSep (lt 32 (n + 1)) fun k : Fin 32 => semVal (cell c (ck k)) 0)
              ∗ P ⟨n, hn⟩)
            -∗ wp frame (wpE (defs₀ (F := F)) 𝒱₀ (c : Thread nD τ) none) Set.univ (kk ⟨⟩) Q)
          -∗ wp frame (wpE (defs₀ (F := F)) 𝒱₀ (c : Thread nD τ) none) Set.univ (.op (.waitDma2 (sm ⟨n, hn⟩) src dst hsrc hdst) kk) Q) := by
  rw [take_ge (fun k : Fin 32 => cred (tallyAt (cell c (ck k)) () N512)) n hn, take_ge (fun k : Fin 32 => atPos ER (cell c (ck k)) 0 ∅ 0) n hn,
    ← put_lt (fun k : Fin 32 => semVal (cell c (ck k)) 0) n hn]
  have hcr : (cred (tallyAt (cell c (ck ⟨n, hn⟩)) () N512) : sProp 𝕄) ⊢ cred (tallyAt (cell c (ck ⟨n, hn⟩)) () (amountK (ck ⟨n, hn⟩))) := by rw [ham]
  iintro ⟨#HR, #Hlev, ⟨Hc0, Hcr⟩, HO, ⟨Ha0, Hat⟩, Hz⟩ Hk
  ihave Hc0 := hcr $$ Hc0
  iapply (wp_wait_dma m K c (ck ⟨n, hn⟩) (sm ⟨n, hn⟩) (hx _) 0 (hdu _) (Sn p) (lv_ok _ p (hq _ p hp)) W (hN.trans (ham _).symm)) $$ [$HR $Hlev $Hc0 $HO $Ha0]
  iintro ⟨HO, Ha1, -, Hpay⟩
  imod (close_cell m K c (ck ⟨n, hn⟩) (0 + 1) (hfin _)) $$ [$HR $Ha1] with Hz0
  ihave Hpay := (Entails.of_eq (hpay ⟨n, hn⟩)) $$ Hpay
  iapply Hk $$ [$Hcr $HO $Hat $Hz0 $Hz $Hpay]

/-- The same, the payload joining the family of those already back. -/
theorem step_wait_acc (c : Dev nD) (ck : Fin 32 → CK) (sm : Fin 32 → DmaSem sig) (P : Fin 32 → sProp 𝕄) (q : ℕ)
    (hx : ∀ k, csem (ck k) = .dma (sm k)) (hdu : ∀ k, dutiesK (ck k) 0 = {false}) (hfin : ∀ k r, 1 ≤ r → dutiesK (ck k) r = ∅)
    (ham : ∀ k, amountK (ck k) = N512) (hpay : ∀ k, payloadK m c (ck k) 0 false = P k) (hq : ∀ k p, q ≤ p → lvK (ck k) < minLv p)
    (n p : ℕ) (hn : n < 32) (hp : q ≤ p) {W : Waits sig Unit}
    {sp sp' : Space} {s s' : Shape} {e e' : EltTy} {src : Memref sig .tc sp' s' e'} {κ' : Kind} {dst : Memref sig κ' sp s e}
    {hsrc : src.view.WordExact} {hdst : dst.view.WordExact} (hN : dst.view.dmaCredit = N512 := by unfold N512; rfl)
    {α : Type} {Q : α → sProp 𝕄} {kk : PUnit → Prog (TpuEff nD τ sig (Elt F) Λ₀ .tc) α} :
    iprop(records m K ∗ levAts L lv
        ∗ (bigSep (ge 32 n) fun k : Fin 32 => cred (tallyAt (cell c (ck k)) () N512))
        ∗ owes (c : Thread nD τ) (owedSum c (Sn p)) W
        ∗ (bigSep (ge 32 n) fun k : Fin 32 => atPos ER (cell c (ck k)) 0 ∅ 0)
        ∗ (bigSep (lt 32 n) fun k : Fin 32 => semVal (cell c (ck k)) 0)
        ∗ bigSep (lt 32 n) P)
      ⊢ iprop((((bigSep (ge 32 (n + 1)) fun k : Fin 32 => cred (tallyAt (cell c (ck k)) () N512))
              ∗ owes (c : Thread nD τ) (owedSum c (Sn p)) (insert (csem (ck ⟨n, hn⟩), ()) W)
              ∗ (bigSep (ge 32 (n + 1)) fun k : Fin 32 => atPos ER (cell c (ck k)) 0 ∅ 0)
              ∗ (bigSep (lt 32 (n + 1)) fun k : Fin 32 => semVal (cell c (ck k)) 0)
              ∗ bigSep (lt 32 (n + 1)) P)
            -∗ wp frame (wpE (defs₀ (F := F)) 𝒱₀ (c : Thread nD τ) none) Set.univ (kk ⟨⟩) Q)
          -∗ wp frame (wpE (defs₀ (F := F)) 𝒱₀ (c : Thread nD τ) none) Set.univ (.op (.waitDma2 (sm ⟨n, hn⟩) src dst hsrc hdst) kk) Q) := by
  rw [← put_lt P n hn]
  iintro ⟨#HR, #Hlev, Hc, HO, Ha, Hz, Hret⟩ Hk
  iapply (step_wait_fam m K c ck sm P q hx hdu hfin ham hpay hq n p hn hp hN) $$ [$HR $Hlev $Hc $HO $Ha $Hz]
  iintro ⟨Hc, HO, Ha, Hz, Hp⟩
  iapply Hk $$ [$Hc $HO $Ha $Hz $Hp $Hret]

def step_wait_yr (c : Dev nD) (n p : ℕ) (hn : n < 32 := by decide) (hp : 34 ≤ p := by decide) :=
  @step_wait_fam F _ m K c CK.yr (fun k => (sem32 cc0_scratch1 k).sem) (fun k => pts (xBuf c k) c fullShare (G m c)) 34
    (fun _ => rfl) (fun _ => rfl) (fun _ => one_round _ fun _ => rfl) (fun _ => rfl) (yr_as_xBuf m c) (fun _ => minLv_mid) n p hn hp
def step_wait_ys (c : Dev nD) (n p : ℕ) (hn : n < 32 := by decide) (hp : 34 ≤ p := by decide) :=
  @step_wait_acc F _ m K c CK.ys (fun k => (sem32 cc0_scratch0 k).sem) (fun k => pts (ySrc c k) c qY (xArr m c)) 34
    (fun _ => rfl) (fun _ => rfl) (fun _ => one_round _ fun _ => rfl) (fun _ => rfl) (fun _ => rfl) (fun _ p _ => minLv_pos p) n p hn hp
def step_wait_xs (c : Dev nD) (n p : ℕ) (hn : n < 32 := by decide) (hp : 34 ≤ p := by decide) :=
  @step_wait_acc F _ m K c CK.xs (fun k => (sem32 cc0_scratch2 k).sem) (fun k => pts (xBuf c k) c fullShare (G m c)) 34
    (fun _ => rfl) (fun _ => rfl) (fun _ => one_round _ fun _ => rfl) (fun _ => rfl) (fun _ => rfl) (fun _ p _ => minLv_pos p) n p hn hp
def step_wait_xr (c : Dev nD) (n p : ℕ) (hn : n < 32 := by decide) (hp : 66 ≤ p := by decide) :=
  @step_wait_acc F _ m K c CK.xr (fun k => (sem32 cc0_scratch3 k).sem) (fun k => pts (xBuf (px c) k) c fullShare (G m c)) 66
    (fun _ => rfl) (fun _ => rfl) (fun _ => one_round _ fun _ => rfl) (fun _ => rfl) (fun _ => rfl) (fun _ => minLv_top) n p hn hp

theorem step_xsend (c : Dev nD) (n : ℕ) {d : Dev nD} (hd : d = px c) (hn : n < 32 := by decide) {W : Waits sig Unit}
    {hsc : ((xBuf c ⟨n, hn⟩ : Memref sig .tc .hbm S512x1024 .f32) : Memref sig (Dev.tc d : Thread nD τ).2.kind .hbm S512x1024 .f32).view.ref.isScScratch = false}
    {hsrc : (xBuf c ⟨n, hn⟩).view.WordExact} {hdst : (xBuf c ⟨n, hn⟩).view.WordExact}
    {hsem : DmaTarget.Typed .hbm (.dma (sem32 cc0_scratch3 ⟨n, hn⟩).sem) (.remote (Dev.tc d : Thread nD τ) (xBuf c ⟨n, hn⟩) (.dma (sem32 cc0_scratch2 ⟨n, hn⟩).sem) hsc)}
    {α : Type} {Q : α → sProp 𝕄} {kk : PUnit → Prog (TpuEff nD τ sig (Elt F) Λ₀ .tc) α} :
    iprop(records m K
        ∗ pts (xBuf c ⟨n, hn⟩) c fullShare (G m c)
        ∗ (bigSep (ge 32 n) fun k : Fin 32 => iprop((∃ f, pts (xBuf c k) (px c) fullShare f) ∗ reached ER (cell (px c) (.xr k)) 0))
        ∗ owes (c : Thread nD τ) (owedSum c (Sn (34 + n))) W
        ∗ (bigSep (ge 32 n) fun k : Fin 32 => tokP c (.xs k)) ∗ (bigSep (ge 32 n) fun k : Fin 32 => tokP c (.xr k))
        ∗ (bigSep (lt 32 n) fun k : Fin 32 => cred (tallyAt (cell c (.xs k)) () N512)))
      ⊢ iprop((((bigSep (ge 32 (n + 1)) fun k : Fin 32 => iprop((∃ f, pts (xBuf c k) (px c) fullShare f) ∗ reached ER (cell (px c) (.xr k)) 0))
              ∗ owes (c : Thread nD τ) (owedSum c (Sn (34 + n + 1))) W
              ∗ (bigSep (ge 32 (n + 1)) fun k : Fin 32 => tokP c (.xs k)) ∗ (bigSep (ge 32 (n + 1)) fun k : Fin 32 => tokP c (.xr k))
              ∗ (bigSep (lt 32 (n + 1)) fun k : Fin 32 => cred (tallyAt (cell c (.xs k)) () N512)))
            -∗ wp frame (wpE (defs₀ (F := F)) 𝒱₀ (c : Thread nD τ) none) Set.univ (kk ⟨⟩) Q)
          -∗ wp frame (wpE (defs₀ (F := F)) 𝒱₀ (c : Thread nD τ) none) Set.univ (.op (.enqueueDma (xBuf c ⟨n, hn⟩) (.remote (Dev.tc d : Thread nD τ) (xBuf c ⟨n, hn⟩) (.dma (sem32 cc0_scratch2 ⟨n, hn⟩).sem) hsc) (.dma (sem32 cc0_scratch3 ⟨n, hn⟩).sem) hsrc hdst hsem) kk) Q) := by
  subst hd
  rw [take_ge (fun k : Fin 32 => iprop((∃ f, pts (xBuf c k) (px c) fullShare f) ∗ reached ER (cell (px c) (.xr k)) 0)) n hn,
    take_ge (fun k : Fin 32 => tokP c (.xs k)) n hn, take_ge (fun k : Fin 32 => tokP c (.xr k)) n hn,
    ← put_lt (fun k : Fin 32 => cred (tallyAt (cell c (.xs k)) () N512)) n hn, ← Sn_erase (t := .xr ⟨n, hn⟩) (n := 34 + n) rfl rfl]
  iintro ⟨#HR, Hx0, ⟨⟨⟨%fd, Hd0⟩, -⟩, Hp⟩, HO, ⟨Hts0, Hts⟩, ⟨Htr0, Htr⟩, Hcr⟩ Hk
  iapply (wp_xsend m K c ⟨n, hn⟩ (Sn (34 + n)) (mem_Sn (t := .xr ⟨n, hn⟩) rfl rfl) fd) $$ [$HR $Hx0 $Hd0 $HO $Hts0 $Htr0]
  iintro ⟨Hc0, HO⟩
  iapply Hk $$ [$Hp $HO $Hts $Htr $Hc0 $Hcr]

end Cert.Kernel.AG
end
-- ==== Proof.K.BodyStepsB.lean ====
import proofs.«900683_g7700000000000684_dist_ag_v7x_xyz2x2x4_y_m32768_n1024_f32_1_alg».proof.Defs
import proofs.«900683_g7700000000000684_dist_ag_v7x_xyz2x2x4_y_m32768_n1024_f32_1_alg».proof.Proof.Gen.Kernel
import proofs.«900683_g7700000000000684_dist_ag_v7x_xyz2x2x4_y_m32768_n1024_f32_1_alg».proof.Proof.Gen.Kernel.Skeleton
import proofs.«900683_g7700000000000684_dist_ag_v7x_xyz2x2x4_y_m32768_n1024_f32_1_alg».proof.Proof.Gen.Kernel.Launch
import proofs.«900683_g7700000000000684_dist_ag_v7x_xyz2x2x4_y_m32768_n1024_f32_1_alg».proof.Proof.K.Mesh
import proofs.«900683_g7700000000000684_dist_ag_v7x_xyz2x2x4_y_m32768_n1024_f32_1_alg».proof.Proof.K.Sched
import proofs.«900683_g7700000000000684_dist_ag_v7x_xyz2x2x4_y_m32768_n1024_f32_1_alg».proof.Proof.K.Proto
import proofs.«900683_g7700000000000684_dist_ag_v7x_xyz2x2x4_y_m32768_n1024_f32_1_alg».proof.Proof.K.Bundles
import proofs.«900683_g7700000000000684_dist_ag_v7x_xyz2x2x4_y_m32768_n1024_f32_1_alg».proof.Proof.K.Steps
import proofs.«900683_g7700000000000684_dist_ag_v7x_xyz2x2x4_y_m32768_n1024_f32_1_alg».proof.Proof.K.BodySteps
import Idealize.ShloMosaic.Lib.Pipeline.Launch
import Idealize.ShloMosaic.Lib.Pipeline.Kit
import Idealize.ShloMosaic.Lib.Tactic
import Idealize.ShloMosaic.Lib.ValueIdx

noncomputable section

namespace Cert.Kernel.AG

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : Dev nD × CK → ℕ)

omit [FloatOps F] in
private theorem payloadK_li (c : Dev nD) (j : Fin 2) (r : ℕ) (d : Bool) :
    payloadK (F := F) m c (.li j) r d = iprop(pts (vSl j) c fullShare (VB m c (chunk j r) j) ∗ pts (lSrc (chunk j r)) c qL (xArr m c)) := rfl
omit [FloatOps F] in
private theorem payloadK_lo (c : Dev nD) (j : Fin 2) (r : ℕ) (d : Bool) :
    payloadK (F := F) m c (.lo j) r d = iprop(pts (lDst c (chunk j r)) c fullShare (G m c) ∗ pts (vSl j) c fullShare (VB m c (chunk j r) j)) := rfl
omit [FloatOps F] in
private theorem payloadK_bar2 (c : Dev nD) (r : ℕ) (d : Bool) : payloadK (F := F) m c .bar2 r d = iprop(emp) := rfl

theorem step_in_start (c : Dev nD) (i : ℕ) (j : Fin 2) (r : ℕ) (hi16 : i < 16 := by decide) (hr : r < 8 := by decide) (hi : chunk j r = ⟨i, hi16⟩ := by rfl)
    {hsrc : (lSrc ⟨i, hi16⟩).view.WordExact} {hdst : (vSl j).view.WordExact}
    {hsem : DmaTarget.Typed .hbm (.dma (sem2 cc0_scratch5 j).sem) (.here (vSl j) : DmaTarget nD τ sig .tc .vmem S2048x1024 .f32)}
    {fd : Buf (Elt F) ((vSl j).view.loc (c : Thread nD τ))} {α : Type} {Q : α → sProp 𝕄} {kk : PUnit → Prog (TpuEff nD τ sig (Elt F) Λ₀ .tc) α} :
    iprop(records m K
        ∗ (bigSep (ge 16 i) fun i : Fin 16 => pts (lSrc i) c qL (xArr m c))
        ∗ pts (vSl j) c fullShare fd
        ∗ (bigSep (ge 8 r) fun r : Fin 8 => tokP c (.li j r))
        ∗ reached ER (cell c (.li j)) r)
      ⊢ iprop((((bigSep (ge 16 (i + 1)) fun i : Fin 16 => pts (lSrc i) c qL (xArr m c))
              ∗ (bigSep (ge 8 (r + 1)) fun r : Fin 8 => tokP c (.li j r))
              ∗ cred (tallyAt (cell c (.li j)) () NV))
            -∗ wp frame (wpE (defs₀ (F := F)) 𝒱₀ (c : Thread nD τ) none) Set.univ (kk ⟨⟩) Q)
          -∗ wp frame (wpE (defs₀ (F := F)) 𝒱₀ (c : Thread nD τ) none) Set.univ (.op (.enqueueDma (lSrc ⟨i, hi16⟩) (.here (vSl j)) (.dma (sem2 cc0_scratch5 j).sem) hsrc hdst hsem) kk) Q) := by
  have e : (tokP (F := F) c (.li j ⟨r, hr⟩) : sProp 𝕄) = dutyTok ER (cell c (.li j)) r false := rfl
  rw [take_ge (fun i : Fin 16 => pts (lSrc i) c qL (xArr m c)) i hi16, take_ge (fun r : Fin 8 => tokP c (.li j r)) r hr, e]
  iintro ⟨#HR, ⟨Hx0, Hx⟩, Hv, ⟨Ht0, Ht⟩, #Hr⟩ Hk
  iapply (wp_copy_in m K c ⟨i, hi16⟩ j r hr hi fd) $$ [$HR $Hx0 $Hv $Ht0 $Hr]
  iintro Hc
  iapply Hk $$ [$Hx $Ht $Hc]

theorem step_in_wait (c : Dev nD) (i : ℕ) (j : Fin 2) (r p : ℕ) (hi16 : i < 16 := by decide) (hr : r < 8 := by decide) (hi : chunk j r = ⟨i, hi16⟩ := by rfl)
    {W : Waits sig Unit}
    {sp sp' : Space} {s s' : Shape} {e e' : EltTy} {src : Memref sig .tc sp' s' e'} {κ' : Kind} {dst : Memref sig κ' sp s e}
    {hsrc : src.view.WordExact} {hdst : dst.view.WordExact} (hN : dst.view.dmaCredit = NV := by unfold NV; rfl) {α : Type} {Q : α → sProp 𝕄} {kk : PUnit → Prog (TpuEff nD τ sig (Elt F) Λ₀ .tc) α} :
    iprop(records m K ∗ levAts L lv ∗ cred (tallyAt (cell c (.li j)) () NV) ∗ owes (c : Thread nD τ) (owedSum c (Sn p)) W
        ∗ atPos ER (cell c (.li j)) r ∅ 0
        ∗ (bigSep (lt 16 i) fun i : Fin 16 => pts (lSrc i) c qL (xArr m c)))
      ⊢ iprop(((owes (c : Thread nD τ) (owedSum c (Sn p)) (insert (csem (.li j), ()) W)
              ∗ atPos ER (cell c (.li j)) (r + 1) ∅ 0 ∗ reached ER (cell c (.li j)) (r + 1)
              ∗ pts (vSl j) c fullShare (VB m c ⟨i, hi16⟩ j)
              ∗ (bigSep (lt 16 (i + 1)) fun i : Fin 16 => pts (lSrc i) c qL (xArr m c)))
            -∗ wp frame (wpE (defs₀ (F := F)) 𝒱₀ (c : Thread nD τ) none) Set.univ (kk ⟨⟩) Q)
          -∗ wp frame (wpE (defs₀ (F := F)) 𝒱₀ (c : Thread nD τ) none) Set.univ (.op (.waitDma2 (sem2 cc0_scratch5 j).sem src dst hsrc hdst) kk) Q) := by
  rw [← put_lt (fun i : Fin 16 => pts (lSrc i) c qL (xArr m c)) i hi16]
  iintro ⟨#HR, #Hlev, Hc, HO, Hat, Hrl⟩ Hk
  iapply (wp_wait_dma m K c (.li j) (sem2 cc0_scratch5 j).sem rfl r (dutiesK_li j r hr) (Sn p)
      (lv_ok (.li j) p (minLv_pos p)) W hN) $$ [Hc HO Hat]
  · rw [show amountK (CK.li j) = NV from rfl]; iframe HR Hlev ∗
  rw [payloadK_li, hi]
  iintro ⟨HO, Hat, #Hr, Hv, Hx0⟩
  iapply Hk $$ [$HO $Hat $Hr $Hv $Hx0 $Hrl]

theorem step_out_start (c : Dev nD) (i : ℕ) (j : Fin 2) (r : ℕ) (hi16 : i < 16 := by decide) (hr : r < 8 := by decide) (hi : chunk j r = ⟨i, hi16⟩ := by rfl)
    {f0 : Buf (Elt F) ((c : Thread nD τ).loc main_v1)}
    {hsrc : (vSl j).view.WordExact} {hdst : (lDst c ⟨i, hi16⟩).view.WordExact}
    {hsem : DmaTarget.Typed .vmem (.dma (sem2 cc0_scratch6 j).sem) (.here (lDst c ⟨i, hi16⟩) : DmaTarget nD τ sig .tc .hbm S2048x1024 .f32)} {α : Type} {Q : α → sProp 𝕄} {kk : PUnit → Prog (TpuEff nD τ sig (Elt F) Λ₀ .tc) α} :
    iprop(records m K
        ∗ pts (vSl j) c fullShare (VB m c ⟨i, hi16⟩ j)
        ∗ (bigSep (ge 16 i) fun i : Fin 16 => pts (lDst c i) c fullShare f0)
        ∗ (bigSep (ge 8 r) fun r : Fin 8 => tokP c (.lo j r))
        ∗ reached ER (cell c (.lo j)) r)
      ⊢ iprop((((bigSep (ge 16 (i + 1)) fun i : Fin 16 => pts (lDst c i) c fullShare f0)
              ∗ (bigSep (ge 8 (r + 1)) fun r : Fin 8 => tokP c (.lo j r))
              ∗ cred (tallyAt (cell c (.lo j)) () N2048))
            -∗ wp frame (wpE (defs₀ (F := F)) 𝒱₀ (c : Thread nD τ) none) Set.univ (kk ⟨⟩) Q)
          -∗ wp frame (wpE (defs₀ (F := F)) 𝒱₀ (c : Thread nD τ) none) Set.univ (.op (.enqueueDma (vSl j) (.here (lDst c ⟨i, hi16⟩)) (.dma (sem2 cc0_scratch6 j).sem) hsrc hdst hsem) kk) Q) := by
  have e : (tokP (F := F) c (.lo j ⟨r, hr⟩) : sProp 𝕄) = dutyTok ER (cell c (.lo j)) r false := rfl
  rw [take_ge (fun i : Fin 16 => pts (lDst c i) c fullShare f0) i hi16, take_ge (fun r : Fin 8 => tokP c (.lo j r)) r hr, e]
  iintro ⟨#HR, Hv, ⟨Ho0, Ho⟩, ⟨Ht0, Ht⟩, #Hr⟩ Hk
  iapply (wp_copy_out m K c ⟨i, hi16⟩ j r hr hi f0) $$ [$HR $Hv $Ho0 $Ht0 $Hr]
  iintro Hc
  iapply Hk $$ [$Ho $Ht $Hc]

theorem step_out_wait (c : Dev nD) (i : ℕ) (j : Fin 2) (r p : ℕ) (hi16 : i < 16 := by decide) (hr : r < 8 := by decide) (hi : chunk j r = ⟨i, hi16⟩ := by rfl)
    {W : Waits sig Unit}
    {sp sp' : Space} {s s' : Shape} {e e' : EltTy} {src : Memref sig .tc sp' s' e'} {κ' : Kind} {dst : Memref sig κ' sp s e}
    {hsrc : src.view.WordExact} {hdst : dst.view.WordExact} (hN : dst.view.dmaCredit = N2048 := by unfold N2048; rfl) {α : Type} {Q : α → sProp 𝕄} {kk : PUnit → Prog (TpuEff nD τ sig (Elt F) Λ₀ .tc) α} :
    iprop(records m K ∗ levAts L lv ∗ cred (tallyAt (cell c (.lo j)) () N2048) ∗ owes (c : Thread nD τ) (owedSum c (Sn p)) W
        ∗ atPos ER (cell c (.lo j)) r ∅ 0
        ∗ (bigSep (lt 16 i) fun i : Fin 16 => pts (lDst c i) c fullShare (G m c)))
      ⊢ iprop(((owes (c : Thread nD τ) (owedSum c (Sn p)) (insert (csem (.lo j), ()) W)
              ∗ atPos ER (cell c (.lo j)) (r + 1) ∅ 0 ∗ reached ER (cell c (.lo j)) (r + 1)
              ∗ pts (vSl j) c fullShare (VB m c ⟨i, hi16⟩ j)
              ∗ (bigSep (lt 16 (i + 1)) fun i : Fin 16 => pts (lDst c i) c fullShare (G m c)))
            -∗ wp frame (wpE (defs₀ (F := F)) 𝒱₀ (c : Thread nD τ) none) Set.univ (kk ⟨⟩) Q)
          -∗ wp frame (wpE (defs₀ (F := F)) 𝒱₀ (c : Thread nD τ) none) Set.univ (.op (.waitDma2 (sem2 cc0_scratch6 j).sem src dst hsrc hdst) kk) Q) := by
  rw [← put_lt (fun i : Fin 16 => pts (lDst c i) c fullShare (G m c)) i hi16]
  iintro ⟨#HR, #Hlev, Hc, HO, Hat, Hro⟩ Hk
  iapply (wp_wait_dma m K c (.lo j) (sem2 cc0_scratch6 j).sem rfl r (dutiesK_lo j r hr) (Sn p)
      (lv_ok (.lo j) p (minLv_pos p)) W hN) $$ [Hc HO Hat]
  · rw [show amountK (CK.lo j) = N2048 from rfl]; iframe HR Hlev ∗
  rw [payloadK_lo, hi]
  iintro ⟨HO, Hat, #Hr, Ho0, Hv⟩
  iapply Hk $$ [$HO $Hat $Hr $Hv $Ho0 $Hro]

theorem step_sig_bar2 (c : Dev nD) (d : Bool) (n : ℕ) (hn : (TK.bar2 d).ord = n) {W : Waits sig Unit} {α : Type} {Q : α → sProp 𝕄} {kk : PUnit → Prog (TpuEff nD τ sig (Elt F) Λ₀ .tc) α} :
    iprop(records m K ∗ owes (c : Thread nD τ) (owedSum c (Sn n)) W ∗ tokP c (.bar2 d))
      ⊢ iprop((owes (c : Thread nD τ) (owedSum c (Sn (n + 1))) W -∗ wp frame (wpE (defs₀ (F := F)) 𝒱₀ (c : Thread nD τ) none) Set.univ (kk ⟨⟩) Q)
          -∗ wp frame (wpE (defs₀ (F := F)) 𝒱₀ (c : Thread nD τ) none) Set.univ (.op (.semSignal ((payer c (.bar2 d) : Dev nD) : Thread nD τ) bar2S 1) kk) Q) := by
  have e : (tokP (F := F) c (.bar2 d) : sProp 𝕄) = dutyTok ER (cell (payer c (.bar2 d)) .bar2) 0 d := rfl
  rw [e]
  iintro ⟨#HR, HO, Ht⟩
  iapply (wp_sig m K c (payer c (.bar2 d)) .bar2 bar2S rfl d (Finset.mem_univ _) rfl (owedSum c (Sn n)) (owedSum c (Sn (n + 1)))
    (owed_step c n (.bar2 d) rfl hn) W) $$ [HO Ht]
  isplitr; · iexact HR
  isplitl [HO]; · iexact HO
  isplitl [Ht]; · iexact Ht
  rw [payloadK_bar2]; iempintro

theorem step_wait_bar2 (c : Dev nD) {W : Waits sig Unit} {α : Type} {Q : α → sProp 𝕄} {kk : PUnit → Prog (TpuEff nD τ sig (Elt F) Λ₀ .tc) α} :
    iprop(records m K ∗ levAts L lv ∗ cred (tallyAt (cell c .bar2) () 2) ∗ owes (c : Thread nD τ) (owedSum c (Sn 68)) W ∗ atPos ER (cell c .bar2) 0 ∅ 0)
      ⊢ iprop(((owes (c : Thread nD τ) 0 (insert (csem .bar2, ()) W) ∗ semVal (cell c .bar2) 0)
            -∗ wp frame (wpE (defs₀ (F := F)) 𝒱₀ (c : Thread nD τ) none) Set.univ (kk ⟨⟩) Q)
          -∗ wp frame (wpE (defs₀ (F := F)) 𝒱₀ (c : Thread nD τ) none) Set.univ (.op (.semWait bar2S 2) kk) Q) := by
  have h0 : (0 : CellTallies nD τ sig Unit) = owedSum c (Sn 68) := by rw [Sn_top]; unfold owedSum; exact Finset.sum_empty.symm
  rw [h0]
  iintro ⟨#HR, #Hlev, Hc, HO, Hat⟩ Hk
  iapply (wp_wait_hs m K c .bar2 bar2S rfl rfl rfl (Sn 68) (fun t ht => by rw [Sn_top] at ht; exact absurd ht (Finset.notMem_empty t)) W) $$ [$HR $Hlev $Hc $HO $Hat]
  rw [payloadK_bar2 m c 0 false, payloadK_bar2 m c 0 true]
  iintro ⟨HO, Ha1, -, -⟩
  imod (close_cell m K c .bar2 1 (fun r hr => by cases r with | zero => omega | succ r => rfl)) $$ [$HR $Ha1] with Hz
  iapply Hk $$ [$HO $Hz]

end Cert.Kernel.AG
end
-- ==== Proof.K.Loop.lean ====
import proofs.«900683_g7700000000000684_dist_ag_v7x_xyz2x2x4_y_m32768_n1024_f32_1_alg».proof.Defs
import proofs.«900683_g7700000000000684_dist_ag_v7x_xyz2x2x4_y_m32768_n1024_f32_1_alg».proof.Proof.Gen.Kernel
import proofs.«900683_g7700000000000684_dist_ag_v7x_xyz2x2x4_y_m32768_n1024_f32_1_alg».proof.Proof.Gen.Kernel.Skeleton
import proofs.«900683_g7700000000000684_dist_ag_v7x_xyz2x2x4_y_m32768_n1024_f32_1_alg».proof.Proof.Gen.Kernel.Launch
import proofs.«900683_g7700000000000684_dist_ag_v7x_xyz2x2x4_y_m32768_n1024_f32_1_alg».proof.Proof.K.Mesh
import proofs.«900683_g7700000000000684_dist_ag_v7x_xyz2x2x4_y_m32768_n1024_f32_1_alg».proof.Proof.K.Sched
import proofs.«900683_g7700000000000684_dist_ag_v7x_xyz2x2x4_y_m32768_n1024_f32_1_alg».proof.Proof.K.Proto
import proofs.«900683_g7700000000000684_dist_ag_v7x_xyz2x2x4_y_m32768_n1024_f32_1_alg».proof.Proof.K.Bundles
import proofs.«900683_g7700000000000684_dist_ag_v7x_xyz2x2x4_y_m32768_n1024_f32_1_alg».proof.Proof.K.Steps
import proofs.«900683_g7700000000000684_dist_ag_v7x_xyz2x2x4_y_m32768_n1024_f32_1_alg».proof.Proof.K.BodySteps
import Idealize.ShloMosaic.Lib.Pipeline.Launch
import Idealize.ShloMosaic.Lib.Pipeline.Kit
import Idealize.ShloMosaic.Lib.Tactic
import Idealize.ShloMosaic.Lib.ValueIdx

noncomputable section

namespace Cert.Kernel.AG

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : Dev nD × CK → ℕ)

variable {α : Type}

/-- `Chain S rest n N p`: the program `p` is the blocks `n`, …, `N - 1`, each of the shape `S`, and then `rest`. -/
inductive Chain (S : ℕ → Prog (TpuEff nD τ sig (Elt F) Λ₀ .tc) α → Prog (TpuEff nD τ sig (Elt F) Λ₀ .tc) α → Prop) (rest : Prog (TpuEff nD τ sig (Elt F) Λ₀ .tc) α) : ℕ → ℕ → Prog (TpuEff nD τ sig (Elt F) Λ₀ .tc) α → Prop
  | nil {n : ℕ} : Chain S rest n n rest
  | cons {n N : ℕ} {p q : Prog (TpuEff nD τ sig (Elt F) Λ₀ .tc) α} : S n p q → Chain S rest (n + 1) N q → Chain S rest n N p

/-- An invariant that every block carries from its index to the next is carried along the whole chain. -/
theorem chain_wp {S : ℕ → Prog (TpuEff nD τ sig (Elt F) Λ₀ .tc) α → Prog (TpuEff nD τ sig (Elt F) Λ₀ .tc) α → Prop} (c : Dev nD) {I : ℕ → sProp 𝕄} {Q : α → sProp 𝕄}
    (hS : ∀ n p q, S n p q → I n ⊢ iprop((I (n + 1) -∗ wp frame (wpE (defs₀ (F := F)) 𝒱₀ (c : Thread nD τ) none) Set.univ q Q) -∗ wp frame (wpE (defs₀ (F := F)) 𝒱₀ (c : Thread nD τ) none) Set.univ p Q))
    {rest : Prog (TpuEff nD τ sig (Elt F) Λ₀ .tc) α} {n N : ℕ} {p : Prog (TpuEff nD τ sig (Elt F) Λ₀ .tc) α} (h : Chain S rest n N p) :
    I n ⊢ iprop((I N -∗ wp frame (wpE (defs₀ (F := F)) 𝒱₀ (c : Thread nD τ) none) Set.univ rest Q) -∗ wp frame (wpE (defs₀ (F := F)) 𝒱₀ (c : Thread nD τ) none) Set.univ p Q) := by
  induction h with
  | nil => iintro H Hk; iapply Hk $$ H
  | cons hs _ ih =>
    iintro H Hk
    iapply (hS _ _ _ hs) $$ H
    iintro H
    iapply ih $$ H Hk

/-- What a family of 32 one-round transfer cells holds once the first `n` of them have been waited for. -/
def fam (c : Dev nD) (ck : Fin 32 → CK) (P : Fin 32 → sProp 𝕄) (n : ℕ) : sProp 𝕄 :=
  iprop((bigSep (ge 32 n) fun k : Fin 32 => cred (tallyAt (cell c (ck k)) () N512))
    ∗ (bigSep (ge 32 n) fun k : Fin 32 => atPos ER (cell c (ck k)) 0 ∅ 0)
    ∗ (bigSep (lt 32 n) fun k : Fin 32 => semVal (cell c (ck k)) 0) ∗ bigSep (lt 32 n) P)

/-- Block `n` of the last stage: chunk `n` has left for the `y` peer, has left for the `x` peer, and has come from the `x` peer. -/
inductive DrainBlk : ℕ → Prog (TpuEff nD τ sig (Elt F) Λ₀ .tc) α → Prog (TpuEff nD τ sig (Elt F) Λ₀ .tc) α → Prop
  | mk {n : ℕ} (hn : n < 32) {q : Prog (TpuEff nD τ sig (Elt F) Λ₀ .tc) α}
      {sp1 sp1' : Space} {s1 s1' : Shape} {e1 e1' : EltTy} {src1 : Memref sig .tc sp1' s1' e1'} {κ1 : Kind} {dst1 : Memref sig κ1 sp1 s1 e1}
      {hs1 : src1.view.WordExact} {hd1 : dst1.view.WordExact} (h1 : dst1.view.dmaCredit = N512)
      {sp2 sp2' : Space} {s2 s2' : Shape} {e2 e2' : EltTy} {src2 : Memref sig .tc sp2' s2' e2'} {κ2 : Kind} {dst2 : Memref sig κ2 sp2 s2 e2}
      {hs2 : src2.view.WordExact} {hd2 : dst2.view.WordExact} (h2 : dst2.view.dmaCredit = N512)
      {sp3 sp3' : Space} {s3 s3' : Shape} {e3 e3' : EltTy} {src3 : Memref sig .tc sp3' s3' e3'} {κ3 : Kind} {dst3 : Memref sig κ3 sp3 s3 e3}
      {hs3 : src3.view.WordExact} {hd3 : dst3.view.WordExact} (h3 : dst3.view.dmaCredit = N512) :
      DrainBlk n (.op (.waitDma2 (sem32 cc0_scratch0 ⟨n, hn⟩).sem src1 dst1 hs1 hd1) fun _ =>
        .op (.waitDma2 (sem32 cc0_scratch2 ⟨n, hn⟩).sem src2 dst2 hs2 hd2) fun _ =>
        .op (.waitDma2 (sem32 cc0_scratch3 ⟨n, hn⟩).sem src3 dst3 hs3 hd3) fun _ => q) q

def drainI (c : Dev nD) (n : ℕ) : sProp 𝕄 :=
  iprop(records m K ∗ levAts L lv ∗ (∃ W, owes (c : Thread nD τ) (owedSum c (Sn 66)) W)
    ∗ fam c CK.ys (fun k => pts (ySrc c k) c qY (xArr m c)) n
    ∗ fam c CK.xs (fun k => pts (xBuf c k) c fullShare (G m c)) n
    ∗ fam c CK.xr (fun k => pts (xBuf (px c) k) c fullShare (G m c)) n)

theorem drain_wp (c : Dev nD) {Q : α → sProp 𝕄} (n : ℕ) (p q : Prog (TpuEff nD τ sig (Elt F) Λ₀ .tc) α) (h : DrainBlk (F := F) n p q) :
    drainI m K c n ⊢ iprop((drainI m K c (n + 1) -∗ wp frame (wpE (defs₀ (F := F)) 𝒱₀ (c : Thread nD τ) none) Set.univ q Q) -∗ wp frame (wpE (defs₀ (F := F)) 𝒱₀ (c : Thread nD τ) none) Set.univ p Q) := by
  cases h with
  | mk hn h1 h2 h3 =>
    unfold drainI fam
    iintro ⟨#HR, #Hlev, ⟨%W, HO⟩, ⟨Hc1, Ha1, Hz1, Hr1⟩, ⟨Hc2, Ha2, Hz2, Hr2⟩, ⟨Hc3, Ha3, Hz3, Hr3⟩⟩ Hk
    iapply (step_wait_ys m K c n 66 hn (by decide) (hN := h1)) $$ [$HR $Hlev $Hc1 $HO $Ha1 $Hz1 $Hr1]
    iintro ⟨Hc1, HO, Ha1, Hz1, Hr1⟩
    iapply (step_wait_xs m K c n 66 hn (by decide) (hN := h2)) $$ [$HR $Hlev $Hc2 $HO $Ha2 $Hz2 $Hr2]
    iintro ⟨Hc2, HO, Ha2, Hz2, Hr2⟩
    iapply (step_wait_xr m K c n 66 hn (by decide) (hN := h3)) $$ [$HR $Hlev $Hc3 $HO $Ha3 $Hz3 $Hr3]
    iintro ⟨Hc3, HO, Ha3, Hz3, Hr3⟩
    iapply Hk
    iframe HR Hlev ∗
    iexists _; iexact HO

/-- Block `n` of the first stage: chunk `n` of this device's own block leaves for the `y` peer. -/
inductive YSendBlk (c : Dev nD) : ℕ → Prog (TpuEff nD τ sig (Elt F) Λ₀ .tc) α → Prog (TpuEff nD τ sig (Elt F) Λ₀ .tc) α → Prop
  | mk {n : ℕ} (hn : n < 32) {d : Dev nD} (hd : d = py c) {q : Prog (TpuEff nD τ sig (Elt F) Λ₀ .tc) α}
      {hsc : ((yDst c ⟨n, hn⟩ : Memref sig .tc .hbm S512x1024 .f32) : Memref sig (Dev.tc d : Thread nD τ).2.kind .hbm S512x1024 .f32).view.ref.isScScratch = false}
      {hsrc : (ySrc c ⟨n, hn⟩).view.WordExact} {hdst : (yDst c ⟨n, hn⟩).view.WordExact}
      {hsem : DmaTarget.Typed .hbm (.dma (sem32 cc0_scratch1 ⟨n, hn⟩).sem) (.remote (Dev.tc d : Thread nD τ) (yDst c ⟨n, hn⟩) (.dma (sem32 cc0_scratch0 ⟨n, hn⟩).sem) hsc)} :
      YSendBlk c n (.op (.enqueueDma (ySrc c ⟨n, hn⟩) (.remote (Dev.tc d : Thread nD τ) (yDst c ⟨n, hn⟩) (.dma (sem32 cc0_scratch0 ⟨n, hn⟩).sem) hsc)
        (.dma (sem32 cc0_scratch1 ⟨n, hn⟩).sem) hsrc hdst hsem) fun _ => q) q

def ysendI (c : Dev nD) (W : Waits sig Unit) (n : ℕ) : sProp 𝕄 :=
  iprop(records m K
    ∗ (bigSep (ge 32 n) fun k : Fin 32 => pts (ySrc c k) c qY (xArr m c))
    ∗ (bigSep (ge 32 n) fun k : Fin 32 => iprop((∃ f, pts (yDst c k) (py c) fullShare f) ∗ reached ER (cell (py c) (.yr k)) 0))
    ∗ owes (c : Thread nD τ) (owedSum c (Sn (2 + n))) W
    ∗ (bigSep (ge 32 n) fun k : Fin 32 => tokP c (.ys k)) ∗ (bigSep (ge 32 n) fun k : Fin 32 => tokP c (.yr k))
    ∗ (bigSep (lt 32 n) fun k : Fin 32 => cred (tallyAt (cell c (.ys k)) () N512)))

theorem ysend_wp (c : Dev nD) (W : Waits sig Unit) {Q : α → sProp 𝕄} (n : ℕ) (p q : Prog (TpuEff nD τ sig (Elt F) Λ₀ .tc) α) (h : YSendBlk (F := F) c n p q) :
    ysendI m K c W n ⊢ iprop((ysendI m K c W (n + 1) -∗ wp frame (wpE (defs₀ (F := F)) 𝒱₀ (c : Thread nD τ) none) Set.univ q Q) -∗ wp frame (wpE (defs₀ (F := F)) 𝒱₀ (c : Thread nD τ) none) Set.univ p Q) := by
  cases h with
  | mk hn hd =>
    unfold ysendI
    rw [show 2 + (n + 1) = 2 + n + 1 from rfl]
    iintro ⟨#HR, H⟩ Hk
    iapply (step_ysend m K c n hd hn) $$ [$HR $H]
    iintro H
    iapply Hk $$ [$HR $H]

end Cert.Kernel.AG
end
-- ==== Proof.K.Body.lean ====
import proofs.«900683_g7700000000000684_dist_ag_v7x_xyz2x2x4_y_m32768_n1024_f32_1_alg».proof.Defs
import proofs.«900683_g7700000000000684_dist_ag_v7x_xyz2x2x4_y_m32768_n1024_f32_1_alg».proof.Proof.Gen.Kernel
import proofs.«900683_g7700000000000684_dist_ag_v7x_xyz2x2x4_y_m32768_n1024_f32_1_alg».proof.Proof.Gen.Kernel.Skeleton
import proofs.«900683_g7700000000000684_dist_ag_v7x_xyz2x2x4_y_m32768_n1024_f32_1_alg».proof.Proof.Gen.Kernel.Launch
import proofs.«900683_g7700000000000684_dist_ag_v7x_xyz2x2x4_y_m32768_n1024_f32_1_alg».proof.Proof.K.Mesh
import proofs.«900683_g7700000000000684_dist_ag_v7x_xyz2x2x4_y_m32768_n1024_f32_1_alg».proof.Proof.K.Sched
import proofs.«900683_g7700000000000684_dist_ag_v7x_xyz2x2x4_y_m32768_n1024_f32_1_alg».proof.Proof.K.Proto
import proofs.«900683_g7700000000000684_dist_ag_v7x_xyz2x2x4_y_m32768_n1024_f32_1_alg».proof.Proof.K.Bundles
import proofs.«900683_g7700000000000684_dist_ag_v7x_xyz2x2x4_y_m32768_n1024_f32_1_alg».proof.Proof.K.Regions
import proofs.«900683_g7700000000000684_dist_ag_v7x_xyz2x2x4_y_m32768_n1024_f32_1_alg».proof.Proof.K.Values
import proofs.«900683_g7700000000000684_dist_ag_v7x_xyz2x2x4_y_m32768_n1024_f32_1_alg».proof.Proof.K.Split
import proofs.«900683_g7700000000000684_dist_ag_v7x_xyz2x2x4_y_m32768_n1024_f32_1_alg».proof.Proof.K.Steps
import proofs.«900683_g7700000000000684_dist_ag_v7x_xyz2x2x4_y_m32768_n1024_f32_1_alg».proof.Proof.K.BodySteps
import proofs.«900683_g7700000000000684_dist_ag_v7x_xyz2x2x4_y_m32768_n1024_f32_1_alg».proof.Proof.K.BodyStepsB
import proofs.«900683_g7700000000000684_dist_ag_v7x_xyz2x2x4_y_m32768_n1024_f32_1_alg».proof.Proof.K.Loop
import Idealize.ShloMosaic.Lib.Pipeline.Launch
import Idealize.ShloMosaic.Lib.Pipeline.Kit
import Idealize.ShloMosaic.Lib.Tactic
import Idealize.ShloMosaic.Lib.ValueIdx

noncomputable section

namespace Cert.Kernel.AG

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

omit [FloatOps F] in
theorem lt_full_ge {N : ℕ} (Φ : Fin N → sProp 𝕄) : bigSep (lt N N) Φ ⊢ bigSep (ge N 0) Φ := by rw [lt_top, ge_zero]
omit [FloatOps F] in
theorem lt_full {N : ℕ} (Φ : Fin N → sProp 𝕄) : bigSep (lt N N) Φ ⊢ bigSep Finset.univ Φ := by rw [lt_top]
omit [FloatOps F] in
theorem univ_ge {N : ℕ} (Φ : Fin N → sProp 𝕄) : bigSep Finset.univ Φ ⊢ bigSep (ge N 0) Φ := by rw [ge_zero]
omit [FloatOps F] in
theorem lt_none {N : ℕ} (Φ : Fin N → sProp 𝕄) : (emp : sProp 𝕄) ⊢ bigSep (lt N 0) Φ := by rw [lt_zero, bigSep_empty]; exact BI.Entails.refl _

theorem fam_xs_to_yr (c : Dev nD) :
    (bigSep Finset.univ fun k : Fin 32 => pts (xBuf c k) c fullShare (G m c) : sProp 𝕄)
      ⊢ bigSep Finset.univ fun k : Fin 32 => pts (yDst (py c) k) c fullShare (G m c) :=
  bigSep_mono fun k _ => Entails.of_eq (yr_as_xBuf m c k).symm

theorem owesAt_done (c : Dev nD) (W' : Waits sig Unit) :
    (owes (c : Thread nD τ) (0 : CellTallies nD τ sig Unit) W' : sProp 𝕄) ⊢ (dats m 0 c).owesAt () t₀.succ := by
  unfold Dat.owesAt Pipeline.owesWithin
  rw [show (dats m 0 c).owed t₀.succ = 0 from rfl]
  iintro H
  iexists W'
  isplitr; · ipureintro; exact fun _ _ => Or.inl trivial
  iexact H

set_option maxHeartbeats 2000000 in
set_option maxRecDepth 100000 in
theorem sound_body (K : Dev nD × CK → ℕ) (c : Dev nD) (Kt : PUnit → sProp 𝕄) :
    iprop(bodyPre m K c ∗ (bodyPost m c -∗ Kt ⟨⟩)) ⊢ wp frame (wpE (defs₀ (F := F)) 𝒱₀ c none) Set.univ (bodyProg (F := F)) Kt := by
  unfold bodyProg
  simp only [cc0_body_eq_skeleton, cc0_body_skel, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part1_skel, k0_part2_skel, k0_part3_skel, k0_part4_skel, k0_part5_skel, k0_part6_skel, k0_part7_skel, k0_part8_skel, k0_part9_skel, k0_part10_skel, k0_part11_skel, k0_part12_skel, k0_part13_skel, k0_part14_skel, k0_part15_skel, k0_part16_skel, k0_part17_skel, k0_part18_skel, k0_part19_skel, k0_part20_skel, k0_part21_skel, k0_part22_skel, k0_part23_skel, k0_part24_skel, k0_part25_skel, k0_part26_skel, k0_part27_skel, k0_part28_skel, k0_part29_skel, k0_part30_skel, k0_part31_skel, k0_part32_skel, k0_part33_skel, k0_part34_skel, k0_part35_skel, k0_part36_skel, k0_part37_skel, k0_part38_skel, k0_part39_skel, k0_part40_skel, k0_part41_skel, k0_part42_skel, k0_part43_skel, k0_part44_skel, k0_part45_skel, k0_part46_skel, k0_part47_skel, k0_part48_skel, k0_part49_skel, k0_part50_skel, k0_part51_skel, k0_part52_skel, k0_part53_skel, k0_part54_skel, k0_part55_skel, k0_part56_skel, k0_part57_skel, k0_part58_skel, k0_part59_skel, k0_part60_skel, k0_part61_skel, k0_part62_skel, k0_part63_skel, k0_part64_skel, k0_part65_skel, k0_part66_skel, k0_part67_skel, k0_part68_skel, k0_part69_skel, k0_part70_skel, k0_part71_skel]
  simp only [semSignalWord, semWaitWord, Prog.lift, Prog.bind_op, Prog.bind_ret, Prog.pure_eq_ret, wp_deviceId]
  simp only [dev_y c (k0_dev1_eq c), dev_x c (k0_dev2_eq c), dev_y c (k0_dev67_eq c), dev_x c (k0_dev68_eq c)]
  unfold bodyPre ghost creds
  iintro ⟨⟨⟨#HR, Hpos, Htok⟩, ⟨HcB, HcB2, HcYR, HcXR⟩, #Hlev, Hx, Ho, ⟨%fv, Hv⟩, Howes⟩, Hk⟩
  unfold Dat.owesAt Pipeline.owesWithin
  icases Howes with ⟨%W, %hW, HO⟩
  rw [show (dats m 0 c).owed t₀.castSucc = owedSum c (Sn 0) from by rw [Sn_zero]; rfl]

  ihave Htk := (toks_split c) $$ Htok
  unfold toksK
  icases Htk with ⟨Htb0, Htb1, Htc0, Htc1, HtYS, HtYR, HtXS, HtXR, HtLI0, HtLI1, HtLO0, HtLO1⟩
  ihave Hps := (pos_split c) $$ Hpos
  unfold posK
  icases Hps with ⟨HaB, HaB2, HaYS, HaYR, HaXS, HaXR, HaLI0, HaLI1, HaLO0, HaLO1⟩

  ihave Ho3 := (out_split c _).1 $$ Ho
  icases Ho3 with ⟨HoL, HoY, HoX⟩
  ihave Hx2 := (x_share c _).1 $$ Hx
  icases Hx2 with ⟨HxYw, HxLw⟩
  ihave HxY2 := (x_split_Y c _ _).1 $$ HxYw
  icases HxY2 with ⟨HxY, HxYrest⟩
  ihave HxL := (x_split_L c _ _).1 $$ HxLw
  ihave Hv2 := (v_split c fv).1 $$ Hv
  icases Hv2 with ⟨Hv0, Hv1⟩

  ihave HtYS := (univ_ge _) $$ HtYS
  ihave HtYR := (univ_ge _) $$ HtYR
  ihave HtXS := (univ_ge _) $$ HtXS
  ihave HtXR := (univ_ge _) $$ HtXR
  ihave HtLI0 := (univ_ge _) $$ HtLI0
  ihave HtLI1 := (univ_ge _) $$ HtLI1
  ihave HtLO0 := (univ_ge _) $$ HtLO0
  ihave HtLO1 := (univ_ge _) $$ HtLO1
  ihave HaYS := (univ_ge _) $$ HaYS
  ihave HaYR := (univ_ge _) $$ HaYR
  ihave HaXS := (univ_ge _) $$ HaXS
  ihave HaXR := (univ_ge _) $$ HaXR
  ihave HcYR := (univ_ge _) $$ HcYR
  ihave HcXR := (univ_ge _) $$ HcXR
  ihave HxY := (univ_ge _) $$ HxY
  ihave HxL := (univ_ge _) $$ HxL
  ihave HoL := (univ_ge _) $$ HoL
  ihave HcYS := (lt_none (N := 32) fun k : Fin 32 => cred (tallyAt (cell c (.ys k)) () N512)) $$ []
  · iempintro
  ihave HcXS := (lt_none (N := 32) fun k : Fin 32 => cred (tallyAt (cell c (.xs k)) () N512)) $$ []
  · iempintro
  ihave HzYS := (lt_none (N := 32) fun k : Fin 32 => semVal (cell c (.ys k)) 0) $$ []
  · iempintro
  ihave HzYR := (lt_none (N := 32) fun k : Fin 32 => semVal (cell c (.yr k)) 0) $$ []
  · iempintro
  ihave HzXS := (lt_none (N := 32) fun k : Fin 32 => semVal (cell c (.xs k)) 0) $$ []
  · iempintro
  ihave HzXR := (lt_none (N := 32) fun k : Fin 32 => semVal (cell c (.xr k)) 0) $$ []
  · iempintro
  ihave HrYS := (lt_none (N := 32) fun k : Fin 32 => pts (ySrc c k) c qY (xArr m c)) $$ []
  · iempintro
  ihave HrXS := (lt_none (N := 32) fun k : Fin 32 => pts (xBuf c k) c fullShare (G m c)) $$ []
  · iempintro
  ihave HrXR := (lt_none (N := 32) fun k : Fin 32 => pts (xBuf (px c) k) c fullShare (G m c)) $$ []
  · iempintro
  ihave HrL := (lt_none (N := 16) fun i : Fin 16 => pts (lSrc i) c qL (xArr m c)) $$ []
  · iempintro
  ihave HrO := (lt_none (N := 16) fun i : Fin 16 => pts (lDst c i) c fullShare (G m c)) $$ []
  · iempintro
  ihave #HrLI0 := (rec_reached m K (c, .li 0)) $$ HR
  ihave #HrLI1 := (rec_reached m K (c, .li 1)) $$ HR
  ihave #HrLO0 := (rec_reached m K (c, .lo 0)) $$ HR
  ihave #HrLO1 := (rec_reached m K (c, .lo 1)) $$ HR

  iapply (step_sig_bar_y m K c _) $$ [HO Htb0 HoY]
  · iframe HR ∗
  iintro HO
  iapply (step_sig_bar_x m K c _) $$ [HO Htb1 HoX]
  · iframe HR ∗
  iintro HO
  iapply (step_wait_bar m K c) $$ [HcB HO HaB]
  · iframe HR Hlev ∗
  iintro ⟨HO, HpY, HpX⟩
  iapply (chain_wp c (ysend_wp m K c _) (n := 0) (N := 32) (by repeat first | exact .nil | apply Chain.cons (YSendBlk.mk (by decide) (dev_y c (by simp only [k0_dev3_eq, k0_dev4_eq, k0_dev5_eq, k0_dev6_eq, k0_dev7_eq, k0_dev8_eq, k0_dev9_eq, k0_dev10_eq, k0_dev11_eq, k0_dev12_eq, k0_dev13_eq, k0_dev14_eq, k0_dev15_eq, k0_dev16_eq, k0_dev17_eq, k0_dev18_eq, k0_dev19_eq, k0_dev20_eq, k0_dev21_eq, k0_dev22_eq, k0_dev23_eq, k0_dev24_eq, k0_dev25_eq, k0_dev26_eq, k0_dev27_eq, k0_dev28_eq, k0_dev29_eq, k0_dev30_eq, k0_dev31_eq, k0_dev32_eq, k0_dev33_eq, k0_dev34_eq]) _))))
    $$ [HxY HpY HO HtYS HtYR HcYS]
  · unfold ysendI; iframe HR ∗
  unfold ysendI
  iintro ⟨-, HxY, HpY, HO, HtYS, HtYR, HcYS⟩
  iapply (step_wait_yr m K c 0 34) $$ [HcYR HO HaYR HzYR]
  · iframe HR Hlev ∗
  iintro ⟨HcYR, HO, HaYR, HzYR, Hgot⟩
  iapply (step_xsend m K c 0 (dev_x c (k0_dev35_eq c) _)) $$ [Hgot HpX HO HtXS HtXR HcXS]
  · iframe HR ∗
  iintro ⟨HpX, HO, HtXS, HtXR, HcXS⟩
  iapply (step_in_start m K c 0 0 0) $$ [HxL Hv0 HtLI0]
  · iframe HR HrLI0 ∗
  iintro ⟨HxL, HtLI0, HcLI0⟩
  iapply (step_in_wait m K c 0 0 0 35) $$ [HcLI0 HO HaLI0 HrL]
  · iframe HR Hlev ∗
  iintro ⟨HO, HaLI0, #HrLI0, Hv0, HrL⟩
  iapply (step_out_start m K c 0 0 0) $$ [Hv0 HoL HtLO0]
  · iframe HR HrLO0 ∗
  iintro ⟨HoL, HtLO0, HcLO0⟩
  iapply (step_in_start m K c 1 1 0) $$ [HxL Hv1 HtLI1]
  · iframe HR HrLI1 ∗
  iintro ⟨HxL, HtLI1, HcLI1⟩
  iapply (step_wait_yr m K c 1 35) $$ [HcYR HO HaYR HzYR]
  · iframe HR Hlev ∗
  iintro ⟨HcYR, HO, HaYR, HzYR, Hgot⟩
  iapply (step_xsend m K c 1 (dev_x c (k0_dev36_eq c) _)) $$ [Hgot HpX HO HtXS HtXR HcXS]
  · iframe HR ∗
  iintro ⟨HpX, HO, HtXS, HtXR, HcXS⟩
  iapply (step_in_wait m K c 1 1 0 36) $$ [HcLI1 HO HaLI1 HrL]
  · iframe HR Hlev ∗
  iintro ⟨HO, HaLI1, #HrLI1, Hv1, HrL⟩
  iapply (step_out_start m K c 1 1 0) $$ [Hv1 HoL HtLO1]
  · iframe HR HrLO1 ∗
  iintro ⟨HoL, HtLO1, HcLO1⟩
  iapply (step_out_wait m K c 0 0 0 36) $$ [HcLO0 HO HaLO0 HrO]
  · iframe HR Hlev ∗
  iintro ⟨HO, HaLO0, #HrLO0, Hv0, HrO⟩
  iapply (step_in_start m K c 2 0 1) $$ [HxL Hv0 HtLI0]
  · iframe HR HrLI0 ∗
  iintro ⟨HxL, HtLI0, HcLI0⟩
  iapply (step_wait_yr m K c 2 36) $$ [HcYR HO HaYR HzYR]
  · iframe HR Hlev ∗
  iintro ⟨HcYR, HO, HaYR, HzYR, Hgot⟩
  iapply (step_xsend m K c 2 (dev_x c (k0_dev37_eq c) _)) $$ [Hgot HpX HO HtXS HtXR HcXS]
  · iframe HR ∗
  iintro ⟨HpX, HO, HtXS, HtXR, HcXS⟩
  iapply (step_in_wait m K c 2 0 1 37) $$ [HcLI0 HO HaLI0 HrL]
  · iframe HR Hlev ∗
  iintro ⟨HO, HaLI0, #HrLI0, Hv0, HrL⟩
  iapply (step_out_start m K c 2 0 1) $$ [Hv0 HoL HtLO0]
  · iframe HR HrLO0 ∗
  iintro ⟨HoL, HtLO0, HcLO0⟩
  iapply (step_out_wait m K c 1 1 0 37) $$ [HcLO1 HO HaLO1 HrO]
  · iframe HR Hlev ∗
  iintro ⟨HO, HaLO1, #HrLO1, Hv1, HrO⟩
  iapply (step_in_start m K c 3 1 1) $$ [HxL Hv1 HtLI1]
  · iframe HR HrLI1 ∗
  iintro ⟨HxL, HtLI1, HcLI1⟩
  iapply (step_wait_yr m K c 3 37) $$ [HcYR HO HaYR HzYR]
  · iframe HR Hlev ∗
  iintro ⟨HcYR, HO, HaYR, HzYR, Hgot⟩
  iapply (step_xsend m K c 3 (dev_x c (k0_dev38_eq c) _)) $$ [Hgot HpX HO HtXS HtXR HcXS]
  · iframe HR ∗
  iintro ⟨HpX, HO, HtXS, HtXR, HcXS⟩
  iapply (step_in_wait m K c 3 1 1 38) $$ [HcLI1 HO HaLI1 HrL]
  · iframe HR Hlev ∗
  iintro ⟨HO, HaLI1, #HrLI1, Hv1, HrL⟩
  iapply (step_out_start m K c 3 1 1) $$ [Hv1 HoL HtLO1]
  · iframe HR HrLO1 ∗
  iintro ⟨HoL, HtLO1, HcLO1⟩
  iapply (step_out_wait m K c 2 0 1 38) $$ [HcLO0 HO HaLO0 HrO]
  · iframe HR Hlev ∗
  iintro ⟨HO, HaLO0, #HrLO0, Hv0, HrO⟩
  iapply (step_in_start m K c 4 0 2) $$ [HxL Hv0 HtLI0]
  · iframe HR HrLI0 ∗
  iintro ⟨HxL, HtLI0, HcLI0⟩
  iapply (step_wait_yr m K c 4 38) $$ [HcYR HO HaYR HzYR]
  · iframe HR Hlev ∗
  iintro ⟨HcYR, HO, HaYR, HzYR, Hgot⟩
  iapply (step_xsend m K c 4 (dev_x c (k0_dev39_eq c) _)) $$ [Hgot HpX HO HtXS HtXR HcXS]
  · iframe HR ∗
  iintro ⟨HpX, HO, HtXS, HtXR, HcXS⟩
  iapply (step_in_wait m K c 4 0 2 39) $$ [HcLI0 HO HaLI0 HrL]
  · iframe HR Hlev ∗
  iintro ⟨HO, HaLI0, #HrLI0, Hv0, HrL⟩
  iapply (step_out_start m K c 4 0 2) $$ [Hv0 HoL HtLO0]
  · iframe HR HrLO0 ∗
  iintro ⟨HoL, HtLO0, HcLO0⟩
  iapply (step_out_wait m K c 3 1 1 39) $$ [HcLO1 HO HaLO1 HrO]
  · iframe HR Hlev ∗
  iintro ⟨HO, HaLO1, #HrLO1, Hv1, HrO⟩
  iapply (step_in_start m K c 5 1 2) $$ [HxL Hv1 HtLI1]
  · iframe HR HrLI1 ∗
  iintro ⟨HxL, HtLI1, HcLI1⟩
  iapply (step_wait_yr m K c 5 39) $$ [HcYR HO HaYR HzYR]
  · iframe HR Hlev ∗
  iintro ⟨HcYR, HO, HaYR, HzYR, Hgot⟩
  iapply (step_xsend m K c 5 (dev_x c (k0_dev40_eq c) _)) $$ [Hgot HpX HO HtXS HtXR HcXS]
  · iframe HR ∗
  iintro ⟨HpX, HO, HtXS, HtXR, HcXS⟩
  iapply (step_in_wait m K c 5 1 2 40) $$ [HcLI1 HO HaLI1 HrL]
  · iframe HR Hlev ∗
  iintro ⟨HO, HaLI1, #HrLI1, Hv1, HrL⟩
  iapply (step_out_start m K c 5 1 2) $$ [Hv1 HoL HtLO1]
  · iframe HR HrLO1 ∗
  iintro ⟨HoL, HtLO1, HcLO1⟩
  iapply (step_out_wait m K c 4 0 2 40) $$ [HcLO0 HO HaLO0 HrO]
  · iframe HR Hlev ∗
  iintro ⟨HO, HaLO0, #HrLO0, Hv0, HrO⟩
  iapply (step_in_start m K c 6 0 3) $$ [HxL Hv0 HtLI0]
  · iframe HR HrLI0 ∗
  iintro ⟨HxL, HtLI0, HcLI0⟩
  iapply (step_wait_yr m K c 6 40) $$ [HcYR HO HaYR HzYR]
  · iframe HR Hlev ∗
  iintro ⟨HcYR, HO, HaYR, HzYR, Hgot⟩
  iapply (step_xsend m K c 6 (dev_x c (k0_dev41_eq c) _)) $$ [Hgot HpX HO HtXS HtXR HcXS]
  · iframe HR ∗
  iintro ⟨HpX, HO, HtXS, HtXR, HcXS⟩
  iapply (step_in_wait m K c 6 0 3 41) $$ [HcLI0 HO HaLI0 HrL]
  · iframe HR Hlev ∗
  iintro ⟨HO, HaLI0, #HrLI0, Hv0, HrL⟩
  iapply (step_out_start m K c 6 0 3) $$ [Hv0 HoL HtLO0]
  · iframe HR HrLO0 ∗
  iintro ⟨HoL, HtLO0, HcLO0⟩
  iapply (step_out_wait m K c 5 1 2 41) $$ [HcLO1 HO HaLO1 HrO]
  · iframe HR Hlev ∗
  iintro ⟨HO, HaLO1, #HrLO1, Hv1, HrO⟩
  iapply (step_in_start m K c 7 1 3) $$ [HxL Hv1 HtLI1]
  · iframe HR HrLI1 ∗
  iintro ⟨HxL, HtLI1, HcLI1⟩
  iapply (step_wait_yr m K c 7 41) $$ [HcYR HO HaYR HzYR]
  · iframe HR Hlev ∗
  iintro ⟨HcYR, HO, HaYR, HzYR, Hgot⟩
  iapply (step_xsend m K c 7 (dev_x c (k0_dev42_eq c) _)) $$ [Hgot HpX HO HtXS HtXR HcXS]
  · iframe HR ∗
  iintro ⟨HpX, HO, HtXS, HtXR, HcXS⟩
  iapply (step_in_wait m K c 7 1 3 42) $$ [HcLI1 HO HaLI1 HrL]
  · iframe HR Hlev ∗
  iintro ⟨HO, HaLI1, #HrLI1, Hv1, HrL⟩
  iapply (step_out_start m K c 7 1 3) $$ [Hv1 HoL HtLO1]
  · iframe HR HrLO1 ∗
  iintro ⟨HoL, HtLO1, HcLO1⟩
  iapply (step_out_wait m K c 6 0 3 42) $$ [HcLO0 HO HaLO0 HrO]
  · iframe HR Hlev ∗
  iintro ⟨HO, HaLO0, #HrLO0, Hv0, HrO⟩
  iapply (step_in_start m K c 8 0 4) $$ [HxL Hv0 HtLI0]
  · iframe HR HrLI0 ∗
  iintro ⟨HxL, HtLI0, HcLI0⟩
  iapply (step_wait_yr m K c 8 42) $$ [HcYR HO HaYR HzYR]
  · iframe HR Hlev ∗
  iintro ⟨HcYR, HO, HaYR, HzYR, Hgot⟩
  iapply (step_xsend m K c 8 (dev_x c (k0_dev43_eq c) _)) $$ [Hgot HpX HO HtXS HtXR HcXS]
  · iframe HR ∗
  iintro ⟨HpX, HO, HtXS, HtXR, HcXS⟩
  iapply (step_in_wait m K c 8 0 4 43) $$ [HcLI0 HO HaLI0 HrL]
  · iframe HR Hlev ∗
  iintro ⟨HO, HaLI0, #HrLI0, Hv0, HrL⟩
  iapply (step_out_start m K c 8 0 4) $$ [Hv0 HoL HtLO0]
  · iframe HR HrLO0 ∗
  iintro ⟨HoL, HtLO0, HcLO0⟩
  iapply (step_out_wait m K c 7 1 3 43) $$ [HcLO1 HO HaLO1 HrO]
  · iframe HR Hlev ∗
  iintro ⟨HO, HaLO1, #HrLO1, Hv1, HrO⟩
  iapply (step_in_start m K c 9 1 4) $$ [HxL Hv1 HtLI1]
  · iframe HR HrLI1 ∗
  iintro ⟨HxL, HtLI1, HcLI1⟩
  iapply (step_wait_yr m K c 9 43) $$ [HcYR HO HaYR HzYR]
  · iframe HR Hlev ∗
  iintro ⟨HcYR, HO, HaYR, HzYR, Hgot⟩
  iapply (step_xsend m K c 9 (dev_x c (k0_dev44_eq c) _)) $$ [Hgot HpX HO HtXS HtXR HcXS]
  · iframe HR ∗
  iintro ⟨HpX, HO, HtXS, HtXR, HcXS⟩
  iapply (step_in_wait m K c 9 1 4 44) $$ [HcLI1 HO HaLI1 HrL]
  · iframe HR Hlev ∗
  iintro ⟨HO, HaLI1, #HrLI1, Hv1, HrL⟩
  iapply (step_out_start m K c 9 1 4) $$ [Hv1 HoL HtLO1]
  · iframe HR HrLO1 ∗
  iintro ⟨HoL, HtLO1, HcLO1⟩
  iapply (step_out_wait m K c 8 0 4 44) $$ [HcLO0 HO HaLO0 HrO]
  · iframe HR Hlev ∗
  iintro ⟨HO, HaLO0, #HrLO0, Hv0, HrO⟩
  iapply (step_in_start m K c 10 0 5) $$ [HxL Hv0 HtLI0]
  · iframe HR HrLI0 ∗
  iintro ⟨HxL, HtLI0, HcLI0⟩
  iapply (step_wait_yr m K c 10 44) $$ [HcYR HO HaYR HzYR]
  · iframe HR Hlev ∗
  iintro ⟨HcYR, HO, HaYR, HzYR, Hgot⟩
  iapply (step_xsend m K c 10 (dev_x c (k0_dev45_eq c) _)) $$ [Hgot HpX HO HtXS HtXR HcXS]
  · iframe HR ∗
  iintro ⟨HpX, HO, HtXS, HtXR, HcXS⟩
  iapply (step_in_wait m K c 10 0 5 45) $$ [HcLI0 HO HaLI0 HrL]
  · iframe HR Hlev ∗
  iintro ⟨HO, HaLI0, #HrLI0, Hv0, HrL⟩
  iapply (step_out_start m K c 10 0 5) $$ [Hv0 HoL HtLO0]
  · iframe HR HrLO0 ∗
  iintro ⟨HoL, HtLO0, HcLO0⟩
  iapply (step_out_wait m K c 9 1 4 45) $$ [HcLO1 HO HaLO1 HrO]
  · iframe HR Hlev ∗
  iintro ⟨HO, HaLO1, #HrLO1, Hv1, HrO⟩
  iapply (step_in_start m K c 11 1 5) $$ [HxL Hv1 HtLI1]
  · iframe HR HrLI1 ∗
  iintro ⟨HxL, HtLI1, HcLI1⟩
  iapply (step_wait_yr m K c 11 45) $$ [HcYR HO HaYR HzYR]
  · iframe HR Hlev ∗
  iintro ⟨HcYR, HO, HaYR, HzYR, Hgot⟩
  iapply (step_xsend m K c 11 (dev_x c (k0_dev46_eq c) _)) $$ [Hgot HpX HO HtXS HtXR HcXS]
  · iframe HR ∗
  iintro ⟨HpX, HO, HtXS, HtXR, HcXS⟩
  iapply (step_in_wait m K c 11 1 5 46) $$ [HcLI1 HO HaLI1 HrL]
  · iframe HR Hlev ∗
  iintro ⟨HO, HaLI1, #HrLI1, Hv1, HrL⟩
  iapply (step_out_start m K c 11 1 5) $$ [Hv1 HoL HtLO1]
  · iframe HR HrLO1 ∗
  iintro ⟨HoL, HtLO1, HcLO1⟩
  iapply (step_out_wait m K c 10 0 5 46) $$ [HcLO0 HO HaLO0 HrO]
  · iframe HR Hlev ∗
  iintro ⟨HO, HaLO0, #HrLO0, Hv0, HrO⟩
  iapply (step_in_start m K c 12 0 6) $$ [HxL Hv0 HtLI0]
  · iframe HR HrLI0 ∗
  iintro ⟨HxL, HtLI0, HcLI0⟩
  iapply (step_wait_yr m K c 12 46) $$ [HcYR HO HaYR HzYR]
  · iframe HR Hlev ∗
  iintro ⟨HcYR, HO, HaYR, HzYR, Hgot⟩
  iapply (step_xsend m K c 12 (dev_x c (k0_dev47_eq c) _)) $$ [Hgot HpX HO HtXS HtXR HcXS]
  · iframe HR ∗
  iintro ⟨HpX, HO, HtXS, HtXR, HcXS⟩
  iapply (step_in_wait m K c 12 0 6 47) $$ [HcLI0 HO HaLI0 HrL]
  · iframe HR Hlev ∗
  iintro ⟨HO, HaLI0, #HrLI0, Hv0, HrL⟩
  iapply (step_out_start m K c 12 0 6) $$ [Hv0 HoL HtLO0]
  · iframe HR HrLO0 ∗
  iintro ⟨HoL, HtLO0, HcLO0⟩
  iapply (step_out_wait m K c 11 1 5 47) $$ [HcLO1 HO HaLO1 HrO]
  · iframe HR Hlev ∗
  iintro ⟨HO, HaLO1, #HrLO1, Hv1, HrO⟩
  iapply (step_in_start m K c 13 1 6) $$ [HxL Hv1 HtLI1]
  · iframe HR HrLI1 ∗
  iintro ⟨HxL, HtLI1, HcLI1⟩
  iapply (step_wait_yr m K c 13 47) $$ [HcYR HO HaYR HzYR]
  · iframe HR Hlev ∗
  iintro ⟨HcYR, HO, HaYR, HzYR, Hgot⟩
  iapply (step_xsend m K c 13 (dev_x c (k0_dev48_eq c) _)) $$ [Hgot HpX HO HtXS HtXR HcXS]
  · iframe HR ∗
  iintro ⟨HpX, HO, HtXS, HtXR, HcXS⟩
  iapply (step_in_wait m K c 13 1 6 48) $$ [HcLI1 HO HaLI1 HrL]
  · iframe HR Hlev ∗
  iintro ⟨HO, HaLI1, #HrLI1, Hv1, HrL⟩
  iapply (step_out_start m K c 13 1 6) $$ [Hv1 HoL HtLO1]
  · iframe HR HrLO1 ∗
  iintro ⟨HoL, HtLO1, HcLO1⟩
  iapply (step_out_wait m K c 12 0 6 48) $$ [HcLO0 HO HaLO0 HrO]
  · iframe HR Hlev ∗
  iintro ⟨HO, HaLO0, #HrLO0, Hv0, HrO⟩
  iapply (step_in_start m K c 14 0 7) $$ [HxL Hv0 HtLI0]
  · iframe HR HrLI0 ∗
  iintro ⟨HxL, HtLI0, HcLI0⟩
  iapply (step_wait_yr m K c 14 48) $$ [HcYR HO HaYR HzYR]
  · iframe HR Hlev ∗
  iintro ⟨HcYR, HO, HaYR, HzYR, Hgot⟩
  iapply (step_xsend m K c 14 (dev_x c (k0_dev49_eq c) _)) $$ [Hgot HpX HO HtXS HtXR HcXS]
  · iframe HR ∗
  iintro ⟨HpX, HO, HtXS, HtXR, HcXS⟩
  iapply (step_in_wait m K c 14 0 7 49) $$ [HcLI0 HO HaLI0 HrL]
  · iframe HR Hlev ∗
  iintro ⟨HO, HaLI0, #HrLI0, Hv0, HrL⟩
  iapply (step_out_start m K c 14 0 7) $$ [Hv0 HoL HtLO0]
  · iframe HR HrLO0 ∗
  iintro ⟨HoL, HtLO0, HcLO0⟩
  iapply (step_out_wait m K c 13 1 6 49) $$ [HcLO1 HO HaLO1 HrO]
  · iframe HR Hlev ∗
  iintro ⟨HO, HaLO1, #HrLO1, Hv1, HrO⟩
  iapply (step_in_start m K c 15 1 7) $$ [HxL Hv1 HtLI1]
  · iframe HR HrLI1 ∗
  iintro ⟨HxL, HtLI1, HcLI1⟩
  iapply (step_wait_yr m K c 15 49) $$ [HcYR HO HaYR HzYR]
  · iframe HR Hlev ∗
  iintro ⟨HcYR, HO, HaYR, HzYR, Hgot⟩
  iapply (step_xsend m K c 15 (dev_x c (k0_dev50_eq c) _)) $$ [Hgot HpX HO HtXS HtXR HcXS]
  · iframe HR ∗
  iintro ⟨HpX, HO, HtXS, HtXR, HcXS⟩
  iapply (step_in_wait m K c 15 1 7 50) $$ [HcLI1 HO HaLI1 HrL]
  · iframe HR Hlev ∗
  iintro ⟨HO, HaLI1, #HrLI1, Hv1, HrL⟩
  iapply (step_out_start m K c 15 1 7) $$ [Hv1 HoL HtLO1]
  · iframe HR HrLO1 ∗
  iintro ⟨HoL, HtLO1, HcLO1⟩
  iapply (step_wait_yr m K c 16 50) $$ [HcYR HO HaYR HzYR]
  · iframe HR Hlev ∗
  iintro ⟨HcYR, HO, HaYR, HzYR, Hgot⟩
  iapply (step_xsend m K c 16 (dev_x c (k0_dev51_eq c) _)) $$ [Hgot HpX HO HtXS HtXR HcXS]
  · iframe HR ∗
  iintro ⟨HpX, HO, HtXS, HtXR, HcXS⟩
  iapply (step_wait_yr m K c 17 51) $$ [HcYR HO HaYR HzYR]
  · iframe HR Hlev ∗
  iintro ⟨HcYR, HO, HaYR, HzYR, Hgot⟩
  iapply (step_xsend m K c 17 (dev_x c (k0_dev52_eq c) _)) $$ [Hgot HpX HO HtXS HtXR HcXS]
  · iframe HR ∗
  iintro ⟨HpX, HO, HtXS, HtXR, HcXS⟩
  iapply (step_wait_yr m K c 18 52) $$ [HcYR HO HaYR HzYR]
  · iframe HR Hlev ∗
  iintro ⟨HcYR, HO, HaYR, HzYR, Hgot⟩
  iapply (step_xsend m K c 18 (dev_x c (k0_dev53_eq c) _)) $$ [Hgot HpX HO HtXS HtXR HcXS]
  · iframe HR ∗
  iintro ⟨HpX, HO, HtXS, HtXR, HcXS⟩
  iapply (step_wait_yr m K c 19 53) $$ [HcYR HO HaYR HzYR]
  · iframe HR Hlev ∗
  iintro ⟨HcYR, HO, HaYR, HzYR, Hgot⟩
  iapply (step_xsend m K c 19 (dev_x c (k0_dev54_eq c) _)) $$ [Hgot HpX HO HtXS HtXR HcXS]
  · iframe HR ∗
  iintro ⟨HpX, HO, HtXS, HtXR, HcXS⟩
  iapply (step_wait_yr m K c 20 54) $$ [HcYR HO HaYR HzYR]
  · iframe HR Hlev ∗
  iintro ⟨HcYR, HO, HaYR, HzYR, Hgot⟩
  iapply (step_xsend m K c 20 (dev_x c (k0_dev55_eq c) _)) $$ [Hgot HpX HO HtXS HtXR HcXS]
  · iframe HR ∗
  iintro ⟨HpX, HO, HtXS, HtXR, HcXS⟩
  iapply (step_wait_yr m K c 21 55) $$ [HcYR HO HaYR HzYR]
  · iframe HR Hlev ∗
  iintro ⟨HcYR, HO, HaYR, HzYR, Hgot⟩
  iapply (step_xsend m K c 21 (dev_x c (k0_dev56_eq c) _)) $$ [Hgot HpX HO HtXS HtXR HcXS]
  · iframe HR ∗
  iintro ⟨HpX, HO, HtXS, HtXR, HcXS⟩
  iapply (step_wait_yr m K c 22 56) $$ [HcYR HO HaYR HzYR]
  · iframe HR Hlev ∗
  iintro ⟨HcYR, HO, HaYR, HzYR, Hgot⟩
  iapply (step_xsend m K c 22 (dev_x c (k0_dev57_eq c) _)) $$ [Hgot HpX HO HtXS HtXR HcXS]
  · iframe HR ∗
  iintro ⟨HpX, HO, HtXS, HtXR, HcXS⟩
  iapply (step_wait_yr m K c 23 57) $$ [HcYR HO HaYR HzYR]
  · iframe HR Hlev ∗
  iintro ⟨HcYR, HO, HaYR, HzYR, Hgot⟩
  iapply (step_xsend m K c 23 (dev_x c (k0_dev58_eq c) _)) $$ [Hgot HpX HO HtXS HtXR HcXS]
  · iframe HR ∗
  iintro ⟨HpX, HO, HtXS, HtXR, HcXS⟩
  iapply (step_wait_yr m K c 24 58) $$ [HcYR HO HaYR HzYR]
  · iframe HR Hlev ∗
  iintro ⟨HcYR, HO, HaYR, HzYR, Hgot⟩
  iapply (step_xsend m K c 24 (dev_x c (k0_dev59_eq c) _)) $$ [Hgot HpX HO HtXS HtXR HcXS]
  · iframe HR ∗
  iintro ⟨HpX, HO, HtXS, HtXR, HcXS⟩
  iapply (step_wait_yr m K c 25 59) $$ [HcYR HO HaYR HzYR]
  · iframe HR Hlev ∗
  iintro ⟨HcYR, HO, HaYR, HzYR, Hgot⟩
  iapply (step_xsend m K c 25 (dev_x c (k0_dev60_eq c) _)) $$ [Hgot HpX HO HtXS HtXR HcXS]
  · iframe HR ∗
  iintro ⟨HpX, HO, HtXS, HtXR, HcXS⟩
  iapply (step_wait_yr m K c 26 60) $$ [HcYR HO HaYR HzYR]
  · iframe HR Hlev ∗
  iintro ⟨HcYR, HO, HaYR, HzYR, Hgot⟩
  iapply (step_xsend m K c 26 (dev_x c (k0_dev61_eq c) _)) $$ [Hgot HpX HO HtXS HtXR HcXS]
  · iframe HR ∗
  iintro ⟨HpX, HO, HtXS, HtXR, HcXS⟩
  iapply (step_wait_yr m K c 27 61) $$ [HcYR HO HaYR HzYR]
  · iframe HR Hlev ∗
  iintro ⟨HcYR, HO, HaYR, HzYR, Hgot⟩
  iapply (step_xsend m K c 27 (dev_x c (k0_dev62_eq c) _)) $$ [Hgot HpX HO HtXS HtXR HcXS]
  · iframe HR ∗
  iintro ⟨HpX, HO, HtXS, HtXR, HcXS⟩
  iapply (step_wait_yr m K c 28 62) $$ [HcYR HO HaYR HzYR]
  · iframe HR Hlev ∗
  iintro ⟨HcYR, HO, HaYR, HzYR, Hgot⟩
  iapply (step_xsend m K c 28 (dev_x c (k0_dev63_eq c) _)) $$ [Hgot HpX HO HtXS HtXR HcXS]
  · iframe HR ∗
  iintro ⟨HpX, HO, HtXS, HtXR, HcXS⟩
  iapply (step_wait_yr m K c 29 63) $$ [HcYR HO HaYR HzYR]
  · iframe HR Hlev ∗
  iintro ⟨HcYR, HO, HaYR, HzYR, Hgot⟩
  iapply (step_xsend m K c 29 (dev_x c (k0_dev64_eq c) _)) $$ [Hgot HpX HO HtXS HtXR HcXS]
  · iframe HR ∗
  iintro ⟨HpX, HO, HtXS, HtXR, HcXS⟩
  iapply (step_wait_yr m K c 30 64) $$ [HcYR HO HaYR HzYR]
  · iframe HR Hlev ∗
  iintro ⟨HcYR, HO, HaYR, HzYR, Hgot⟩
  iapply (step_xsend m K c 30 (dev_x c (k0_dev65_eq c) _)) $$ [Hgot HpX HO HtXS HtXR HcXS]
  · iframe HR ∗
  iintro ⟨HpX, HO, HtXS, HtXR, HcXS⟩
  iapply (step_wait_yr m K c 31 65) $$ [HcYR HO HaYR HzYR]
  · iframe HR Hlev ∗
  iintro ⟨HcYR, HO, HaYR, HzYR, Hgot⟩
  iapply (step_xsend m K c 31 (dev_x c (k0_dev66_eq c) _)) $$ [Hgot HpX HO HtXS HtXR HcXS]
  · iframe HR ∗
  iintro ⟨HpX, HO, HtXS, HtXR, HcXS⟩
  ihave HcYS := (lt_full_ge _) $$ HcYS
  ihave HcXS := (lt_full_ge _) $$ HcXS
  iapply (chain_wp c (drain_wp m K c) (n := 0) (N := 32) (by repeat first | exact .nil | apply Chain.cons (DrainBlk.mk (by decide) (by unfold N512; rfl) (by unfold N512; rfl) (by unfold N512; rfl))))
    $$ [HO HcYS HaYS HzYS HrYS HcXS HaXS HzXS HrXS HcXR HaXR HzXR HrXR]
  · unfold drainI fam; iframe HR Hlev ∗; iexists _; iexact HO
  unfold drainI fam
  iintro ⟨-, -, ⟨%W', HO⟩, ⟨HcYS, HaYS, HzYS, HrYS⟩, ⟨HcXS, HaXS, HzXS, HrXS⟩, ⟨HcXR, HaXR, HzXR, HrXR⟩⟩
  iapply (step_out_wait m K c 14 0 7 66) $$ [HcLO0 HO HaLO0 HrO]
  · iframe HR Hlev ∗
  iintro ⟨HO, HaLO0, #HrLO0, Hv0, HrO⟩
  iapply (step_out_wait m K c 15 1 7 66) $$ [HcLO1 HO HaLO1 HrO]
  · iframe HR Hlev ∗
  iintro ⟨HO, HaLO1, #HrLO1, Hv1, HrO⟩
  iapply (step_sig_bar2 m K c false 66 rfl) $$ [HO Htc0]
  · iframe HR ∗
  iintro HO
  iapply (step_sig_bar2 m K c true 67 rfl) $$ [HO Htc1]
  · iframe HR ∗
  iintro HO
  iapply (step_wait_bar2 m K c) $$ [HcB2 HO HaB2]
  · iframe HR Hlev ∗
  iintro ⟨HO, HzB2⟩

  imod (close_cell m K c (.li 0) 8 (fun r hr => by show (if r < 8 then ({false} : Finset Bool) else ∅) = ∅; exact if_neg (by omega))) $$ [HaLI0] with HzLI0
  · iframe HR ∗
  imod (close_cell m K c (.li 1) 8 (fun r hr => by show (if r < 8 then ({false} : Finset Bool) else ∅) = ∅; exact if_neg (by omega))) $$ [HaLI1] with HzLI1
  · iframe HR ∗
  imod (close_cell m K c (.lo 0) 8 (fun r hr => by show (if r < 8 then ({false} : Finset Bool) else ∅) = ∅; exact if_neg (by omega))) $$ [HaLO0] with HzLO0
  · iframe HR ∗
  imod (close_cell m K c (.lo 1) 8 (fun r hr => by show (if r < 8 then ({false} : Finset Bool) else ∅) = ∅; exact if_neg (by omega))) $$ [HaLO1] with HzLO1
  · iframe HR ∗
  rw [wp_ret]; imodintro
  iapply Hk

  ihave HrYS := (lt_full _) $$ HrYS
  ihave HxYw := (x_split_Y c qY (xArr m c)).2 $$ [HrYS HxYrest]
  · iframe ∗
  ihave HrL := (lt_full _) $$ HrL
  ihave HxLw := (x_split_L c qL (xArr m c)).2 $$ HrL
  ihave Hx := (x_share c (xArr m c)).2 $$ [HxYw HxLw]
  · iframe ∗
  ihave HrO := (lt_full _) $$ HrO
  ihave HrXS := (lt_full _) $$ HrXS
  ihave HrXS := (fam_xs_to_yr m c) $$ HrXS
  ihave HrXR := (lt_full _) $$ HrXR
  ihave Ho := (out_split c (G m c)).2 $$ [HrO HrXS HrXR]
  · iframe ∗
  ihave Hv := (v_join c _ _) $$ [Hv0 Hv1]
  · iframe ∗
  ihave HzYS := (lt_full _) $$ HzYS
  ihave HzYR := (lt_full _) $$ HzYR
  ihave HzXS := (lt_full _) $$ HzXS
  ihave HzXR := (lt_full _) $$ HzXR
  ihave Hz := (sems_join c) $$ [HzB2 HzYS HzYR HzXS HzXR HzLI0 HzLI1 HzLO0 HzLO1]
  · unfold semsK
    isplitl [HzB2]; · iexact HzB2
    isplitl [HzYS]; · iexact HzYS
    isplitl [HzYR]; · iexact HzYR
    isplitl [HzXS]; · iexact HzXS
    isplitl [HzXR]; · iexact HzXR
    isplitl [HzLI0]; · iexact HzLI0
    isplitl [HzLI1]; · iexact HzLI1
    isplitl [HzLO0]; · iexact HzLO0
    iexact HzLO1
  unfold bodyPost Φ₁
  isplitl [Hx Ho Hv Hz]
  · isplitl [Hx]; · iexact Hx
    isplitl [Ho]; · iexact Ho
    isplitl [Hv]; · iexact Hv
    iexact Hz
  iapply (owesAt_done m c _)
  iexact HO

/-- info: 'Cert.Kernel.AG.sound_body' depends on axioms: [propext, Classical.choice, Quot.sound] -/
#guard_msgs in #print axioms sound_body

end Cert.Kernel.AG
end
-- ==== Proof.K.Launch.lean ====
import proofs.«900683_g7700000000000684_dist_ag_v7x_xyz2x2x4_y_m32768_n1024_f32_1_alg».proof.Defs
import proofs.«900683_g7700000000000684_dist_ag_v7x_xyz2x2x4_y_m32768_n1024_f32_1_alg».proof.Proof.Gen.Kernel
import proofs.«900683_g7700000000000684_dist_ag_v7x_xyz2x2x4_y_m32768_n1024_f32_1_alg».proof.Proof.Gen.Kernel.Skeleton
import proofs.«900683_g7700000000000684_dist_ag_v7x_xyz2x2x4_y_m32768_n1024_f32_1_alg».proof.Proof.Gen.Kernel.Launch
import proofs.«900683_g7700000000000684_dist_ag_v7x_xyz2x2x4_y_m32768_n1024_f32_1_alg».proof.Proof.K.Mesh
import proofs.«900683_g7700000000000684_dist_ag_v7x_xyz2x2x4_y_m32768_n1024_f32_1_alg».proof.Proof.K.Sched
import proofs.«900683_g7700000000000684_dist_ag_v7x_xyz2x2x4_y_m32768_n1024_f32_1_alg».proof.Proof.K.Proto
import proofs.«900683_g7700000000000684_dist_ag_v7x_xyz2x2x4_y_m32768_n1024_f32_1_alg».proof.Proof.K.Body
import Idealize.ShloMosaic.Lib.Pipeline.Launch
import Idealize.ShloMosaic.Lib.Pipeline.Kit
import Idealize.ShloMosaic.Lib.Tactic
import Idealize.ShloMosaic.Lib.ValueIdx

noncomputable section

namespace Cert.Kernel.AG

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

theorem bigSep_W0 (Φ : Fin cfg0.W → sProp 𝕄) : bigSep Finset.univ Φ = iprop(emp) := by
  show bigSep (Finset.univ : Finset (Fin 0)) Φ = _
  rw [Finset.univ_eq_empty, bigSep_empty]
  rfl

set_option maxRecDepth 20000 in

theorem body_obligation (c : Dev nD) : BodyObligation (dats (F := F) m 0 c) (defs₀ (F := F)) 𝒱₀ () Set.univ := fun t => by
  rw [fin_N t]
  simp only [bigSep_W0]
  show iprop(Φ₀ m c ∗ (dats m 0 c).owesAt () t₀.castSucc ∗ emp) ⊢ wp frame (wpE (defs₀ (F := F)) 𝒱₀ c none) Set.univ
    (bodyProg (F := F)) (fun _ => iprop(Φ₁ m c ∗ (dats m 0 c).owesAt () t₀.succ ∗ emp))
  unfold Φ₀ start
  iintro ⟨⟨⟨⟨%K, Hg⟩, Hcr, Hlev⟩, Hx, Ho, Hv⟩, Howe, -⟩
  iapply (sound_body m K c fun _ => iprop(Φ₁ m c ∗ (dats m 0 c).owesAt () t₀.succ ∗ emp))
  isplitr []
  · unfold bodyPre; iframe
  · iintro H
    iapply (show bodyPost m c ⊢ iprop(Φ₁ m c ∗ (dats m 0 c).owesAt () t₀.succ ∗ emp) from by
      unfold bodyPost
      iintro ⟨H1, H2⟩
      iframe)
    iexact H

theorem ownSemFacts : Pipeline.OwnSemFacts cfg0.spec osem :=
  ⟨fun k => (show ∀ x : CK, x ≠ CK.bar → (csem x).isScoped .tc = true by decide) k.1 k.2,
    fun a b h => Subtype.ext (csem_injective h), fun _ w _ => w.elim0⟩

abbrev kcell (cx : Dev nD × CK) : GSem nD τ sig := cell cx.1 cx.2

theorem kcell_injective : Function.Injective (kcell : Dev nD × CK → GSem nD τ sig) := by
  rintro ⟨c, x⟩ ⟨c', x'⟩ h
  have h1 : c = c' := by have := congrArg (fun g : GSem nD τ sig => g.1.1) h; exact this
  subst h1
  have h2 : csem x = csem x' := congrArg Prod.snd h
  rw [csem_injective h2]
def agCells : Finset (GSem nD τ sig) := Finset.univ.map ⟨kcell, kcell_injective⟩

def TK.ofKey : CK → ℕ → Bool → TK
  | .bar, _, d => .bar d
  | .bar2, _, d => .bar2 d
  | .ys k, _, _ => .ys k
  | .yr k, _, _ => .yr k
  | .xs k, _, _ => .xs k
  | .xr k, _, _ => .xr k
  | .li j, r, _ => .li j ⟨r % 8, Nat.mod_lt _ (by decide)⟩
  | .lo j, r, _ => .lo j ⟨r % 8, Nat.mod_lt _ (by decide)⟩

theorem TK.ofKey_key (t : TK) : TK.ofKey t.ck t.round t.duty = t := by
  cases t with
  | li j r => exact congrArg (TK.li j) (Fin.ext (Nat.mod_eq_of_lt r.isLt))
  | lo j r => exact congrArg (TK.lo j) (Fin.ext (Nat.mod_eq_of_lt r.isLt))
  | _ => rfl

abbrev tokOf (ct : Dev nD × TK) : GSem nD τ sig × ℕ × Bool := (cell ct.1 ct.2.ck, ct.2.round, ct.2.duty)

theorem tokOf_injective : Function.Injective (tokOf : Dev nD × TK → GSem nD τ sig × ℕ × Bool) := by
  rintro ⟨c, t⟩ ⟨c', t'⟩ h
  have h1 : c = c' := by have := congrArg (fun x : GSem nD τ sig × ℕ × Bool => x.1.1.1) h; exact this
  subst h1
  have h2 : t.ck = t'.ck := csem_injective (congrArg (fun x : GSem nD τ sig × ℕ × Bool => x.1.2) h)
  have h3 : t.round = t'.round := congrArg (fun x : GSem nD τ sig × ℕ × Bool => x.2.1) h
  have h4 : t.duty = t'.duty := congrArg (fun x : GSem nD τ sig × ℕ × Bool => x.2.2) h
  have h5 : t = t' := by rw [← TK.ofKey_key t, ← TK.ofKey_key t', h2, h3, h4]
  rw [h5]
def agToks : Finset (GSem nD τ sig × ℕ × Bool) := Finset.univ.map ⟨tokOf, tokOf_injective⟩

def u₀ : UU :=
  (initOf (Pipeline.cells cfgs cellOf_inj) (Pipeline.launchToks cfgs cellOf_inj), initOf agCells agToks)

def dealt (c : Dev nD) : sProp 𝕄 :=
  iprop((bigSep Finset.univ fun x : CK => roundState ER (Rd m) (kcell (c, x)) 0)
    ∗ (bigSep Finset.univ fun x : CK => iprop(atPos ER (kcell (c, x)) 0 ∅ 0 ∗ reached ER (kcell (c, x)) 0))
    ∗ bigSep Finset.univ fun t : TK => tokM c t)

def held (c : Dev nD) : sProp 𝕄 := iprop(∃ K, ghost m K c)

theorem fund_cells : BI.own (ER (initOf agCells agToks)) ⊢ (|==> bigSep Finset.univ (dealt m) : sProp 𝕄) := by
  have hX (Φ : GSem nD τ sig → sProp 𝕄) : bigSep agCells Φ = bigSep Finset.univ fun c : Dev nD => bigSep Finset.univ fun x : CK => Φ (kcell (c, x)) := by
    unfold agCells; rw [bigSep_map, bigSep_univ_prod] <;> rfl
  have hT : bigSep agToks (fun x => (dutyTok ER x.1 x.2.1 x.2.2 : sProp 𝕄)) = bigSep Finset.univ fun c : Dev nD => bigSep Finset.univ fun t : TK => tokM c t := by
    unfold agToks; rw [bigSep_map, bigSep_univ_prod] <;> rfl
  iintro HX
  imod (Rounds.fund ER (Rd m) agCells agToks) $$ HX with ⟨Hst, Hr, Hat, Htok⟩
  imodintro
  ihave Hst' := (Entails.of_eq (hX fun g => roundState ER (Rd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold dealt; simp only [bigSep_sep']
  isplitl [Hst']; · iexact Hst'
  isplitl [Hat' Hr']
  · isplitl [Hat'] <;> iassumption
  iexact Htok'

theorem ownSems0_eq (c : Dev nD) : (Pipeline.ownSems0 (Ix := Unit) (Name := ℕ) (U := UU) (Lvl := ℕ) (Val := Elt F) (τ := τ) osem c : sProp 𝕄)
    = bigSep (Finset.univ.erase CK.bar) fun x : CK => semVal (kcell (c, x)) 0 :=
  bigSep_subtype_ne CK.bar (fun x : CK => (semVal (kcell (c, x)) 0 : sProp 𝕄))

theorem unscopedSems0_eq (c : Dev nD) : (unscopedSems0 c : sProp 𝕄) = semVal (kcell (c, CK.bar)) 0 := by
  unfold unscopedSems0; rw [bigSep_eq_bigSepL_of_eq [SemLoc.reg barS] (by decide) (by decide)]; rfl

theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun x : CK => semVal (kcell (c, x)) 0 : sProp 𝕄) := by
  rw [ownSems0_eq, unscopedSems0_eq, bigSep_univ_at _ CK.bar]
  iintro ⟨HS, HB⟩
  isplitl [HB] <;> iassumption

theorem core_alloc (c : Dev nD) :
    iprop(Pipeline.ownSems0 (Ix := Unit) (Name := ℕ) (U := UU) (Lvl := ℕ) (Val := Elt F) (τ := τ) osem c ∗ unscopedSems0 c ∗ dealt m c)
      ⊢ |={Set.univ}=> iprop((bigSep Finset.univ fun x : CK => iprop(∃ κ : ℕ, cellInv ER (Rd m) κ (kcell (c, x))))
          ∗ (bigSep Finset.univ fun x : CK => iprop(atPos ER (kcell (c, x)) 0 ∅ 0 ∗ reached ER (kcell (c, x)) 0))
          ∗ bigSep Finset.univ fun t : TK => tokM c t) := by
  unfold dealt
  iintro ⟨Hos, Hus, Hst, Hat, Htok⟩
  ihave Hv := (sems0_eq (F := F) c) $$ [Hos Hus]
  · isplitl [Hos] <;> iassumption
  imod (show iprop((bigSep Finset.univ fun x : CK => semVal (kcell (c, x)) 0) ∗ bigSep Finset.univ fun x : CK => roundState ER (Rd m) (kcell (c, x)) 0)
      ⊢ (|={Set.univ}=> bigSep Finset.univ fun x : CK => iprop(∃ κ : ℕ, cellInv ER (Rd m) κ (kcell (c, x))) : sProp 𝕄) from by
        rw [← bigSep_sep']
        exact (bigSep_mono fun x _ => (Rounds.body_intro ER (Rd m) (kcell (c, x))).trans inv_alloc).trans (bigSep_fupd _ _)) $$ [Hv Hst] with Hinv
  · isplitl [Hv] <;> iassumption
  imodintro
  iframe

def linear (c : Dev nD) : sProp 𝕄 :=
  iprop((bigSep Finset.univ fun x : CK => atPos ER (kcell (c, x)) 0 ∅ 0) ∗ bigSep Finset.univ fun t : TK => tokP c t)

theorem ghost_intro (K : Dev nD × CK → ℕ) (c : Dev nD) : iprop(records m K ∗ linear c) ⊢ held m c := by
  unfold linear held ghost
  iintro ⟨#HR, Hat, Htok⟩
  iexists K
  iframe HR ∗

def payerE (t : TK) : Dev nD ≃ Dev nD := ⟨fun c => payer c t, fun c => payer c t, fun c => payer_payer c t, fun c => payer_payer c t⟩

theorem toks_around : (bigSep Finset.univ fun c : Dev nD => bigSep Finset.univ fun t : TK => (tokM c t : sProp 𝕄))
    ⊢ bigSep Finset.univ fun c : Dev nD => bigSep Finset.univ fun t : TK => tokP c t := by
  rw [bigSep_univ_comm (fun (c : Dev nD) (t : TK) => (tokM c t : sProp 𝕄)), bigSep_univ_comm (fun (c : Dev nD) (t : TK) => (tokP c t : sProp 𝕄))]
  refine bigSep_mono fun t _ => show (bigSep Finset.univ fun c : Dev nD => (tokM c t : sProp 𝕄)) ⊢ bigSep Finset.univ fun c : Dev nD => (tokP c t : sProp 𝕄) from Entails.of_eq ?_
  rw [bigSep_univ_equiv (payerE t) (fun c : Dev nD => (tokM c t : sProp 𝕄))] <;> rfl

theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun x : CK => iprop(∃ κ : ℕ, cellInv ER (Rd m) κ (kcell (c, x))))
          ∗ (bigSep Finset.univ fun x : CK => iprop(atPos ER (kcell (c, x)) 0 ∅ 0 ∗ reached ER (kcell (c, x)) 0))
          ∗ bigSep Finset.univ fun t : TK => tokM c t) : sProp 𝕄)
      ⊢ bigSep Finset.univ (held m) := by
  rw [bigSep_sep', bigSep_sep', ← bigSep_univ_prod (fun cx : Dev nD × CK => iprop(∃ κ : ℕ, cellInv ER (Rd m) κ (kcell cx))),
    bigSep_congr (s := Finset.univ) (fun (c : Dev nD) _ => bigSep_sep' Finset.univ (fun x : CK => (atPos ER (kcell (c, x)) 0 ∅ 0 : sProp 𝕄)) (fun x => reached ER (kcell (c, x)) 0)),
    bigSep_sep', ← bigSep_univ_prod (fun cx : Dev nD × CK => (reached ER (kcell cx) 0 : sProp 𝕄))]
  iintro ⟨HI, ⟨Hat, #HR⟩, Htok⟩
  ihave HK := (BI.bigSep_exists_pi Finset.univ (fun (cx : Dev nD × CK) (κ : ℕ) => (cellInv ER (Rd m) κ (kcell cx) : sProp 𝕄))) $$ HI
  icases HK with ⟨%K, #HI⟩
  ihave Htk := (toks_around (F := F)) $$ Htok
  iapply (bigSep_with_persistent (R := records m K) fun c _ => ghost_intro m K c)
  isplitr
  · unfold records; isplitl; · iexact HI
    iexact HR
  · iapply ((Entails.of_eq (bigSep_sep' Finset.univ (fun c : Dev nD => bigSep Finset.univ fun x : CK => (atPos ER (kcell (c, x)) 0 ∅ 0 : sProp 𝕄))
        (fun c : Dev nD => bigSep Finset.univ fun t : TK => (tokP c t : sProp 𝕄))).symm).trans
      (bigSep_mono fun c _ => show _ ⊢ linear c from Entails.of_eq (by unfold linear; rfl)))
    isplitl [Hat]; · iexact Hat
    iexact Htk

theorem glob : (bigSep Finset.univ fun c => iprop(Pipeline.ownSems0 (Ix := Unit) (Name := ℕ) (U := UU) (Lvl := ℕ) (Val := Elt F) (τ := τ) osem c ∗ unscopedSems0 c ∗ dealt m c) : sProp 𝕄)
    ⊢ |={Set.univ}=> bigSep Finset.univ (held m) :=
  ((bigSep_mono fun c _ => core_alloc m c).trans (bigSep_fupd _ _)).trans (BI.fupd_mono (regroup m))

def owedE : (Bool ⊕ Bool) ⊕ (Fin 32 ⊕ Fin 32) → TK
  | .inl (.inl d) => .bar d
  | .inl (.inr d) => .bar2 d
  | .inr (.inl k) => .yr k
  | .inr (.inr k) => .xr k
def owedD : TK → Option ((Bool ⊕ Bool) ⊕ (Fin 32 ⊕ Fin 32))
  | .bar d => some (.inl (.inl d))
  | .bar2 d => some (.inl (.inr d))
  | .yr k => some (.inr (.inl k))
  | .xr k => some (.inr (.inr k))
  | _ => none
theorem owedD_E (a : (Bool ⊕ Bool) ⊕ (Fin 32 ⊕ Fin 32)) : owedD (owedE a) = some a := by
  rcases a with (a | a) | (a | a) <;> rfl
theorem owedE_injective : Function.Injective owedE := fun a b h =>
  Option.some.inj (by rw [← owedD_E a, h, owedD_E])

theorem owedAll_eq : owedAll = Finset.univ.map ⟨owedE, owedE_injective⟩ := by
  ext t
  rw [Finset.mem_map]
  unfold owedAll
  rw [Finset.mem_filter]
  constructor
  · rintro ⟨-, h⟩
    cases t with
    | bar d => exact ⟨.inl (.inl d), Finset.mem_univ _, rfl⟩
    | bar2 d => exact ⟨.inl (.inr d), Finset.mem_univ _, rfl⟩
    | yr k => exact ⟨.inr (.inl k), Finset.mem_univ _, rfl⟩
    | xr k => exact ⟨.inr (.inr k), Finset.mem_univ _, rfl⟩
    | _ => exact absurd h Bool.false_ne_true
  · rintro ⟨a, -, rfl⟩
    exact ⟨Finset.mem_univ _, by rcases a with (a | a) | (a | a) <;> rfl⟩

theorem bigSep_boolK (Φ : Bool → sProp 𝕄) : bigSep Finset.univ Φ = iprop(Φ false ∗ Φ true) :=
  bigSep_univ_eq_bigSepL [false, true] (by decide) (by decide) Φ

theorem bigSep_owedAll (Ψ : TK → sProp 𝕄) :
    bigSep owedAll Ψ = iprop(((Ψ (.bar false) ∗ Ψ (.bar true)) ∗ (Ψ (.bar2 false) ∗ Ψ (.bar2 true)))
      ∗ ((bigSep Finset.univ fun k : Fin 32 => Ψ (.yr k)) ∗ bigSep Finset.univ fun k : Fin 32 => Ψ (.xr k))) := by
  rw [owedAll_eq, bigSep_map, bigSep_univ_sum, bigSep_univ_sum, bigSep_univ_sum, bigSep_boolK, bigSep_boolK] <;> rfl

theorem cred_two (g : GSem nD τ sig) : iprop(cred (tallyAt g () 1) ∗ cred (tallyAt g () 1)) ⊢ (cred (tallyAt g () 2) : sProp 𝕄) := by
  rw [show (tallyAt g () 2 : CellTallies nD τ sig Unit) = tallyAt g () 1 + tallyAt g () 1 from (tallyAt_add g () 1 1).symm]
  exact (cred_add _ _).2

theorem launch_creds (c : Dev nD) : (Pipeline.launchCred O₀ c : sProp 𝕄) ⊢ creds c := by
  have h1 : (Pipeline.launchCred O₀ c : sProp 𝕄) ⊢ bigSep owedAll fun t : TK => cred (tallyAt (cell c t.ck) () (amountK t.ck)) := by
    show (Pipeline.launchCred (fun d : Dev nD => ∑ t ∈ owedAll, tallyAt (cell (payer d t) t.ck) () (amountK t.ck)) c : sProp 𝕄) ⊢ _
    rw [Pipeline.launchCred_sum owedAll (fun (t : TK) (d : Dev nD) => (tallyAt (cell (payer d t) t.ck) () (amountK t.ck) : CellTallies nD τ sig Unit)) c]
    exact bigSep_mono fun t _ => Pipeline.launchCred_tallyAt (csem t.ck) (fun d => payer d t) (fun d => payer d t)
      (fun d => payer_payer d t) (fun d => payer_payer d t) () (amountK t.ck) c
  refine h1.trans ?_
  rw [bigSep_owedAll]
  show iprop(((cred (tallyAt (cell c .bar) () 1) ∗ cred (tallyAt (cell c .bar) () 1)) ∗ (cred (tallyAt (cell c .bar2) () 1) ∗ cred (tallyAt (cell c .bar2) () 1)))
      ∗ ((bigSep Finset.univ fun k : Fin 32 => cred (tallyAt (cell c (.yr k)) () N512)) ∗ bigSep Finset.univ fun k : Fin 32 => cred (tallyAt (cell c (.xr k)) () N512)))
    ⊢ (creds c : sProp 𝕄)
  unfold creds
  iintro ⟨⟨Hb, Hb2⟩, Hy, Hx⟩
  isplitl [Hb]; · iapply (cred_two (F := F) (cell c .bar)); iexact Hb
  isplitl [Hb2]; · iapply (cred_two (F := F) (cell c .bar2)); iexact Hb2
  iframe

theorem xM_whole : (xM : Memref sig .tc .hbm S32768x1024 .f32).view.set = Finset.univ := View.set_whole _
theorem oM_whole : (oM : Memref sig .tc .hbm S65536x1024 .f32).view.set = Finset.univ := View.set_whole _
theorem vM_whole : (vM : Memref sig .tc .vmem S2x2048x1024 .f32).view.set = Finset.univ := View.set_whole _

theorem pts_xM (c : Dev nD) (f : Buf (Elt F) ((c : Thread nD τ).loc main_arg0)) :
    (pts xM c fullShare f : sProp 𝕄) = (((c : Thread nD τ).loc main_arg0) ↦{fullShare} f : sProp 𝕄) := by
  unfold pts; rw [xM_whole] <;> rfl
theorem pts_oM (c : Dev nD) (f : Buf (Elt F) ((c : Thread nD τ).loc main_v1)) :
    (pts oM c fullShare f : sProp 𝕄) = (((c : Thread nD τ).loc main_v1) ↦{fullShare} f : sProp 𝕄) := by
  unfold pts; rw [oM_whole] <;> rfl
theorem pts_vM (c : Dev nD) (f : Buf (Elt F) ((c : Thread nD τ).loc cc0_scratch4)) :
    (pts vM c fullShare f : sProp 𝕄) = (((c : Thread nD τ).loc cc0_scratch4) ↦{fullShare} f : sProp 𝕄) := by
  unfold pts; rw [vM_whole] <;> rfl

def Xc (c : Dev nD) : sProp 𝕄 :=
  iprop(start m c ∗ pts xM c fullShare (xArr m c) ∗ pts oM c fullShare (m ((c : Thread nD τ).loc main_v1)))

def Yc (c : Dev nD) : sProp 𝕄 := iprop(pts xM c fullShare (xArr m c) ∗ pts oM c fullShare (G m c))

theorem x_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ held m c)
      ⊢ |={Set.univ}=> iprop(Xc m c ∗ emp) := by
  rw [Pipeline.unscopedRestP_none, unscopedRest0_eq]
  iintro ⟨⟨Hx, Ho⟩, Hlev, Hcr, -, HG⟩
  ihave Hc := (launch_creds (F := F) c) $$ Hcr
  imodintro
  unfold Xc start held
  isplitl
  · isplitl [HG Hc Hlev]
    · isplitl [HG]; · iexact HG
      isplitl [Hc]; · iexact Hc
      iexact Hlev
    isplitl [Hx]
    · iapply (Entails.of_eq (pts_xM (F := F) c (xArr m c)).symm); iexact Hx
    · iapply (Entails.of_eq (pts_oM (F := F) c (m ((c : Thread nD τ).loc main_v1))).symm); iexact Ho
  · iempintro

theorem phi0_intro (c : Dev nD) :
    iprop(Xc m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀ Xc
  iintro ⟨⟨Hs, Hx, Ho⟩, -, ⟨%f, Hr⟩⟩
  iframe Hs Hx Ho
  iexists f
  iapply (Entails.of_eq (pts_vM (F := F) c f).symm); iexact Hr

theorem phi1_exit (c : Dev nD) :
    (dats m 0 c).Φ (Fin.last cfg0.N) ⊢ iprop(Yc m c ∗ Pipeline.ownSems0 osem c ∗ Pipeline.scopedRest cfg0.spec c) := by
  rw [show (dats m 0 c).Φ (Fin.last cfg0.N) = Φ₁ m c from rfl, scopedRest0_eq]
  unfold Φ₁ Yc Pipeline.ownSems0
  iintro ⟨Hx, Ho, ⟨%f, Hv⟩, Hz⟩
  isplitl [Hx Ho]
  · isplitl [Hx] <;> iassumption
  isplitl [Hz]; · iexact Hz
  iexists f
  iapply (Entails.of_eq (pts_vM (F := F) c f)); iexact Hv

theorem waits (c : Dev nD) : (levAts L lv : sProp 𝕄) ⊢ Pipeline.cellsWaits cfgs (dats m) () 0 c :=
  Pipeline.cellsWaits_intro cfgs (dats m) () 0 c fun w _ _ => w.elim0

def QC (c : Dev nD) (s : MemSt nD τ sig (Elt F)) : Prop :=
  s.mem ((c : Thread nD τ).loc main_v1) = G m c ∧ s.mem ((c : Thread nD τ).loc main_arg0) = m ((c : Thread nD τ).loc main_arg0)

set_option maxRecDepth 8000 in

theorem run_main : θ_run defs (onTc (τ := τ) (main (F := F))) ⟨m, fun _ => 0, ρ⟩ (fun r => ∀ c : Dev nD,
      r.2.mem ((c : Thread nD τ).loc main_v1) = G m c
      ∧ r.2.mem ((c : Thread nD τ).loc main_arg0) = m ((c : Thread nD τ).loc main_arg0)) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := fun c => (body_obligation m c).loose) (hne := fun w => w.elim0) (harr := arr_whole0) (hstage := stage_whole0)
    (hshare := fun _ w => w.elim0)
    (hdistinct := winFacts0.arr_inj)
    (O₀ := O₀) (howed₀ := fun _ => rfl) (howedN := fun _ => rfl)
    (L := L) (lv := lv) (hL := L_of_ne) (hwaits := waits m)
    (G := dealt m) (G' := held m) (u₀ := u₀)
    (hu₀ := by
      unfold u₀
      iintro Hu
      ihave H := (ownU_pair _ _) $$ Hu
      icases H with ⟨HP, HX⟩
      imod (fund_cells m) $$ HX with HG
      imodintro
      isplitl [HP] <;> iassumption)
    (hglob := glob m)
    (hA := fun _ w => w.elim0) (hpf := fun _ k => k.elim0)
    (X := Xc m) (Y := Yc m) (Z := fun _ => iprop(emp))
    (hX := x_intro m ρ) (hin := phi0_intro m) (hout := phi1_exit m)
    (QY := QC m)
    (hY := fun c s' => by
      unfold Yc
      iintro ⟨⟨Hx, Ho⟩, -, HSI⟩
      ihave Hx' := (Entails.of_eq (pts_xM (F := F) c (xArr m c))) $$ Hx
      ihave Ho' := (Entails.of_eq (pts_oM (F := F) c (G m c))) $$ Ho
      icombine HSI Hx' gives %hx
      icombine HSI Ho' gives %ho
      imodintro
      isplitr; · ipureintro; exact ⟨Buf.eq_of_forall_mem_univ ho, Buf.eq_of_forall_mem_univ hx⟩
      iexact HSI)
    (hQ := fun _ h c => (h c).2.2)

/-- info: 'Cert.Kernel.AG.run_main' depends on axioms: [propext, Classical.choice, Quot.sound] -/
#guard_msgs in #print axioms run_main

end Cert.Kernel.AG

end
-- ==== Proof.lean ====
import proofs.«900683_g7700000000000684_dist_ag_v7x_xyz2x2x4_y_m32768_n1024_f32_1_alg».proof.Defs
import proofs.«900683_g7700000000000684_dist_ag_v7x_xyz2x2x4_y_m32768_n1024_f32_1_alg».proof.Proof.Gen.Kernel
import proofs.«900683_g7700000000000684_dist_ag_v7x_xyz2x2x4_y_m32768_n1024_f32_1_alg».proof.Proof.Gen.KernelIdeal
import proofs.«900683_g7700000000000684_dist_ag_v7x_xyz2x2x4_y_m32768_n1024_f32_1_alg».proof.Proof.Gen.ReferenceIdeal
import proofs.«900683_g7700000000000684_dist_ag_v7x_xyz2x2x4_y_m32768_n1024_f32_1_alg».proof.Proof.Gen.Pre_finite_inputs_Kernel
import proofs.«900683_g7700000000000684_dist_ag_v7x_xyz2x2x4_y_m32768_n1024_f32_1_alg».proof.Proof.Gen.Pre_finite_inputs_ReferenceIdeal
import proofs.«900683_g7700000000000684_dist_ag_v7x_xyz2x2x4_y_m32768_n1024_f32_1_alg».proof.Proof.KI.Ref
import proofs.«900683_g7700000000000684_dist_ag_v7x_xyz2x2x4_y_m32768_n1024_f32_1_alg».proof.Proof.KI.Whole
import proofs.«900683_g7700000000000684_dist_ag_v7x_xyz2x2x4_y_m32768_n1024_f32_1_alg».proof.Proof.KI.Launch
import proofs.«900683_g7700000000000684_dist_ag_v7x_xyz2x2x4_y_m32768_n1024_f32_1_alg».proof.Proof.K.Launch

noncomputable section

namespace Cert.Proof

open Idealize.ShloMosaic Idealize.ShloMosaic.TcCoe Idealize.SL.Sem

/-- The frame of the word-level kernel is its run with the values dropped. -/
theorem frame_k : Cert.frame_Kernel := fun m g _ =>
  (θ_run (Cert.Kernel.defs (F := Bits)) _ _).mono (fun _ h c => (h c).2) (Cert.Kernel.AG.run_main m g)

/-- Likewise over the extended reals. -/
theorem frame_ki : Cert.frame_KernelIdeal := fun m g _ =>
  (θ_run (Cert.KernelIdeal.defs (F := Ideal)) _ _).mono (fun _ h c => (h c).2) (Cert.KernelIdeal.AG.run_main m g)

/-- An all-gather of the row blocks of `X` leaves `X` on every device, and the reference returns `X`. -/
theorem alg : Cert.algebraic_KernelIdeal_ReferenceIdeal := fun m g m' g' _ hblk =>
  ⟨m' (((0 : Dev Cert.ReferenceIdeal.nD).tc : Thread Cert.ReferenceIdeal.nD Cert.ReferenceIdeal.τ).loc Cert.ReferenceIdeal.main_arg0),
    (θ_run (Cert.KernelIdeal.defs (F := Ideal)) _ _).mono
      (fun _ h c => ⟨(h c).1.trans (Cert.KernelIdeal.AG.G_eq_whole m _ hblk c), (h c).2⟩)
      (Cert.KernelIdeal.AG.run_main m g),
    (θ_run (Cert.ReferenceIdeal.defs (F := Ideal)) _ _).mono
      (fun _ h => ⟨h 0, h 0⟩)
      (Cert.ReferenceIdeal.RefRun.run m' g')⟩

theorem claim : Cert.Claim := ⟨Cert.Kernel.Gen.facts, Cert.KernelIdeal.Gen.facts, Cert.ReferenceIdeal.Gen.facts, Cert.Pre_finite_inputs_Kernel.Gen.facts, Cert.Pre_finite_inputs_ReferenceIdeal.Gen.facts,
  frame_k, frame_ki, Cert.ReferenceIdeal.RefRun.frame_ri, trivial, alg⟩

end Cert.Proof

end
